-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v112)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v112) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v192) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S2x400000 : Shape := ⟨2, ![2, 400000]⟩
abbrev S400000x1 : Shape := ⟨2, ![400000, 1]⟩
abbrev S101x128 : Shape := ⟨2, ![101, 128]⟩
abbrev S3x257x128 : Shape := ⟨3, ![3, 257, 128]⟩
abbrev S3x128 : Shape := ⟨2, ![3, 128]⟩
abbrev S3x128x128 : Shape := ⟨3, ![3, 128, 128]⟩
abbrev S3x256x128 : Shape := ⟨3, ![3, 256, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S400000x1 : S_.BroadcastsInDim S400000x1 (![] : Fin 0 → Fin S400000x1.rank)
  reducesTo_S400000x1_S_d0_1 : S400000x1.ReducesTo [0, 1] S_
  h_S_ : 0 < S_.numel
  bcast_S_S101x128 : S_.BroadcastsInDim S101x128 (![] : Fin 0 → Fin S101x128.rank)
  reducesTo_S101x128_S_d0_1 : S101x128.ReducesTo [0, 1] S_
  bcast_S_S3x257x128 : S_.BroadcastsInDim S3x257x128 (![] : Fin 0 → Fin S3x257x128.rank)
  reducesTo_S3x257x128_S_d0_1_2 : S3x257x128.ReducesTo [0, 1, 2] S_
  bcast_S_S3x128 : S_.BroadcastsInDim S3x128 (![] : Fin 0 → Fin S3x128.rank)
  reducesTo_S3x128_S_d0_1 : S3x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x256x128 : S_.BroadcastsInDim S3x256x128 (![] : Fin 0 → Fin S3x256x128.rank)
  reducesTo_S3x256x128_S_d0_1_2 : S3x256x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S50000 : S_.BroadcastsInDim S50000 (![] : Fin 0 → Fin S50000.rank)
  reducesTo_S50000_S_d0 : S50000.ReducesTo [0] S_
  bcast_S_S2x400000 : S_.BroadcastsInDim S2x400000 (![] : Fin 0 → Fin S2x400000.rank)
  reducesTo_S2x400000_S_d0_1 : S2x400000.ReducesTo [0, 1] S_

variable [Facts]

def fn_part4 {F : FTy → Type} [FloatOps F] (main_arg0 : IVec S50000 32) (main_arg1 : IVec S2x400000 32) (main_v63 : IVec S_ 1) (main_v67 : IVec S_ 1) : IVec S_ 1 :=
  let main_v68 : IVec S_ 1 := andi main_v63 main_v67
  let main_c_26 : IVec S_ 32 := constantI S_ 32 0#32
  let main_v69 : IVec S50000 32 := broadcastInDim S50000 ![] bcast_S_S50000 main_c_26
  let main_v70 : IVec S50000 1 := cmpi .sge main_arg0 main_v69
  let main_c_27 : IVec S_ 32 := constantI S_ 32 101#32
  let main_v71 : IVec S50000 32 := broadcastInDim S50000 ![] bcast_S_S50000 main_c_27
  let main_v72 : IVec S50000 1 := cmpi .slt main_arg0 main_v71
  let main_v73 : IVec S50000 1 := andi main_v70 main_v72
  let main_c_28 : IVec S_ 1 := constantI S_ 1 1#1
  let main_v74 : IVec S_ 1 := (fun x v => Host.reduce IntOp.andi x v reducesTo_S50000_S_d0 h_S_) main_v73 main_c_28
  let main_v75 : IVec S_ 1 := andi main_v68 main_v74
  let main_c_29 : IVec S_ 32 := constantI S_ 32 0#32
  let main_v76 : IVec S2x400000 32 := broadcastInDim S2x400000 ![] bcast_S_S2x400000 main_c_29
  let main_v77 : IVec S2x400000 1 := cmpi .sge main_arg1 main_v76
  let main_c_30 : IVec S_ 32 := constantI S_ 32 50000#32
  let main_v78 : IVec S2x400000 32 := broadcastInDim S2x400000 ![] bcast_S_S2x400000 main_c_30
  let main_v79 : IVec S2x400000 1 := cmpi .slt main_arg1 main_v78
  let main_v80 : IVec S2x400000 1 := andi main_v77 main_v79
  let main_c_31 : IVec S_ 1 := constantI S_ 1 1#1
  let main_v81 : IVec S_ 1 := (fun x v => Host.reduce IntOp.andi x v reducesTo_S2x400000_S_d0_1 h_S_) main_v80 main_c_31
  let main_v82 : IVec S_ 1 := andi main_v75 main_v81
  main_v82

def fn_part3 {F : FTy → Type} [FloatOps F] (main_arg0 : IVec S50000 32) (main_arg1 : IVec S2x400000 32) (main_arg14 : FVec F S128 .f32) (main_arg15 : FVec F S128x1 .f32) (main_arg16 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg14
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x1 .f32 := Host.absf main_arg15
  let main_cst_22 : FVec F S_ .f32 := constant S_ .f32 0x7F800000#32
  let main_v60 : FVec F S128x1 .f32 := broadcastInDim S128x1 ![] bcast_S_S128x1 main_cst_22
  let main_v61 : IVec S128x1 1 := cmpf .olt main_v59 main_v60
  let main_c_23 : IVec S_ 1 := constantI S_ 1 1#1
  let main_v62 : IVec S_ 1 := (fun x v => Host.reduce IntOp.andi x v reducesTo_S128x1_S_d0_1 h_S_) main_v61 main_c_23
  let main_v63 : IVec S_ 1 := andi main_v58 main_v62
  let main_v64 : FVec F S1 .f32 := Host.absf main_arg16
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg0 main_arg1 main_v63 main_v67

def fn_part2 {F : FTy → Type} [FloatOps F] (main_arg0 : IVec S50000 32) (main_arg1 : IVec S2x400000 32) (main_arg10 : FVec F S3x128 .f32) (main_arg11 : FVec F S3x128x128 .f32) (main_arg12 : FVec F S3x128 .f32) (main_arg13 : FVec F S128x128 .f32) (main_arg14 : FVec F S128 .f32) (main_arg15 : FVec F S128x1 .f32) (main_arg16 : FVec F S1 .f32) (main_v33 : IVec S_ 1) : IVec S_ 1 :=
  let main_v34 : FVec F S3x128 .f32 := Host.absf main_arg10
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128x128 .f32 := Host.absf main_arg11
  let main_cst_14 : FVec F S_ .f32 := constant S_ .f32 0x7F800000#32
  let main_v40 : FVec F S3x128x128 .f32 := broadcastInDim S3x128x128 ![] bcast_S_S3x128x128 main_cst_14
  let main_v41 : IVec S3x128x128 1 := cmpf .olt main_v39 main_v40
  let main_c_15 : IVec S_ 1 := constantI S_ 1 1#1
  let main_v42 : IVec S_ 1 := (fun x v => Host.reduce IntOp.andi x v reducesTo_S3x128x128_S_d0_1_2 h_S_) main_v41 main_c_15
  let main_v43 : IVec S_ 1 := andi main_v38 main_v42
  let main_v44 : FVec F S3x128 .f32 := Host.absf main_arg12
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_v49 : FVec F S128x128 .f32 := Host.absf main_arg13
  let main_cst_18 : FVec F S_ .f32 := constant S_ .f32 0x7F800000#32
  let main_v50 : FVec F S128x128 .f32 := broadcastInDim S128x128 ![] bcast_S_S128x128 main_cst_18
  fn_part3 (F := F) main_arg0 main_arg1 main_arg14 main_arg15 main_arg16 main_v48 main_v49 main_v50

def fn_part1 {F : FTy → Type} [FloatOps F] (main_arg0 : IVec S50000 32) (main_arg1 : IVec S2x400000 32) (main_arg7 : FVec F S3x128x128 .f32) (main_arg8 : FVec F S3x128 .f32) (main_arg9 : FVec F S3x256x128 .f32) (main_arg10 : FVec F S3x128 .f32) (main_arg11 : FVec F S3x128x128 .f32) (main_arg12 : FVec F S3x128 .f32) (main_arg13 : FVec F S128x128 .f32) (main_arg14 : FVec F S128 .f32) (main_arg15 : FVec F S128x1 .f32) (main_arg16 : FVec F S1 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128x128 .f32 := Host.absf main_arg7
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128 .f32 := Host.absf main_arg8
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x256x128 .f32 := Host.absf main_arg9
  let main_cst_10 : FVec F S_ .f32 := constant S_ .f32 0x7F800000#32
  let main_v30 : FVec F S3x256x128 .f32 := broadcastInDim S3x256x128 ![] bcast_S_S3x256x128 main_cst_10
  let main_v31 : IVec S3x256x128 1 := cmpf .olt main_v29 main_v30
  let main_c_11 : IVec S_ 1 := constantI S_ 1 1#1
  let main_v32 : IVec S_ 1 := (fun x v => Host.reduce IntOp.andi x v reducesTo_S3x256x128_S_d0_1_2 h_S_) main_v31 main_c_11
  let main_v33 : IVec S_ 1 := andi main_v28 main_v32
  fn_part2 (F := F) main_arg0 main_arg1 main_arg10 main_arg11 main_arg12 main_arg13 main_arg14 main_arg15 main_arg16 main_v33

def fn {F : FTy → Type} [FloatOps F] (main_arg0 : IVec S50000 32) (main_arg1 : IVec S2x400000 32) (main_arg2 : FVec F S400000x1 .f32) (main_arg3 : IVec S50000 32) (main_arg4 : FVec F S101x128 .f32) (main_arg5 : FVec F S3x257x128 .f32) (main_arg6 : FVec F S3x128 .f32) (main_arg7 : FVec F S3x128x128 .f32) (main_arg8 : FVec F S3x128 .f32) (main_arg9 : FVec F S3x256x128 .f32) (main_arg10 : FVec F S3x128 .f32) (main_arg11 : FVec F S3x128x128 .f32) (main_arg12 : FVec F S3x128 .f32) (main_arg13 : FVec F S128x128 .f32) (main_arg14 : FVec F S128 .f32) (main_arg15 : FVec F S128x1 .f32) (main_arg16 : FVec F S1 .f32) : IVec S_ 1 :=
  let main_v0 : FVec F S400000x1 .f32 := Host.absf main_arg2
  let main_cst : FVec F S_ .f32 := constant S_ .f32 0x7F800000#32
  let main_v1 : FVec F S400000x1 .f32 := broadcastInDim S400000x1 ![] bcast_S_S400000x1 main_cst
  let main_v2 : IVec S400000x1 1 := cmpf .olt main_v0 main_v1
  let main_c : IVec S_ 1 := constantI S_ 1 1#1
  let main_v3 : IVec S_ 1 := (fun x v => Host.reduce IntOp.andi x v reducesTo_S400000x1_S_d0_1 h_S_) main_v2 main_c
  let main_v4 : FVec F S101x128 .f32 := Host.absf main_arg4
  let main_cst_0 : FVec F S_ .f32 := constant S_ .f32 0x7F800000#32
  let main_v5 : FVec F S101x128 .f32 := broadcastInDim S101x128 ![] bcast_S_S101x128 main_cst_0
  let main_v6 : IVec S101x128 1 := cmpf .olt main_v4 main_v5
  let main_c_1 : IVec S_ 1 := constantI S_ 1 1#1
  let main_v7 : IVec S_ 1 := (fun x v => Host.reduce IntOp.andi x v reducesTo_S101x128_S_d0_1 h_S_) main_v6 main_c_1
  let main_v8 : IVec S_ 1 := andi main_v3 main_v7
  let main_v9 : FVec F S3x257x128 .f32 := Host.absf main_arg5
  let main_cst_2 : FVec F S_ .f32 := constant S_ .f32 0x7F800000#32
  let main_v10 : FVec F S3x257x128 .f32 := broadcastInDim S3x257x128 ![] bcast_S_S3x257x128 main_cst_2
  let main_v11 : IVec S3x257x128 1 := cmpf .olt main_v9 main_v10
  let main_c_3 : IVec S_ 1 := constantI S_ 1 1#1
  let main_v12 : IVec S_ 1 := (fun x v => Host.reduce IntOp.andi x v reducesTo_S3x257x128_S_d0_1_2 h_S_) main_v11 main_c_3
  let main_v13 : IVec S_ 1 := andi main_v8 main_v12
  let main_v14 : FVec F S3x128 .f32 := Host.absf main_arg6
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg0 main_arg1 main_arg7 main_arg8 main_arg9 main_arg10 main_arg11 main_arg12 main_arg13 main_arg14 main_arg15 main_arg16 main_v13 main_v16
-- ==== Kernel.lean ====
abbrev S50000 : Shape := ⟨1, ![50000]⟩
abbrev S2x400000 : Shape := ⟨2, ![2, 400000]⟩
abbrev S400000x1 : Shape := ⟨2, ![400000, 1]⟩
abbrev S101x128 : Shape := ⟨2, ![101, 128]⟩
abbrev S3x257x128 : Shape := ⟨3, ![3, 257, 128]⟩
abbrev S3x128 : Shape := ⟨2, ![3, 128]⟩
abbrev S3x128x128 : Shape := ⟨3, ![3, 128, 128]⟩
abbrev S3x256x128 : Shape := ⟨3, ![3, 256, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x400000 : Shape := ⟨2, ![1, 400000]⟩
abbrev S400000 : Shape := ⟨1, ![400000]⟩
abbrev S_ : Shape := ⟨0, ![]⟩
abbrev S50000x1 : Shape := ⟨2, ![50000, 1]⟩
abbrev S1x1 : Shape := ⟨2, ![1, 1]⟩
abbrev S50000x128 : Shape := ⟨2, ![50000, 128]⟩
abbrev S400000x128 : Shape := ⟨2, ![400000, 128]⟩
abbrev S400000x257 : Shape := ⟨2, ![400000, 257]⟩
abbrev S1x257x128 : Shape := ⟨3, ![1, 257, 128]⟩
abbrev S257x128 : Shape := ⟨2, ![257, 128]⟩
abbrev S1x128 : Shape := ⟨2, ![1, 128]⟩
abbrev S1x128x128 : Shape := ⟨3, ![1, 128, 128]⟩
abbrev S4000x257 : Shape := ⟨2, ![4000, 257]⟩
abbrev S4000x128 : Shape := ⟨2, ![4000, 128]⟩
abbrev S50000x256 : Shape := ⟨2, ![50000, 256]⟩
abbrev S1x256x128 : Shape := ⟨3, ![1, 256, 128]⟩
abbrev S256x128 : Shape := ⟨2, ![256, 128]⟩
abbrev S5000x256 : Shape := ⟨2, ![5000, 256]⟩
abbrev S5000x128 : Shape := ⟨2, ![5000, 128]⟩
abbrev S64x128 : Shape := ⟨2, ![64, 128]⟩
abbrev S64x1 : Shape := ⟨2, ![64, 1]⟩

abbrev nBuf : Space → Nat
  | .hbm => 292
  | .vmem => 54
  | .smem => 0
  | _ => 0

abbrev hbmTy0_0 (i : Nat) : BufTy := match i % 128 with
  | 0 => ⟨S50000, .i32⟩
  | 1 => ⟨S2x400000, .i32⟩
  | 2 => ⟨S400000x1, .f32⟩
  | 3 => ⟨S50000, .i32⟩
  | 4 => ⟨S101x128, .f32⟩
  | 5 => ⟨S3x257x128, .f32⟩
  | 6 => ⟨S3x128, .f32⟩
  | 7 => ⟨S3x128x128, .f32⟩
  | 8 => ⟨S3x128, .f32⟩
  | 9 => ⟨S3x256x128, .f32⟩
  | 10 => ⟨S3x128, .f32⟩
  | 11 => ⟨S3x128x128, .f32⟩
  | 12 => ⟨S3x128, .f32⟩
  | 13 => ⟨S128x128, .f32⟩
  | 14 => ⟨S128, .f32⟩
  | 15 => ⟨S128x1, .f32⟩
  | 16 => ⟨S1, .f32⟩
  | 17 => ⟨S1x400000, .i32⟩
  | 18 => ⟨S400000, .i32⟩
  | 19 => ⟨S1x400000, .i32⟩
  | 20 => ⟨S400000, .i32⟩
  | 21 => ⟨S_, .i32⟩
  | 22 => ⟨S50000, .i32⟩
  | 23 => ⟨S50000, .i1⟩
  | 24 => ⟨S_, .i32⟩
  | 25 => ⟨S50000, .i32⟩
  | 26 => ⟨S50000, .i32⟩
  | 27 => ⟨S50000, .i32⟩
  | 28 => ⟨S50000x1, .i32⟩
  | 29 => ⟨S1, .i32⟩
  | 30 => ⟨S_, .i32⟩
  | 31 => ⟨S50000x1, .i32⟩
  | 32 => ⟨S50000x1, .i1⟩
  | 33 => ⟨S1x1, .i32⟩
  | 34 => ⟨S50000x1, .i32⟩
  | 35 => ⟨S50000x1, .i1⟩
  | 36 => ⟨S50000x1, .i1⟩
  | 37 => ⟨S_, .i1⟩
  | 38 => ⟨S50000, .i1⟩
  | 39 => ⟨S50000x128, .f32⟩
  | 40 => ⟨S50000x128, .i1⟩
  | 41 => ⟨S_, .f32⟩
  | 42 => ⟨S50000x128, .f32⟩
  | 43 => ⟨S50000x128, .f32⟩
  | 44 => ⟨S_, .i32⟩
  | 45 => ⟨S400000, .i32⟩
  | 46 => ⟨S400000, .i1⟩
  | 47 => ⟨S_, .i32⟩
  | 48 => ⟨S400000, .i32⟩
  | 49 => ⟨S400000, .i32⟩
  | 50 => ⟨S400000, .i32⟩
  | 51 => ⟨S400000x1, .i32⟩
  | 52 => ⟨S1, .i32⟩
  | 53 => ⟨S_, .i32⟩
  | 54 => ⟨S400000x1, .i32⟩
  | 55 => ⟨S400000x1, .i1⟩
  | 56 => ⟨S1x1, .i32⟩
  | 57 => ⟨S400000x1, .i32⟩
  | 58 => ⟨S400000x1, .i1⟩
  | 59 => ⟨S400000x1, .i1⟩
  | 60 => ⟨S_, .i1⟩
  | 61 => ⟨S400000, .i1⟩
  | 62 => ⟨S400000x128, .f32⟩
  | 63 => ⟨S400000x128, .i1⟩
  | 64 => ⟨S_, .f32⟩
  | 65 => ⟨S400000x128, .f32⟩
  | 66 => ⟨S400000x128, .f32⟩
  | 67 => ⟨S_, .i32⟩
  | 68 => ⟨S400000, .i32⟩
  | 69 => ⟨S400000, .i1⟩
  | 70 => ⟨S_, .i32⟩
  | 71 => ⟨S400000, .i32⟩
  | 72 => ⟨S400000, .i32⟩
  | 73 => ⟨S400000, .i32⟩
  | 74 => ⟨S400000x1, .i32⟩
  | 75 => ⟨S1, .i32⟩
  | 76 => ⟨S_, .i32⟩
  | 77 => ⟨S400000x1, .i32⟩
  | 78 => ⟨S400000x1, .i1⟩
  | 79 => ⟨S1x1, .i32⟩
  | 80 => ⟨S400000x1, .i32⟩
  | 81 => ⟨S400000x1, .i1⟩
  | 82 => ⟨S400000x1, .i1⟩
  | 83 => ⟨S_, .i1⟩
  | 84 => ⟨S400000, .i1⟩
  | 85 => ⟨S400000x128, .f32⟩
  | 86 => ⟨S400000x128, .i1⟩
  | 87 => ⟨S_, .f32⟩
  | 88 => ⟨S400000x128, .f32⟩
  | 89 => ⟨S400000x128, .f32⟩
  | 90 => ⟨S400000x257, .f32⟩
  | 91 => ⟨S1x257x128, .f32⟩
  | 92 => ⟨S257x128, .f32⟩
  | 93 => ⟨S1x128, .f32⟩
  | 94 => ⟨S128, .f32⟩
  | 95 => ⟨S1x128x128, .f32⟩
  | 96 => ⟨S128x128, .f32⟩
  | 97 => ⟨S1x128, .f32⟩
  | 98 => ⟨S128, .f32⟩
  | 99 => ⟨S1x128, .f32⟩
  | 100 => ⟨S1x128, .f32⟩
  | 101 => ⟨S400000x128, .f32⟩
  | 102 => ⟨S_, .f32⟩
  | 103 => ⟨S50000x128, .f32⟩
  | 104 => ⟨S400000x1, .i32⟩
  | 105 => ⟨S50000x128, .f32⟩
  | 106 => ⟨S50000x256, .f32⟩
  | 107 => ⟨S1x256x128, .f32⟩
  | 108 => ⟨S256x128, .f32⟩
  | 109 => ⟨S1x128, .f32⟩
  | 110 => ⟨S128, .f32⟩
  | 111 => ⟨S1x128x128, .f32⟩
  | 112 => ⟨S128x128, .f32⟩
  | 113 => ⟨S1x128, .f32⟩
  | 114 => ⟨S128, .f32⟩
  | 115 => ⟨S1x128, .f32⟩
  | 116 => ⟨S1x128, .f32⟩
  | 117 => ⟨S50000x128, .f32⟩
  | 118 => ⟨S_, .i32⟩
  | 119 => ⟨S400000, .i32⟩
  | 120 => ⟨S400000, .i1⟩
  | 121 => ⟨S_, .i32⟩
  | 122 => ⟨S400000, .i32⟩
  | 123 => ⟨S400000, .i32⟩
  | 124 => ⟨S400000, .i32⟩
  | 125 => ⟨S400000x1, .i32⟩
  | 126 => ⟨S1, .i32⟩
  | 127 => ⟨S_, .i32⟩
  | _ => ⟨S50000, .i32⟩

abbrev hbmTy0_1 (i : Nat) : BufTy := match i % 128 with
  | 0 => ⟨S400000x1, .i32⟩
  | 1 => ⟨S400000x1, .i1⟩
  | 2 => ⟨S1x1, .i32⟩
  | 3 => ⟨S400000x1, .i32⟩
  | 4 => ⟨S400000x1, .i1⟩
  | 5 => ⟨S400000x1, .i1⟩
  | 6 => ⟨S_, .i1⟩
  | 7 => ⟨S400000, .i1⟩
  | 8 => ⟨S400000x128, .f32⟩
  | 9 => ⟨S400000x128, .i1⟩
  | 10 => ⟨S_, .f32⟩
  | 11 => ⟨S400000x128, .f32⟩
  | 12 => ⟨S400000x128, .f32⟩
  | 13 => ⟨S_, .i32⟩
  | 14 => ⟨S400000, .i32⟩
  | 15 => ⟨S400000, .i1⟩
  | 16 => ⟨S_, .i32⟩
  | 17 => ⟨S400000, .i32⟩
  | 18 => ⟨S400000, .i32⟩
  | 19 => ⟨S400000, .i32⟩
  | 20 => ⟨S400000x1, .i32⟩
  | 21 => ⟨S1, .i32⟩
  | 22 => ⟨S_, .i32⟩
  | 23 => ⟨S400000x1, .i32⟩
  | 24 => ⟨S400000x1, .i1⟩
  | 25 => ⟨S1x1, .i32⟩
  | 26 => ⟨S400000x1, .i32⟩
  | 27 => ⟨S400000x1, .i1⟩
  | 28 => ⟨S400000x1, .i1⟩
  | 29 => ⟨S_, .i1⟩
  | 30 => ⟨S400000, .i1⟩
  | 31 => ⟨S400000x128, .f32⟩
  | 32 => ⟨S400000x128, .i1⟩
  | 33 => ⟨S_, .f32⟩
  | 34 => ⟨S400000x128, .f32⟩
  | 35 => ⟨S400000x128, .f32⟩
  | 36 => ⟨S400000x257, .f32⟩
  | 37 => ⟨S1x257x128, .f32⟩
  | 38 => ⟨S257x128, .f32⟩
  | 39 => ⟨S1x128, .f32⟩
  | 40 => ⟨S128, .f32⟩
  | 41 => ⟨S1x128x128, .f32⟩
  | 42 => ⟨S128x128, .f32⟩
  | 43 => ⟨S1x128, .f32⟩
  | 44 => ⟨S128, .f32⟩
  | 45 => ⟨S1x128, .f32⟩
  | 46 => ⟨S1x128, .f32⟩
  | 47 => ⟨S400000x128, .f32⟩
  | 48 => ⟨S_, .f32⟩
  | 49 => ⟨S50000x128, .f32⟩
  | 50 => ⟨S400000x1, .i32⟩
  | 51 => ⟨S50000x128, .f32⟩
  | 52 => ⟨S50000x256, .f32⟩
  | 53 => ⟨S1x256x128, .f32⟩
  | 54 => ⟨S256x128, .f32⟩
  | 55 => ⟨S1x128, .f32⟩
  | 56 => ⟨S128, .f32⟩
  | 57 => ⟨S1x128x128, .f32⟩
  | 58 => ⟨S128x128, .f32⟩
  | 59 => ⟨S1x128, .f32⟩
  | 60 => ⟨S128, .f32⟩
  | 61 => ⟨S1x128, .f32⟩
  | 62 => ⟨S1x128, .f32⟩
  | 63 => ⟨S50000x128, .f32⟩
  | 64 => ⟨S_, .i32⟩
  | 65 => ⟨S400000, .i32⟩
  | 66 => ⟨S400000, .i1⟩
  | 67 => ⟨S_, .i32⟩
  | 68 => ⟨S400000, .i32⟩
  | 69 => ⟨S400000, .i32⟩
  | 70 => ⟨S400000, .i32⟩
  | 71 => ⟨S400000x1, .i32⟩
  | 72 => ⟨S1, .i32⟩
  | 73 => ⟨S_, .i32⟩
  | 74 => ⟨S400000x1, .i32⟩
  | 75 => ⟨S400000x1, .i1⟩
  | 76 => ⟨S1x1, .i32⟩
  | 77 => ⟨S400000x1, .i32⟩
  | 78 => ⟨S400000x1, .i1⟩
  | 79 => ⟨S400000x1, .i1⟩
  | 80 => ⟨S_, .i1⟩
  | 81 => ⟨S400000, .i1⟩
  | 82 => ⟨S400000x128, .f32⟩
  | 83 => ⟨S400000x128, .i1⟩
  | 84 => ⟨S_, .f32⟩
  | 85 => ⟨S400000x128, .f32⟩
  | 86 => ⟨S400000x128, .f32⟩
  | 87 => ⟨S_, .i32⟩
  | 88 => ⟨S400000, .i32⟩
  | 89 => ⟨S400000, .i1⟩
  | 90 => ⟨S_, .i32⟩
  | 91 => ⟨S400000, .i32⟩
  | 92 => ⟨S400000, .i32⟩
  | 93 => ⟨S400000, .i32⟩
  | 94 => ⟨S400000x1, .i32⟩
  | 95 => ⟨S1, .i32⟩
  | 96 => ⟨S_, .i32⟩
  | 97 => ⟨S400000x1, .i32⟩
  | 98 => ⟨S400000x1, .i1⟩
  | 99 => ⟨S1x1, .i32⟩
  | 100 => ⟨S400000x1, .i32⟩
  | 101 => ⟨S400000x1, .i1⟩
  | 102 => ⟨S400000x1, .i1⟩
  | 103 => ⟨S_, .i1⟩
  | 104 => ⟨S400000, .i1⟩
  | 105 => ⟨S400000x128, .f32⟩
  | 106 => ⟨S400000x128, .i1⟩
  | 107 => ⟨S_, .f32⟩
  | 108 => ⟨S400000x128, .f32⟩
  | 109 => ⟨S400000x128, .f32⟩
  | 110 => ⟨S400000x257, .f32⟩
  | 111 => ⟨S1x257x128, .f32⟩
  | 112 => ⟨S257x128, .f32⟩
  | 113 => ⟨S1x128, .f32⟩
  | 114 => ⟨S128, .f32⟩
  | 115 => ⟨S1x128x128, .f32⟩
  | 116 => ⟨S128x128, .f32⟩
  | 117 => ⟨S1x128, .f32⟩
  | 118 => ⟨S128, .f32⟩
  | 119 => ⟨S1x128, .f32⟩
  | 120 => ⟨S1x128, .f32⟩
  | 121 => ⟨S400000x128, .f32⟩
  | 122 => ⟨S_, .f32⟩
  | 123 => ⟨S50000x128, .f32⟩
  | 124 => ⟨S400000x1, .i32⟩
  | 125 => ⟨S50000x128, .f32⟩
  | 126 => ⟨S50000x256, .f32⟩
  | 127 => ⟨S1x256x128, .f32⟩
  | _ => ⟨S50000, .i32⟩

abbrev hbmTy0_2 (i : Nat) : BufTy := match i % 128 with
  | 0 => ⟨S256x128, .f32⟩
  | 1 => ⟨S1x128, .f32⟩
  | 2 => ⟨S128, .f32⟩
  | 3 => ⟨S1x128x128, .f32⟩
  | 4 => ⟨S128x128, .f32⟩
  | 5 => ⟨S1x128, .f32⟩
  | 6 => ⟨S128, .f32⟩
  | 7 => ⟨S1x128, .f32⟩
  | 8 => ⟨S1x128, .f32⟩
  | 9 => ⟨S50000x128, .f32⟩
  | 10 => ⟨S_, .f32⟩
  | 11 => ⟨S64x128, .f32⟩
  | 12 => ⟨S50000x1, .i32⟩
  | 13 => ⟨S64x128, .f32⟩
  | 14 => ⟨S_, .f32⟩
  | 15 => ⟨S50000x1, .f32⟩
  | 16 => ⟨S_, .f32⟩
  | 17 => ⟨S64x1, .f32⟩
  | 18 => ⟨S50000x1, .i32⟩
  | 19 => ⟨S64x1, .f32⟩
  | 20 => ⟨S_, .f32⟩
  | 21 => ⟨S64x1, .f32⟩
  | 22 => ⟨S64x1, .f32⟩
  | 23 => ⟨S64x128, .f32⟩
  | 24 => ⟨S64x128, .f32⟩
  | 25 => ⟨S64x128, .f32⟩
  | 26 => ⟨S1x128, .f32⟩
  | 27 => ⟨S64x128, .f32⟩
  | 28 => ⟨S64x128, .f32⟩
  | 29 => ⟨S_, .f32⟩
  | 30 => ⟨S64x128, .f32⟩
  | 31 => ⟨S64x128, .f32⟩
  | 32 => ⟨S64x1, .f32⟩
  | 33 => ⟨S1x1, .f32⟩
  | 34 => ⟨S64x1, .f32⟩
  | 35 => ⟨S64x1, .f32⟩
  | _ => ⟨S50000, .i32⟩

abbrev hbmTy (i : Nat) : BufTy := match i / 128 with
  | 0 => hbmTy0_0 i
  | 1 => hbmTy0_1 i
  | 2 => hbmTy0_2 i
  | _ => ⟨S50000, .i32⟩

abbrev bufTy : (tb : Table) → Fin (tcTables nBuf tb) → BufTy
  | .hbm, ⟨i, _⟩ => hbmTy i
  | .local _ .vmem, ⟨0, _⟩ => ⟨S4000x257, .f32⟩
  | .local _ .vmem, ⟨1, _⟩ => ⟨S4000x257, .f32⟩
  | .local _ .vmem, ⟨2, _⟩ => ⟨S257x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S4000x128, .f32⟩
  | .local _ .vmem, ⟨7, _⟩ => ⟨S4000x128, .f32⟩
  | .local _ .vmem, ⟨8, _⟩ => ⟨S5000x256, .f32⟩
  | .local _ .vmem, ⟨9, _⟩ => ⟨S5000x256, .f32⟩
  | .local _ .vmem, ⟨10, _⟩ => ⟨S256x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S4000x257, .f32⟩
  | .local _ .vmem, ⟨19, _⟩ => ⟨S4000x257, .f32⟩
  | .local _ .vmem, ⟨20, _⟩ => ⟨S257x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S4000x128, .f32⟩
  | .local _ .vmem, ⟨25, _⟩ => ⟨S4000x128, .f32⟩
  | .local _ .vmem, ⟨26, _⟩ => ⟨S5000x256, .f32⟩
  | .local _ .vmem, ⟨27, _⟩ => ⟨S5000x256, .f32⟩
  | .local _ .vmem, ⟨28, _⟩ => ⟨S256x128, .f32⟩
  | .local _ .vmem, ⟨29, _⟩ => ⟨S1x128, .f32⟩
  | .local _ .vmem, ⟨30, _⟩ => ⟨S128x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S4000x257, .f32⟩
  | .local _ .vmem, ⟨37, _⟩ => ⟨S4000x257, .f32⟩
  | .local _ .vmem, ⟨38, _⟩ => ⟨S257x128, .f32⟩
  | .local _ .vmem, ⟨39, _⟩ => ⟨S1x128, .f32⟩
  | .local _ .vmem, ⟨40, _⟩ => ⟨S128x128, .f32⟩
  | .local _ .vmem, ⟨41, _⟩ => ⟨S1x128, .f32⟩
  | .local _ .vmem, ⟨42, _⟩ => ⟨S4000x128, .f32⟩
  | .local _ .vmem, ⟨43, _⟩ => ⟨S4000x128, .f32⟩
  | .local _ .vmem, ⟨44, _⟩ => ⟨S5000x256, .f32⟩
  | .local _ .vmem, ⟨45, _⟩ => ⟨S5000x256, .f32⟩
  | .local _ .vmem, ⟨46, _⟩ => ⟨S256x128, .f32⟩
  | .local _ .vmem, ⟨47, _⟩ => ⟨S1x128, .f32⟩
  | .local _ .vmem, ⟨48, _⟩ => ⟨S128x128, .f32⟩
  | .local _ .vmem, ⟨49, _⟩ => ⟨S1x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v4 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v5 : Ref sig .tc := ⟨.hbm, 66, rfl⟩
abbrev main_call2_c : Ref sig .tc := ⟨.hbm, 67, rfl⟩
abbrev main_call2_v0 : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_c_1 : Ref sig .tc := ⟨.hbm, 75, rfl⟩
abbrev main_call2_c_2 : Ref sig .tc := ⟨.hbm, 76, rfl⟩
abbrev main_call2_v6 : Ref sig .tc := ⟨.hbm, 77, rfl⟩
abbrev main_call2_v7 : Ref sig .tc := ⟨.hbm, 78, rfl⟩
abbrev main_call2_v8 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_c_3 : Ref sig .tc := ⟨.hbm, 83, rfl⟩
abbrev main_call2_v12 : Ref sig .tc := ⟨.hbm, 84, rfl⟩
abbrev main_call2_v13 : Ref sig .tc := ⟨.hbm, 85, rfl⟩
abbrev main_call2_v14 : Ref sig .tc := ⟨.hbm, 86, rfl⟩
abbrev main_call2_cst : Ref sig .tc := ⟨.hbm, 87, rfl⟩
abbrev main_call2_v15 : Ref sig .tc := ⟨.hbm, 88, rfl⟩
abbrev main_v6 : Ref sig .tc := ⟨.hbm, 89, rfl⟩
abbrev main_v7 : Ref sig .tc := ⟨.hbm, 90, rfl⟩
abbrev main_v8 : Ref sig .tc := ⟨.hbm, 91, rfl⟩
abbrev main_v9 : Ref sig .tc := ⟨.hbm, 92, rfl⟩
abbrev main_v10 : Ref sig .tc := ⟨.hbm, 93, rfl⟩
abbrev main_v11 : Ref sig .tc := ⟨.hbm, 94, rfl⟩
abbrev main_v12 : Ref sig .tc := ⟨.hbm, 95, rfl⟩
abbrev main_v13 : Ref sig .tc := ⟨.hbm, 96, rfl⟩
abbrev main_v14 : Ref sig .tc := ⟨.hbm, 97, rfl⟩
abbrev main_v15 : Ref sig .tc := ⟨.hbm, 98, rfl⟩
abbrev main_v16 : Ref sig .tc := ⟨.hbm, 99, rfl⟩
abbrev main_v17 : Ref sig .tc := ⟨.hbm, 100, rfl⟩
abbrev main_v18 : Ref sig .tc := ⟨.hbm, 101, rfl⟩
abbrev main_cst : Ref sig .tc := ⟨.hbm, 102, rfl⟩
abbrev main_v19 : Ref sig .tc := ⟨.hbm, 103, rfl⟩
abbrev main_v20 : Ref sig .tc := ⟨.hbm, 104, rfl⟩
abbrev main_v21 : Ref sig .tc := ⟨.hbm, 105, rfl⟩
abbrev main_v22 : Ref sig .tc := ⟨.hbm, 106, rfl⟩
abbrev main_v23 : Ref sig .tc := ⟨.hbm, 107, rfl⟩
abbrev main_v24 : Ref sig .tc := ⟨.hbm, 108, rfl⟩
abbrev main_v25 : Ref sig .tc := ⟨.hbm, 109, rfl⟩
abbrev main_v26 : Ref sig .tc := ⟨.hbm, 110, rfl⟩
abbrev main_v27 : Ref sig .tc := ⟨.hbm, 111, rfl⟩
abbrev main_v28 : Ref sig .tc := ⟨.hbm, 112, rfl⟩
abbrev main_v29 : Ref sig .tc := ⟨.hbm, 113, rfl⟩
abbrev main_v30 : Ref sig .tc := ⟨.hbm, 114, rfl⟩
abbrev main_v31 : Ref sig .tc := ⟨.hbm, 115, rfl⟩
abbrev main_v32 : Ref sig .tc := ⟨.hbm, 116, rfl⟩
abbrev main_v33 : Ref sig .tc := ⟨.hbm, 117, rfl⟩
abbrev main_call3_c : Ref sig .tc := ⟨.hbm, 118, rfl⟩
abbrev main_call3_v0 : Ref sig .tc := ⟨.hbm, 119, rfl⟩
abbrev main_call3_v1 : Ref sig .tc := ⟨.hbm, 120, rfl⟩
abbrev main_call3_c_0 : Ref sig .tc := ⟨.hbm, 121, rfl⟩
abbrev main_call3_v2 : Ref sig .tc := ⟨.hbm, 122, rfl⟩
abbrev main_call3_v3 : Ref sig .tc := ⟨.hbm, 123, rfl⟩
abbrev main_call3_v4 : Ref sig .tc := ⟨.hbm, 124, rfl⟩
abbrev main_call3_v5 : Ref sig .tc := ⟨.hbm, 125, rfl⟩
abbrev main_call3_c_1 : Ref sig .tc := ⟨.hbm, 126, rfl⟩
abbrev main_call3_c_2 : Ref sig .tc := ⟨.hbm, 127, rfl⟩
abbrev main_call3_v6 : Ref sig .tc := ⟨.hbm, 128, rfl⟩
abbrev main_call3_v7 : Ref sig .tc := ⟨.hbm, 129, rfl⟩
abbrev main_call3_v8 : Ref sig .tc := ⟨.hbm, 130, rfl⟩
abbrev main_call3_v9 : Ref sig .tc := ⟨.hbm, 131, rfl⟩
abbrev main_call3_v10 : Ref sig .tc := ⟨.hbm, 132, rfl⟩
abbrev main_call3_v11 : Ref sig .tc := ⟨.hbm, 133, rfl⟩
abbrev main_call3_c_3 : Ref sig .tc := ⟨.hbm, 134, rfl⟩
abbrev main_call3_v12 : Ref sig .tc := ⟨.hbm, 135, rfl⟩
abbrev main_call3_v13 : Ref sig .tc := ⟨.hbm, 136, rfl⟩
abbrev main_call3_v14 : Ref sig .tc := ⟨.hbm, 137, rfl⟩
abbrev main_call3_cst : Ref sig .tc := ⟨.hbm, 138, rfl⟩
abbrev main_call3_v15 : Ref sig .tc := ⟨.hbm, 139, rfl⟩
abbrev main_v34 : Ref sig .tc := ⟨.hbm, 140, rfl⟩
abbrev main_call4_c : Ref sig .tc := ⟨.hbm, 141, rfl⟩
abbrev main_call4_v0 : Ref sig .tc := ⟨.hbm, 142, rfl⟩
abbrev main_call4_v1 : Ref sig .tc := ⟨.hbm, 143, rfl⟩
abbrev main_call4_c_0 : Ref sig .tc := ⟨.hbm, 144, rfl⟩
abbrev main_call4_v2 : Ref sig .tc := ⟨.hbm, 145, rfl⟩
abbrev main_call4_v3 : Ref sig .tc := ⟨.hbm, 146, rfl⟩
abbrev main_call4_v4 : Ref sig .tc := ⟨.hbm, 147, rfl⟩
abbrev main_call4_v5 : Ref sig .tc := ⟨.hbm, 148, rfl⟩
abbrev main_call4_c_1 : Ref sig .tc := ⟨.hbm, 149, rfl⟩
abbrev main_call4_c_2 : Ref sig .tc := ⟨.hbm, 150, rfl⟩
abbrev main_call4_v6 : Ref sig .tc := ⟨.hbm, 151, rfl⟩
abbrev main_call4_v7 : Ref sig .tc := ⟨.hbm, 152, rfl⟩
abbrev main_call4_v8 : Ref sig .tc := ⟨.hbm, 153, rfl⟩
abbrev main_call4_v9 : Ref sig .tc := ⟨.hbm, 154, rfl⟩
abbrev main_call4_v10 : Ref sig .tc := ⟨.hbm, 155, rfl⟩
abbrev main_call4_v11 : Ref sig .tc := ⟨.hbm, 156, rfl⟩
abbrev main_call4_c_3 : Ref sig .tc := ⟨.hbm, 157, rfl⟩
abbrev main_call4_v12 : Ref sig .tc := ⟨.hbm, 158, rfl⟩
abbrev main_call4_v13 : Ref sig .tc := ⟨.hbm, 159, rfl⟩
abbrev main_call4_v14 : Ref sig .tc := ⟨.hbm, 160, rfl⟩
abbrev main_call4_cst : Ref sig .tc := ⟨.hbm, 161, rfl⟩
abbrev main_call4_v15 : Ref sig .tc := ⟨.hbm, 162, rfl⟩
abbrev main_v35 : Ref sig .tc := ⟨.hbm, 163, rfl⟩
abbrev main_v36 : Ref sig .tc := ⟨.hbm, 164, rfl⟩
abbrev main_v37 : Ref sig .tc := ⟨.hbm, 165, rfl⟩
abbrev main_v38 : Ref sig .tc := ⟨.hbm, 166, rfl⟩
abbrev main_v39 : Ref sig .tc := ⟨.hbm, 167, rfl⟩
abbrev main_v40 : Ref sig .tc := ⟨.hbm, 168, rfl⟩
abbrev main_v41 : Ref sig .tc := ⟨.hbm, 169, rfl⟩
abbrev main_v42 : Ref sig .tc := ⟨.hbm, 170, rfl⟩
abbrev main_v43 : Ref sig .tc := ⟨.hbm, 171, rfl⟩
abbrev main_v44 : Ref sig .tc := ⟨.hbm, 172, rfl⟩
abbrev main_v45 : Ref sig .tc := ⟨.hbm, 173, rfl⟩
abbrev main_v46 : Ref sig .tc := ⟨.hbm, 174, rfl⟩
abbrev main_v47 : Ref sig .tc := ⟨.hbm, 175, rfl⟩
abbrev main_cst_0 : Ref sig .tc := ⟨.hbm, 176, rfl⟩
abbrev main_v48 : Ref sig .tc := ⟨.hbm, 177, rfl⟩
abbrev main_v49 : Ref sig .tc := ⟨.hbm, 178, rfl⟩
abbrev main_v50 : Ref sig .tc := ⟨.hbm, 179, rfl⟩
abbrev main_v51 : Ref sig .tc := ⟨.hbm, 180, rfl⟩
abbrev main_v52 : Ref sig .tc := ⟨.hbm, 181, rfl⟩
abbrev main_v53 : Ref sig .tc := ⟨.hbm, 182, rfl⟩
abbrev main_v54 : Ref sig .tc := ⟨.hbm, 183, rfl⟩
abbrev main_v55 : Ref sig .tc := ⟨.hbm, 184, rfl⟩
abbrev main_v56 : Ref sig .tc := ⟨.hbm, 185, rfl⟩
abbrev main_v57 : Ref sig .tc := ⟨.hbm, 186, rfl⟩
abbrev main_v58 : Ref sig .tc := ⟨.hbm, 187, rfl⟩
abbrev main_v59 : Ref sig .tc := ⟨.hbm, 188, rfl⟩
abbrev main_v60 : Ref sig .tc := ⟨.hbm, 189, rfl⟩
abbrev main_v61 : Ref sig .tc := ⟨.hbm, 190, rfl⟩
abbrev main_v62 : Ref sig .tc := ⟨.hbm, 191, rfl⟩
abbrev main_call5_c : Ref sig .tc := ⟨.hbm, 192, rfl⟩
abbrev main_call5_v0 : Ref sig .tc := ⟨.hbm, 193, rfl⟩
abbrev main_call5_v1 : Ref sig .tc := ⟨.hbm, 194, rfl⟩
abbrev main_call5_c_0 : Ref sig .tc := ⟨.hbm, 195, rfl⟩
abbrev main_call5_v2 : Ref sig .tc := ⟨.hbm, 196, rfl⟩
abbrev main_call5_v3 : Ref sig .tc := ⟨.hbm, 197, rfl⟩
abbrev main_call5_v4 : Ref sig .tc := ⟨.hbm, 198, rfl⟩
abbrev main_call5_v5 : Ref sig .tc := ⟨.hbm, 199, rfl⟩
abbrev main_call5_c_1 : Ref sig .tc := ⟨.hbm, 200, rfl⟩
abbrev main_call5_c_2 : Ref sig .tc := ⟨.hbm, 201, rfl⟩
abbrev main_call5_v6 : Ref sig .tc := ⟨.hbm, 202, rfl⟩
abbrev main_call5_v7 : Ref sig .tc := ⟨.hbm, 203, rfl⟩
abbrev main_call5_v8 : Ref sig .tc := ⟨.hbm, 204, rfl⟩
abbrev main_call5_v9 : Ref sig .tc := ⟨.hbm, 205, rfl⟩
abbrev main_call5_v10 : Ref sig .tc := ⟨.hbm, 206, rfl⟩
abbrev main_call5_v11 : Ref sig .tc := ⟨.hbm, 207, rfl⟩
abbrev main_call5_c_3 : Ref sig .tc := ⟨.hbm, 208, rfl⟩
abbrev main_call5_v12 : Ref sig .tc := ⟨.hbm, 209, rfl⟩
abbrev main_call5_v13 : Ref sig .tc := ⟨.hbm, 210, rfl⟩
abbrev main_call5_v14 : Ref sig .tc := ⟨.hbm, 211, rfl⟩
abbrev main_call5_cst : Ref sig .tc := ⟨.hbm, 212, rfl⟩
abbrev main_call5_v15 : Ref sig .tc := ⟨.hbm, 213, rfl⟩
abbrev main_v63 : Ref sig .tc := ⟨.hbm, 214, rfl⟩
abbrev main_call6_c : Ref sig .tc := ⟨.hbm, 215, rfl⟩
abbrev main_call6_v0 : Ref sig .tc := ⟨.hbm, 216, rfl⟩
abbrev main_call6_v1 : Ref sig .tc := ⟨.hbm, 217, rfl⟩
abbrev main_call6_c_0 : Ref sig .tc := ⟨.hbm, 218, rfl⟩
abbrev main_call6_v2 : Ref sig .tc := ⟨.hbm, 219, rfl⟩
abbrev main_call6_v3 : Ref sig .tc := ⟨.hbm, 220, rfl⟩
abbrev main_call6_v4 : Ref sig .tc := ⟨.hbm, 221, rfl⟩
abbrev main_call6_v5 : Ref sig .tc := ⟨.hbm, 222, rfl⟩
abbrev main_call6_c_1 : Ref sig .tc := ⟨.hbm, 223, rfl⟩
abbrev main_call6_c_2 : Ref sig .tc := ⟨.hbm, 224, rfl⟩
abbrev main_call6_v6 : Ref sig .tc := ⟨.hbm, 225, rfl⟩
abbrev main_call6_v7 : Ref sig .tc := ⟨.hbm, 226, rfl⟩
abbrev main_call6_v8 : Ref sig .tc := ⟨.hbm, 227, rfl⟩
abbrev main_call6_v9 : Ref sig .tc := ⟨.hbm, 228, rfl⟩
abbrev main_call6_v10 : Ref sig .tc := ⟨.hbm, 229, rfl⟩
abbrev main_call6_v11 : Ref sig .tc := ⟨.hbm, 230, rfl⟩
abbrev main_call6_c_3 : Ref sig .tc := ⟨.hbm, 231, rfl⟩
abbrev main_call6_v12 : Ref sig .tc := ⟨.hbm, 232, rfl⟩
abbrev main_call6_v13 : Ref sig .tc := ⟨.hbm, 233, rfl⟩
abbrev main_call6_v14 : Ref sig .tc := ⟨.hbm, 234, rfl⟩
abbrev main_call6_cst : Ref sig .tc := ⟨.hbm, 235, rfl⟩
abbrev main_call6_v15 : Ref sig .tc := ⟨.hbm, 236, rfl⟩
abbrev main_v64 : Ref sig .tc := ⟨.hbm, 237, rfl⟩
abbrev main_v65 : Ref sig .tc := ⟨.hbm, 238, rfl⟩
abbrev main_v66 : Ref sig .tc := ⟨.hbm, 239, rfl⟩
abbrev main_v67 : Ref sig .tc := ⟨.hbm, 240, rfl⟩
abbrev main_v68 : Ref sig .tc := ⟨.hbm, 241, rfl⟩
abbrev main_v69 : Ref sig .tc := ⟨.hbm, 242, rfl⟩
abbrev main_v70 : Ref sig .tc := ⟨.hbm, 243, rfl⟩
abbrev main_v71 : Ref sig .tc := ⟨.hbm, 244, rfl⟩
abbrev main_v72 : Ref sig .tc := ⟨.hbm, 245, rfl⟩
abbrev main_v73 : Ref sig .tc := ⟨.hbm, 246, rfl⟩
abbrev main_v74 : Ref sig .tc := ⟨.hbm, 247, rfl⟩
abbrev main_v75 : Ref sig .tc := ⟨.hbm, 248, rfl⟩
abbrev main_v76 : Ref sig .tc := ⟨.hbm, 249, rfl⟩
abbrev main_cst_1 : Ref sig .tc := ⟨.hbm, 250, rfl⟩
abbrev main_v77 : Ref sig .tc := ⟨.hbm, 251, rfl⟩
abbrev main_v78 : Ref sig .tc := ⟨.hbm, 252, rfl⟩
abbrev main_v79 : Ref sig .tc := ⟨.hbm, 253, rfl⟩
abbrev main_v80 : Ref sig .tc := ⟨.hbm, 254, rfl⟩
abbrev main_v81 : Ref sig .tc := ⟨.hbm, 255, rfl⟩
abbrev main_v82 : Ref sig .tc := ⟨.hbm, 256, rfl⟩
abbrev main_v83 : Ref sig .tc := ⟨.hbm, 257, rfl⟩
abbrev main_v84 : Ref sig .tc := ⟨.hbm, 258, rfl⟩
abbrev main_v85 : Ref sig .tc := ⟨.hbm, 259, rfl⟩
abbrev main_v86 : Ref sig .tc := ⟨.hbm, 260, rfl⟩
abbrev main_v87 : Ref sig .tc := ⟨.hbm, 261, rfl⟩
abbrev main_v88 : Ref sig .tc := ⟨.hbm, 262, rfl⟩
abbrev main_v89 : Ref sig .tc := ⟨.hbm, 263, rfl⟩
abbrev main_v90 : Ref sig .tc := ⟨.hbm, 264, rfl⟩
abbrev main_v91 : Ref sig .tc := ⟨.hbm, 265, rfl⟩
abbrev main_cst_2 : Ref sig .tc := ⟨.hbm, 266, rfl⟩
abbrev main_v92 : Ref sig .tc := ⟨.hbm, 267, rfl⟩
abbrev main_v93 : Ref sig .tc := ⟨.hbm, 268, rfl⟩
abbrev main_v94 : Ref sig .tc := ⟨.hbm, 269, rfl⟩
abbrev main_cst_3 : Ref sig .tc := ⟨.hbm, 270, rfl⟩
abbrev main_v95 : Ref sig .tc := ⟨.hbm, 271, rfl⟩
abbrev main_cst_4 : Ref sig .tc := ⟨.hbm, 272, rfl⟩
abbrev main_v96 : Ref sig .tc := ⟨.hbm, 273, rfl⟩
abbrev main_v97 : Ref sig .tc := ⟨.hbm, 274, rfl⟩
abbrev main_v98 : Ref sig .tc := ⟨.hbm, 275, rfl⟩
abbrev main_cst_5 : Ref sig .tc := ⟨.hbm, 276, rfl⟩
abbrev main_v99 : Ref sig .tc := ⟨.hbm, 277, rfl⟩
abbrev main_v100 : Ref sig .tc := ⟨.hbm, 278, rfl⟩
abbrev main_v101 : Ref sig .tc := ⟨.hbm, 279, rfl⟩
abbrev main_v102 : Ref sig .tc := ⟨.hbm, 280, rfl⟩
abbrev main_v103 : Ref sig .tc := ⟨.hbm, 281, rfl⟩
abbrev main_v104 : Ref sig .tc := ⟨.hbm, 282, rfl⟩
abbrev main_v105 : Ref sig .tc := ⟨.hbm, 283, rfl⟩
abbrev main_v106 : Ref sig .tc := ⟨.hbm, 284, rfl⟩
abbrev main_cst_6 : Ref sig .tc := ⟨.hbm, 285, rfl⟩
abbrev main_v107 : Ref sig .tc := ⟨.hbm, 286, rfl⟩
abbrev main_v108 : Ref sig .tc := ⟨.hbm, 287, rfl⟩
abbrev main_v109 : Ref sig .tc := ⟨.hbm, 288, rfl⟩
abbrev main_v110 : Ref sig .tc := ⟨.hbm, 289, rfl⟩
abbrev main_v111 : Ref sig .tc := ⟨.hbm, 290, rfl⟩
abbrev main_v112 : Ref sig .tc := ⟨.hbm, 291, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg5_1 : Ref sig .tc := ⟨.vmem, 33, rfl⟩
abbrev cc3_stg6_0 : Ref sig .tc := ⟨.vmem, 34, rfl⟩
abbrev cc3_stg6_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg5_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg5_0 : Ref sig .tc := ⟨.vmem, 50, rfl⟩
abbrev cc5_stg5_1 : Ref sig .tc := ⟨.vmem, 51, rfl⟩
abbrev cc5_stg6_0 : Ref sig .tc := ⟨.vmem, 52, rfl⟩
abbrev cc5_stg6_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem5_1 : DmaSem sig := 33
abbrev cc3_sem6_0 : DmaSem sig := 34
abbrev cc3_sem6_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem5_1 : DmaSem sig := 43
abbrev cc5_sem0_0 : DmaSem sig := 44
abbrev cc5_sem0_1 : DmaSem sig := 45
abbrev cc5_sem1_0 : DmaSem sig := 46
abbrev cc5_sem2_0 : DmaSem sig := 47
abbrev cc5_sem3_0 : DmaSem sig := 48
abbrev cc5_sem4_0 : DmaSem sig := 49
abbrev cc5_sem5_0 : DmaSem sig := 50
abbrev cc5_sem5_1 : DmaSem sig := 51
abbrev cc5_sem6_0 : DmaSem sig := 52
abbrev cc5_sem6_1 : DmaSem sig := 53

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x257 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S257x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x257 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S257x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x257 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S257x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S4000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  reducesTo_S50000x1_S50000_d1 : S50000x1.ReducesTo [1] S50000
  h_S_ : 0 < S_.numel
  bcast_S50000_S50000x128_0 : S50000.BroadcastsInDim S50000x128 (![0] : Fin 1 → Fin S50000x128.rank)
  bcast_S_S50000x128 : S_.BroadcastsInDim S50000x128 (![] : Fin 0 → Fin S50000x128.rank)
  bcast_S_S400000 : S_.BroadcastsInDim S400000 (![] : Fin 0 → Fin S400000.rank)
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S1x1_S400000x1_0_1 : S1x1.BroadcastsInDim S400000x1 (![0, 1] : Fin 2 → Fin S400000x1.rank)
  reducesTo_S400000x1_S400000_d1 : S400000x1.ReducesTo [1] S400000
  bcast_S400000_S400000x128_0 : S400000.BroadcastsInDim S400000x128 (![0] : Fin 1 → Fin S400000x128.rank)
  bcast_S_S400000x128 : S_.BroadcastsInDim S400000x128 (![] : Fin 0 → Fin S400000x128.rank)
  concatenates_S400000x128_S400000x128_S400000x1_S400000x257_d1 : Shape.Concatenates [S400000x128, S400000x128, S400000x1] S400000x257 1
  slices_S3x257x128_S1x257x128_0_0_0 : S3x257x128.Slices ![0, 0, 0] S1x257x128
  shapeCasts_S1x257x128_S257x128 : S1x257x128.ShapeCasts S257x128
  slices_S3x128_S1x128_0_0 : S3x128.Slices ![0, 0] S1x128
  shapeCasts_S1x128_S128 : S1x128.ShapeCasts S128
  slices_S3x128x128_S1x128x128_0_0_0 : S3x128x128.Slices ![0, 0, 0] S1x128x128
  shapeCasts_S1x128x128_S128x128 : S1x128x128.ShapeCasts S128x128
  shapeCasts_S128_S1x128 : S128.ShapeCasts S1x128
  inb_S4000x257_S4000x257_0_0 : ∀ a, (![0, 0] : Fin 2 → Nat) a + S4000x257.size a ≤ S4000x257.size a
  h_S4000x257 : 0 < S4000x257.numel
  shapeCasts_S4000x257_S4000x257 : S4000x257.ShapeCasts S4000x257
  bitsLt_bf16_f32 : FTy.bits .bf16 < FTy.bits .f32
  inb_S257x128_S257x128_0_0 : ∀ a, (![0, 0] : Fin 2 → Nat) a + S257x128.size a ≤ S257x128.size a
  h_S257x128 : 0 < S257x128.numel
  shapeCasts_S257x128_S257x128 : S257x128.ShapeCasts S257x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4000x128_S4000x128_0_0 : ∀ a, (![0, 0] : Fin 2 → Nat) a + S4000x128.size a ≤ S4000x128.size a
  h_S4000x128 : 0 < S4000x128.numel
  concatenates_S50000x128_S50000x128_S50000x256_d1 : Shape.Concatenates [S50000x128, S50000x128] S50000x256 1
  slices_S3x256x128_S1x256x128_0_0_0 : S3x256x128.Slices ![0, 0, 0] S1x256x128
  shapeCasts_S1x256x128_S256x128 : S1x256x128.ShapeCasts S256x128
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  slices_S3x257x128_S1x257x128_1_0_0 : S3x257x128.Slices ![1, 0, 0] S1x257x128
  slices_S3x128_S1x128_1_0 : S3x128.Slices ![1, 0] S1x128
  slices_S3x128x128_S1x128x128_1_0_0 : S3x128x128.Slices ![1, 0, 0] S1x128x128
  slices_S3x256x128_S1x256x128_1_0_0 : S3x256x128.Slices ![1, 0, 0] S1x256x128
  slices_S3x257x128_S1x257x128_2_0_0 : S3x257x128.Slices ![2, 0, 0] S1x257x128
  slices_S3x128_S1x128_2_0 : S3x128.Slices ![2, 0] S1x128
  slices_S3x128x128_S1x128x128_2_0_0 : S3x128x128.Slices ![2, 0, 0] S1x128x128
  slices_S3x256x128_S1x256x128_2_0_0 : S3x256x128.Slices ![2, 0, 0] S1x256x128
  bcast_S_S64x128 : S_.BroadcastsInDim S64x128 (![] : Fin 0 → Fin S64x128.rank)
  bcast_S_S64x1 : S_.BroadcastsInDim S64x1 (![] : Fin 0 → Fin S64x1.rank)
  bcast_S64x1_S64x128_0_1 : S64x1.BroadcastsInDim S64x128 (![0, 1] : Fin 2 → Fin S64x128.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S1x1_S64x1_0_1 : S1x1.BroadcastsInDim S64x1 (![0, 1] : Fin 2 → Fin S64x1.rank)
  gather_S101x128_S50000x1_S50000x128_1_0_n_n_0_1_1128_wf : GatherDims.WF S101x128 S50000x1 S50000x128 [1] [0] [] [0] [] 1 ![1, 128]
  gather_S50000x128_S400000x1_S400000x128_1_0_n_n_0_1_1128_wf : GatherDims.WF S50000x128 S400000x1 S400000x128 [1] [0] [] [0] [] 1 ![1, 128]
  dot_S4000x257_S257x128_S4000x128_1_0_0_1_n_n_wf : DotDims.WF S4000x257 S257x128 S4000x128 [1] [0] [0] [1] [] []
  dot_S4000x128_S128x128_S4000x128_1_0_0_1_n_n_wf : DotDims.WF S4000x128 S128x128 S4000x128 [1] [0] [0] [1] [] []
  scatter_S50000x128_S400000x1_S400000x128_1_0_0_1_wf : ScatterDims.WF S50000x128 S400000x1 S400000x128 [1] [0] [0] 1
  dot_S5000x256_S256x128_S5000x128_1_0_0_1_n_n_wf : DotDims.WF S5000x256 S256x128 S5000x128 [1] [0] [0] [1] [] []
  dot_S5000x128_S128x128_S5000x128_1_0_0_1_n_n_wf : DotDims.WF S5000x128 S128x128 S5000x128 [1] [0] [0] [1] [] []
  scatter_S64x128_S50000x1_S50000x128_1_0_0_1_wf : ScatterDims.WF S64x128 S50000x1 S50000x128 [1] [0] [0] 1
  scatter_S64x1_S50000x1_S50000x1_1_0_0_1_wf : ScatterDims.WF S64x1 S50000x1 S50000x1 [1] [0] [0] 1
  dot_S64x128_S128x128_S64x128_1_0_0_1_n_n_wf : DotDims.WF S64x128 S128x128 S64x128 [1] [0] [0] [1] [] []
  dot_S64x128_S128x1_S64x1_1_0_0_1_n_n_wf : DotDims.WF S64x128 S128x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x257.size a ≤ S400000x257.size a
  hwx0_0 : ∀ i : grid0.Coords, EltTy.bits .f32 = 32 ∨ (Rect.block (s := S400000x257) S4000x257.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S257x128.size a ≤ S257x128.size a
  hwx0_1 : ∀ i : grid0.Coords, EltTy.bits .f32 = 32 ∨ (Rect.block (s := S257x128) S257x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S400000x128.size a
  hwx0_5 : ∀ i : grid0.Coords, EltTy.bits .f32 = 32 ∨ (Rect.block (s := S400000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x257.size a ≤ S400000x257.size a
  hwx2_0 : ∀ i : grid2.Coords, EltTy.bits .f32 = 32 ∨ (Rect.block (s := S400000x257) S4000x257.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S257x128.size a ≤ S257x128.size a
  hwx2_1 : ∀ i : grid2.Coords, EltTy.bits .f32 = 32 ∨ (Rect.block (s := S257x128) S257x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S400000x128.size a
  hwx2_5 : ∀ i : grid2.Coords, EltTy.bits .f32 = 32 ∨ (Rect.block (s := S400000x128) S4000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x128.size a ≤ S256x128.size a
  hwx3_1 : ∀ i : grid3.Coords, EltTy.bits .f32 = 32 ∨ (Rect.block (s := S256x128) S256x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x257.size a ≤ S400000x257.size a
  hwx4_0 : ∀ i : grid4.Coords, EltTy.bits .f32 = 32 ∨ (Rect.block (s := S400000x257) S4000x257.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S257x128.size a ≤ S257x128.size a
  hwx4_1 : ∀ i : grid4.Coords, EltTy.bits .f32 = 32 ∨ (Rect.block (s := S257x128) S257x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S4000x128.size a ≤ S400000x128.size a
  hwx4_5 : ∀ i : grid4.Coords, EltTy.bits .f32 = 32 ∨ (Rect.block (s := S400000x128) S4000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x256.size a ≤ S50000x256.size a
  hwx5_0 : ∀ i : grid5.Coords, EltTy.bits .f32 = 32 ∨ (Rect.block (s := S50000x256) S5000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x128.size a ≤ S256x128.size a
  hwx5_1 : ∀ i : grid5.Coords, EltTy.bits .f32 = 32 ∨ (Rect.block (s := S256x128) S256x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S50000x128.size a
  hwx5_6 : ∀ i : grid5.Coords, EltTy.bits .f32 = 32 ∨ (Rect.block (s := S50000x128) S5000x128.size (cc5_transform_6 i) (hinb5_6 i)).WholeWords (EltTy.packing .f32)

variable [Facts₀]

def gather_S101x128_S50000x1_S50000x128_1_0_n_n_0_1_1128 : GatherDims S101x128 S50000x1 S50000x128 where
  offsetDims := [1]
  collapsedSliceDims := [0]
  operandBatchingDims := []
  startIndicesBatchingDims := []
  startIndexMap := [0]
  indexVectorDim := 1
  sliceSizes := ![1, 128]
  wf := gather_S101x128_S50000x1_S50000x128_1_0_n_n_0_1_1128_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S4000x257_S257x128_S4000x128_1_0_0_1_n_n : DotDims S4000x257 S257x128 S4000x128 where
  lhsContracting := [1]
  rhsContracting := [0]
  lhsNonContracting := [0]
  rhsNonContracting := [1]
  lhsBatch := []
  rhsBatch := []
  wf := dot_S4000x257_S257x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64x1_S50000x1_S50000x1_1_0_0_1 : ScatterDims S64x1 S50000x1 S50000x1 where
  updateWindowDims := [1]
  insertedWindowDims := [0]
  scatterDimsToOperandDims := [0]
  indexVectorDim := 1
  wf := scatter_S64x1_S50000x1_S50000x1_1_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

abbrev win0_0 : Pipeline.Window sig grid0 :=
  Pipeline.Window.ofSpec (Memref.whole main_v7) S4000x257.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S257x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S5000x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v33) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v36) S4000x257.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S257x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v46) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S4000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v51) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S256x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v61) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v33) S5000x128.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v62) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v65) S4000x257.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v67) S257x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v74) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v71) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v75) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v76) S4000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v80) S5000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v82) S256x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v89) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v86) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v90) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v62) S5000x128.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v91) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S50000 : Shape := ⟨1, ![50000]⟩
abbrev S2x400000 : Shape := ⟨2, ![2, 400000]⟩
abbrev S400000x1 : Shape := ⟨2, ![400000, 1]⟩
abbrev S101x128 : Shape := ⟨2, ![101, 128]⟩
abbrev S3x257x128 : Shape := ⟨3, ![3, 257, 128]⟩
abbrev S3x128 : Shape := ⟨2, ![3, 128]⟩
abbrev S3x128x128 : Shape := ⟨3, ![3, 128, 128]⟩
abbrev S3x256x128 : Shape := ⟨3, ![3, 256, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x400000 : Shape := ⟨2, ![1, 400000]⟩
abbrev S400000 : Shape := ⟨1, ![400000]⟩
abbrev S_ : Shape := ⟨0, ![]⟩
abbrev S50000x1 : Shape := ⟨2, ![50000, 1]⟩
abbrev S50000x128 : Shape := ⟨2, ![50000, 128]⟩
abbrev S400000x128 : Shape := ⟨2, ![400000, 128]⟩
abbrev S400000x257 : Shape := ⟨2, ![400000, 257]⟩
abbrev S1x257x128 : Shape := ⟨3, ![1, 257, 128]⟩
abbrev S257x128 : Shape := ⟨2, ![257, 128]⟩
abbrev S1x128 : Shape := ⟨2, ![1, 128]⟩
abbrev S1x128x128 : Shape := ⟨3, ![1, 128, 128]⟩
abbrev S50000x256 : Shape := ⟨2, ![50000, 256]⟩
abbrev S1x256x128 : Shape := ⟨3, ![1, 256, 128]⟩
abbrev S256x128 : Shape := ⟨2, ![256, 128]⟩
abbrev S64x128 : Shape := ⟨2, ![64, 128]⟩
abbrev S64x1 : Shape := ⟨2, ![64, 1]⟩
abbrev S1x1 : Shape := ⟨2, ![1, 1]⟩

abbrev nBuf : Space → Nat
  | .hbm => 245
  | .vmem => 0
  | .smem => 0
  | _ => 0

abbrev hbmTy0_0 (i : Nat) : BufTy := match i % 128 with
  | 0 => ⟨S50000, .i32⟩
  | 1 => ⟨S2x400000, .i32⟩
  | 2 => ⟨S400000x1, .f32⟩
  | 3 => ⟨S50000, .i32⟩
  | 4 => ⟨S101x128, .f32⟩
  | 5 => ⟨S3x257x128, .f32⟩
  | 6 => ⟨S3x128, .f32⟩
  | 7 => ⟨S3x128x128, .f32⟩
  | 8 => ⟨S3x128, .f32⟩
  | 9 => ⟨S3x256x128, .f32⟩
  | 10 => ⟨S3x128, .f32⟩
  | 11 => ⟨S3x128x128, .f32⟩
  | 12 => ⟨S3x128, .f32⟩
  | 13 => ⟨S128x128, .f32⟩
  | 14 => ⟨S128, .f32⟩
  | 15 => ⟨S128x1, .f32⟩
  | 16 => ⟨S1, .f32⟩
  | 17 => ⟨S1x400000, .i32⟩
  | 18 => ⟨S400000, .i32⟩
  | 19 => ⟨S1x400000, .i32⟩
  | 20 => ⟨S400000, .i32⟩
  | 21 => ⟨S_, .i32⟩
  | 22 => ⟨S50000, .i32⟩
  | 23 => ⟨S50000, .i1⟩
  | 24 => ⟨S_, .i32⟩
  | 25 => ⟨S50000, .i32⟩
  | 26 => ⟨S50000, .i32⟩
  | 27 => ⟨S50000, .i32⟩
  | 28 => ⟨S50000x1, .i32⟩
  | 29 => ⟨S50000x128, .f32⟩
  | 30 => ⟨S_, .i32⟩
  | 31 => ⟨S400000, .i32⟩
  | 32 => ⟨S400000, .i1⟩
  | 33 => ⟨S_, .i32⟩
  | 34 => ⟨S400000, .i32⟩
  | 35 => ⟨S400000, .i32⟩
  | 36 => ⟨S400000, .i32⟩
  | 37 => ⟨S400000x1, .i32⟩
  | 38 => ⟨S400000x128, .f32⟩
  | 39 => ⟨S_, .i32⟩
  | 40 => ⟨S400000, .i32⟩
  | 41 => ⟨S400000, .i1⟩
  | 42 => ⟨S_, .i32⟩
  | 43 => ⟨S400000, .i32⟩
  | 44 => ⟨S400000, .i32⟩
  | 45 => ⟨S400000, .i32⟩
  | 46 => ⟨S400000x1, .i32⟩
  | 47 => ⟨S400000x128, .f32⟩
  | 48 => ⟨S400000x257, .f32⟩
  | 49 => ⟨S1x257x128, .f32⟩
  | 50 => ⟨S257x128, .f32⟩
  | 51 => ⟨S1x128, .f32⟩
  | 52 => ⟨S128, .f32⟩
  | 53 => ⟨S400000x128, .f32⟩
  | 54 => ⟨S1x128, .f32⟩
  | 55 => ⟨S400000x128, .f32⟩
  | 56 => ⟨S400000x128, .f32⟩
  | 57 => ⟨S_, .f32⟩
  | 58 => ⟨S400000x128, .f32⟩
  | 59 => ⟨S400000x128, .f32⟩
  | 60 => ⟨S1x128x128, .f32⟩
  | 61 => ⟨S128x128, .f32⟩
  | 62 => ⟨S1x128, .f32⟩
  | 63 => ⟨S128, .f32⟩
  | 64 => ⟨S400000x128, .f32⟩
  | 65 => ⟨S1x128, .f32⟩
  | 66 => ⟨S400000x128, .f32⟩
  | 67 => ⟨S400000x128, .f32⟩
  | 68 => ⟨S_, .f32⟩
  | 69 => ⟨S50000x128, .f32⟩
  | 70 => ⟨S400000x1, .i32⟩
  | 71 => ⟨S50000x128, .f32⟩
  | 72 => ⟨S50000x256, .f32⟩
  | 73 => ⟨S1x256x128, .f32⟩
  | 74 => ⟨S256x128, .f32⟩
  | 75 => ⟨S1x128, .f32⟩
  | 76 => ⟨S128, .f32⟩
  | 77 => ⟨S50000x128, .f32⟩
  | 78 => ⟨S1x128, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S1x128x128, .f32⟩
  | 85 => ⟨S128x128, .f32⟩
  | 86 => ⟨S1x128, .f32⟩
  | 87 => ⟨S128, .f32⟩
  | 88 => ⟨S50000x128, .f32⟩
  | 89 => ⟨S1x128, .f32⟩
  | 90 => ⟨S50000x128, .f32⟩
  | 91 => ⟨S50000x128, .f32⟩
  | 92 => ⟨S50000x128, .f32⟩
  | 93 => ⟨S_, .i32⟩
  | 94 => ⟨S400000, .i32⟩
  | 95 => ⟨S400000, .i1⟩
  | 96 => ⟨S_, .i32⟩
  | 97 => ⟨S400000, .i32⟩
  | 98 => ⟨S400000, .i32⟩
  | 99 => ⟨S400000, .i32⟩
  | 100 => ⟨S400000x1, .i32⟩
  | 101 => ⟨S400000x128, .f32⟩
  | 102 => ⟨S_, .i32⟩
  | 103 => ⟨S400000, .i32⟩
  | 104 => ⟨S400000, .i1⟩
  | 105 => ⟨S_, .i32⟩
  | 106 => ⟨S400000, .i32⟩
  | 107 => ⟨S400000, .i32⟩
  | 108 => ⟨S400000, .i32⟩
  | 109 => ⟨S400000x1, .i32⟩
  | 110 => ⟨S400000x128, .f32⟩
  | 111 => ⟨S400000x257, .f32⟩
  | 112 => ⟨S1x257x128, .f32⟩
  | 113 => ⟨S257x128, .f32⟩
  | 114 => ⟨S1x128, .f32⟩
  | 115 => ⟨S128, .f32⟩
  | 116 => ⟨S400000x128, .f32⟩
  | 117 => ⟨S1x128, .f32⟩
  | 118 => ⟨S400000x128, .f32⟩
  | 119 => ⟨S400000x128, .f32⟩
  | 120 => ⟨S_, .f32⟩
  | 121 => ⟨S400000x128, .f32⟩
  | 122 => ⟨S400000x128, .f32⟩
  | 123 => ⟨S1x128x128, .f32⟩
  | 124 => ⟨S128x128, .f32⟩
  | 125 => ⟨S1x128, .f32⟩
  | 126 => ⟨S128, .f32⟩
  | 127 => ⟨S400000x128, .f32⟩
  | _ => ⟨S50000, .i32⟩

abbrev hbmTy0_1 (i : Nat) : BufTy := match i % 128 with
  | 0 => ⟨S1x128, .f32⟩
  | 1 => ⟨S400000x128, .f32⟩
  | 2 => ⟨S400000x128, .f32⟩
  | 3 => ⟨S_, .f32⟩
  | 4 => ⟨S50000x128, .f32⟩
  | 5 => ⟨S400000x1, .i32⟩
  | 6 => ⟨S50000x128, .f32⟩
  | 7 => ⟨S50000x256, .f32⟩
  | 8 => ⟨S1x256x128, .f32⟩
  | 9 => ⟨S256x128, .f32⟩
  | 10 => ⟨S1x128, .f32⟩
  | 11 => ⟨S128, .f32⟩
  | 12 => ⟨S50000x128, .f32⟩
  | 13 => ⟨S1x128, .f32⟩
  | 14 => ⟨S50000x128, .f32⟩
  | 15 => ⟨S50000x128, .f32⟩
  | 16 => ⟨S_, .f32⟩
  | 17 => ⟨S50000x128, .f32⟩
  | 18 => ⟨S50000x128, .f32⟩
  | 19 => ⟨S1x128x128, .f32⟩
  | 20 => ⟨S128x128, .f32⟩
  | 21 => ⟨S1x128, .f32⟩
  | 22 => ⟨S128, .f32⟩
  | 23 => ⟨S50000x128, .f32⟩
  | 24 => ⟨S1x128, .f32⟩
  | 25 => ⟨S50000x128, .f32⟩
  | 26 => ⟨S50000x128, .f32⟩
  | 27 => ⟨S50000x128, .f32⟩
  | 28 => ⟨S_, .i32⟩
  | 29 => ⟨S400000, .i32⟩
  | 30 => ⟨S400000, .i1⟩
  | 31 => ⟨S_, .i32⟩
  | 32 => ⟨S400000, .i32⟩
  | 33 => ⟨S400000, .i32⟩
  | 34 => ⟨S400000, .i32⟩
  | 35 => ⟨S400000x1, .i32⟩
  | 36 => ⟨S400000x128, .f32⟩
  | 37 => ⟨S_, .i32⟩
  | 38 => ⟨S400000, .i32⟩
  | 39 => ⟨S400000, .i1⟩
  | 40 => ⟨S_, .i32⟩
  | 41 => ⟨S400000, .i32⟩
  | 42 => ⟨S400000, .i32⟩
  | 43 => ⟨S400000, .i32⟩
  | 44 => ⟨S400000x1, .i32⟩
  | 45 => ⟨S400000x128, .f32⟩
  | 46 => ⟨S400000x257, .f32⟩
  | 47 => ⟨S1x257x128, .f32⟩
  | 48 => ⟨S257x128, .f32⟩
  | 49 => ⟨S1x128, .f32⟩
  | 50 => ⟨S128, .f32⟩
  | 51 => ⟨S400000x128, .f32⟩
  | 52 => ⟨S1x128, .f32⟩
  | 53 => ⟨S400000x128, .f32⟩
  | 54 => ⟨S400000x128, .f32⟩
  | 55 => ⟨S_, .f32⟩
  | 56 => ⟨S400000x128, .f32⟩
  | 57 => ⟨S400000x128, .f32⟩
  | 58 => ⟨S1x128x128, .f32⟩
  | 59 => ⟨S128x128, .f32⟩
  | 60 => ⟨S1x128, .f32⟩
  | 61 => ⟨S128, .f32⟩
  | 62 => ⟨S400000x128, .f32⟩
  | 63 => ⟨S1x128, .f32⟩
  | 64 => ⟨S400000x128, .f32⟩
  | 65 => ⟨S400000x128, .f32⟩
  | 66 => ⟨S_, .f32⟩
  | 67 => ⟨S50000x128, .f32⟩
  | 68 => ⟨S400000x1, .i32⟩
  | 69 => ⟨S50000x128, .f32⟩
  | 70 => ⟨S50000x256, .f32⟩
  | 71 => ⟨S1x256x128, .f32⟩
  | 72 => ⟨S256x128, .f32⟩
  | 73 => ⟨S1x128, .f32⟩
  | 74 => ⟨S128, .f32⟩
  | 75 => ⟨S50000x128, .f32⟩
  | 76 => ⟨S1x128, .f32⟩
  | 77 => ⟨S50000x128, .f32⟩
  | 78 => ⟨S50000x128, .f32⟩
  | 79 => ⟨S_, .f32⟩
  | 80 => ⟨S50000x128, .f32⟩
  | 81 => ⟨S50000x128, .f32⟩
  | 82 => ⟨S1x128x128, .f32⟩
  | 83 => ⟨S128x128, .f32⟩
  | 84 => ⟨S1x128, .f32⟩
  | 85 => ⟨S128, .f32⟩
  | 86 => ⟨S50000x128, .f32⟩
  | 87 => ⟨S1x128, .f32⟩
  | 88 => ⟨S50000x128, .f32⟩
  | 89 => ⟨S50000x128, .f32⟩
  | 90 => ⟨S50000x128, .f32⟩
  | 91 => ⟨S_, .f32⟩
  | 92 => ⟨S64x128, .f32⟩
  | 93 => ⟨S50000x1, .i32⟩
  | 94 => ⟨S64x128, .f32⟩
  | 95 => ⟨S_, .f32⟩
  | 96 => ⟨S50000x1, .f32⟩
  | 97 => ⟨S_, .f32⟩
  | 98 => ⟨S64x1, .f32⟩
  | 99 => ⟨S50000x1, .i32⟩
  | 100 => ⟨S64x1, .f32⟩
  | 101 => ⟨S_, .f32⟩
  | 102 => ⟨S64x1, .f32⟩
  | 103 => ⟨S64x1, .f32⟩
  | 104 => ⟨S64x128, .f32⟩
  | 105 => ⟨S64x128, .f32⟩
  | 106 => ⟨S64x128, .f32⟩
  | 107 => ⟨S1x128, .f32⟩
  | 108 => ⟨S64x128, .f32⟩
  | 109 => ⟨S64x128, .f32⟩
  | 110 => ⟨S_, .f32⟩
  | 111 => ⟨S64x128, .f32⟩
  | 112 => ⟨S64x128, .f32⟩
  | 113 => ⟨S64x1, .f32⟩
  | 114 => ⟨S1x1, .f32⟩
  | 115 => ⟨S64x1, .f32⟩
  | 116 => ⟨S64x1, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c_1 : Ref sig .tc := ⟨.hbm, 30, rfl⟩
abbrev main_v11 : Ref sig .tc := ⟨.hbm, 31, rfl⟩
abbrev main_v12 : Ref sig .tc := ⟨.hbm, 32, rfl⟩
abbrev main_c_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c_3 : Ref sig .tc := ⟨.hbm, 39, rfl⟩
abbrev main_v18 : Ref sig .tc := ⟨.hbm, 40, rfl⟩
abbrev main_v19 : Ref sig .tc := ⟨.hbm, 41, rfl⟩
abbrev main_c_4 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_call0_cst : Ref sig .tc := ⟨.hbm, 57, rfl⟩
abbrev main_call0_v0 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_call1_cst : Ref sig .tc := ⟨.hbm, 81, rfl⟩
abbrev main_call1_v0 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_5 : Ref sig .tc := ⟨.hbm, 93, rfl⟩
abbrev main_v65 : Ref sig .tc := ⟨.hbm, 94, rfl⟩
abbrev main_v66 : Ref sig .tc := ⟨.hbm, 95, rfl⟩
abbrev main_c_6 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_7 : Ref sig .tc := ⟨.hbm, 102, rfl⟩
abbrev main_v72 : Ref sig .tc := ⟨.hbm, 103, rfl⟩
abbrev main_v73 : Ref sig .tc := ⟨.hbm, 104, rfl⟩
abbrev main_c_8 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_call2_cst : Ref sig .tc := ⟨.hbm, 120, rfl⟩
abbrev main_call2_v0 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_9 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_call3_cst : Ref sig .tc := ⟨.hbm, 144, rfl⟩
abbrev main_call3_v0 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_c_10 : Ref sig .tc := ⟨.hbm, 156, rfl⟩
abbrev main_v119 : Ref sig .tc := ⟨.hbm, 157, rfl⟩
abbrev main_v120 : Ref sig .tc := ⟨.hbm, 158, rfl⟩
abbrev main_c_11 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_c_12 : Ref sig .tc := ⟨.hbm, 165, rfl⟩
abbrev main_v126 : Ref sig .tc := ⟨.hbm, 166, rfl⟩
abbrev main_v127 : Ref sig .tc := ⟨.hbm, 167, rfl⟩
abbrev main_c_13 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_call4_cst : Ref sig .tc := ⟨.hbm, 183, rfl⟩
abbrev main_call4_v0 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_cst_14 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_call5_cst : Ref sig .tc := ⟨.hbm, 207, rfl⟩
abbrev main_call5_v0 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_cst_15 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_cst_16 : Ref sig .tc := ⟨.hbm, 223, rfl⟩
abbrev main_v176 : Ref sig .tc := ⟨.hbm, 224, rfl⟩
abbrev main_cst_17 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_cst_18 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_call6_cst : Ref sig .tc := ⟨.hbm, 238, rfl⟩
abbrev main_call6_v0 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S50000 : S_.BroadcastsInDim S50000 (![] : Fin 0 → Fin S50000.rank)
  bcast_S50000_S50000x1_0 : S50000.BroadcastsInDim S50000x1 (![0] : Fin 1 → Fin S50000x1.rank)
  bcast_S_S400000 : S_.BroadcastsInDim S400000 (![] : Fin 0 → Fin S400000.rank)
  bcast_S400000_S400000x1_0 : S400000.BroadcastsInDim S400000x1 (![0] : Fin 1 → Fin S400000x1.rank)
  concatenates_S400000x128_S400000x128_S400000x1_S400000x257_d1 : Shape.Concatenates [S400000x128, S400000x128, S400000x1] S400000x257 1
  slices_S3x257x128_S1x257x128_0_0_0 : S3x257x128.Slices ![0, 0, 0] S1x257x128
  shapeCasts_S1x257x128_S257x128 : S1x257x128.ShapeCasts S257x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  slices_S3x128x128_S1x128x128_0_0_0 : S3x128x128.Slices ![0, 0, 0] S1x128x128
  shapeCasts_S1x128x128_S128x128 : S1x128x128.ShapeCasts S128x128
  bcast_S_S50000x128 : S_.BroadcastsInDim S50000x128 (![] : Fin 0 → Fin S50000x128.rank)
  concatenates_S50000x128_S50000x128_S50000x256_d1 : Shape.Concatenates [S50000x128, S50000x128] S50000x256 1
  slices_S3x256x128_S1x256x128_0_0_0 : S3x256x128.Slices ![0, 0, 0] S1x256x128
  shapeCasts_S1x256x128_S256x128 : S1x256x128.ShapeCasts S256x128
  bcast_S1x128_S50000x128_0_1 : S1x128.BroadcastsInDim S50000x128 (![0, 1] : Fin 2 → Fin S50000x128.rank)
  slices_S3x257x128_S1x257x128_1_0_0 : S3x257x128.Slices ![1, 0, 0] S1x257x128
  slices_S3x128_S1x128_1_0 : S3x128.Slices ![1, 0] S1x128
  slices_S3x128x128_S1x128x128_1_0_0 : S3x128x128.Slices ![1, 0, 0] S1x128x128
  slices_S3x256x128_S1x256x128_1_0_0 : S3x256x128.Slices ![1, 0, 0] S1x256x128
  slices_S3x257x128_S1x257x128_2_0_0 : S3x257x128.Slices ![2, 0, 0] S1x257x128
  slices_S3x128_S1x128_2_0 : S3x128.Slices ![2, 0] S1x128
  slices_S3x128x128_S1x128x128_2_0_0 : S3x128x128.Slices ![2, 0, 0] S1x128x128
  slices_S3x256x128_S1x256x128_2_0_0 : S3x256x128.Slices ![2, 0, 0] S1x256x128
  bcast_S_S64x128 : S_.BroadcastsInDim S64x128 (![] : Fin 0 → Fin S64x128.rank)
  bcast_S_S50000x1 : S_.BroadcastsInDim S50000x1 (![] : Fin 0 → Fin S50000x1.rank)
  bcast_S_S64x1 : S_.BroadcastsInDim S64x1 (![] : Fin 0 → Fin S64x1.rank)
  bcast_S64x1_S64x128_0_1 : S64x1.BroadcastsInDim S64x128 (![0, 1] : Fin 2 → Fin S64x128.rank)
  bcast_S1x128_S64x128_0_1 : S1x128.BroadcastsInDim S64x128 (![0, 1] : Fin 2 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  gather_S101x128_S50000x1_S50000x128_1_0_n_n_0_1_1128_wf : GatherDims.WF S101x128 S50000x1 S50000x128 [1] [0] [] [0] [] 1 ![1, 128]
  gather_S50000x128_S400000x1_S400000x128_1_0_n_n_0_1_1128_wf : GatherDims.WF S50000x128 S400000x1 S400000x128 [1] [0] [] [0] [] 1 ![1, 128]
  dot_S400000x257_S257x128_S400000x128_1_0_0_1_n_n_wf : DotDims.WF S400000x257 S257x128 S400000x128 [1] [0] [0] [1] [] []
  dot_S400000x128_S128x128_S400000x128_1_0_0_1_n_n_wf : DotDims.WF S400000x128 S128x128 S400000x128 [1] [0] [0] [1] [] []
  scatter_S50000x128_S400000x1_S400000x128_1_0_0_1_wf : ScatterDims.WF S50000x128 S400000x1 S400000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []
  scatter_S64x128_S50000x1_S50000x128_1_0_0_1_wf : ScatterDims.WF S64x128 S50000x1 S50000x128 [1] [0] [0] 1
  scatter_S64x1_S50000x1_S50000x1_1_0_0_1_wf : ScatterDims.WF S64x1 S50000x1 S50000x1 [1] [0] [0] 1
  dot_S64x128_S128x128_S64x128_1_0_0_1_n_n_wf : DotDims.WF S64x128 S128x128 S64x128 [1] [0] [0] [1] [] []
  dot_S64x128_S128x1_S64x1_1_0_0_1_n_n_wf : DotDims.WF S64x128 S128x1 S64x1 [1] [0] [0] [1] [] []

variable [Facts₀]

def gather_S101x128_S50000x1_S50000x128_1_0_n_n_0_1_1128 : GatherDims S101x128 S50000x1 S50000x128 where
  offsetDims := [1]
  collapsedSliceDims := [0]
  operandBatchingDims := []
  startIndicesBatchingDims := []
  startIndexMap := [0]
  indexVectorDim := 1
  sliceSizes := ![1, 128]
  wf := gather_S101x128_S50000x1_S50000x128_1_0_n_n_0_1_1128_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S400000x257_S257x128_S400000x128_1_0_0_1_n_n : DotDims S400000x257 S257x128 S400000x128 where
  lhsContracting := [1]
  rhsContracting := [0]
  lhsNonContracting := [0]
  rhsNonContracting := [1]
  lhsBatch := []
  rhsBatch := []
  wf := dot_S400000x257_S257x128_S400000x128_1_0_0_1_n_n_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64x1_S50000x1_S50000x1_1_0_0_1 : ScatterDims S64x1 S50000x1 S50000x1 where
  updateWindowDims := [1]
  insertedWindowDims := [0]
  scatterDimsToOperandDims := [0]
  indexVectorDim := 1
  wf := scatter_S64x1_S50000x1_S50000x1_1_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

class Facts : Prop extends Facts₀ where

variable [Facts]
-- ==== Proof.K.Region0.lean ====
import proofs.«407354_j16939351015862_1_alg».proof.Proof.Gen.Kernel.Launch
import proofs.«407354_j16939351015862_1_alg».proof.Proof.Gen.Kernel.Skeleton
import proofs.«407354_j16939351015862_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_5 (x0 : Vec F S4000x257 .f32) (x1 : Vec F S257x128 .f32) (x2 : Vec F S1x128 .f32) (x3 : Vec F S128x128 .f32) (x4 : Vec F S1x128 .f32) : Vec F S4000x128 .f32 :=
  View.canon [⟨(Rect.unit (s := S4000x128) ![0, 0] S4000x128.size inb_S4000x128_S4000x128_0_0), k0_pay1 (View.ld x0 (Rect.unit (s := S4000x257) ![0, 0] S4000x257.size inb_S4000x257_S4000x257_0_0)) (View.ld x1 (Rect.unit (s := S257x128) ![0, 0] S257x128.size inb_S257x128_S257x128_0_0)) (View.ld x2 (Rect.unit (s := S1x128) ![0, 0] S1x128.size inb_S1x128_S1x128_0_0)) (View.ld x3 (Rect.unit (s := S128x128) ![0, 0] S128x128.size inb_S128x128_S128x128_0_0)) (View.ld x4 (Rect.unit (s := S1x128) ![0, 0] S1x128.size inb_S1x128_S1x128_0_0))⟩]

theorem cover0_5 (p0 : Vec F S4000x128 .f32) (y : S4000x128.Idx) :
    ∃ pc ∈ ([⟨(Rect.unit (s := S4000x128) ![0, 0] S4000x128.size inb_S4000x128_S4000x128_0_0), p0⟩] : List (View.Piece (Elt F) S4000x128 .f32)), y ∈ pc.1.set :=
  View.cover_of_tiled [⟨(Rect.unit (s := S4000x128) ![0, 0] S4000x128.size inb_S4000x128_S4000x128_0_0), p0⟩] S4000x128.size (by rfl) y

set_option maxHeartbeats 1000000 in
theorem sound_kernel0 (c : Dev nD) (E : Set ℕ) (i : grid0.Coords)
    (arg1 : Memref sig .tc .vmem S4000x257 .f32) (harg1 : arg1.IsWhole)
    (arg2 : Memref sig .tc .vmem S257x128 .f32) (harg2 : arg2.IsWhole)
    (arg3 : Memref sig .tc .vmem S1x128 .f32) (harg3 : arg3.IsWhole)
    (arg4 : Memref sig .tc .vmem S128x128 .f32) (harg4 : arg4.IsWhole)
    (arg5 : Memref sig .tc .vmem S1x128 .f32) (harg5 : arg5.IsWhole)
    (arg6 : Memref sig .tc .vmem S4000x128 .f32) (harg6 : arg6.IsWhole)
    (x0 : Vec F S4000x257 .f32) (x1 : Vec F S257x128 .f32) (x2 : Vec F S1x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__mlp2_kernel i arg1 harg1 arg2 harg2 arg3 harg3 arg4 harg4 arg5 harg5 arg6 harg6) K := by
  simp only [cc0__mlp2_kernel_eq_skeleton]; unfold cc0__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
import proofs.«407354_j16939351015862_1_alg».proof.Proof.Gen.Kernel.Launch
import proofs.«407354_j16939351015862_1_alg».proof.Proof.Gen.Kernel.Skeleton
import proofs.«407354_j16939351015862_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_6 (x0 : Vec F S5000x256 .f32) (x1 : Vec F S256x128 .f32) (x2 : Vec F S1x128 .f32) (x3 : Vec F S128x128 .f32) (x4 : Vec F S1x128 .f32) (x5 : Vec F S5000x128 .f32) : Vec F S5000x128 .f32 :=
  View.canon [⟨(Rect.unit (s := S5000x128) ![0, 0] S5000x128.size inb_S5000x128_S5000x128_0_0), k1_pay1 (View.ld x0 (Rect.unit (s := S5000x256) ![0, 0] S5000x256.size inb_S5000x256_S5000x256_0_0)) (View.ld x1 (Rect.unit (s := S256x128) ![0, 0] S256x128.size inb_S256x128_S256x128_0_0)) (View.ld x2 (Rect.unit (s := S1x128) ![0, 0] S1x128.size inb_S1x128_S1x128_0_0)) (View.ld x3 (Rect.unit (s := S128x128) ![0, 0] S128x128.size inb_S128x128_S128x128_0_0)) (View.ld x4 (Rect.unit (s := S1x128) ![0, 0] S1x128.size inb_S1x128_S1x128_0_0)) (View.ld x5 (Rect.unit (s := S5000x128) ![0, 0] S5000x128.size inb_S5000x128_S5000x128_0_0))⟩]

theorem cover1_6 (p0 : Vec F S5000x128 .f32) (y : S5000x128.Idx) :
    ∃ pc ∈ ([⟨(Rect.unit (s := S5000x128) ![0, 0] S5000x128.size inb_S5000x128_S5000x128_0_0), p0⟩] : List (View.Piece (Elt F) S5000x128 .f32)), y ∈ pc.1.set :=
  View.cover_of_tiled [⟨(Rect.unit (s := S5000x128) ![0, 0] S5000x128.size inb_S5000x128_S5000x128_0_0), p0⟩] S5000x128.size (by rfl) y

set_option maxHeartbeats 1000000 in
theorem sound_kernel1 (c : Dev nD) (E : Set ℕ) (i : grid1.Coords)
    (arg1 : Memref sig .tc .vmem S5000x256 .f32) (harg1 : arg1.IsWhole)
    (arg2 : Memref sig .tc .vmem S256x128 .f32) (harg2 : arg2.IsWhole)
    (arg3 : Memref sig .tc .vmem S1x128 .f32) (harg3 : arg3.IsWhole)
    (arg4 : Memref sig .tc .vmem S128x128 .f32) (harg4 : arg4.IsWhole)
    (arg5 : Memref sig .tc .vmem S1x128 .f32) (harg5 : arg5.IsWhole)
    (arg6 : Memref sig .tc .vmem S5000x128 .f32) (harg6 : arg6.IsWhole)
    (arg7 : Memref sig .tc .vmem S5000x128 .f32) (harg7 : arg7.IsWhole)
    (x0 : Vec F S5000x256 .f32) (x1 : Vec F S256x128 .f32) (x2 : Vec F S1x128 .f32) (x3 : Vec F S128x128 .f32) (x4 : Vec F S1x128 .f32) (x5 : Vec F S5000x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__mlp2_residual_kernel i arg1 harg1 arg2 harg2 arg3 harg3 arg4 harg4 arg5 harg5 arg6 harg6 arg7 harg7) K := by
  simp only [cc1__mlp2_residual_kernel_eq_skeleton]; unfold cc1__mlp2_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl
theorem before1_5 (c : Dev nD) (t : Fin cfg1.N) (d) : (dat1 V c).before 5 t d = iblk1 V c 5 t :=
  ((dat1 V c).before_in_eq_fetched 5 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Region2.lean ====
import proofs.«407354_j16939351015862_1_alg».proof.Proof.K.Region0
import proofs.«407354_j16939351015862_1_alg».proof.Proof.Gen.Kernel.Launch
import proofs.«407354_j16939351015862_1_alg».proof.Proof.Gen.Kernel.Skeleton
import proofs.«407354_j16939351015862_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out0_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out0_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  -- this call runs the kernel function of call 0, so the run proved there serves
  rw [show @cc2__mlp2_kernel F _ = @cc0__mlp2_kernel F _ from rfl]
  iapply (sound_kernel0 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Region3.lean ====
import proofs.«407354_j16939351015862_1_alg».proof.Proof.K.Region1
import proofs.«407354_j16939351015862_1_alg».proof.Proof.Gen.Kernel.Launch
import proofs.«407354_j16939351015862_1_alg».proof.Proof.Gen.Kernel.Skeleton
import proofs.«407354_j16939351015862_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out1_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out1_6 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl
theorem before3_3 (c : Dev nD) (t : Fin cfg3.N) (d) : (dat3 V c).before 3 t d = iblk3 V c 3 t :=
  ((dat3 V c).before_in_eq_fetched 3 rfl (fun _ => rfl) (fun _ _ _ => rfl) (fun _ => rfl) t d).trans rfl
theorem before3_4 (c : Dev nD) (t : Fin cfg3.N) (d) : (dat3 V c).before 4 t d = iblk3 V c 4 t :=
  ((dat3 V c).before_in_eq_fetched 4 rfl (fun _ => rfl) (fun _ _ _ => rfl) (fun _ => rfl) t d).trans rfl
theorem before3_5 (c : Dev nD) (t : Fin cfg3.N) (d) : (dat3 V c).before 5 t d = iblk3 V c 5 t :=
  ((dat3 V c).before_in_eq_fetched 5 rfl (fun _ => rfl) (fun _ _ _ => rfl) (fun _ => rfl) t d).trans rfl

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  -- this call runs the kernel function of call 1, so the run proved there serves
  rw [show @cc3__mlp2_residual_kernel F _ = @cc1__mlp2_residual_kernel F _ from rfl]
  iapply (sound_kernel1 c Set.univ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Region4.lean ====
import proofs.«407354_j16939351015862_1_alg».proof.Proof.K.Region0
import proofs.«407354_j16939351015862_1_alg».proof.Proof.Gen.Kernel.Launch
import proofs.«407354_j16939351015862_1_alg».proof.Proof.Gen.Kernel.Skeleton
import proofs.«407354_j16939351015862_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out0_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out0_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl
theorem before4_2 (c : Dev nD) (t : Fin cfg4.N) (d) : (dat4 V c).before 2 t d = iblk4 V c 2 t :=
  ((dat4 V c).before_in_eq_fetched 2 rfl (fun _ => rfl) (fun _ _ _ => rfl) (fun _ => rfl) t d).trans rfl
theorem before4_3 (c : Dev nD) (t : Fin cfg4.N) (d) : (dat4 V c).before 3 t d = iblk4 V c 3 t :=
  ((dat4 V c).before_in_eq_fetched 3 rfl (fun _ => rfl) (fun _ _ _ => rfl) (fun _ => rfl) t d).trans rfl
theorem before4_4 (c : Dev nD) (t : Fin cfg4.N) (d) : (dat4 V c).before 4 t d = iblk4 V c 4 t :=
  ((dat4 V c).before_in_eq_fetched 4 rfl (fun _ => rfl) (fun _ _ _ => rfl) (fun _ => rfl) t d).trans rfl

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  -- this call runs the kernel function of call 0, so the run proved there serves
  rw [show @cc4__mlp2_kernel F _ = @cc0__mlp2_kernel F _ from rfl]
  iapply (sound_kernel0 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Region5.lean ====
import proofs.«407354_j16939351015862_1_alg».proof.Proof.K.Region1
import proofs.«407354_j16939351015862_1_alg».proof.Proof.Gen.Kernel.Launch
import proofs.«407354_j16939351015862_1_alg».proof.Proof.Gen.Kernel.Skeleton
import proofs.«407354_j16939351015862_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out1_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out1_6 (iblk5 V c 0 t) (iblk5 V c 1 t) (iblk5 V c 2 t) (iblk5 V c 3 t) (iblk5 V c 4 t) (iblk5 V c 5 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun _ => rfl) t d).trans rfl
theorem before5_3 (c : Dev nD) (t : Fin cfg5.N) (d) : (dat5 V c).before 3 t d = iblk5 V c 3 t :=
  ((dat5 V c).before_in_eq_fetched 3 rfl (fun _ => rfl) (fun _ _ _ => rfl) (fun _ => rfl) t d).trans rfl
theorem before5_4 (c : Dev nD) (t : Fin cfg5.N) (d) : (dat5 V c).before 4 t d = iblk5 V c 4 t :=
  ((dat5 V c).before_in_eq_fetched 4 rfl (fun _ => rfl) (fun _ _ _ => rfl) (fun _ => rfl) t d).trans rfl
theorem before5_5 (c : Dev nD) (t : Fin cfg5.N) (d) : (dat5 V c).before 5 t d = iblk5 V c 5 t :=
  ((dat5 V c).before_in_eq_fetched 5 rfl (fun _ => rfl) (fun _ _ _ => rfl) (fun _ => rfl) t d).trans rfl

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  -- this call runs the kernel function of call 1, so the run proved there serves
  rw [show @cc5__mlp2_residual_kernel F _ = @cc1__mlp2_residual_kernel F _ from rfl]
  iapply (sound_kernel1 c Set.univ _ _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Fold.lean ====
import proofs.«407354_j16939351015862_1_alg».proof.Proof.Gen.Kernel.Regions
import proofs.«407354_j16939351015862_1_alg».proof.Proof.K.Region0
import proofs.«407354_j16939351015862_1_alg».proof.Proof.K.Region1
import proofs.«407354_j16939351015862_1_alg».proof.Proof.K.Region2
import proofs.«407354_j16939351015862_1_alg».proof.Proof.K.Region3
import proofs.«407354_j16939351015862_1_alg».proof.Proof.K.Region4
import proofs.«407354_j16939351015862_1_alg».proof.Proof.K.Region5

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]
variable (m : (ℓ : Loc nD τ sig) → Buf (Elt F) ℓ)

abbrev atTc (W : Dev nD → Valuation τ sig (Elt F)) : (c : Dev nD) → (b : Ref sig .tc) → Buf (Elt F) ((c : Thread nD τ).loc b) := fun c b => W c b

def o6 (c : Dev nD) : Buf (Elt F) ((c : Thread nD τ).loc main_v18) := (dat0 (atTc (V5 m)) c).arrAt 5 cfg0.N
abbrev X6 (c : Dev nD) : Valuation τ sig (Elt F) := Function.update (V5 m c) main_v18 (o6 m c)
abbrev X7 (c : Dev nD) : Valuation τ sig (Elt F) := StableHlo.after hostOps1 (X6 m c)

def o8 (c : Dev nD) : Buf (Elt F) ((c : Thread nD τ).loc main_v33) := (dat1 (atTc (X7 m)) c).arrAt 6 cfg1.N
abbrev X8 (c : Dev nD) : Valuation τ sig (Elt F) := Function.update (X7 m c) main_v33 (o8 m c)
abbrev X9 (c : Dev nD) : Valuation τ sig (Elt F) := StableHlo.after hostOps2 (X8 m c)
abbrev X10 (c : Dev nD) : Valuation τ sig (Elt F) := StableHlo.after hostOps2_1 (X9 m c)
abbrev X11 (c : Dev nD) : Valuation τ sig (Elt F) := StableHlo.after hostOps2_2 (X10 m c)

def o12 (c : Dev nD) : Buf (Elt F) ((c : Thread nD τ).loc main_v47) := (dat2 (atTc (X11 m)) c).arrAt 5 cfg2.N
abbrev X12 (c : Dev nD) : Valuation τ sig (Elt F) := Function.update (X11 m c) main_v47 (o12 m c)
abbrev X13 (c : Dev nD) : Valuation τ sig (Elt F) := StableHlo.after hostOps3 (X12 m c)

def o14 (c : Dev nD) : Buf (Elt F) ((c : Thread nD τ).loc main_v62) := (dat3 (atTc (X13 m)) c).arrAt 6 cfg3.N
abbrev X14 (c : Dev nD) : Valuation τ sig (Elt F) := Function.update (X13 m c) main_v62 (o14 m c)
abbrev X15 (c : Dev nD) : Valuation τ sig (Elt F) := StableHlo.after hostOps4 (X14 m c)
abbrev X16 (c : Dev nD) : Valuation τ sig (Elt F) := StableHlo.after hostOps4_1 (X15 m c)
abbrev X17 (c : Dev nD) : Valuation τ sig (Elt F) := StableHlo.after hostOps4_2 (X16 m c)

def o18 (c : Dev nD) : Buf (Elt F) ((c : Thread nD τ).loc main_v76) := (dat4 (atTc (X17 m)) c).arrAt 5 cfg4.N
abbrev X18 (c : Dev nD) : Valuation τ sig (Elt F) := Function.update (X17 m c) main_v76 (o18 m c)
abbrev X19 (c : Dev nD) : Valuation τ sig (Elt F) := StableHlo.after hostOps5 (X18 m c)

def o20 (c : Dev nD) : Buf (Elt F) ((c : Thread nD τ).loc main_v91) := (dat5 (atTc (X19 m)) c).arrAt 6 cfg5.N
abbrev X20 (c : Dev nD) : Valuation τ sig (Elt F) := Function.update (X19 m c) main_v91 (o20 m c)
abbrev X21 (c : Dev nD) : Valuation τ sig (Elt F) := StableHlo.after hostOps6 (X20 m c)

def outs : Outs (F := F) := fun J r c =>
  match J with
  | 6 => X6 m c r
  | 8 => X8 m c r
  | 12 => X12 m c r
  | 14 => X14 m c r
  | 18 => X18 m c r
  | 20 => X20 m c r
  | _ => V0 m c r

theorem V6_eq (c : Dev nD) : V6 m (outs m) c = X6 m c := by
  show Function.update (V5 m c) main_v18 (Function.update (V5 m c) main_v18 (o6 m c) main_v18) = _
  rw [Function.update_self]
theorem V7_eq (c : Dev nD) : V7 m (outs m) c = X7 m c := by
  show StableHlo.after hostOps1 (V6 m (outs m) c) = _; rw [V6_eq]
theorem V8_eq (c : Dev nD) : V8 m (outs m) c = X8 m c := by
  show Function.update (V7 m (outs m) c) main_v33 (Function.update (X7 m c) main_v33 (o8 m c) main_v33) = _
  rw [Function.update_self, V7_eq]
theorem V9_eq (c : Dev nD) : V9 m (outs m) c = X9 m c := by
  show StableHlo.after hostOps2 (V8 m (outs m) c) = _; rw [V8_eq]
theorem V10_eq (c : Dev nD) : V10 m (outs m) c = X10 m c := by
  show StableHlo.after hostOps2_1 (V9 m (outs m) c) = _; rw [V9_eq]
theorem V11_eq (c : Dev nD) : V11 m (outs m) c = X11 m c := by
  show StableHlo.after hostOps2_2 (V10 m (outs m) c) = _; rw [V10_eq]
theorem V12_eq (c : Dev nD) : V12 m (outs m) c = X12 m c := by
  show Function.update (V11 m (outs m) c) main_v47 (Function.update (X11 m c) main_v47 (o12 m c) main_v47) = _
  rw [Function.update_self, V11_eq]
theorem V13_eq (c : Dev nD) : V13 m (outs m) c = X13 m c := by
  show StableHlo.after hostOps3 (V12 m (outs m) c) = _; rw [V12_eq]
theorem V14_eq (c : Dev nD) : V14 m (outs m) c = X14 m c := by
  show Function.update (V13 m (outs m) c) main_v62 (Function.update (X13 m c) main_v62 (o14 m c) main_v62) = _
  rw [Function.update_self, V13_eq]
theorem V15_eq (c : Dev nD) : V15 m (outs m) c = X15 m c := by
  show StableHlo.after hostOps4 (V14 m (outs m) c) = _; rw [V14_eq]
theorem V16_eq (c : Dev nD) : V16 m (outs m) c = X16 m c := by
  show StableHlo.after hostOps4_1 (V15 m (outs m) c) = _; rw [V15_eq]
theorem V17_eq (c : Dev nD) : V17 m (outs m) c = X17 m c := by
  show StableHlo.after hostOps4_2 (V16 m (outs m) c) = _; rw [V16_eq]
theorem V18_eq (c : Dev nD) : V18 m (outs m) c = X18 m c := by
  show Function.update (V17 m (outs m) c) main_v76 (Function.update (X17 m c) main_v76 (o18 m c) main_v76) = _
  rw [Function.update_self, V17_eq]
theorem V19_eq (c : Dev nD) : V19 m (outs m) c = X19 m c := by
  show StableHlo.after hostOps5 (V18 m (outs m) c) = _; rw [V18_eq]
theorem V20_eq (c : Dev nD) : V20 m (outs m) c = X20 m c := by
  show Function.update (V19 m (outs m) c) main_v91 (Function.update (X19 m c) main_v91 (o20 m c) main_v91) = _
  rw [Function.update_self, V19_eq]
theorem V21_eq (c : Dev nD) : V21 m (outs m) c = X21 m c := by
  show StableHlo.after hostOps6 (V20 m (outs m) c) = _; rw [V20_eq]

def pdats : (p : Fin 6) → (c : Dev nD) → Dat τ (Elt F) Unit ℕ (UR sig nD τ) ℕ (cfgs p) c
  | ⟨0, _⟩ => fun c => dat0 (atTc (V5 m)) c
  | ⟨1, _⟩ => fun c => dat1 (atTc (X7 m)) c
  | ⟨2, _⟩ => fun c => dat2 (atTc (X11 m)) c
  | ⟨3, _⟩ => fun c => dat3 (atTc (X13 m)) c
  | ⟨4, _⟩ => fun c => dat4 (atTc (X17 m)) c
  | ⟨5, _⟩ => fun c => dat5 (atTc (X19 m)) c

local notation "𝕄" => MT nD τ sig Unit (Elt F) ℕ (UR sig nD τ) ℕ

abbrev 𝒱₀ : Variants := Variants.none

abbrev L : GSem nD τ sig → Finset Unit := fun _ => ∅
abbrev lv : GSem nD τ sig → Unit → ℕ := fun _ _ => 0

abbrev Rst (c : Dev nD) : sProp 𝕄 := iprop((∃ r, prngReg c r) ∗ ∃ W, owes (c : Thread nD τ) (0 : CellTallies nD τ sig Unit) W)

end Cert.Kernel.Hand

end
-- ==== Proof.K.Seg0.lean ====
import proofs.«407354_j16939351015862_1_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem X6_of (c : Dev nD) (r : Ref sig .tc) (h : r ∉ ([main_v18] : List (Ref sig .tc))) : X6 m c r = V5 m c r := by
  simp only [X6, Function.update_of_ne (StableHlo.devRef_ne_of_ne (List.ne_of_not_mem_cons h) : (Proc.devRef .tc r : DevRef τ sig) ≠ Proc.devRef .tc main_v18)]

set_option maxHeartbeats 1000000 in
theorem hF0 (c : Dev nD) (w : Fin cfg0.W) : (dat0 (atTc (V5 m)) c).arrAt w cfg0.N = X6 m c (Pipeline.arrRef spec0 w) := by
  match w with
  | ⟨0, _⟩ => exact (((dat0 (atTc (V5 m)) c).arrAt_in 0 rfl _).trans (A_eq0 (atTc (V5 m)) c 0)).trans (X6_of m c main_v7 (by decide)).symm
  | ⟨1, _⟩ => exact (((dat0 (atTc (V5 m)) c).arrAt_in 1 rfl _).trans (A_eq0 (atTc (V5 m)) c 1)).trans (X6_of m c main_v9 (by decide)).symm
  | ⟨2, _⟩ => exact (((dat0 (atTc (V5 m)) c).arrAt_in 2 rfl _).trans (A_eq0 (atTc (V5 m)) c 2)).trans (X6_of m c main_v16 (by decide)).symm
  | ⟨3, _⟩ => exact (((dat0 (atTc (V5 m)) c).arrAt_in 3 rfl _).trans (A_eq0 (atTc (V5 m)) c 3)).trans (X6_of m c main_v13 (by decide)).symm
  | ⟨4, _⟩ => exact (((dat0 (atTc (V5 m)) c).arrAt_in 4 rfl _).trans (A_eq0 (atTc (V5 m)) c 4)).trans (X6_of m c main_v17 (by decide)).symm
  | ⟨5, _⟩ => exact (Function.update_self (β := fun b : DevRef τ sig => b.ty.Contents (Elt F)) (Proc.devRef .tc main_v18) (o6 m c) (V5 m c)).symm

theorem hrest0 (c : Dev nD) : ∀ b, b ∉ Finset.univ.image (Pipeline.arrRef spec0) → atTc (X6 m) c b = atTc (V5 m) c b :=
  fun b hb => X6_of m c b (by
    intro hmem
    rw [List.mem_singleton] at hmem
    subst hmem
    exact hb (Finset.mem_image.mpr ⟨5, Finset.mem_univ _, rfl⟩))

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atTc (V5 m)) c).loose
  hwaits := Pipeline.hwaits_of_owed_zero _ _ _ _ L lv 0 fun _ _ => rfl
  pre c := iprop(StableHlo.held (c : Thread nD τ) (Pipeline.ucRefs τ sig) (V5 m c) ∗ Rst c)
  post c := iprop(StableHlo.held (c : Thread nD τ) (Pipeline.ucRefs τ sig) (X6 m c) ∗ Rst c)
  X c := iprop(∃ r, prngReg c r)
  Y c := iprop(∃ r, prngReg c r)
  Z c := Pipeline.unscopedRest (Ix := Unit) (Name := ℕ) (U := UR sig nD τ) (Lvl := ℕ) spec0 c (atTc (V5 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (V5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (V5 m) c) (atTc (X6 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg1.lean ====
import proofs.«407354_j16939351015862_1_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem X8_of (c : Dev nD) (r : Ref sig .tc) (h : r ∉ ([main_v33] : List (Ref sig .tc))) : X8 m c r = X7 m c r := by
  simp only [X8, Function.update_of_ne (StableHlo.devRef_ne_of_ne (List.ne_of_not_mem_cons h) : (Proc.devRef .tc r : DevRef τ sig) ≠ Proc.devRef .tc main_v33)]

set_option maxHeartbeats 1000000 in
theorem hF1 (c : Dev nD) (w : Fin cfg1.W) : (dat1 (atTc (X7 m)) c).arrAt w cfg1.N = X8 m c (Pipeline.arrRef spec1 w) := by
  match w with
  | ⟨0, _⟩ => exact (((dat1 (atTc (X7 m)) c).arrAt_in 0 rfl _).trans (A_eq1 (atTc (X7 m)) c 0)).trans (X8_of m c main_v22 (by decide)).symm
  | ⟨1, _⟩ => exact (((dat1 (atTc (X7 m)) c).arrAt_in 1 rfl _).trans (A_eq1 (atTc (X7 m)) c 1)).trans (X8_of m c main_v24 (by decide)).symm
  | ⟨2, _⟩ => exact (((dat1 (atTc (X7 m)) c).arrAt_in 2 rfl _).trans (A_eq1 (atTc (X7 m)) c 2)).trans (X8_of m c main_v31 (by decide)).symm
  | ⟨3, _⟩ => exact (((dat1 (atTc (X7 m)) c).arrAt_in 3 rfl _).trans (A_eq1 (atTc (X7 m)) c 3)).trans (X8_of m c main_v28 (by decide)).symm
  | ⟨4, _⟩ => exact (((dat1 (atTc (X7 m)) c).arrAt_in 4 rfl _).trans (A_eq1 (atTc (X7 m)) c 4)).trans (X8_of m c main_v32 (by decide)).symm
  | ⟨5, _⟩ => exact (((dat1 (atTc (X7 m)) c).arrAt_in 5 rfl _).trans (A_eq1 (atTc (X7 m)) c 5)).trans (X8_of m c main_v4 (by decide)).symm
  | ⟨6, _⟩ => exact (Function.update_self (β := fun b : DevRef τ sig => b.ty.Contents (Elt F)) (Proc.devRef .tc main_v33) (o8 m c) (X7 m c)).symm

theorem hrest1 (c : Dev nD) : ∀ b, b ∉ Finset.univ.image (Pipeline.arrRef spec1) → atTc (X8 m) c b = atTc (X7 m) c b :=
  fun b hb => X8_of m c b (by
    intro hmem
    rw [List.mem_singleton] at hmem
    subst hmem
    exact hb (Finset.mem_image.mpr ⟨6, Finset.mem_univ _, rfl⟩))

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atTc (X7 m)) c).loose
  hwaits := Pipeline.hwaits_of_owed_zero _ _ _ _ L lv 1 fun _ _ => rfl
  pre c := iprop(StableHlo.held (c : Thread nD τ) (Pipeline.ucRefs τ sig) (X7 m c) ∗ Rst c)
  post c := iprop(StableHlo.held (c : Thread nD τ) (Pipeline.ucRefs τ sig) (X8 m c) ∗ Rst c)
  X c := iprop(∃ r, prngReg c r)
  Y c := iprop(∃ r, prngReg c r)
  Z c := Pipeline.unscopedRest (Ix := Unit) (Name := ℕ) (U := UR sig nD τ) (Lvl := ℕ) spec1 c (atTc (X7 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (X7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (X7 m) c) (atTc (X8 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg2.lean ====
import proofs.«407354_j16939351015862_1_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem X12_of (c : Dev nD) (r : Ref sig .tc) (h : r ∉ ([main_v47] : List (Ref sig .tc))) : X12 m c r = X11 m c r := by
  simp only [X12, Function.update_of_ne (StableHlo.devRef_ne_of_ne (List.ne_of_not_mem_cons h) : (Proc.devRef .tc r : DevRef τ sig) ≠ Proc.devRef .tc main_v47)]

set_option maxHeartbeats 1000000 in
theorem hF2 (c : Dev nD) (w : Fin cfg2.W) : (dat2 (atTc (X11 m)) c).arrAt w cfg2.N = X12 m c (Pipeline.arrRef spec2 w) := by
  match w with
  | ⟨0, _⟩ => exact (((dat2 (atTc (X11 m)) c).arrAt_in 0 rfl _).trans (A_eq2 (atTc (X11 m)) c 0)).trans (X12_of m c main_v36 (by decide)).symm
  | ⟨1, _⟩ => exact (((dat2 (atTc (X11 m)) c).arrAt_in 1 rfl _).trans (A_eq2 (atTc (X11 m)) c 1)).trans (X12_of m c main_v38 (by decide)).symm
  | ⟨2, _⟩ => exact (((dat2 (atTc (X11 m)) c).arrAt_in 2 rfl _).trans (A_eq2 (atTc (X11 m)) c 2)).trans (X12_of m c main_v45 (by decide)).symm
  | ⟨3, _⟩ => exact (((dat2 (atTc (X11 m)) c).arrAt_in 3 rfl _).trans (A_eq2 (atTc (X11 m)) c 3)).trans (X12_of m c main_v42 (by decide)).symm
  | ⟨4, _⟩ => exact (((dat2 (atTc (X11 m)) c).arrAt_in 4 rfl _).trans (A_eq2 (atTc (X11 m)) c 4)).trans (X12_of m c main_v46 (by decide)).symm
  | ⟨5, _⟩ => exact (Function.update_self (β := fun b : DevRef τ sig => b.ty.Contents (Elt F)) (Proc.devRef .tc main_v47) (o12 m c) (X11 m c)).symm

theorem hrest2 (c : Dev nD) : ∀ b, b ∉ Finset.univ.image (Pipeline.arrRef spec2) → atTc (X12 m) c b = atTc (X11 m) c b :=
  fun b hb => X12_of m c b (by
    intro hmem
    rw [List.mem_singleton] at hmem
    subst hmem
    exact hb (Finset.mem_image.mpr ⟨5, Finset.mem_univ _, rfl⟩))

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atTc (X11 m)) c).loose
  hwaits := Pipeline.hwaits_of_owed_zero _ _ _ _ L lv 2 fun _ _ => rfl
  pre c := iprop(StableHlo.held (c : Thread nD τ) (Pipeline.ucRefs τ sig) (X11 m c) ∗ Rst c)
  post c := iprop(StableHlo.held (c : Thread nD τ) (Pipeline.ucRefs τ sig) (X12 m c) ∗ Rst c)
  X c := iprop(∃ r, prngReg c r)
  Y c := iprop(∃ r, prngReg c r)
  Z c := Pipeline.unscopedRest (Ix := Unit) (Name := ℕ) (U := UR sig nD τ) (Lvl := ℕ) spec2 c (atTc (X11 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (X11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (X11 m) c) (atTc (X12 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg3.lean ====
import proofs.«407354_j16939351015862_1_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem X14_of (c : Dev nD) (r : Ref sig .tc) (h : r ∉ ([main_v62] : List (Ref sig .tc))) : X14 m c r = X13 m c r := by
  simp only [X14, Function.update_of_ne (StableHlo.devRef_ne_of_ne (List.ne_of_not_mem_cons h) : (Proc.devRef .tc r : DevRef τ sig) ≠ Proc.devRef .tc main_v62)]

set_option maxHeartbeats 1000000 in
theorem hF3 (c : Dev nD) (w : Fin cfg3.W) : (dat3 (atTc (X13 m)) c).arrAt w cfg3.N = X14 m c (Pipeline.arrRef spec3 w) := by
  match w with
  | ⟨0, _⟩ => exact (((dat3 (atTc (X13 m)) c).arrAt_in 0 rfl _).trans (A_eq3 (atTc (X13 m)) c 0)).trans (X14_of m c main_v51 (by decide)).symm
  | ⟨1, _⟩ => exact (((dat3 (atTc (X13 m)) c).arrAt_in 1 rfl _).trans (A_eq3 (atTc (X13 m)) c 1)).trans (X14_of m c main_v53 (by decide)).symm
  | ⟨2, _⟩ => exact (((dat3 (atTc (X13 m)) c).arrAt_in 2 rfl _).trans (A_eq3 (atTc (X13 m)) c 2)).trans (X14_of m c main_v60 (by decide)).symm
  | ⟨3, _⟩ => exact (((dat3 (atTc (X13 m)) c).arrAt_in 3 rfl _).trans (A_eq3 (atTc (X13 m)) c 3)).trans (X14_of m c main_v57 (by decide)).symm
  | ⟨4, _⟩ => exact (((dat3 (atTc (X13 m)) c).arrAt_in 4 rfl _).trans (A_eq3 (atTc (X13 m)) c 4)).trans (X14_of m c main_v61 (by decide)).symm
  | ⟨5, _⟩ => exact (((dat3 (atTc (X13 m)) c).arrAt_in 5 rfl _).trans (A_eq3 (atTc (X13 m)) c 5)).trans (X14_of m c main_v33 (by decide)).symm
  | ⟨6, _⟩ => exact (Function.update_self (β := fun b : DevRef τ sig => b.ty.Contents (Elt F)) (Proc.devRef .tc main_v62) (o14 m c) (X13 m c)).symm

theorem hrest3 (c : Dev nD) : ∀ b, b ∉ Finset.univ.image (Pipeline.arrRef spec3) → atTc (X14 m) c b = atTc (X13 m) c b :=
  fun b hb => X14_of m c b (by
    intro hmem
    rw [List.mem_singleton] at hmem
    subst hmem
    exact hb (Finset.mem_image.mpr ⟨6, Finset.mem_univ _, rfl⟩))

set_option backward.isDefEq.respectTransparency.types false in
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (atTc (X13 m)) c).loose
  hwaits := Pipeline.hwaits_of_owed_zero _ _ _ _ L lv 3 fun _ _ => rfl
  pre c := iprop(StableHlo.held (c : Thread nD τ) (Pipeline.ucRefs τ sig) (X13 m c) ∗ Rst c)
  post c := iprop(StableHlo.held (c : Thread nD τ) (Pipeline.ucRefs τ sig) (X14 m c) ∗ Rst c)
  X c := iprop(∃ r, prngReg c r)
  Y c := iprop(∃ r, prngReg c r)
  Z c := Pipeline.unscopedRest (Ix := Unit) (Name := ℕ) (U := UR sig nD τ) (Lvl := ℕ) spec3 c (atTc (X13 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (X13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (X13 m) c) (atTc (X14 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg4.lean ====
import proofs.«407354_j16939351015862_1_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem X18_of (c : Dev nD) (r : Ref sig .tc) (h : r ∉ ([main_v76] : List (Ref sig .tc))) : X18 m c r = X17 m c r := by
  simp only [X18, Function.update_of_ne (StableHlo.devRef_ne_of_ne (List.ne_of_not_mem_cons h) : (Proc.devRef .tc r : DevRef τ sig) ≠ Proc.devRef .tc main_v76)]

set_option maxHeartbeats 1000000 in
theorem hF4 (c : Dev nD) (w : Fin cfg4.W) : (dat4 (atTc (X17 m)) c).arrAt w cfg4.N = X18 m c (Pipeline.arrRef spec4 w) := by
  match w with
  | ⟨0, _⟩ => exact (((dat4 (atTc (X17 m)) c).arrAt_in 0 rfl _).trans (A_eq4 (atTc (X17 m)) c 0)).trans (X18_of m c main_v65 (by decide)).symm
  | ⟨1, _⟩ => exact (((dat4 (atTc (X17 m)) c).arrAt_in 1 rfl _).trans (A_eq4 (atTc (X17 m)) c 1)).trans (X18_of m c main_v67 (by decide)).symm
  | ⟨2, _⟩ => exact (((dat4 (atTc (X17 m)) c).arrAt_in 2 rfl _).trans (A_eq4 (atTc (X17 m)) c 2)).trans (X18_of m c main_v74 (by decide)).symm
  | ⟨3, _⟩ => exact (((dat4 (atTc (X17 m)) c).arrAt_in 3 rfl _).trans (A_eq4 (atTc (X17 m)) c 3)).trans (X18_of m c main_v71 (by decide)).symm
  | ⟨4, _⟩ => exact (((dat4 (atTc (X17 m)) c).arrAt_in 4 rfl _).trans (A_eq4 (atTc (X17 m)) c 4)).trans (X18_of m c main_v75 (by decide)).symm
  | ⟨5, _⟩ => exact (Function.update_self (β := fun b : DevRef τ sig => b.ty.Contents (Elt F)) (Proc.devRef .tc main_v76) (o18 m c) (X17 m c)).symm

theorem hrest4 (c : Dev nD) : ∀ b, b ∉ Finset.univ.image (Pipeline.arrRef spec4) → atTc (X18 m) c b = atTc (X17 m) c b :=
  fun b hb => X18_of m c b (by
    intro hmem
    rw [List.mem_singleton] at hmem
    subst hmem
    exact hb (Finset.mem_image.mpr ⟨5, Finset.mem_univ _, rfl⟩))

set_option backward.isDefEq.respectTransparency.types false in
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (atTc (X17 m)) c).loose
  hwaits := Pipeline.hwaits_of_owed_zero _ _ _ _ L lv 4 fun _ _ => rfl
  pre c := iprop(StableHlo.held (c : Thread nD τ) (Pipeline.ucRefs τ sig) (X17 m c) ∗ Rst c)
  post c := iprop(StableHlo.held (c : Thread nD τ) (Pipeline.ucRefs τ sig) (X18 m c) ∗ Rst c)
  X c := iprop(∃ r, prngReg c r)
  Y c := iprop(∃ r, prngReg c r)
  Z c := Pipeline.unscopedRest (Ix := Unit) (Name := ℕ) (U := UR sig nD τ) (Lvl := ℕ) spec4 c (atTc (X17 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (atTc (X17 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atTc (X17 m) c) (atTc (X18 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg5.lean ====
import proofs.«407354_j16939351015862_1_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem X20_of (c : Dev nD) (r : Ref sig .tc) (h : r ∉ ([main_v91] : List (Ref sig .tc))) : X20 m c r = X19 m c r := by
  simp only [X20, Function.update_of_ne (StableHlo.devRef_ne_of_ne (List.ne_of_not_mem_cons h) : (Proc.devRef .tc r : DevRef τ sig) ≠ Proc.devRef .tc main_v91)]

set_option maxHeartbeats 1000000 in
theorem hF5 (c : Dev nD) (w : Fin cfg5.W) : (dat5 (atTc (X19 m)) c).arrAt w cfg5.N = X20 m c (Pipeline.arrRef spec5 w) := by
  match w with
  | ⟨0, _⟩ => exact (((dat5 (atTc (X19 m)) c).arrAt_in 0 rfl _).trans (A_eq5 (atTc (X19 m)) c 0)).trans (X20_of m c main_v80 (by decide)).symm
  | ⟨1, _⟩ => exact (((dat5 (atTc (X19 m)) c).arrAt_in 1 rfl _).trans (A_eq5 (atTc (X19 m)) c 1)).trans (X20_of m c main_v82 (by decide)).symm
  | ⟨2, _⟩ => exact (((dat5 (atTc (X19 m)) c).arrAt_in 2 rfl _).trans (A_eq5 (atTc (X19 m)) c 2)).trans (X20_of m c main_v89 (by decide)).symm
  | ⟨3, _⟩ => exact (((dat5 (atTc (X19 m)) c).arrAt_in 3 rfl _).trans (A_eq5 (atTc (X19 m)) c 3)).trans (X20_of m c main_v86 (by decide)).symm
  | ⟨4, _⟩ => exact (((dat5 (atTc (X19 m)) c).arrAt_in 4 rfl _).trans (A_eq5 (atTc (X19 m)) c 4)).trans (X20_of m c main_v90 (by decide)).symm
  | ⟨5, _⟩ => exact (((dat5 (atTc (X19 m)) c).arrAt_in 5 rfl _).trans (A_eq5 (atTc (X19 m)) c 5)).trans (X20_of m c main_v62 (by decide)).symm
  | ⟨6, _⟩ => exact (Function.update_self (β := fun b : DevRef τ sig => b.ty.Contents (Elt F)) (Proc.devRef .tc main_v91) (o20 m c) (X19 m c)).symm

theorem hrest5 (c : Dev nD) : ∀ b, b ∉ Finset.univ.image (Pipeline.arrRef spec5) → atTc (X20 m) c b = atTc (X19 m) c b :=
  fun b hb => X20_of m c b (by
    intro hmem
    rw [List.mem_singleton] at hmem
    subst hmem
    exact hb (Finset.mem_image.mpr ⟨6, Finset.mem_univ _, rfl⟩))

set_option backward.isDefEq.respectTransparency.types false in
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (atTc (X19 m)) c).loose
  hwaits := Pipeline.hwaits_of_owed_zero _ _ _ _ L lv 5 fun _ _ => rfl
  pre c := iprop(StableHlo.held (c : Thread nD τ) (Pipeline.ucRefs τ sig) (X19 m c) ∗ Rst c)
  post c := iprop(StableHlo.held (c : Thread nD τ) (Pipeline.ucRefs τ sig) (X20 m c) ∗ Rst c)
  X c := iprop(∃ r, prngReg c r)
  Y c := iprop(∃ r, prngReg c r)
  Z c := Pipeline.unscopedRest (Ix := Unit) (Name := ℕ) (U := UR sig nD τ) (Lvl := ℕ) spec5 c (atTc (X19 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (atTc (X19 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (atTc (X19 m) c) (atTc (X20 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Run.lean ====
import proofs.«407354_j16939351015862_1_alg».proof.Proof.K.Seg0
import proofs.«407354_j16939351015862_1_alg».proof.Proof.K.Seg1
import proofs.«407354_j16939351015862_1_alg».proof.Proof.K.Seg2
import proofs.«407354_j16939351015862_1_alg».proof.Proof.K.Seg3
import proofs.«407354_j16939351015862_1_alg».proof.Proof.K.Seg4
import proofs.«407354_j16939351015862_1_alg».proof.Proof.K.Seg5
import proofs.«407354_j16939351015862_1_alg».proof.Proof.K.RunCond

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hu0 : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
    ⊢ (|={Set.univ}=> bigSep Finset.univ (fun c : Dev nD => Rst (F := F) c) : sProp 𝕄) := by
  refine Pipeline.initEach L lv fun c => ?_
  iintro ⟨⟨-, HO, -, Hp, -⟩, -⟩
  imodintro
  isplitl [Hp]; · iexists _; iexact Hp
  iexists ∅; iexact HO

theorem hE6 (c : Dev nD) : Rst (F := F) c ⊢ (iprop(∃ W, owes (c : Thread nD τ) (0 : CellTallies nD τ sig Unit) W) : sProp 𝕄) := by
  iintro ⟨-, H⟩; iexact H

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem ((c : Thread nD τ).1, b) = X21 m c b) :=
  (θ_run defs _ _).mono (fun r h c b hb => (h c b hb).trans (congrFun (V21_eq m c) b))
    (GenP.run_cond m emb₁ () 𝒱₀ L lv (fun _ _ => rfl) ρ (outs m) (pdats m) 0 (fun _ => iprop(emp))
      (initOf (Pipeline.cells cfgs cellOf_inj) (Pipeline.launchToks cfgs cellOf_inj)) (hu0 (F := F)) (fun _ c => Rst c) (hE0 ρ) (hE6 (F := F))
      (reg0 m) (fun c => .rfl) (fun c => by rw [V6_eq]; exact .rfl)
      (reg1 m) (fun c => by rw [V7_eq]; exact .rfl) (fun c => by rw [V8_eq]; exact .rfl)
      (reg2 m) (fun c => by rw [V11_eq]; exact .rfl) (fun c => by rw [V12_eq]; exact .rfl)
      (reg3 m) (fun c => by rw [V13_eq]; exact .rfl) (fun c => by rw [V14_eq]; exact .rfl)
      (reg4 m) (fun c => by rw [V17_eq]; exact .rfl) (fun c => by rw [V18_eq]; exact .rfl)
      (reg5 m) (fun c => by rw [V19_eq]; exact .rfl) (fun c => by rw [V20_eq]; exact .rfl))

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem run_value : θ_run defs (onTc (τ := τ) (main (F := F))) ⟨m, fun _ => 0, ρ⟩ (fun r => ∀ c : Dev nD,
      r.2.mem ((c.tc : Thread nD τ).loc main_v112) = X21 m c main_v112
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨h c _ (mem_uc main_v112 (by decide)),
      (h c _ (mem_uc main_arg0 (by decide))).trans (((congrFun (V21_eq m c) _).symm).trans (V21_main_arg0 m (outs m) c)),
      (h c _ (mem_uc main_arg1 (by decide))).trans (((congrFun (V21_eq m c) _).symm).trans (V21_main_arg1 m (outs m) c)),
      (h c _ (mem_uc main_arg2 (by decide))).trans (((congrFun (V21_eq m c) _).symm).trans (V21_main_arg2 m (outs m) c)),
      (h c _ (mem_uc main_arg3 (by decide))).trans (((congrFun (V21_eq m c) _).symm).trans (V21_main_arg3 m (outs m) c)),
      (h c _ (mem_uc main_arg4 (by decide))).trans (((congrFun (V21_eq m c) _).symm).trans (V21_main_arg4 m (outs m) c)),
      (h c _ (mem_uc main_arg5 (by decide))).trans (((congrFun (V21_eq m c) _).symm).trans (V21_main_arg5 m (outs m) c)),
      (h c _ (mem_uc main_arg6 (by decide))).trans (((congrFun (V21_eq m c) _).symm).trans (V21_main_arg6 m (outs m) c)),
      (h c _ (mem_uc main_arg7 (by decide))).trans (((congrFun (V21_eq m c) _).symm).trans (V21_main_arg7 m (outs m) c)),
      (h c _ (mem_uc main_arg8 (by decide))).trans (((congrFun (V21_eq m c) _).symm).trans (V21_main_arg8 m (outs m) c)),
      (h c _ (mem_uc main_arg9 (by decide))).trans (((congrFun (V21_eq m c) _).symm).trans (V21_main_arg9 m (outs m) c)),
      (h c _ (mem_uc main_arg10 (by decide))).trans (((congrFun (V21_eq m c) _).symm).trans (V21_main_arg10 m (outs m) c)),
      (h c _ (mem_uc main_arg11 (by decide))).trans (((congrFun (V21_eq m c) _).symm).trans (V21_main_arg11 m (outs m) c)),
      (h c _ (mem_uc main_arg12 (by decide))).trans (((congrFun (V21_eq m c) _).symm).trans (V21_main_arg12 m (outs m) c)),
      (h c _ (mem_uc main_arg13 (by decide))).trans (((congrFun (V21_eq m c) _).symm).trans (V21_main_arg13 m (outs m) c)),
      (h c _ (mem_uc main_arg14 (by decide))).trans (((congrFun (V21_eq m c) _).symm).trans (V21_main_arg14 m (outs m) c)),
      (h c _ (mem_uc main_arg15 (by decide))).trans (((congrFun (V21_eq m c) _).symm).trans (V21_main_arg15 m (outs m) c)),
      (h c _ (mem_uc main_arg16 (by decide))).trans (((congrFun (V21_eq m c) _).symm).trans (V21_main_arg16 m (outs m) c))⟩) (run_all m ρ)

end Cert.Kernel.Hand

end
-- ==== Proof.KI.Region0.lean ====
import proofs.«407354_j16939351015862_1_alg».proof.Proof.Gen.KernelIdeal.Launch
import proofs.«407354_j16939351015862_1_alg».proof.Proof.Gen.KernelIdeal.Skeleton
import proofs.«407354_j16939351015862_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_5 (x0 : Vec F S4000x257 .f32) (x1 : Vec F S257x128 .f32) (x2 : Vec F S1x128 .f32) (x3 : Vec F S128x128 .f32) (x4 : Vec F S1x128 .f32) : Vec F S4000x128 .f32 :=
  View.canon [⟨(Rect.unit (s := S4000x128) ![0, 0] S4000x128.size inb_S4000x128_S4000x128_0_0), k0_pay1 (View.ld x0 (Rect.unit (s := S4000x257) ![0, 0] S4000x257.size inb_S4000x257_S4000x257_0_0)) (View.ld x1 (Rect.unit (s := S257x128) ![0, 0] S257x128.size inb_S257x128_S257x128_0_0)) (View.ld x2 (Rect.unit (s := S1x128) ![0, 0] S1x128.size inb_S1x128_S1x128_0_0)) (View.ld x3 (Rect.unit (s := S128x128) ![0, 0] S128x128.size inb_S128x128_S128x128_0_0)) (View.ld x4 (Rect.unit (s := S1x128) ![0, 0] S1x128.size inb_S1x128_S1x128_0_0))⟩]

theorem cover0_5 (p0 : Vec F S4000x128 .f32) (y : S4000x128.Idx) :
    ∃ pc ∈ ([⟨(Rect.unit (s := S4000x128) ![0, 0] S4000x128.size inb_S4000x128_S4000x128_0_0), p0⟩] : List (View.Piece (Elt F) S4000x128 .f32)), y ∈ pc.1.set :=
  View.cover_of_tiled [⟨(Rect.unit (s := S4000x128) ![0, 0] S4000x128.size inb_S4000x128_S4000x128_0_0), p0⟩] S4000x128.size (by rfl) y

set_option maxHeartbeats 1000000 in
theorem sound_kernel0 (c : Dev nD) (E : Set ℕ) (i : grid0.Coords)
    (arg1 : Memref sig .tc .vmem S4000x257 .f32) (harg1 : arg1.IsWhole)
    (arg2 : Memref sig .tc .vmem S257x128 .f32) (harg2 : arg2.IsWhole)
    (arg3 : Memref sig .tc .vmem S1x128 .f32) (harg3 : arg3.IsWhole)
    (arg4 : Memref sig .tc .vmem S128x128 .f32) (harg4 : arg4.IsWhole)
    (arg5 : Memref sig .tc .vmem S1x128 .f32) (harg5 : arg5.IsWhole)
    (arg6 : Memref sig .tc .vmem S4000x128 .f32) (harg6 : arg6.IsWhole)
    (x0 : Vec F S4000x257 .f32) (x1 : Vec F S257x128 .f32) (x2 : Vec F S1x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__mlp2_kernel i arg1 harg1 arg2 harg2 arg3 harg3 arg4 harg4 arg5 harg5 arg6 harg6) K := by
  simp only [cc0__mlp2_kernel_eq_skeleton]; unfold cc0__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
import proofs.«407354_j16939351015862_1_alg».proof.Proof.Gen.KernelIdeal.Launch
import proofs.«407354_j16939351015862_1_alg».proof.Proof.Gen.KernelIdeal.Skeleton
import proofs.«407354_j16939351015862_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_6 (x0 : Vec F S5000x256 .f32) (x1 : Vec F S256x128 .f32) (x2 : Vec F S1x128 .f32) (x3 : Vec F S128x128 .f32) (x4 : Vec F S1x128 .f32) (x5 : Vec F S5000x128 .f32) : Vec F S5000x128 .f32 :=
  View.canon [⟨(Rect.unit (s := S5000x128) ![0, 0] S5000x128.size inb_S5000x128_S5000x128_0_0), k1_pay1 (View.ld x0 (Rect.unit (s := S5000x256) ![0, 0] S5000x256.size inb_S5000x256_S5000x256_0_0)) (View.ld x1 (Rect.unit (s := S256x128) ![0, 0] S256x128.size inb_S256x128_S256x128_0_0)) (View.ld x2 (Rect.unit (s := S1x128) ![0, 0] S1x128.size inb_S1x128_S1x128_0_0)) (View.ld x3 (Rect.unit (s := S128x128) ![0, 0] S128x128.size inb_S128x128_S128x128_0_0)) (View.ld x4 (Rect.unit (s := S1x128) ![0, 0] S1x128.size inb_S1x128_S1x128_0_0)) (View.ld x5 (Rect.unit (s := S5000x128) ![0, 0] S5000x128.size inb_S5000x128_S5000x128_0_0))⟩]

theorem cover1_6 (p0 : Vec F S5000x128 .f32) (y : S5000x128.Idx) :
    ∃ pc ∈ ([⟨(Rect.unit (s := S5000x128) ![0, 0] S5000x128.size inb_S5000x128_S5000x128_0_0), p0⟩] : List (View.Piece (Elt F) S5000x128 .f32)), y ∈ pc.1.set :=
  View.cover_of_tiled [⟨(Rect.unit (s := S5000x128) ![0, 0] S5000x128.size inb_S5000x128_S5000x128_0_0), p0⟩] S5000x128.size (by rfl) y

set_option maxHeartbeats 1000000 in
theorem sound_kernel1 (c : Dev nD) (E : Set ℕ) (i : grid1.Coords)
    (arg1 : Memref sig .tc .vmem S5000x256 .f32) (harg1 : arg1.IsWhole)
    (arg2 : Memref sig .tc .vmem S256x128 .f32) (harg2 : arg2.IsWhole)
    (arg3 : Memref sig .tc .vmem S1x128 .f32) (harg3 : arg3.IsWhole)
    (arg4 : Memref sig .tc .vmem S128x128 .f32) (harg4 : arg4.IsWhole)
    (arg5 : Memref sig .tc .vmem S1x128 .f32) (harg5 : arg5.IsWhole)
    (arg6 : Memref sig .tc .vmem S5000x128 .f32) (harg6 : arg6.IsWhole)
    (arg7 : Memref sig .tc .vmem S5000x128 .f32) (harg7 : arg7.IsWhole)
    (x0 : Vec F S5000x256 .f32) (x1 : Vec F S256x128 .f32) (x2 : Vec F S1x128 .f32) (x3 : Vec F S128x128 .f32) (x4 : Vec F S1x128 .f32) (x5 : Vec F S5000x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__mlp2_residual_kernel i arg1 harg1 arg2 harg2 arg3 harg3 arg4 harg4 arg5 harg5 arg6 harg6 arg7 harg7) K := by
  simp only [cc1__mlp2_residual_kernel_eq_skeleton]; unfold cc1__mlp2_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl
theorem before1_5 (c : Dev nD) (t : Fin cfg1.N) (d) : (dat1 V c).before 5 t d = iblk1 V c 5 t :=
  ((dat1 V c).before_in_eq_fetched 5 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2.lean ====
import proofs.«407354_j16939351015862_1_alg».proof.Proof.KI.Region0
import proofs.«407354_j16939351015862_1_alg».proof.Proof.Gen.KernelIdeal.Launch
import proofs.«407354_j16939351015862_1_alg».proof.Proof.Gen.KernelIdeal.Skeleton
import proofs.«407354_j16939351015862_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out0_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out0_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  -- this call runs the kernel function of call 0, so the run proved there serves
  rw [show @cc2__mlp2_kernel F _ = @cc0__mlp2_kernel F _ from rfl]
  iapply (sound_kernel0 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Region3.lean ====
import proofs.«407354_j16939351015862_1_alg».proof.Proof.KI.Region1
import proofs.«407354_j16939351015862_1_alg».proof.Proof.Gen.KernelIdeal.Launch
import proofs.«407354_j16939351015862_1_alg».proof.Proof.Gen.KernelIdeal.Skeleton
import proofs.«407354_j16939351015862_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out1_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out1_6 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl
theorem before3_3 (c : Dev nD) (t : Fin cfg3.N) (d) : (dat3 V c).before 3 t d = iblk3 V c 3 t :=
  ((dat3 V c).before_in_eq_fetched 3 rfl (fun _ => rfl) (fun _ _ _ => rfl) (fun _ => rfl) t d).trans rfl
theorem before3_4 (c : Dev nD) (t : Fin cfg3.N) (d) : (dat3 V c).before 4 t d = iblk3 V c 4 t :=
  ((dat3 V c).before_in_eq_fetched 4 rfl (fun _ => rfl) (fun _ _ _ => rfl) (fun _ => rfl) t d).trans rfl
theorem before3_5 (c : Dev nD) (t : Fin cfg3.N) (d) : (dat3 V c).before 5 t d = iblk3 V c 5 t :=
  ((dat3 V c).before_in_eq_fetched 5 rfl (fun _ => rfl) (fun _ _ _ => rfl) (fun _ => rfl) t d).trans rfl

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  -- this call runs the kernel function of call 1, so the run proved there serves
  rw [show @cc3__mlp2_residual_kernel F _ = @cc1__mlp2_residual_kernel F _ from rfl]
  iapply (sound_kernel1 c Set.univ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Region4.lean ====
import proofs.«407354_j16939351015862_1_alg».proof.Proof.KI.Region0
import proofs.«407354_j16939351015862_1_alg».proof.Proof.Gen.KernelIdeal.Launch
import proofs.«407354_j16939351015862_1_alg».proof.Proof.Gen.KernelIdeal.Skeleton
import proofs.«407354_j16939351015862_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out0_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out0_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl
theorem before4_2 (c : Dev nD) (t : Fin cfg4.N) (d) : (dat4 V c).before 2 t d = iblk4 V c 2 t :=
  ((dat4 V c).before_in_eq_fetched 2 rfl (fun _ => rfl) (fun _ _ _ => rfl) (fun _ => rfl) t d).trans rfl
theorem before4_3 (c : Dev nD) (t : Fin cfg4.N) (d) : (dat4 V c).before 3 t d = iblk4 V c 3 t :=
  ((dat4 V c).before_in_eq_fetched 3 rfl (fun _ => rfl) (fun _ _ _ => rfl) (fun _ => rfl) t d).trans rfl
theorem before4_4 (c : Dev nD) (t : Fin cfg4.N) (d) : (dat4 V c).before 4 t d = iblk4 V c 4 t :=
  ((dat4 V c).before_in_eq_fetched 4 rfl (fun _ => rfl) (fun _ _ _ => rfl) (fun _ => rfl) t d).trans rfl

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  -- this call runs the kernel function of call 0, so the run proved there serves
  rw [show @cc4__mlp2_kernel F _ = @cc0__mlp2_kernel F _ from rfl]
  iapply (sound_kernel0 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Region5.lean ====
import proofs.«407354_j16939351015862_1_alg».proof.Proof.KI.Region1
import proofs.«407354_j16939351015862_1_alg».proof.Proof.Gen.KernelIdeal.Launch
import proofs.«407354_j16939351015862_1_alg».proof.Proof.Gen.KernelIdeal.Skeleton
import proofs.«407354_j16939351015862_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out1_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out1_6 (iblk5 V c 0 t) (iblk5 V c 1 t) (iblk5 V c 2 t) (iblk5 V c 3 t) (iblk5 V c 4 t) (iblk5 V c 5 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun _ => rfl) t d).trans rfl
theorem before5_3 (c : Dev nD) (t : Fin cfg5.N) (d) : (dat5 V c).before 3 t d = iblk5 V c 3 t :=
  ((dat5 V c).before_in_eq_fetched 3 rfl (fun _ => rfl) (fun _ _ _ => rfl) (fun _ => rfl) t d).trans rfl
theorem before5_4 (c : Dev nD) (t : Fin cfg5.N) (d) : (dat5 V c).before 4 t d = iblk5 V c 4 t :=
  ((dat5 V c).before_in_eq_fetched 4 rfl (fun _ => rfl) (fun _ _ _ => rfl) (fun _ => rfl) t d).trans rfl
theorem before5_5 (c : Dev nD) (t : Fin cfg5.N) (d) : (dat5 V c).before 5 t d = iblk5 V c 5 t :=
  ((dat5 V c).before_in_eq_fetched 5 rfl (fun _ => rfl) (fun _ _ _ => rfl) (fun _ => rfl) t d).trans rfl

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  -- this call runs the kernel function of call 1, so the run proved there serves
  rw [show @cc5__mlp2_residual_kernel F _ = @cc1__mlp2_residual_kernel F _ from rfl]
  iapply (sound_kernel1 c Set.univ _ _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Fold.lean ====
import proofs.«407354_j16939351015862_1_alg».proof.Proof.Gen.KernelIdeal.Regions
import proofs.«407354_j16939351015862_1_alg».proof.Proof.KI.Region0
import proofs.«407354_j16939351015862_1_alg».proof.Proof.KI.Region1
import proofs.«407354_j16939351015862_1_alg».proof.Proof.KI.Region2
import proofs.«407354_j16939351015862_1_alg».proof.Proof.KI.Region3
import proofs.«407354_j16939351015862_1_alg».proof.Proof.KI.Region4
import proofs.«407354_j16939351015862_1_alg».proof.Proof.KI.Region5

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]
variable (m : (ℓ : Loc nD τ sig) → Buf (Elt F) ℓ)

abbrev atTc (W : Dev nD → Valuation τ sig (Elt F)) : (c : Dev nD) → (b : Ref sig .tc) → Buf (Elt F) ((c : Thread nD τ).loc b) := fun c b => W c b

def o6 (c : Dev nD) : Buf (Elt F) ((c : Thread nD τ).loc main_v18) := (dat0 (atTc (V5 m)) c).arrAt 5 cfg0.N
abbrev X6 (c : Dev nD) : Valuation τ sig (Elt F) := Function.update (V5 m c) main_v18 (o6 m c)
abbrev X7 (c : Dev nD) : Valuation τ sig (Elt F) := StableHlo.after hostOps1 (X6 m c)

def o8 (c : Dev nD) : Buf (Elt F) ((c : Thread nD τ).loc main_v33) := (dat1 (atTc (X7 m)) c).arrAt 6 cfg1.N
abbrev X8 (c : Dev nD) : Valuation τ sig (Elt F) := Function.update (X7 m c) main_v33 (o8 m c)
abbrev X9 (c : Dev nD) : Valuation τ sig (Elt F) := StableHlo.after hostOps2 (X8 m c)
abbrev X10 (c : Dev nD) : Valuation τ sig (Elt F) := StableHlo.after hostOps2_1 (X9 m c)
abbrev X11 (c : Dev nD) : Valuation τ sig (Elt F) := StableHlo.after hostOps2_2 (X10 m c)

def o12 (c : Dev nD) : Buf (Elt F) ((c : Thread nD τ).loc main_v47) := (dat2 (atTc (X11 m)) c).arrAt 5 cfg2.N
abbrev X12 (c : Dev nD) : Valuation τ sig (Elt F) := Function.update (X11 m c) main_v47 (o12 m c)
abbrev X13 (c : Dev nD) : Valuation τ sig (Elt F) := StableHlo.after hostOps3 (X12 m c)

def o14 (c : Dev nD) : Buf (Elt F) ((c : Thread nD τ).loc main_v62) := (dat3 (atTc (X13 m)) c).arrAt 6 cfg3.N
abbrev X14 (c : Dev nD) : Valuation τ sig (Elt F) := Function.update (X13 m c) main_v62 (o14 m c)
abbrev X15 (c : Dev nD) : Valuation τ sig (Elt F) := StableHlo.after hostOps4 (X14 m c)
abbrev X16 (c : Dev nD) : Valuation τ sig (Elt F) := StableHlo.after hostOps4_1 (X15 m c)
abbrev X17 (c : Dev nD) : Valuation τ sig (Elt F) := StableHlo.after hostOps4_2 (X16 m c)

def o18 (c : Dev nD) : Buf (Elt F) ((c : Thread nD τ).loc main_v76) := (dat4 (atTc (X17 m)) c).arrAt 5 cfg4.N
abbrev X18 (c : Dev nD) : Valuation τ sig (Elt F) := Function.update (X17 m c) main_v76 (o18 m c)
abbrev X19 (c : Dev nD) : Valuation τ sig (Elt F) := StableHlo.after hostOps5 (X18 m c)

def o20 (c : Dev nD) : Buf (Elt F) ((c : Thread nD τ).loc main_v91) := (dat5 (atTc (X19 m)) c).arrAt 6 cfg5.N
abbrev X20 (c : Dev nD) : Valuation τ sig (Elt F) := Function.update (X19 m c) main_v91 (o20 m c)
abbrev X21 (c : Dev nD) : Valuation τ sig (Elt F) := StableHlo.after hostOps6 (X20 m c)

def outs : Outs (F := F) := fun J r c =>
  match J with
  | 6 => X6 m c r
  | 8 => X8 m c r
  | 12 => X12 m c r
  | 14 => X14 m c r
  | 18 => X18 m c r
  | 20 => X20 m c r
  | _ => V0 m c r

theorem V6_eq (c : Dev nD) : V6 m (outs m) c = X6 m c := by
  show Function.update (V5 m c) main_v18 (Function.update (V5 m c) main_v18 (o6 m c) main_v18) = _
  rw [Function.update_self]
theorem V7_eq (c : Dev nD) : V7 m (outs m) c = X7 m c := by
  show StableHlo.after hostOps1 (V6 m (outs m) c) = _; rw [V6_eq]
theorem V8_eq (c : Dev nD) : V8 m (outs m) c = X8 m c := by
  show Function.update (V7 m (outs m) c) main_v33 (Function.update (X7 m c) main_v33 (o8 m c) main_v33) = _
  rw [Function.update_self, V7_eq]
theorem V9_eq (c : Dev nD) : V9 m (outs m) c = X9 m c := by
  show StableHlo.after hostOps2 (V8 m (outs m) c) = _; rw [V8_eq]
theorem V10_eq (c : Dev nD) : V10 m (outs m) c = X10 m c := by
  show StableHlo.after hostOps2_1 (V9 m (outs m) c) = _; rw [V9_eq]
theorem V11_eq (c : Dev nD) : V11 m (outs m) c = X11 m c := by
  show StableHlo.after hostOps2_2 (V10 m (outs m) c) = _; rw [V10_eq]
theorem V12_eq (c : Dev nD) : V12 m (outs m) c = X12 m c := by
  show Function.update (V11 m (outs m) c) main_v47 (Function.update (X11 m c) main_v47 (o12 m c) main_v47) = _
  rw [Function.update_self, V11_eq]
theorem V13_eq (c : Dev nD) : V13 m (outs m) c = X13 m c := by
  show StableHlo.after hostOps3 (V12 m (outs m) c) = _; rw [V12_eq]
theorem V14_eq (c : Dev nD) : V14 m (outs m) c = X14 m c := by
  show Function.update (V13 m (outs m) c) main_v62 (Function.update (X13 m c) main_v62 (o14 m c) main_v62) = _
  rw [Function.update_self, V13_eq]
theorem V15_eq (c : Dev nD) : V15 m (outs m) c = X15 m c := by
  show StableHlo.after hostOps4 (V14 m (outs m) c) = _; rw [V14_eq]
theorem V16_eq (c : Dev nD) : V16 m (outs m) c = X16 m c := by
  show StableHlo.after hostOps4_1 (V15 m (outs m) c) = _; rw [V15_eq]
theorem V17_eq (c : Dev nD) : V17 m (outs m) c = X17 m c := by
  show StableHlo.after hostOps4_2 (V16 m (outs m) c) = _; rw [V16_eq]
theorem V18_eq (c : Dev nD) : V18 m (outs m) c = X18 m c := by
  show Function.update (V17 m (outs m) c) main_v76 (Function.update (X17 m c) main_v76 (o18 m c) main_v76) = _
  rw [Function.update_self, V17_eq]
theorem V19_eq (c : Dev nD) : V19 m (outs m) c = X19 m c := by
  show StableHlo.after hostOps5 (V18 m (outs m) c) = _; rw [V18_eq]
theorem V20_eq (c : Dev nD) : V20 m (outs m) c = X20 m c := by
  show Function.update (V19 m (outs m) c) main_v91 (Function.update (X19 m c) main_v91 (o20 m c) main_v91) = _
  rw [Function.update_self, V19_eq]
theorem V21_eq (c : Dev nD) : V21 m (outs m) c = X21 m c := by
  show StableHlo.after hostOps6 (V20 m (outs m) c) = _; rw [V20_eq]

def pdats : (p : Fin 6) → (c : Dev nD) → Dat τ (Elt F) Unit ℕ (UR sig nD τ) ℕ (cfgs p) c
  | ⟨0, _⟩ => fun c => dat0 (atTc (V5 m)) c
  | ⟨1, _⟩ => fun c => dat1 (atTc (X7 m)) c
  | ⟨2, _⟩ => fun c => dat2 (atTc (X11 m)) c
  | ⟨3, _⟩ => fun c => dat3 (atTc (X13 m)) c
  | ⟨4, _⟩ => fun c => dat4 (atTc (X17 m)) c
  | ⟨5, _⟩ => fun c => dat5 (atTc (X19 m)) c

local notation "𝕄" => MT nD τ sig Unit (Elt F) ℕ (UR sig nD τ) ℕ

abbrev 𝒱₀ : Variants := Variants.none

abbrev L : GSem nD τ sig → Finset Unit := fun _ => ∅
abbrev lv : GSem nD τ sig → Unit → ℕ := fun _ _ => 0

abbrev Rst (c : Dev nD) : sProp 𝕄 := iprop((∃ r, prngReg c r) ∗ ∃ W, owes (c : Thread nD τ) (0 : CellTallies nD τ sig Unit) W)

end Cert.KernelIdeal.Hand

end
-- ==== Proof.KI.Seg0.lean ====
import proofs.«407354_j16939351015862_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem X6_of (c : Dev nD) (r : Ref sig .tc) (h : r ∉ ([main_v18] : List (Ref sig .tc))) : X6 m c r = V5 m c r := by
  simp only [X6, Function.update_of_ne (StableHlo.devRef_ne_of_ne (List.ne_of_not_mem_cons h) : (Proc.devRef .tc r : DevRef τ sig) ≠ Proc.devRef .tc main_v18)]

set_option maxHeartbeats 1000000 in
theorem hF0 (c : Dev nD) (w : Fin cfg0.W) : (dat0 (atTc (V5 m)) c).arrAt w cfg0.N = X6 m c (Pipeline.arrRef spec0 w) := by
  match w with
  | ⟨0, _⟩ => exact (((dat0 (atTc (V5 m)) c).arrAt_in 0 rfl _).trans (A_eq0 (atTc (V5 m)) c 0)).trans (X6_of m c main_v7 (by decide)).symm
  | ⟨1, _⟩ => exact (((dat0 (atTc (V5 m)) c).arrAt_in 1 rfl _).trans (A_eq0 (atTc (V5 m)) c 1)).trans (X6_of m c main_v9 (by decide)).symm
  | ⟨2, _⟩ => exact (((dat0 (atTc (V5 m)) c).arrAt_in 2 rfl _).trans (A_eq0 (atTc (V5 m)) c 2)).trans (X6_of m c main_v16 (by decide)).symm
  | ⟨3, _⟩ => exact (((dat0 (atTc (V5 m)) c).arrAt_in 3 rfl _).trans (A_eq0 (atTc (V5 m)) c 3)).trans (X6_of m c main_v13 (by decide)).symm
  | ⟨4, _⟩ => exact (((dat0 (atTc (V5 m)) c).arrAt_in 4 rfl _).trans (A_eq0 (atTc (V5 m)) c 4)).trans (X6_of m c main_v17 (by decide)).symm
  | ⟨5, _⟩ => exact (Function.update_self (β := fun b : DevRef τ sig => b.ty.Contents (Elt F)) (Proc.devRef .tc main_v18) (o6 m c) (V5 m c)).symm

theorem hrest0 (c : Dev nD) : ∀ b, b ∉ Finset.univ.image (Pipeline.arrRef spec0) → atTc (X6 m) c b = atTc (V5 m) c b :=
  fun b hb => X6_of m c b (by
    intro hmem
    rw [List.mem_singleton] at hmem
    subst hmem
    exact hb (Finset.mem_image.mpr ⟨5, Finset.mem_univ _, rfl⟩))

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atTc (V5 m)) c).loose
  hwaits := Pipeline.hwaits_of_owed_zero _ _ _ _ L lv 0 fun _ _ => rfl
  pre c := iprop(StableHlo.held (c : Thread nD τ) (Pipeline.ucRefs τ sig) (V5 m c) ∗ Rst c)
  post c := iprop(StableHlo.held (c : Thread nD τ) (Pipeline.ucRefs τ sig) (X6 m c) ∗ Rst c)
  X c := iprop(∃ r, prngReg c r)
  Y c := iprop(∃ r, prngReg c r)
  Z c := Pipeline.unscopedRest (Ix := Unit) (Name := ℕ) (U := UR sig nD τ) (Lvl := ℕ) spec0 c (atTc (V5 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (V5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (V5 m) c) (atTc (X6 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg1.lean ====
import proofs.«407354_j16939351015862_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem X8_of (c : Dev nD) (r : Ref sig .tc) (h : r ∉ ([main_v33] : List (Ref sig .tc))) : X8 m c r = X7 m c r := by
  simp only [X8, Function.update_of_ne (StableHlo.devRef_ne_of_ne (List.ne_of_not_mem_cons h) : (Proc.devRef .tc r : DevRef τ sig) ≠ Proc.devRef .tc main_v33)]

set_option maxHeartbeats 1000000 in
theorem hF1 (c : Dev nD) (w : Fin cfg1.W) : (dat1 (atTc (X7 m)) c).arrAt w cfg1.N = X8 m c (Pipeline.arrRef spec1 w) := by
  match w with
  | ⟨0, _⟩ => exact (((dat1 (atTc (X7 m)) c).arrAt_in 0 rfl _).trans (A_eq1 (atTc (X7 m)) c 0)).trans (X8_of m c main_v22 (by decide)).symm
  | ⟨1, _⟩ => exact (((dat1 (atTc (X7 m)) c).arrAt_in 1 rfl _).trans (A_eq1 (atTc (X7 m)) c 1)).trans (X8_of m c main_v24 (by decide)).symm
  | ⟨2, _⟩ => exact (((dat1 (atTc (X7 m)) c).arrAt_in 2 rfl _).trans (A_eq1 (atTc (X7 m)) c 2)).trans (X8_of m c main_v31 (by decide)).symm
  | ⟨3, _⟩ => exact (((dat1 (atTc (X7 m)) c).arrAt_in 3 rfl _).trans (A_eq1 (atTc (X7 m)) c 3)).trans (X8_of m c main_v28 (by decide)).symm
  | ⟨4, _⟩ => exact (((dat1 (atTc (X7 m)) c).arrAt_in 4 rfl _).trans (A_eq1 (atTc (X7 m)) c 4)).trans (X8_of m c main_v32 (by decide)).symm
  | ⟨5, _⟩ => exact (((dat1 (atTc (X7 m)) c).arrAt_in 5 rfl _).trans (A_eq1 (atTc (X7 m)) c 5)).trans (X8_of m c main_v4 (by decide)).symm
  | ⟨6, _⟩ => exact (Function.update_self (β := fun b : DevRef τ sig => b.ty.Contents (Elt F)) (Proc.devRef .tc main_v33) (o8 m c) (X7 m c)).symm

theorem hrest1 (c : Dev nD) : ∀ b, b ∉ Finset.univ.image (Pipeline.arrRef spec1) → atTc (X8 m) c b = atTc (X7 m) c b :=
  fun b hb => X8_of m c b (by
    intro hmem
    rw [List.mem_singleton] at hmem
    subst hmem
    exact hb (Finset.mem_image.mpr ⟨6, Finset.mem_univ _, rfl⟩))

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atTc (X7 m)) c).loose
  hwaits := Pipeline.hwaits_of_owed_zero _ _ _ _ L lv 1 fun _ _ => rfl
  pre c := iprop(StableHlo.held (c : Thread nD τ) (Pipeline.ucRefs τ sig) (X7 m c) ∗ Rst c)
  post c := iprop(StableHlo.held (c : Thread nD τ) (Pipeline.ucRefs τ sig) (X8 m c) ∗ Rst c)
  X c := iprop(∃ r, prngReg c r)
  Y c := iprop(∃ r, prngReg c r)
  Z c := Pipeline.unscopedRest (Ix := Unit) (Name := ℕ) (U := UR sig nD τ) (Lvl := ℕ) spec1 c (atTc (X7 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (X7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (X7 m) c) (atTc (X8 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg2.lean ====
import proofs.«407354_j16939351015862_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem X12_of (c : Dev nD) (r : Ref sig .tc) (h : r ∉ ([main_v47] : List (Ref sig .tc))) : X12 m c r = X11 m c r := by
  simp only [X12, Function.update_of_ne (StableHlo.devRef_ne_of_ne (List.ne_of_not_mem_cons h) : (Proc.devRef .tc r : DevRef τ sig) ≠ Proc.devRef .tc main_v47)]

set_option maxHeartbeats 1000000 in
theorem hF2 (c : Dev nD) (w : Fin cfg2.W) : (dat2 (atTc (X11 m)) c).arrAt w cfg2.N = X12 m c (Pipeline.arrRef spec2 w) := by
  match w with
  | ⟨0, _⟩ => exact (((dat2 (atTc (X11 m)) c).arrAt_in 0 rfl _).trans (A_eq2 (atTc (X11 m)) c 0)).trans (X12_of m c main_v36 (by decide)).symm
  | ⟨1, _⟩ => exact (((dat2 (atTc (X11 m)) c).arrAt_in 1 rfl _).trans (A_eq2 (atTc (X11 m)) c 1)).trans (X12_of m c main_v38 (by decide)).symm
  | ⟨2, _⟩ => exact (((dat2 (atTc (X11 m)) c).arrAt_in 2 rfl _).trans (A_eq2 (atTc (X11 m)) c 2)).trans (X12_of m c main_v45 (by decide)).symm
  | ⟨3, _⟩ => exact (((dat2 (atTc (X11 m)) c).arrAt_in 3 rfl _).trans (A_eq2 (atTc (X11 m)) c 3)).trans (X12_of m c main_v42 (by decide)).symm
  | ⟨4, _⟩ => exact (((dat2 (atTc (X11 m)) c).arrAt_in 4 rfl _).trans (A_eq2 (atTc (X11 m)) c 4)).trans (X12_of m c main_v46 (by decide)).symm
  | ⟨5, _⟩ => exact (Function.update_self (β := fun b : DevRef τ sig => b.ty.Contents (Elt F)) (Proc.devRef .tc main_v47) (o12 m c) (X11 m c)).symm

theorem hrest2 (c : Dev nD) : ∀ b, b ∉ Finset.univ.image (Pipeline.arrRef spec2) → atTc (X12 m) c b = atTc (X11 m) c b :=
  fun b hb => X12_of m c b (by
    intro hmem
    rw [List.mem_singleton] at hmem
    subst hmem
    exact hb (Finset.mem_image.mpr ⟨5, Finset.mem_univ _, rfl⟩))

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atTc (X11 m)) c).loose
  hwaits := Pipeline.hwaits_of_owed_zero _ _ _ _ L lv 2 fun _ _ => rfl
  pre c := iprop(StableHlo.held (c : Thread nD τ) (Pipeline.ucRefs τ sig) (X11 m c) ∗ Rst c)
  post c := iprop(StableHlo.held (c : Thread nD τ) (Pipeline.ucRefs τ sig) (X12 m c) ∗ Rst c)
  X c := iprop(∃ r, prngReg c r)
  Y c := iprop(∃ r, prngReg c r)
  Z c := Pipeline.unscopedRest (Ix := Unit) (Name := ℕ) (U := UR sig nD τ) (Lvl := ℕ) spec2 c (atTc (X11 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (X11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (X11 m) c) (atTc (X12 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg3.lean ====
import proofs.«407354_j16939351015862_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem X14_of (c : Dev nD) (r : Ref sig .tc) (h : r ∉ ([main_v62] : List (Ref sig .tc))) : X14 m c r = X13 m c r := by
  simp only [X14, Function.update_of_ne (StableHlo.devRef_ne_of_ne (List.ne_of_not_mem_cons h) : (Proc.devRef .tc r : DevRef τ sig) ≠ Proc.devRef .tc main_v62)]

set_option maxHeartbeats 1000000 in
theorem hF3 (c : Dev nD) (w : Fin cfg3.W) : (dat3 (atTc (X13 m)) c).arrAt w cfg3.N = X14 m c (Pipeline.arrRef spec3 w) := by
  match w with
  | ⟨0, _⟩ => exact (((dat3 (atTc (X13 m)) c).arrAt_in 0 rfl _).trans (A_eq3 (atTc (X13 m)) c 0)).trans (X14_of m c main_v51 (by decide)).symm
  | ⟨1, _⟩ => exact (((dat3 (atTc (X13 m)) c).arrAt_in 1 rfl _).trans (A_eq3 (atTc (X13 m)) c 1)).trans (X14_of m c main_v53 (by decide)).symm
  | ⟨2, _⟩ => exact (((dat3 (atTc (X13 m)) c).arrAt_in 2 rfl _).trans (A_eq3 (atTc (X13 m)) c 2)).trans (X14_of m c main_v60 (by decide)).symm
  | ⟨3, _⟩ => exact (((dat3 (atTc (X13 m)) c).arrAt_in 3 rfl _).trans (A_eq3 (atTc (X13 m)) c 3)).trans (X14_of m c main_v57 (by decide)).symm
  | ⟨4, _⟩ => exact (((dat3 (atTc (X13 m)) c).arrAt_in 4 rfl _).trans (A_eq3 (atTc (X13 m)) c 4)).trans (X14_of m c main_v61 (by decide)).symm
  | ⟨5, _⟩ => exact (((dat3 (atTc (X13 m)) c).arrAt_in 5 rfl _).trans (A_eq3 (atTc (X13 m)) c 5)).trans (X14_of m c main_v33 (by decide)).symm
  | ⟨6, _⟩ => exact (Function.update_self (β := fun b : DevRef τ sig => b.ty.Contents (Elt F)) (Proc.devRef .tc main_v62) (o14 m c) (X13 m c)).symm

theorem hrest3 (c : Dev nD) : ∀ b, b ∉ Finset.univ.image (Pipeline.arrRef spec3) → atTc (X14 m) c b = atTc (X13 m) c b :=
  fun b hb => X14_of m c b (by
    intro hmem
    rw [List.mem_singleton] at hmem
    subst hmem
    exact hb (Finset.mem_image.mpr ⟨6, Finset.mem_univ _, rfl⟩))

set_option backward.isDefEq.respectTransparency.types false in
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (atTc (X13 m)) c).loose
  hwaits := Pipeline.hwaits_of_owed_zero _ _ _ _ L lv 3 fun _ _ => rfl
  pre c := iprop(StableHlo.held (c : Thread nD τ) (Pipeline.ucRefs τ sig) (X13 m c) ∗ Rst c)
  post c := iprop(StableHlo.held (c : Thread nD τ) (Pipeline.ucRefs τ sig) (X14 m c) ∗ Rst c)
  X c := iprop(∃ r, prngReg c r)
  Y c := iprop(∃ r, prngReg c r)
  Z c := Pipeline.unscopedRest (Ix := Unit) (Name := ℕ) (U := UR sig nD τ) (Lvl := ℕ) spec3 c (atTc (X13 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (X13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (X13 m) c) (atTc (X14 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg4.lean ====
import proofs.«407354_j16939351015862_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem X18_of (c : Dev nD) (r : Ref sig .tc) (h : r ∉ ([main_v76] : List (Ref sig .tc))) : X18 m c r = X17 m c r := by
  simp only [X18, Function.update_of_ne (StableHlo.devRef_ne_of_ne (List.ne_of_not_mem_cons h) : (Proc.devRef .tc r : DevRef τ sig) ≠ Proc.devRef .tc main_v76)]

set_option maxHeartbeats 1000000 in
theorem hF4 (c : Dev nD) (w : Fin cfg4.W) : (dat4 (atTc (X17 m)) c).arrAt w cfg4.N = X18 m c (Pipeline.arrRef spec4 w) := by
  match w with
  | ⟨0, _⟩ => exact (((dat4 (atTc (X17 m)) c).arrAt_in 0 rfl _).trans (A_eq4 (atTc (X17 m)) c 0)).trans (X18_of m c main_v65 (by decide)).symm
  | ⟨1, _⟩ => exact (((dat4 (atTc (X17 m)) c).arrAt_in 1 rfl _).trans (A_eq4 (atTc (X17 m)) c 1)).trans (X18_of m c main_v67 (by decide)).symm
  | ⟨2, _⟩ => exact (((dat4 (atTc (X17 m)) c).arrAt_in 2 rfl _).trans (A_eq4 (atTc (X17 m)) c 2)).trans (X18_of m c main_v74 (by decide)).symm
  | ⟨3, _⟩ => exact (((dat4 (atTc (X17 m)) c).arrAt_in 3 rfl _).trans (A_eq4 (atTc (X17 m)) c 3)).trans (X18_of m c main_v71 (by decide)).symm
  | ⟨4, _⟩ => exact (((dat4 (atTc (X17 m)) c).arrAt_in 4 rfl _).trans (A_eq4 (atTc (X17 m)) c 4)).trans (X18_of m c main_v75 (by decide)).symm
  | ⟨5, _⟩ => exact (Function.update_self (β := fun b : DevRef τ sig => b.ty.Contents (Elt F)) (Proc.devRef .tc main_v76) (o18 m c) (X17 m c)).symm

theorem hrest4 (c : Dev nD) : ∀ b, b ∉ Finset.univ.image (Pipeline.arrRef spec4) → atTc (X18 m) c b = atTc (X17 m) c b :=
  fun b hb => X18_of m c b (by
    intro hmem
    rw [List.mem_singleton] at hmem
    subst hmem
    exact hb (Finset.mem_image.mpr ⟨5, Finset.mem_univ _, rfl⟩))

set_option backward.isDefEq.respectTransparency.types false in
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (atTc (X17 m)) c).loose
  hwaits := Pipeline.hwaits_of_owed_zero _ _ _ _ L lv 4 fun _ _ => rfl
  pre c := iprop(StableHlo.held (c : Thread nD τ) (Pipeline.ucRefs τ sig) (X17 m c) ∗ Rst c)
  post c := iprop(StableHlo.held (c : Thread nD τ) (Pipeline.ucRefs τ sig) (X18 m c) ∗ Rst c)
  X c := iprop(∃ r, prngReg c r)
  Y c := iprop(∃ r, prngReg c r)
  Z c := Pipeline.unscopedRest (Ix := Unit) (Name := ℕ) (U := UR sig nD τ) (Lvl := ℕ) spec4 c (atTc (X17 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (atTc (X17 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atTc (X17 m) c) (atTc (X18 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg5.lean ====
import proofs.«407354_j16939351015862_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem X20_of (c : Dev nD) (r : Ref sig .tc) (h : r ∉ ([main_v91] : List (Ref sig .tc))) : X20 m c r = X19 m c r := by
  simp only [X20, Function.update_of_ne (StableHlo.devRef_ne_of_ne (List.ne_of_not_mem_cons h) : (Proc.devRef .tc r : DevRef τ sig) ≠ Proc.devRef .tc main_v91)]

set_option maxHeartbeats 1000000 in
theorem hF5 (c : Dev nD) (w : Fin cfg5.W) : (dat5 (atTc (X19 m)) c).arrAt w cfg5.N = X20 m c (Pipeline.arrRef spec5 w) := by
  match w with
  | ⟨0, _⟩ => exact (((dat5 (atTc (X19 m)) c).arrAt_in 0 rfl _).trans (A_eq5 (atTc (X19 m)) c 0)).trans (X20_of m c main_v80 (by decide)).symm
  | ⟨1, _⟩ => exact (((dat5 (atTc (X19 m)) c).arrAt_in 1 rfl _).trans (A_eq5 (atTc (X19 m)) c 1)).trans (X20_of m c main_v82 (by decide)).symm
  | ⟨2, _⟩ => exact (((dat5 (atTc (X19 m)) c).arrAt_in 2 rfl _).trans (A_eq5 (atTc (X19 m)) c 2)).trans (X20_of m c main_v89 (by decide)).symm
  | ⟨3, _⟩ => exact (((dat5 (atTc (X19 m)) c).arrAt_in 3 rfl _).trans (A_eq5 (atTc (X19 m)) c 3)).trans (X20_of m c main_v86 (by decide)).symm
  | ⟨4, _⟩ => exact (((dat5 (atTc (X19 m)) c).arrAt_in 4 rfl _).trans (A_eq5 (atTc (X19 m)) c 4)).trans (X20_of m c main_v90 (by decide)).symm
  | ⟨5, _⟩ => exact (((dat5 (atTc (X19 m)) c).arrAt_in 5 rfl _).trans (A_eq5 (atTc (X19 m)) c 5)).trans (X20_of m c main_v62 (by decide)).symm
  | ⟨6, _⟩ => exact (Function.update_self (β := fun b : DevRef τ sig => b.ty.Contents (Elt F)) (Proc.devRef .tc main_v91) (o20 m c) (X19 m c)).symm

theorem hrest5 (c : Dev nD) : ∀ b, b ∉ Finset.univ.image (Pipeline.arrRef spec5) → atTc (X20 m) c b = atTc (X19 m) c b :=
  fun b hb => X20_of m c b (by
    intro hmem
    rw [List.mem_singleton] at hmem
    subst hmem
    exact hb (Finset.mem_image.mpr ⟨6, Finset.mem_univ _, rfl⟩))

set_option backward.isDefEq.respectTransparency.types false in
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (atTc (X19 m)) c).loose
  hwaits := Pipeline.hwaits_of_owed_zero _ _ _ _ L lv 5 fun _ _ => rfl
  pre c := iprop(StableHlo.held (c : Thread nD τ) (Pipeline.ucRefs τ sig) (X19 m c) ∗ Rst c)
  post c := iprop(StableHlo.held (c : Thread nD τ) (Pipeline.ucRefs τ sig) (X20 m c) ∗ Rst c)
  X c := iprop(∃ r, prngReg c r)
  Y c := iprop(∃ r, prngReg c r)
  Z c := Pipeline.unscopedRest (Ix := Unit) (Name := ℕ) (U := UR sig nD τ) (Lvl := ℕ) spec5 c (atTc (X19 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (atTc (X19 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (atTc (X19 m) c) (atTc (X20 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run.lean ====
import proofs.«407354_j16939351015862_1_alg».proof.Proof.KI.Seg0
import proofs.«407354_j16939351015862_1_alg».proof.Proof.KI.Seg1
import proofs.«407354_j16939351015862_1_alg».proof.Proof.KI.Seg2
import proofs.«407354_j16939351015862_1_alg».proof.Proof.KI.Seg3
import proofs.«407354_j16939351015862_1_alg».proof.Proof.KI.Seg4
import proofs.«407354_j16939351015862_1_alg».proof.Proof.KI.Seg5
import proofs.«407354_j16939351015862_1_alg».proof.Proof.KI.RunCond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hu0 : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
    ⊢ (|={Set.univ}=> bigSep Finset.univ (fun c : Dev nD => Rst (F := F) c) : sProp 𝕄) := by
  refine Pipeline.initEach L lv fun c => ?_
  iintro ⟨⟨-, HO, -, Hp, -⟩, -⟩
  imodintro
  isplitl [Hp]; · iexists _; iexact Hp
  iexists ∅; iexact HO

theorem hE6 (c : Dev nD) : Rst (F := F) c ⊢ (iprop(∃ W, owes (c : Thread nD τ) (0 : CellTallies nD τ sig Unit) W) : sProp 𝕄) := by
  iintro ⟨-, H⟩; iexact H

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem ((c : Thread nD τ).1, b) = X21 m c b) :=
  (θ_run defs _ _).mono (fun r h c b hb => (h c b hb).trans (congrFun (V21_eq m c) b))
    (GenP.run_cond m emb₁ () 𝒱₀ L lv (fun _ _ => rfl) ρ (outs m) (pdats m) 0 (fun _ => iprop(emp))
      (initOf (Pipeline.cells cfgs cellOf_inj) (Pipeline.launchToks cfgs cellOf_inj)) (hu0 (F := F)) (fun _ c => Rst c) (hE0 ρ) (hE6 (F := F))
      (reg0 m) (fun c => .rfl) (fun c => by rw [V6_eq]; exact .rfl)
      (reg1 m) (fun c => by rw [V7_eq]; exact .rfl) (fun c => by rw [V8_eq]; exact .rfl)
      (reg2 m) (fun c => by rw [V11_eq]; exact .rfl) (fun c => by rw [V12_eq]; exact .rfl)
      (reg3 m) (fun c => by rw [V13_eq]; exact .rfl) (fun c => by rw [V14_eq]; exact .rfl)
      (reg4 m) (fun c => by rw [V17_eq]; exact .rfl) (fun c => by rw [V18_eq]; exact .rfl)
      (reg5 m) (fun c => by rw [V19_eq]; exact .rfl) (fun c => by rw [V20_eq]; exact .rfl))

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem run_value : θ_run defs (onTc (τ := τ) (main (F := F))) ⟨m, fun _ => 0, ρ⟩ (fun r => ∀ c : Dev nD,
      r.2.mem ((c.tc : Thread nD τ).loc main_v112) = X21 m c main_v112
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨h c _ (mem_uc main_v112 (by decide)),
      (h c _ (mem_uc main_arg0 (by decide))).trans (((congrFun (V21_eq m c) _).symm).trans (V21_main_arg0 m (outs m) c)),
      (h c _ (mem_uc main_arg1 (by decide))).trans (((congrFun (V21_eq m c) _).symm).trans (V21_main_arg1 m (outs m) c)),
      (h c _ (mem_uc main_arg2 (by decide))).trans (((congrFun (V21_eq m c) _).symm).trans (V21_main_arg2 m (outs m) c)),
      (h c _ (mem_uc main_arg3 (by decide))).trans (((congrFun (V21_eq m c) _).symm).trans (V21_main_arg3 m (outs m) c)),
      (h c _ (mem_uc main_arg4 (by decide))).trans (((congrFun (V21_eq m c) _).symm).trans (V21_main_arg4 m (outs m) c)),
      (h c _ (mem_uc main_arg5 (by decide))).trans (((congrFun (V21_eq m c) _).symm).trans (V21_main_arg5 m (outs m) c)),
      (h c _ (mem_uc main_arg6 (by decide))).trans (((congrFun (V21_eq m c) _).symm).trans (V21_main_arg6 m (outs m) c)),
      (h c _ (mem_uc main_arg7 (by decide))).trans (((congrFun (V21_eq m c) _).symm).trans (V21_main_arg7 m (outs m) c)),
      (h c _ (mem_uc main_arg8 (by decide))).trans (((congrFun (V21_eq m c) _).symm).trans (V21_main_arg8 m (outs m) c)),
      (h c _ (mem_uc main_arg9 (by decide))).trans (((congrFun (V21_eq m c) _).symm).trans (V21_main_arg9 m (outs m) c)),
      (h c _ (mem_uc main_arg10 (by decide))).trans (((congrFun (V21_eq m c) _).symm).trans (V21_main_arg10 m (outs m) c)),
      (h c _ (mem_uc main_arg11 (by decide))).trans (((congrFun (V21_eq m c) _).symm).trans (V21_main_arg11 m (outs m) c)),
      (h c _ (mem_uc main_arg12 (by decide))).trans (((congrFun (V21_eq m c) _).symm).trans (V21_main_arg12 m (outs m) c)),
      (h c _ (mem_uc main_arg13 (by decide))).trans (((congrFun (V21_eq m c) _).symm).trans (V21_main_arg13 m (outs m) c)),
      (h c _ (mem_uc main_arg14 (by decide))).trans (((congrFun (V21_eq m c) _).symm).trans (V21_main_arg14 m (outs m) c)),
      (h c _ (mem_uc main_arg15 (by decide))).trans (((congrFun (V21_eq m c) _).symm).trans (V21_main_arg15 m (outs m) c)),
      (h c _ (mem_uc main_arg16 (by decide))).trans (((congrFun (V21_eq m c) _).symm).trans (V21_main_arg16 m (outs m) c))⟩) (run_all m ρ)

end Cert.KernelIdeal.Hand

end
-- ==== Proof.Spec.lean ====
import Idealize.ShloMosaic.PureOps.Ideal
import Idealize.ShloMosaic.Lib.ValueIdx

noncomputable section

open scoped BigOperators

namespace Cert.Spec

open Idealize.ShloMosaic

def hiddenAt {R K H : ℕ} (x : (⟨2, ![R, K]⟩ : Shape).Idx → EReal) (w1 : (⟨2, ![K, H]⟩ : Shape).Idx → EReal)
    (b1 : (⟨2, ![1, H]⟩ : Shape).Idx → EReal) (i : Fin R) (k : Fin H) : EReal :=
  max ((∑ l : Fin K, x (ValueIdx.ix2 i l) * w1 (ValueIdx.ix2 l k)) + b1 (ValueIdx.ix2 (0 : Fin 1) k)) 0

/-- Entry `(i, j)` of a two-layer perceptron: the positive part of `x w1 + b1` in row `i`, times column `j` of `w2`, plus `b2`. -/
def mlpAt {R K H O : ℕ} (x : (⟨2, ![R, K]⟩ : Shape).Idx → EReal) (w1 : (⟨2, ![K, H]⟩ : Shape).Idx → EReal)
    (b1 : (⟨2, ![1, H]⟩ : Shape).Idx → EReal) (w2 : (⟨2, ![H, O]⟩ : Shape).Idx → EReal)
    (b2 : (⟨2, ![1, O]⟩ : Shape).Idx → EReal) (i : Fin R) (j : Fin O) : EReal :=
  (∑ k : Fin H, max ((∑ l : Fin K, x (ValueIdx.ix2 i l) * w1 (ValueIdx.ix2 l k)) + b1 (ValueIdx.ix2 (0 : Fin 1) k)) 0
      * w2 (ValueIdx.ix2 k j)) + b2 (ValueIdx.ix2 (0 : Fin 1) j)

theorem mlpAt_eq_hidden {R K H O : ℕ} (x : (⟨2, ![R, K]⟩ : Shape).Idx → EReal) (w1 : (⟨2, ![K, H]⟩ : Shape).Idx → EReal)
    (b1 : (⟨2, ![1, H]⟩ : Shape).Idx → EReal) (w2 : (⟨2, ![H, O]⟩ : Shape).Idx → EReal)
    (b2 : (⟨2, ![1, O]⟩ : Shape).Idx → EReal) (i : Fin R) (j : Fin O) :
    mlpAt x w1 b1 w2 b2 i j
      = (∑ k : Fin H, hiddenAt x w1 b1 i k * w2 (ValueIdx.ix2 k j)) + b2 (ValueIdx.ix2 (0 : Fin 1) j) := rfl

theorem mlpAt_congr_row {R R' K H O : ℕ} (x : (⟨2, ![R, K]⟩ : Shape).Idx → EReal) (x' : (⟨2, ![R', K]⟩ : Shape).Idx → EReal)
    (w1 : (⟨2, ![K, H]⟩ : Shape).Idx → EReal) (b1 : (⟨2, ![1, H]⟩ : Shape).Idx → EReal)
    (w2 : (⟨2, ![H, O]⟩ : Shape).Idx → EReal) (b2 : (⟨2, ![1, O]⟩ : Shape).Idx → EReal)
    (i : Fin R) (i' : Fin R') (j : Fin O) (h : ∀ l : Fin K, x (ValueIdx.ix2 i l) = x' (ValueIdx.ix2 i' l)) :
    mlpAt x w1 b1 w2 b2 i j = mlpAt x' w1 b1 w2 b2 i' j := by
  unfold mlpAt
  simp only [h]

end Cert.Spec
-- ==== Proof.KI.Payload.lean ====
import proofs.«407354_j16939351015862_1_alg».proof.Proof.Gen.KernelIdeal.Skeleton
import proofs.«407354_j16939351015862_1_alg».proof.Proof.Spec
import Idealize.ShloMosaic.PureOps.Ideal.Laws
import Idealize.ShloMosaic.Lib.ValueIdx
import Idealize.ShloMosaic.Lib.Pipeline.Value
import Idealize.ShloMosaic.Lib.ValueLayout
import Idealize.ShloMosaic.Lib.KernelVsHost
import Idealize.ShloMosaic.Lib.StackMember

noncomputable section

open scoped BigOperators

namespace Cert.KernelIdeal.Hand

open Idealize.ShloMosaic Idealize.ShloMosaic.ValueIdx
open Cert.KernelIdeal Cert.KernelIdeal.Gen

theorem matmul_plain_apply {m k n : ℕ} {φ₁ φ₂ : FTy} (x : FVec Ideal ⟨2, ![m, k]⟩ φ₁) (y : FVec Ideal ⟨2, ![k, n]⟩ φ₂)
    (a : Fin m) (b : Fin n) :
    matmul (F := Ideal) (DotDims.plain m k n) none x y (constant (F := Ideal) ⟨2, ![m, n]⟩ .f32 0x00000000#32) (ix2 a b)
      = ∑ c : Fin k, x (ix2 a c) * y (ix2 c b) :=
  (congrFun (matmul_zero_eq_dotGeneral (DotDims.plain m k n) none x y) (ix2 a b)).trans
    (StackMember.dotGeneral_plain_apply none x y a b)

theorem dot_4000x257_eq : dot_S4000x257_S257x128_S4000x128_1_0_0_1_n_n = DotDims.plain 4000 257 128 := rfl
theorem dot_4000x128_eq : dot_S4000x128_S128x128_S4000x128_1_0_0_1_n_n = DotDims.plain 4000 128 128 := rfl
theorem dot_5000x256_eq : dot_S5000x256_S256x128_S5000x128_1_0_0_1_n_n = DotDims.plain 5000 256 128 := rfl
theorem dot_5000x128_eq : dot_S5000x128_S128x128_S5000x128_1_0_0_1_n_n = DotDims.plain 5000 128 128 := rfl

theorem matmul_4000x257_apply {φ₁ φ₂ : FTy} (x : FVec Ideal S4000x257 φ₁) (y : FVec Ideal S257x128 φ₂) (p : Fin 4000) (k : Fin 128) :
    matmul (F := Ideal) dot_S4000x257_S257x128_S4000x128_1_0_0_1_n_n none x y (constant (F := Ideal) S4000x128 .f32 0x00000000#32) (ix2 p k)
      = ∑ l : Fin 257, x (ix2 p l) * y (ix2 l k) :=
  matmul_plain_apply x y p k

theorem matmul_4000x128_apply {φ₁ φ₂ : FTy} (x : FVec Ideal S4000x128 φ₁) (y : FVec Ideal S128x128 φ₂) (p : Fin 4000) (j : Fin 128) :
    matmul (F := Ideal) dot_S4000x128_S128x128_S4000x128_1_0_0_1_n_n none x y (constant (F := Ideal) S4000x128 .f32 0x00000000#32) (ix2 p j)
      = ∑ k : Fin 128, x (ix2 p k) * y (ix2 k j) :=
  matmul_plain_apply x y p j

theorem matmul_5000x256_apply {φ₁ φ₂ : FTy} (x : FVec Ideal S5000x256 φ₁) (y : FVec Ideal S256x128 φ₂) (p : Fin 5000) (k : Fin 128) :
    matmul (F := Ideal) dot_S5000x256_S256x128_S5000x128_1_0_0_1_n_n none x y (constant (F := Ideal) S5000x128 .f32 0x00000000#32) (ix2 p k)
      = ∑ l : Fin 256, x (ix2 p l) * y (ix2 l k) :=
  matmul_plain_apply x y p k

theorem matmul_5000x128_apply {φ₁ φ₂ : FTy} (x : FVec Ideal S5000x128 φ₁) (y : FVec Ideal S128x128 φ₂) (p : Fin 5000) (j : Fin 128) :
    matmul (F := Ideal) dot_S5000x128_S128x128_S5000x128_1_0_0_1_n_n none x y (constant (F := Ideal) S5000x128 .f32 0x00000000#32) (ix2 p j)
      = ∑ k : Fin 128, x (ix2 p k) * y (ix2 k j) :=
  matmul_plain_apply x y p j

/-- The stored block at row `p`, column `j` is the perceptron's entry on the loaded blocks. -/
theorem k0_pay1_apply (v0 : Vec Ideal S4000x257 .f32) (v3 : Vec Ideal S257x128 .f32) (v7 : Vec Ideal S1x128 .f32)
    (v14 : Vec Ideal S128x128 .f32) (v18 : Vec Ideal S1x128 .f32) (p : Fin 4000) (j : Fin 128) :
    k0_pay1 (F := Ideal) v0 v3 v7 v14 v18 (ix2 p j) = Cert.Spec.mlpAt v0 v3 v7 v14 v18 p j := by
  unfold k0_pay1
  simp only [shapeCast_self, addf_apply, matmul_4000x128_apply, truncf_apply, maximumf_apply, matmul_4000x257_apply,
    broadcastTo_1b_ab_apply, broadcast_apply, Ideal.ofBits_def, Ideal.ofBits_zero_f32]
  rfl

/-- The same with the residual block's entry added. -/
theorem k1_pay1_apply (v0 : Vec Ideal S5000x256 .f32) (v3 : Vec Ideal S256x128 .f32) (v7 : Vec Ideal S1x128 .f32)
    (v14 : Vec Ideal S128x128 .f32) (v18 : Vec Ideal S1x128 .f32) (v22 : Vec Ideal S5000x128 .f32) (p : Fin 5000) (j : Fin 128) :
    k1_pay1 (F := Ideal) v0 v3 v7 v14 v18 v22 (ix2 p j)
      = v22 (ix2 p j) + Cert.Spec.mlpAt v0 v3 v7 v14 v18 p j := by
  unfold k1_pay1
  simp only [shapeCast_self, addf_apply, matmul_5000x128_apply, truncf_apply, maximumf_apply, matmul_5000x256_apply,
    broadcastTo_1b_ab_apply, broadcast_apply, Ideal.ofBits_def, Ideal.ofBits_zero_f32]
  rfl

end Cert.KernelIdeal.Hand
-- ==== Proof.KI.MsgArr.lean ====
import proofs.«407354_j16939351015862_1_alg».proof.Proof.KI.Region0
import proofs.«407354_j16939351015862_1_alg».proof.Proof.KI.Payload
import proofs.«407354_j16939351015862_1_alg».proof.Proof.Spec
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem offZero0 : (![0, 0] : Fin 2 → Nat) = fun _ => 0 := funext fun a => by fin_cases a <;> rfl

def msgG0 (c : Dev nD) : S400000x128.Idx → EReal := fun idx =>
  Cert.Spec.mlpAt (R := 400000) (K := 257) (H := 128) (O := 128) (V c main_v7) (V c main_v9) (V c main_v16) (V c main_v13) (V c main_v17) (idx 0) (idx 1)

theorem msgGApply0 (c : Dev nD) (i : Fin 400000) (j : Fin 128) :
    msgG0 V c (ix2 i j) = Cert.Spec.mlpAt (R := 400000) (K := 257) (H := 128) (O := 128) (V c main_v7) (V c main_v9) (V c main_v16) (V c main_v13) (V c main_v17) i j := rfl

theorem idxFacts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem rowBlk0 (c : Dev nD) (t : Fin cfg0.N) (p : Fin 4000) (l : Fin 257) (i : Fin 400000) (hi : i.val = t.val * 4000 + p.val) :
    (iblk0 V c 0 t : Vec Ideal S4000x257 .f32) (ix2 p l) = (V c main_v7 : Vec Ideal S400000x257 .f32) (ix2 i l) := by
  obtain ⟨e0, e1, -⟩ := idxFacts0 t
  unfold iblk0
  show (V c main_v7 : Vec Ideal S400000x257 .f32) (((cfg0.win 0).blk t).view.emb (ix2 p l)) = _
  congr 1
  funext a
  apply Fin.ext
  match a with
  | ⟨0, _⟩ => show win0_0.index t (0 : Fin 2) * 4000 + 1 * p.val = i.val; rw [e0, hi]; omega
  | ⟨1, _⟩ => show win0_0.index t (1 : Fin 2) * 257 + 1 * l.val = l.val; rw [e1]; omega

theorem w1Blk0 (c : Dev nD) (t : Fin cfg0.N) :
    (iblk0 V c 1 t : Vec Ideal S257x128 .f32) = (V c main_v9 : Vec Ideal S257x128 .f32) := by
  obtain ⟨-, -, e0, e1, -⟩ := idxFacts0 t
  funext x
  unfold iblk0
  show (V c main_v9 : Vec Ideal S257x128 .f32) (((cfg0.win 1).blk t).view.emb x) = _
  congr 1
  funext a
  apply Fin.ext
  match a with
  | ⟨0, _⟩ => show win0_1.index t (0 : Fin 2) * 257 + 1 * (x 0).val = (x 0).val; rw [e0]; omega
  | ⟨1, _⟩ => show win0_1.index t (1 : Fin 2) * 128 + 1 * (x 1).val = (x 1).val; rw [e1]; omega

theorem b1Blk0 (c : Dev nD) (t : Fin cfg0.N) :
    (iblk0 V c 2 t : Vec Ideal S1x128 .f32) = (V c main_v16 : Vec Ideal S1x128 .f32) := by
  obtain ⟨-, -, -, -, e0, e1, -⟩ := idxFacts0 t
  funext x
  unfold iblk0
  show (V c main_v16 : Vec Ideal S1x128 .f32) (((cfg0.win 2).blk t).view.emb x) = _
  congr 1
  funext a
  apply Fin.ext
  match a with
  | ⟨0, _⟩ => show win0_2.index t (0 : Fin 2) * 1 + 1 * (x 0).val = (x 0).val; rw [e0]; omega
  | ⟨1, _⟩ => show win0_2.index t (1 : Fin 2) * 128 + 1 * (x 1).val = (x 1).val; rw [e1]; omega

theorem w2Blk0 (c : Dev nD) (t : Fin cfg0.N) :
    (iblk0 V c 3 t : Vec Ideal S128x128 .f32) = (V c main_v13 : Vec Ideal S128x128 .f32) := by
  obtain ⟨-, -, -, -, -, -, e0, e1, -⟩ := idxFacts0 t
  funext x
  unfold iblk0
  show (V c main_v13 : Vec Ideal S128x128 .f32) (((cfg0.win 3).blk t).view.emb x) = _
  congr 1
  funext a
  apply Fin.ext
  match a with
  | ⟨0, _⟩ => show win0_3.index t (0 : Fin 2) * 128 + 1 * (x 0).val = (x 0).val; rw [e0]; omega
  | ⟨1, _⟩ => show win0_3.index t (1 : Fin 2) * 128 + 1 * (x 1).val = (x 1).val; rw [e1]; omega

theorem b2Blk0 (c : Dev nD) (t : Fin cfg0.N) :
    (iblk0 V c 4 t : Vec Ideal S1x128 .f32) = (V c main_v17 : Vec Ideal S1x128 .f32) := by
  obtain ⟨-, -, -, -, -, -, -, -, e0, e1, -⟩ := idxFacts0 t
  funext x
  unfold iblk0
  show (V c main_v17 : Vec Ideal S1x128 .f32) (((cfg0.win 4).blk t).view.emb x) = _
  congr 1
  funext a
  apply Fin.ext
  match a with
  | ⟨0, _⟩ => show win0_4.index t (0 : Fin 2) * 1 + 1 * (x 0).val = (x 0).val; rw [e0]; omega
  | ⟨1, _⟩ => show win0_4.index t (1 : Fin 2) * 128 + 1 * (x 1).val = (x 1).val; rw [e1]; omega

theorem resBlk0 (t : Fin cfg0.N) (G : S400000x128.Idx → EReal) (p : Fin 4000) (j : Fin 128) (i : Fin 400000)
    (hi : i.val = t.val * 4000 + p.val) :
    (((cfg0.win 5).blk t).view.read (Elt Ideal) G : S4000x128.Idx → EReal) (ix2 p j) = G (ix2 i j) := by
  obtain ⟨-, -, -, -, -, -, -, -, -, -, e0, e1⟩ := idxFacts0 t
  show G (((cfg0.win 5).blk t).view.emb (ix2 p j)) = _
  congr 1
  funext a
  apply Fin.ext
  match a with
  | ⟨0, _⟩ => show win0_5.index t (0 : Fin 2) * 4000 + 1 * p.val = i.val; rw [e0, hi]; omega
  | ⟨1, _⟩ => show win0_5.index t (1 : Fin 2) * 128 + 1 * j.val = j.val; rw [e1]; omega

theorem mlpBlocks0 (x : Vec Ideal S4000x257 .f32) (X : Vec Ideal S400000x257 .f32)
    (w1 W1 : Vec Ideal S257x128 .f32) (b1 B1 : Vec Ideal S1x128 .f32) (w2 W2 : Vec Ideal S128x128 .f32) (b2 B2 : Vec Ideal S1x128 .f32)
    (p : Fin 4000) (i : Fin 400000) (j : Fin 128)
    (hx : ∀ l : Fin 257, x (ix2 p l) = X (ix2 i l)) (h1 : w1 = W1) (h2 : b1 = B1) (h3 : w2 = W2) (h4 : b2 = B2) :
    Cert.Spec.mlpAt x w1 b1 w2 b2 p j = Cert.Spec.mlpAt X W1 B1 W2 B2 i j := by
  subst h1 h2 h3 h4
  exact Cert.Spec.mlpAt_congr_row x X w1 b1 w2 b2 p i j hx

theorem blockEntry0 (c : Dev nD) (t : Fin cfg0.N) (p : Fin 4000) (j : Fin 128) :
    k0_pay1 (F := Ideal) (iblk0 V c 0 t) (iblk0 V c 1 t) (iblk0 V c 2 t) (iblk0 V c 3 t) (iblk0 V c 4 t) (ix2 p j)
      = (((cfg0.win 5).blk t).view.read (Elt Ideal) (msgG0 V c) : S4000x128.Idx → EReal) (ix2 p j) := by
  have hN : t.val < 100 := t.isLt.trans_eq N_0
  have hp : p.val < 4000 := p.isLt
  have hlt : t.val * 4000 + p.val < 400000 := by omega
  refine (k0_pay1_apply (iblk0 V c 0 t) (iblk0 V c 1 t) (iblk0 V c 2 t) (iblk0 V c 3 t) (iblk0 V c 4 t) p j).trans ?_
  refine Eq.trans ?_ (resBlk0 t (msgG0 V c) p j ⟨t.val * 4000 + p.val, hlt⟩ rfl).symm
  rw [msgGApply0]
  exact mlpBlocks0 (iblk0 V c 0 t) (V c main_v7) (iblk0 V c 1 t) (V c main_v9) (iblk0 V c 2 t) (V c main_v16)
    (iblk0 V c 3 t) (V c main_v13) (iblk0 V c 4 t) (V c main_v17) p ⟨t.val * 4000 + p.val, hlt⟩ j
    (fun l => rowBlk0 V c t p l ⟨t.val * 4000 + p.val, hlt⟩ rfl) (w1Blk0 V c t) (b1Blk0 V c t) (w2Blk0 V c t) (b2Blk0 V c t)

theorem flushedEq0 (c : Dev nD) (t : Fin cfg0.N) :
    (dat0 (F := Ideal) V c).flushed 5 t = ((cfg0.win 5).blk t).view.read (Elt Ideal) (msgG0 V c) := by
  show (cfg0.win 5).cut (grid0.coords t) ((dat0 (F := Ideal) V c).after 5 t) = _
  rw [after0_5]
  unfold out0_5
  rw [View.canon_unit_zero offZero0]
  simp only [View.ld_unit_zero (S := S4000x257) offZero0, View.ld_unit_zero (S := S257x128) offZero0,
    View.ld_unit_zero (S := S1x128) offZero0, View.ld_unit_zero (S := S128x128) offZero0]
  funext y
  obtain ⟨p, j, rfl⟩ : ∃ (p : Fin 4000) (j : Fin 128), y = ix2 p j := ⟨y 0, y 1, eq_ix2 (n0 := 4000) (n1 := 128) y⟩
  exact blockEntry0 V c t p j

theorem memBlk0 (t : Fin cfg0.N) (i : S400000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v18).slice (win0_5.rect t)).set ↔ _
  rw [View.set_slice_whole, Rect.mem_set_unit]
  exact Iff.rfl

theorem covered0 (i : S400000x128.Idx) :
    ∃ t : Fin cfg0.N, (cfg0.win 5).flush t = true ∧ i ∈ ((cfg0.win 5).blk t).view.set := by
  have hi0 : (i 0).val < 400000 := (i 0).isLt
  have hi1 : (i 1).val < 128 := (i 1).isLt
  have hN : (i 0).val / 4000 < cfg0.N := by rw [show cfg0.N = 100 from N_0]; omega
  obtain ⟨-, -, -, -, -, -, -, -, -, -, e0, e1⟩ := idxFacts0 ⟨(i 0).val / 4000, hN⟩
  refine ⟨⟨(i 0).val / 4000, hN⟩, flush0_5 _, ?_⟩
  rw [memBlk0]
  intro a
  match a with
  | ⟨0, _⟩ =>
    show win0_5.index ⟨(i 0).val / 4000, hN⟩ (0 : Fin 2) * 4000 ≤ (i 0).val ∧ (i 0).val < win0_5.index ⟨(i 0).val / 4000, hN⟩ (0 : Fin 2) * 4000 + 4000
    rw [e0]; show (i 0).val / 4000 * 4000 ≤ (i 0).val ∧ (i 0).val < (i 0).val / 4000 * 4000 + 4000; omega
  | ⟨1, _⟩ =>
    show win0_5.index ⟨(i 0).val / 4000, hN⟩ (1 : Fin 2) * 128 ≤ (i 1).val ∧ (i 1).val < win0_5.index ⟨(i 0).val / 4000, hN⟩ (1 : Fin 2) * 128 + 128
    rw [e1]; omega

theorem msgArrEq0 (c : Dev nD) : (dat0 (F := Ideal) V c).arrAt 5 cfg0.N = msgG0 V c :=
  (dat0 (F := Ideal) V c).arrAt_eq_of_cover 5 (msgG0 V c) (fun t _ => flushedEq0 V c t) covered0

theorem msgArr0 (c : Dev nD) (i : Fin 400000) (j : Fin 128) :
    ((dat0 (F := Ideal) V c).arrAt 5 cfg0.N : S400000x128.Idx → EReal) (ix2 i j)
      = Cert.Spec.mlpAt (R := 400000) (K := 257) (H := 128) (O := 128) (V c main_v7) (V c main_v9) (V c main_v16) (V c main_v13) (V c main_v17) i j :=
  (congrFun (msgArrEq0 V c) (ix2 i j)).trans (msgGApply0 V c i j)

end Cert.KernelIdeal.Hand

end
-- ==== Proof.KI.MsgArr2.lean ====
import proofs.«407354_j16939351015862_1_alg».proof.Proof.KI.Region2
import proofs.«407354_j16939351015862_1_alg».proof.Proof.KI.Payload
import proofs.«407354_j16939351015862_1_alg».proof.Proof.Spec
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem offZero2 : (![0, 0] : Fin 2 → Nat) = fun _ => 0 := funext fun a => by fin_cases a <;> rfl

def msgG2 (c : Dev nD) : S400000x128.Idx → EReal := fun idx =>
  Cert.Spec.mlpAt (R := 400000) (K := 257) (H := 128) (O := 128) (V c main_v36) (V c main_v38) (V c main_v45) (V c main_v42) (V c main_v46) (idx 0) (idx 1)

theorem msgGApply2 (c : Dev nD) (i : Fin 400000) (j : Fin 128) :
    msgG2 V c (ix2 i j) = Cert.Spec.mlpAt (R := 400000) (K := 257) (H := 128) (O := 128) (V c main_v36) (V c main_v38) (V c main_v45) (V c main_v42) (V c main_v46) i j := rfl

theorem idxFacts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem rowBlk2 (c : Dev nD) (t : Fin cfg2.N) (p : Fin 4000) (l : Fin 257) (i : Fin 400000) (hi : i.val = t.val * 4000 + p.val) :
    (iblk2 V c 0 t : Vec Ideal S4000x257 .f32) (ix2 p l) = (V c main_v36 : Vec Ideal S400000x257 .f32) (ix2 i l) := by
  obtain ⟨e0, e1, -⟩ := idxFacts2 t
  unfold iblk2
  show (V c main_v36 : Vec Ideal S400000x257 .f32) (((cfg2.win 0).blk t).view.emb (ix2 p l)) = _
  congr 1
  funext a
  apply Fin.ext
  match a with
  | ⟨0, _⟩ => show win2_0.index t (0 : Fin 2) * 4000 + 1 * p.val = i.val; rw [e0, hi]; omega
  | ⟨1, _⟩ => show win2_0.index t (1 : Fin 2) * 257 + 1 * l.val = l.val; rw [e1]; omega

theorem w1Blk2 (c : Dev nD) (t : Fin cfg2.N) :
    (iblk2 V c 1 t : Vec Ideal S257x128 .f32) = (V c main_v38 : Vec Ideal S257x128 .f32) := by
  obtain ⟨-, -, e0, e1, -⟩ := idxFacts2 t
  funext x
  unfold iblk2
  show (V c main_v38 : Vec Ideal S257x128 .f32) (((cfg2.win 1).blk t).view.emb x) = _
  congr 1
  funext a
  apply Fin.ext
  match a with
  | ⟨0, _⟩ => show win2_1.index t (0 : Fin 2) * 257 + 1 * (x 0).val = (x 0).val; rw [e0]; omega
  | ⟨1, _⟩ => show win2_1.index t (1 : Fin 2) * 128 + 1 * (x 1).val = (x 1).val; rw [e1]; omega

theorem b1Blk2 (c : Dev nD) (t : Fin cfg2.N) :
    (iblk2 V c 2 t : Vec Ideal S1x128 .f32) = (V c main_v45 : Vec Ideal S1x128 .f32) := by
  obtain ⟨-, -, -, -, e0, e1, -⟩ := idxFacts2 t
  funext x
  unfold iblk2
  show (V c main_v45 : Vec Ideal S1x128 .f32) (((cfg2.win 2).blk t).view.emb x) = _
  congr 1
  funext a
  apply Fin.ext
  match a with
  | ⟨0, _⟩ => show win2_2.index t (0 : Fin 2) * 1 + 1 * (x 0).val = (x 0).val; rw [e0]; omega
  | ⟨1, _⟩ => show win2_2.index t (1 : Fin 2) * 128 + 1 * (x 1).val = (x 1).val; rw [e1]; omega

theorem w2Blk2 (c : Dev nD) (t : Fin cfg2.N) :
    (iblk2 V c 3 t : Vec Ideal S128x128 .f32) = (V c main_v42 : Vec Ideal S128x128 .f32) := by
  obtain ⟨-, -, -, -, -, -, e0, e1, -⟩ := idxFacts2 t
  funext x
  unfold iblk2
  show (V c main_v42 : Vec Ideal S128x128 .f32) (((cfg2.win 3).blk t).view.emb x) = _
  congr 1
  funext a
  apply Fin.ext
  match a with
  | ⟨0, _⟩ => show win2_3.index t (0 : Fin 2) * 128 + 1 * (x 0).val = (x 0).val; rw [e0]; omega
  | ⟨1, _⟩ => show win2_3.index t (1 : Fin 2) * 128 + 1 * (x 1).val = (x 1).val; rw [e1]; omega

theorem b2Blk2 (c : Dev nD) (t : Fin cfg2.N) :
    (iblk2 V c 4 t : Vec Ideal S1x128 .f32) = (V c main_v46 : Vec Ideal S1x128 .f32) := by
  obtain ⟨-, -, -, -, -, -, -, -, e0, e1, -⟩ := idxFacts2 t
  funext x
  unfold iblk2
  show (V c main_v46 : Vec Ideal S1x128 .f32) (((cfg2.win 4).blk t).view.emb x) = _
  congr 1
  funext a
  apply Fin.ext
  match a with
  | ⟨0, _⟩ => show win2_4.index t (0 : Fin 2) * 1 + 1 * (x 0).val = (x 0).val; rw [e0]; omega
  | ⟨1, _⟩ => show win2_4.index t (1 : Fin 2) * 128 + 1 * (x 1).val = (x 1).val; rw [e1]; omega

theorem resBlk2 (t : Fin cfg2.N) (G : S400000x128.Idx → EReal) (p : Fin 4000) (j : Fin 128) (i : Fin 400000)
    (hi : i.val = t.val * 4000 + p.val) :
    (((cfg2.win 5).blk t).view.read (Elt Ideal) G : S4000x128.Idx → EReal) (ix2 p j) = G (ix2 i j) := by
  obtain ⟨-, -, -, -, -, -, -, -, -, -, e0, e1⟩ := idxFacts2 t
  show G (((cfg2.win 5).blk t).view.emb (ix2 p j)) = _
  congr 1
  funext a
  apply Fin.ext
  match a with
  | ⟨0, _⟩ => show win2_5.index t (0 : Fin 2) * 4000 + 1 * p.val = i.val; rw [e0, hi]; omega
  | ⟨1, _⟩ => show win2_5.index t (1 : Fin 2) * 128 + 1 * j.val = j.val; rw [e1]; omega

theorem mlpBlocks2 (x : Vec Ideal S4000x257 .f32) (X : Vec Ideal S400000x257 .f32)
    (w1 W1 : Vec Ideal S257x128 .f32) (b1 B1 : Vec Ideal S1x128 .f32) (w2 W2 : Vec Ideal S128x128 .f32) (b2 B2 : Vec Ideal S1x128 .f32)
    (p : Fin 4000) (i : Fin 400000) (j : Fin 128)
    (hx : ∀ l : Fin 257, x (ix2 p l) = X (ix2 i l)) (h1 : w1 = W1) (h2 : b1 = B1) (h3 : w2 = W2) (h4 : b2 = B2) :
    Cert.Spec.mlpAt x w1 b1 w2 b2 p j = Cert.Spec.mlpAt X W1 B1 W2 B2 i j := by
  subst h1 h2 h3 h4
  exact Cert.Spec.mlpAt_congr_row x X w1 b1 w2 b2 p i j hx

theorem blockEntry2 (c : Dev nD) (t : Fin cfg2.N) (p : Fin 4000) (j : Fin 128) :
    k0_pay1 (F := Ideal) (iblk2 V c 0 t) (iblk2 V c 1 t) (iblk2 V c 2 t) (iblk2 V c 3 t) (iblk2 V c 4 t) (ix2 p j)
      = (((cfg2.win 5).blk t).view.read (Elt Ideal) (msgG2 V c) : S4000x128.Idx → EReal) (ix2 p j) := by
  have hN : t.val < 100 := t.isLt.trans_eq N_2
  have hp : p.val < 4000 := p.isLt
  have hlt : t.val * 4000 + p.val < 400000 := by omega
  refine (k0_pay1_apply (iblk2 V c 0 t) (iblk2 V c 1 t) (iblk2 V c 2 t) (iblk2 V c 3 t) (iblk2 V c 4 t) p j).trans ?_
  refine Eq.trans ?_ (resBlk2 t (msgG2 V c) p j ⟨t.val * 4000 + p.val, hlt⟩ rfl).symm
  rw [msgGApply2]
  exact mlpBlocks2 (iblk2 V c 0 t) (V c main_v36) (iblk2 V c 1 t) (V c main_v38) (iblk2 V c 2 t) (V c main_v45)
    (iblk2 V c 3 t) (V c main_v42) (iblk2 V c 4 t) (V c main_v46) p ⟨t.val * 4000 + p.val, hlt⟩ j
    (fun l => rowBlk2 V c t p l ⟨t.val * 4000 + p.val, hlt⟩ rfl) (w1Blk2 V c t) (b1Blk2 V c t) (w2Blk2 V c t) (b2Blk2 V c t)

theorem flushedEq2 (c : Dev nD) (t : Fin cfg2.N) :
    (dat2 (F := Ideal) V c).flushed 5 t = ((cfg2.win 5).blk t).view.read (Elt Ideal) (msgG2 V c) := by
  show (cfg2.win 5).cut (grid2.coords t) ((dat2 (F := Ideal) V c).after 5 t) = _
  rw [after2_5]
  unfold out0_5
  rw [View.canon_unit_zero offZero2]
  simp only [View.ld_unit_zero (S := S4000x257) offZero2, View.ld_unit_zero (S := S257x128) offZero2,
    View.ld_unit_zero (S := S1x128) offZero2, View.ld_unit_zero (S := S128x128) offZero2]
  funext y
  obtain ⟨p, j, rfl⟩ : ∃ (p : Fin 4000) (j : Fin 128), y = ix2 p j := ⟨y 0, y 1, eq_ix2 (n0 := 4000) (n1 := 128) y⟩
  exact blockEntry2 V c t p j

theorem memBlk2 (t : Fin cfg2.N) (i : S400000x128.Idx) :
    i ∈ ((cfg2.win 5).blk t).view.set ↔ ∀ a : Fin 2, win2_5.index t a * S4000x128.size a ≤ (i a).val ∧ (i a).val < win2_5.index t a * S4000x128.size a + S4000x128.size a := by
  show i ∈ ((View.whole main_v47).slice (win2_5.rect t)).set ↔ _
  rw [View.set_slice_whole, Rect.mem_set_unit]
  exact Iff.rfl

theorem covered2 (i : S400000x128.Idx) :
    ∃ t : Fin cfg2.N, (cfg2.win 5).flush t = true ∧ i ∈ ((cfg2.win 5).blk t).view.set := by
  have hi0 : (i 0).val < 400000 := (i 0).isLt
  have hi1 : (i 1).val < 128 := (i 1).isLt
  have hN : (i 0).val / 4000 < cfg2.N := by rw [show cfg2.N = 100 from N_2]; omega
  obtain ⟨-, -, -, -, -, -, -, -, -, -, e0, e1⟩ := idxFacts2 ⟨(i 0).val / 4000, hN⟩
  refine ⟨⟨(i 0).val / 4000, hN⟩, flush2_5 _, ?_⟩
  rw [memBlk2]
  intro a
  match a with
  | ⟨0, _⟩ =>
    show win2_5.index ⟨(i 0).val / 4000, hN⟩ (0 : Fin 2) * 4000 ≤ (i 0).val ∧ (i 0).val < win2_5.index ⟨(i 0).val / 4000, hN⟩ (0 : Fin 2) * 4000 + 4000
    rw [e0]; show (i 0).val / 4000 * 4000 ≤ (i 0).val ∧ (i 0).val < (i 0).val / 4000 * 4000 + 4000; omega
  | ⟨1, _⟩ =>
    show win2_5.index ⟨(i 0).val / 4000, hN⟩ (1 : Fin 2) * 128 ≤ (i 1).val ∧ (i 1).val < win2_5.index ⟨(i 0).val / 4000, hN⟩ (1 : Fin 2) * 128 + 128
    rw [e1]; omega

theorem msgArrEq2 (c : Dev nD) : (dat2 (F := Ideal) V c).arrAt 5 cfg2.N = msgG2 V c :=
  (dat2 (F := Ideal) V c).arrAt_eq_of_cover 5 (msgG2 V c) (fun t _ => flushedEq2 V c t) covered2

theorem msgArr2 (c : Dev nD) (i : Fin 400000) (j : Fin 128) :
    ((dat2 (F := Ideal) V c).arrAt 5 cfg2.N : S400000x128.Idx → EReal) (ix2 i j)
      = Cert.Spec.mlpAt (R := 400000) (K := 257) (H := 128) (O := 128) (V c main_v36) (V c main_v38) (V c main_v45) (V c main_v42) (V c main_v46) i j :=
  (congrFun (msgArrEq2 V c) (ix2 i j)).trans (msgGApply2 V c i j)

end Cert.KernelIdeal.Hand

end
-- ==== Proof.KI.MsgArr4.lean ====
import proofs.«407354_j16939351015862_1_alg».proof.Proof.KI.Region4
import proofs.«407354_j16939351015862_1_alg».proof.Proof.KI.Payload
import proofs.«407354_j16939351015862_1_alg».proof.Proof.Spec
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem offZero4 : (![0, 0] : Fin 2 → Nat) = fun _ => 0 := funext fun a => by fin_cases a <;> rfl

def msgG4 (c : Dev nD) : S400000x128.Idx → EReal := fun idx =>
  Cert.Spec.mlpAt (R := 400000) (K := 257) (H := 128) (O := 128) (V c main_v65) (V c main_v67) (V c main_v74) (V c main_v71) (V c main_v75) (idx 0) (idx 1)

theorem msgGApply4 (c : Dev nD) (i : Fin 400000) (j : Fin 128) :
    msgG4 V c (ix2 i j) = Cert.Spec.mlpAt (R := 400000) (K := 257) (H := 128) (O := 128) (V c main_v65) (V c main_v67) (V c main_v74) (V c main_v71) (V c main_v75) i j := rfl

theorem idxFacts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

theorem rowBlk4 (c : Dev nD) (t : Fin cfg4.N) (p : Fin 4000) (l : Fin 257) (i : Fin 400000) (hi : i.val = t.val * 4000 + p.val) :
    (iblk4 V c 0 t : Vec Ideal S4000x257 .f32) (ix2 p l) = (V c main_v65 : Vec Ideal S400000x257 .f32) (ix2 i l) := by
  obtain ⟨e0, e1, -⟩ := idxFacts4 t
  unfold iblk4
  show (V c main_v65 : Vec Ideal S400000x257 .f32) (((cfg4.win 0).blk t).view.emb (ix2 p l)) = _
  congr 1
  funext a
  apply Fin.ext
  match a with
  | ⟨0, _⟩ => show win4_0.index t (0 : Fin 2) * 4000 + 1 * p.val = i.val; rw [e0, hi]; omega
  | ⟨1, _⟩ => show win4_0.index t (1 : Fin 2) * 257 + 1 * l.val = l.val; rw [e1]; omega

theorem w1Blk4 (c : Dev nD) (t : Fin cfg4.N) :
    (iblk4 V c 1 t : Vec Ideal S257x128 .f32) = (V c main_v67 : Vec Ideal S257x128 .f32) := by
  obtain ⟨-, -, e0, e1, -⟩ := idxFacts4 t
  funext x
  unfold iblk4
  show (V c main_v67 : Vec Ideal S257x128 .f32) (((cfg4.win 1).blk t).view.emb x) = _
  congr 1
  funext a
  apply Fin.ext
  match a with
  | ⟨0, _⟩ => show win4_1.index t (0 : Fin 2) * 257 + 1 * (x 0).val = (x 0).val; rw [e0]; omega
  | ⟨1, _⟩ => show win4_1.index t (1 : Fin 2) * 128 + 1 * (x 1).val = (x 1).val; rw [e1]; omega

theorem b1Blk4 (c : Dev nD) (t : Fin cfg4.N) :
    (iblk4 V c 2 t : Vec Ideal S1x128 .f32) = (V c main_v74 : Vec Ideal S1x128 .f32) := by
  obtain ⟨-, -, -, -, e0, e1, -⟩ := idxFacts4 t
  funext x
  unfold iblk4
  show (V c main_v74 : Vec Ideal S1x128 .f32) (((cfg4.win 2).blk t).view.emb x) = _
  congr 1
  funext a
  apply Fin.ext
  match a with
  | ⟨0, _⟩ => show win4_2.index t (0 : Fin 2) * 1 + 1 * (x 0).val = (x 0).val; rw [e0]; omega
  | ⟨1, _⟩ => show win4_2.index t (1 : Fin 2) * 128 + 1 * (x 1).val = (x 1).val; rw [e1]; omega

theorem w2Blk4 (c : Dev nD) (t : Fin cfg4.N) :
    (iblk4 V c 3 t : Vec Ideal S128x128 .f32) = (V c main_v71 : Vec Ideal S128x128 .f32) := by
  obtain ⟨-, -, -, -, -, -, e0, e1, -⟩ := idxFacts4 t
  funext x
  unfold iblk4
  show (V c main_v71 : Vec Ideal S128x128 .f32) (((cfg4.win 3).blk t).view.emb x) = _
  congr 1
  funext a
  apply Fin.ext
  match a with
  | ⟨0, _⟩ => show win4_3.index t (0 : Fin 2) * 128 + 1 * (x 0).val = (x 0).val; rw [e0]; omega
  | ⟨1, _⟩ => show win4_3.index t (1 : Fin 2) * 128 + 1 * (x 1).val = (x 1).val; rw [e1]; omega

theorem b2Blk4 (c : Dev nD) (t : Fin cfg4.N) :
    (iblk4 V c 4 t : Vec Ideal S1x128 .f32) = (V c main_v75 : Vec Ideal S1x128 .f32) := by
  obtain ⟨-, -, -, -, -, -, -, -, e0, e1, -⟩ := idxFacts4 t
  funext x
  unfold iblk4
  show (V c main_v75 : Vec Ideal S1x128 .f32) (((cfg4.win 4).blk t).view.emb x) = _
  congr 1
  funext a
  apply Fin.ext
  match a with
  | ⟨0, _⟩ => show win4_4.index t (0 : Fin 2) * 1 + 1 * (x 0).val = (x 0).val; rw [e0]; omega
  | ⟨1, _⟩ => show win4_4.index t (1 : Fin 2) * 128 + 1 * (x 1).val = (x 1).val; rw [e1]; omega

theorem resBlk4 (t : Fin cfg4.N) (G : S400000x128.Idx → EReal) (p : Fin 4000) (j : Fin 128) (i : Fin 400000)
    (hi : i.val = t.val * 4000 + p.val) :
    (((cfg4.win 5).blk t).view.read (Elt Ideal) G : S4000x128.Idx → EReal) (ix2 p j) = G (ix2 i j) := by
  obtain ⟨-, -, -, -, -, -, -, -, -, -, e0, e1⟩ := idxFacts4 t
  show G (((cfg4.win 5).blk t).view.emb (ix2 p j)) = _
  congr 1
  funext a
  apply Fin.ext
  match a with
  | ⟨0, _⟩ => show win4_5.index t (0 : Fin 2) * 4000 + 1 * p.val = i.val; rw [e0, hi]; omega
  | ⟨1, _⟩ => show win4_5.index t (1 : Fin 2) * 128 + 1 * j.val = j.val; rw [e1]; omega

theorem mlpBlocks4 (x : Vec Ideal S4000x257 .f32) (X : Vec Ideal S400000x257 .f32)
    (w1 W1 : Vec Ideal S257x128 .f32) (b1 B1 : Vec Ideal S1x128 .f32) (w2 W2 : Vec Ideal S128x128 .f32) (b2 B2 : Vec Ideal S1x128 .f32)
    (p : Fin 4000) (i : Fin 400000) (j : Fin 128)
    (hx : ∀ l : Fin 257, x (ix2 p l) = X (ix2 i l)) (h1 : w1 = W1) (h2 : b1 = B1) (h3 : w2 = W2) (h4 : b2 = B2) :
    Cert.Spec.mlpAt x w1 b1 w2 b2 p j = Cert.Spec.mlpAt X W1 B1 W2 B2 i j := by
  subst h1 h2 h3 h4
  exact Cert.Spec.mlpAt_congr_row x X w1 b1 w2 b2 p i j hx

theorem blockEntry4 (c : Dev nD) (t : Fin cfg4.N) (p : Fin 4000) (j : Fin 128) :
    k0_pay1 (F := Ideal) (iblk4 V c 0 t) (iblk4 V c 1 t) (iblk4 V c 2 t) (iblk4 V c 3 t) (iblk4 V c 4 t) (ix2 p j)
      = (((cfg4.win 5).blk t).view.read (Elt Ideal) (msgG4 V c) : S4000x128.Idx → EReal) (ix2 p j) := by
  have hN : t.val < 100 := t.isLt.trans_eq N_4
  have hp : p.val < 4000 := p.isLt
  have hlt : t.val * 4000 + p.val < 400000 := by omega
  refine (k0_pay1_apply (iblk4 V c 0 t) (iblk4 V c 1 t) (iblk4 V c 2 t) (iblk4 V c 3 t) (iblk4 V c 4 t) p j).trans ?_
  refine Eq.trans ?_ (resBlk4 t (msgG4 V c) p j ⟨t.val * 4000 + p.val, hlt⟩ rfl).symm
  rw [msgGApply4]
  exact mlpBlocks4 (iblk4 V c 0 t) (V c main_v65) (iblk4 V c 1 t) (V c main_v67) (iblk4 V c 2 t) (V c main_v74)
    (iblk4 V c 3 t) (V c main_v71) (iblk4 V c 4 t) (V c main_v75) p ⟨t.val * 4000 + p.val, hlt⟩ j
    (fun l => rowBlk4 V c t p l ⟨t.val * 4000 + p.val, hlt⟩ rfl) (w1Blk4 V c t) (b1Blk4 V c t) (w2Blk4 V c t) (b2Blk4 V c t)

theorem flushedEq4 (c : Dev nD) (t : Fin cfg4.N) :
    (dat4 (F := Ideal) V c).flushed 5 t = ((cfg4.win 5).blk t).view.read (Elt Ideal) (msgG4 V c) := by
  show (cfg4.win 5).cut (grid4.coords t) ((dat4 (F := Ideal) V c).after 5 t) = _
  rw [after4_5]
  unfold out0_5
  rw [View.canon_unit_zero offZero4]
  simp only [View.ld_unit_zero (S := S4000x257) offZero4, View.ld_unit_zero (S := S257x128) offZero4,
    View.ld_unit_zero (S := S1x128) offZero4, View.ld_unit_zero (S := S128x128) offZero4]
  funext y
  obtain ⟨p, j, rfl⟩ : ∃ (p : Fin 4000) (j : Fin 128), y = ix2 p j := ⟨y 0, y 1, eq_ix2 (n0 := 4000) (n1 := 128) y⟩
  exact blockEntry4 V c t p j

theorem memBlk4 (t : Fin cfg4.N) (i : S400000x128.Idx) :
    i ∈ ((cfg4.win 5).blk t).view.set ↔ ∀ a : Fin 2, win4_5.index t a * S4000x128.size a ≤ (i a).val ∧ (i a).val < win4_5.index t a * S4000x128.size a + S4000x128.size a := by
  show i ∈ ((View.whole main_v76).slice (win4_5.rect t)).set ↔ _
  rw [View.set_slice_whole, Rect.mem_set_unit]
  exact Iff.rfl

theorem covered4 (i : S400000x128.Idx) :
    ∃ t : Fin cfg4.N, (cfg4.win 5).flush t = true ∧ i ∈ ((cfg4.win 5).blk t).view.set := by
  have hi0 : (i 0).val < 400000 := (i 0).isLt
  have hi1 : (i 1).val < 128 := (i 1).isLt
  have hN : (i 0).val / 4000 < cfg4.N := by rw [show cfg4.N = 100 from N_4]; omega
  obtain ⟨-, -, -, -, -, -, -, -, -, -, e0, e1⟩ := idxFacts4 ⟨(i 0).val / 4000, hN⟩
  refine ⟨⟨(i 0).val / 4000, hN⟩, flush4_5 _, ?_⟩
  rw [memBlk4]
  intro a
  match a with
  | ⟨0, _⟩ =>
    show win4_5.index ⟨(i 0).val / 4000, hN⟩ (0 : Fin 2) * 4000 ≤ (i 0).val ∧ (i 0).val < win4_5.index ⟨(i 0).val / 4000, hN⟩ (0 : Fin 2) * 4000 + 4000
    rw [e0]; show (i 0).val / 4000 * 4000 ≤ (i 0).val ∧ (i 0).val < (i 0).val / 4000 * 4000 + 4000; omega
  | ⟨1, _⟩ =>
    show win4_5.index ⟨(i 0).val / 4000, hN⟩ (1 : Fin 2) * 128 ≤ (i 1).val ∧ (i 1).val < win4_5.index ⟨(i 0).val / 4000, hN⟩ (1 : Fin 2) * 128 + 128
    rw [e1]; omega

theorem msgArrEq4 (c : Dev nD) : (dat4 (F := Ideal) V c).arrAt 5 cfg4.N = msgG4 V c :=
  (dat4 (F := Ideal) V c).arrAt_eq_of_cover 5 (msgG4 V c) (fun t _ => flushedEq4 V c t) covered4

theorem msgArr4 (c : Dev nD) (i : Fin 400000) (j : Fin 128) :
    ((dat4 (F := Ideal) V c).arrAt 5 cfg4.N : S400000x128.Idx → EReal) (ix2 i j)
      = Cert.Spec.mlpAt (R := 400000) (K := 257) (H := 128) (O := 128) (V c main_v65) (V c main_v67) (V c main_v74) (V c main_v71) (V c main_v75) i j :=
  (congrFun (msgArrEq4 V c) (ix2 i j)).trans (msgGApply4 V c i j)

end Cert.KernelIdeal.Hand

end
-- ==== Proof.KI.UpdArr.lean ====
import proofs.«407354_j16939351015862_1_alg».proof.Proof.KI.Region1
import proofs.«407354_j16939351015862_1_alg».proof.Proof.KI.Payload
import proofs.«407354_j16939351015862_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem updZeros_c1 : (![0, 0] : Fin 2 → Nat) = fun _ => 0 := funext fun a => by fin_cases a <;> rfl

abbrev updIn_c1 (c : Dev nD) : Vec Ideal S50000x256 .f32 := V c main_v22

abbrev updWa_c1 (c : Dev nD) : Vec Ideal S256x128 .f32 := V c main_v24

abbrev updBa_c1 (c : Dev nD) : Vec Ideal S1x128 .f32 := V c main_v31

abbrev updWb_c1 (c : Dev nD) : Vec Ideal S128x128 .f32 := V c main_v28

abbrev updBb_c1 (c : Dev nD) : Vec Ideal S1x128 .f32 := V c main_v32

abbrev updRes_c1 (c : Dev nD) : Vec Ideal S50000x128 .f32 := V c main_v4

def updG_c1 (c : Dev nD) : Vec Ideal S50000x128 .f32 := fun idx =>
  updRes_c1 V c idx
    + Cert.Spec.mlpAt (updIn_c1 V c) (updWa_c1 V c) (updBa_c1 V c) (updWb_c1 V c) (updBb_c1 V c) (idx 0) (idx 1)

theorem updIndex_c1 : ∀ t : Fin cfg1.N, t.val < 10
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

theorem updOnto_c1 : ∀ q : Fin 10, ∃ t : Fin cfg1.N, win1_6.index t (0 : Fin 2) = q.val ∧ win1_6.index t (1 : Fin 2) = 0 :=
  (by decide +kernel : ∀ q : Fin 10, ∃ t : Fin grid1.N, win1_6.index t (0 : Fin 2) = q.val ∧ win1_6.index t (1 : Fin 2) = 0)

theorem updInBlock_c1 (c : Dev nD) (t : Fin cfg1.N) (p : Fin 5000) (l : Fin 256) (i : Fin 50000)
    (hi : i.val = t.val * 5000 + p.val) :
    (iblk1 V c 0 t : Vec Ideal S5000x256 .f32) (ix2 p l) = updIn_c1 V c (ix2 i l) := by
  obtain ⟨-, e0, e1, -⟩ := updIndex_c1 t
  have h : ((cfg1.win 0).blk t).view.emb (ix2 p l) = (ix2 i l : S50000x256.Idx) := by
    funext a; apply Fin.ext
    match a with
    | ⟨0, _⟩ => show win1_0.index t (0 : Fin 2) * 5000 + 1 * p.val = i.val; rw [e0, hi]; omega
    | ⟨1, _⟩ => show win1_0.index t (1 : Fin 2) * 256 + 1 * l.val = l.val; rw [e1]; omega
  show V c main_v22 (((cfg1.win 0).blk t).view.emb (ix2 p l)) = V c main_v22 (ix2 i l)
  rw [h]

theorem updResBlock_c1 (c : Dev nD) (t : Fin cfg1.N) (p : Fin 5000) (j : Fin 128) (i : Fin 50000)
    (hi : i.val = t.val * 5000 + p.val) :
    (iblk1 V c 5 t : Vec Ideal S5000x128 .f32) (ix2 p j) = updRes_c1 V c (ix2 i j) := by
  obtain ⟨-, -, -, -, -, -, -, -, -, -, -, e0, e1, -⟩ := updIndex_c1 t
  have h : ((cfg1.win 5).blk t).view.emb (ix2 p j) = (ix2 i j : S50000x128.Idx) := by
    funext a; apply Fin.ext
    match a with
    | ⟨0, _⟩ => show win1_5.index t (0 : Fin 2) * 5000 + 1 * p.val = i.val; rw [e0, hi]; omega
    | ⟨1, _⟩ => show win1_5.index t (1 : Fin 2) * 128 + 1 * j.val = j.val; rw [e1]; omega
  show V c main_v4 (((cfg1.win 5).blk t).view.emb (ix2 p j)) = V c main_v4 (ix2 i j)
  rw [h]

theorem updWaBlock_c1 (c : Dev nD) (t : Fin cfg1.N) : (iblk1 V c 1 t : Vec Ideal S256x128 .f32) = updWa_c1 V c := by
  obtain ⟨-, -, -, e0, e1, -⟩ := updIndex_c1 t
  funext y
  have h : ((cfg1.win 1).blk t).view.emb y = (y : S256x128.Idx) := by
    funext a; apply Fin.ext
    match a with
    | ⟨0, _⟩ => show win1_1.index t (0 : Fin 2) * 256 + 1 * (y 0).val = (y 0).val; rw [e0]; omega
    | ⟨1, _⟩ => show win1_1.index t (1 : Fin 2) * 128 + 1 * (y 1).val = (y 1).val; rw [e1]; omega
  show V c main_v24 (((cfg1.win 1).blk t).view.emb y) = V c main_v24 y
  rw [h]

theorem updBaBlock_c1 (c : Dev nD) (t : Fin cfg1.N) : (iblk1 V c 2 t : Vec Ideal S1x128 .f32) = updBa_c1 V c := by
  obtain ⟨-, -, -, -, -, e0, e1, -⟩ := updIndex_c1 t
  funext y
  have h : ((cfg1.win 2).blk t).view.emb y = (y : S1x128.Idx) := by
    funext a; apply Fin.ext
    match a with
    | ⟨0, _⟩ => show win1_2.index t (0 : Fin 2) * 1 + 1 * (y 0).val = (y 0).val; rw [e0]; omega
    | ⟨1, _⟩ => show win1_2.index t (1 : Fin 2) * 128 + 1 * (y 1).val = (y 1).val; rw [e1]; omega
  show V c main_v31 (((cfg1.win 2).blk t).view.emb y) = V c main_v31 y
  rw [h]

theorem updWbBlock_c1 (c : Dev nD) (t : Fin cfg1.N) : (iblk1 V c 3 t : Vec Ideal S128x128 .f32) = updWb_c1 V c := by
  obtain ⟨-, -, -, -, -, -, -, e0, e1, -⟩ := updIndex_c1 t
  funext y
  have h : ((cfg1.win 3).blk t).view.emb y = (y : S128x128.Idx) := by
    funext a; apply Fin.ext
    match a with
    | ⟨0, _⟩ => show win1_3.index t (0 : Fin 2) * 128 + 1 * (y 0).val = (y 0).val; rw [e0]; omega
    | ⟨1, _⟩ => show win1_3.index t (1 : Fin 2) * 128 + 1 * (y 1).val = (y 1).val; rw [e1]; omega
  show V c main_v28 (((cfg1.win 3).blk t).view.emb y) = V c main_v28 y
  rw [h]

theorem updBbBlock_c1 (c : Dev nD) (t : Fin cfg1.N) : (iblk1 V c 4 t : Vec Ideal S1x128 .f32) = updBb_c1 V c := by
  obtain ⟨-, -, -, -, -, -, -, -, -, e0, e1, -⟩ := updIndex_c1 t
  funext y
  have h : ((cfg1.win 4).blk t).view.emb y = (y : S1x128.Idx) := by
    funext a; apply Fin.ext
    match a with
    | ⟨0, _⟩ => show win1_4.index t (0 : Fin 2) * 1 + 1 * (y 0).val = (y 0).val; rw [e0]; omega
    | ⟨1, _⟩ => show win1_4.index t (1 : Fin 2) * 128 + 1 * (y 1).val = (y 1).val; rw [e1]; omega
  show V c main_v32 (((cfg1.win 4).blk t).view.emb y) = V c main_v32 y
  rw [h]

theorem updPoint_c1 (x0 : Vec Ideal S5000x256 .f32) (x1 : Vec Ideal S256x128 .f32) (x2 : Vec Ideal S1x128 .f32)
    (x3 : Vec Ideal S128x128 .f32) (x4 : Vec Ideal S1x128 .f32) (x5 : Vec Ideal S5000x128 .f32)
    (X : Vec Ideal S50000x256 .f32) (Wa : Vec Ideal S256x128 .f32) (Ba : Vec Ideal S1x128 .f32)
    (Wb : Vec Ideal S128x128 .f32) (Bb : Vec Ideal S1x128 .f32) (R : Vec Ideal S50000x128 .f32)
    (p : Fin 5000) (j : Fin 128) (i : Fin 50000)
    (hx : ∀ l : Fin 256, x0 (ix2 p l) = X (ix2 i l)) (h1 : x1 = Wa) (h2 : x2 = Ba) (h3 : x3 = Wb) (h4 : x4 = Bb)
    (hr : x5 (ix2 p j) = R (ix2 i j)) :
    k1_pay1 (F := Ideal) x0 x1 x2 x3 x4 x5 (ix2 p j) = R (ix2 i j) + Cert.Spec.mlpAt X Wa Ba Wb Bb i j := by
  subst h1 h2 h3 h4
  rw [k1_pay1_apply, hr, Cert.Spec.mlpAt_congr_row x0 X x1 x2 x3 x4 p i j hx]

theorem updFlushed_c1 (c : Dev nD) (t : Fin cfg1.N) :
    (dat1 (F := Ideal) V c).flushed 6 t = ((cfg1.win 6).blk t).view.read (Elt Ideal) (updG_c1 V c) := by
  show (cfg1.win 6).cut (grid1.coords t) ((dat1 (F := Ideal) V c).after 6 t) = _
  rw [after1_6]
  unfold out1_6
  rw [View.canon_unit_zero updZeros_c1]
  simp only [View.ld_unit_zero (S := S5000x256) updZeros_c1, View.ld_unit_zero (S := S256x128) updZeros_c1,
    View.ld_unit_zero (S := S1x128) updZeros_c1, View.ld_unit_zero (S := S128x128) updZeros_c1,
    View.ld_unit_zero (S := S5000x128) updZeros_c1]
  obtain ⟨ht, -, -, -, -, -, -, -, -, -, -, -, -, e0, e1⟩ := updIndex_c1 t
  funext y
  obtain ⟨p, j, rfl⟩ : ∃ (p : Fin 5000) (j : Fin 128), y = ix2 p j := ⟨y 0, y 1, eq_ix2 y⟩
  obtain ⟨i, hi⟩ : ∃ i : Fin 50000, i.val = t.val * 5000 + p.val :=
    ⟨⟨t.val * 5000 + p.val, by have := p.isLt; omega⟩, rfl⟩
  have h : ((cfg1.win 6).blk t).view.emb (ix2 p j) = (ix2 i j : S50000x128.Idx) := by
    funext a; apply Fin.ext
    match a with
    | ⟨0, _⟩ => show win1_6.index t (0 : Fin 2) * 5000 + 1 * p.val = i.val; rw [e0, hi]; omega
    | ⟨1, _⟩ => show win1_6.index t (1 : Fin 2) * 128 + 1 * j.val = j.val; rw [e1]; omega
  show k1_pay1 (F := Ideal) (iblk1 V c 0 t) (iblk1 V c 1 t) (iblk1 V c 2 t) (iblk1 V c 3 t) (iblk1 V c 4 t) (iblk1 V c 5 t) (ix2 p j)
    = updG_c1 V c (((cfg1.win 6).blk t).view.emb (ix2 p j))
  rw [h]
  exact updPoint_c1 (iblk1 V c 0 t) (iblk1 V c 1 t) (iblk1 V c 2 t) (iblk1 V c 3 t) (iblk1 V c 4 t) (iblk1 V c 5 t)
    (updIn_c1 V c) (updWa_c1 V c) (updBa_c1 V c) (updWb_c1 V c) (updBb_c1 V c) (updRes_c1 V c) p j i
    (fun l => updInBlock_c1 V c t p l i hi) (updWaBlock_c1 V c t) (updBaBlock_c1 V c t) (updWbBlock_c1 V c t) (updBbBlock_c1 V c t)
    (updResBlock_c1 V c t p j i hi)

theorem updMemBlk_c1 (t : Fin cfg1.N) (i : S50000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v33).slice (win1_6.rect t)).set ↔ _
  rw [View.set_slice_whole, Rect.mem_set_unit]
  exact Iff.rfl

theorem updCover_c1 (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, q0, q1⟩ := updOnto_c1 ⟨(i 0).val / 5000, by omega⟩
  have q0' : win1_6.index t (0 : Fin 2) = (i 0).val / 5000 := q0
  refine ⟨t, flush1_6 t, ?_⟩
  rw [updMemBlk_c1]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

theorem updFinal_c1 (c : Dev nD) : (dat1 (F := Ideal) V c).arrAt 6 cfg1.N = updG_c1 V c :=
  (dat1 (F := Ideal) V c).arrAt_eq_of_cover 6 (updG_c1 V c) (fun t _ => updFlushed_c1 V c t) updCover_c1

theorem updArr1 (c : Dev nD) (i : Fin 50000) (j : Fin 128) :
    ((dat1 (F := Ideal) V c).arrAt 6 cfg1.N : S50000x128.Idx → EReal) (ix2 i j)
      = updRes_c1 V c (ix2 i j)
        + Cert.Spec.mlpAt (updIn_c1 V c) (updWa_c1 V c) (updBa_c1 V c) (updWb_c1 V c) (updBb_c1 V c) i j := by
  rw [updFinal_c1]
  rfl

end Cert.KernelIdeal.Hand

end
-- ==== Proof.KI.UpdArr3.lean ====
import proofs.«407354_j16939351015862_1_alg».proof.Proof.KI.Region3
import proofs.«407354_j16939351015862_1_alg».proof.Proof.KI.Payload
import proofs.«407354_j16939351015862_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem updZeros_c3 : (![0, 0] : Fin 2 → Nat) = fun _ => 0 := funext fun a => by fin_cases a <;> rfl

abbrev updIn_c3 (c : Dev nD) : Vec Ideal S50000x256 .f32 := V c main_v51

abbrev updWa_c3 (c : Dev nD) : Vec Ideal S256x128 .f32 := V c main_v53

abbrev updBa_c3 (c : Dev nD) : Vec Ideal S1x128 .f32 := V c main_v60

abbrev updWb_c3 (c : Dev nD) : Vec Ideal S128x128 .f32 := V c main_v57

abbrev updBb_c3 (c : Dev nD) : Vec Ideal S1x128 .f32 := V c main_v61

abbrev updRes_c3 (c : Dev nD) : Vec Ideal S50000x128 .f32 := V c main_v33

def updG_c3 (c : Dev nD) : Vec Ideal S50000x128 .f32 := fun idx =>
  updRes_c3 V c idx
    + Cert.Spec.mlpAt (updIn_c3 V c) (updWa_c3 V c) (updBa_c3 V c) (updWb_c3 V c) (updBb_c3 V c) (idx 0) (idx 1)

theorem updIndex_c3 : ∀ t : Fin cfg3.N, t.val < 10
    ∧ win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

theorem updOnto_c3 : ∀ q : Fin 10, ∃ t : Fin cfg3.N, win3_6.index t (0 : Fin 2) = q.val ∧ win3_6.index t (1 : Fin 2) = 0 :=
  (by decide +kernel : ∀ q : Fin 10, ∃ t : Fin grid3.N, win3_6.index t (0 : Fin 2) = q.val ∧ win3_6.index t (1 : Fin 2) = 0)

theorem updInBlock_c3 (c : Dev nD) (t : Fin cfg3.N) (p : Fin 5000) (l : Fin 256) (i : Fin 50000)
    (hi : i.val = t.val * 5000 + p.val) :
    (iblk3 V c 0 t : Vec Ideal S5000x256 .f32) (ix2 p l) = updIn_c3 V c (ix2 i l) := by
  obtain ⟨-, e0, e1, -⟩ := updIndex_c3 t
  have h : ((cfg3.win 0).blk t).view.emb (ix2 p l) = (ix2 i l : S50000x256.Idx) := by
    funext a; apply Fin.ext
    match a with
    | ⟨0, _⟩ => show win3_0.index t (0 : Fin 2) * 5000 + 1 * p.val = i.val; rw [e0, hi]; omega
    | ⟨1, _⟩ => show win3_0.index t (1 : Fin 2) * 256 + 1 * l.val = l.val; rw [e1]; omega
  show V c main_v51 (((cfg3.win 0).blk t).view.emb (ix2 p l)) = V c main_v51 (ix2 i l)
  rw [h]

theorem updResBlock_c3 (c : Dev nD) (t : Fin cfg3.N) (p : Fin 5000) (j : Fin 128) (i : Fin 50000)
    (hi : i.val = t.val * 5000 + p.val) :
    (iblk3 V c 5 t : Vec Ideal S5000x128 .f32) (ix2 p j) = updRes_c3 V c (ix2 i j) := by
  obtain ⟨-, -, -, -, -, -, -, -, -, -, -, e0, e1, -⟩ := updIndex_c3 t
  have h : ((cfg3.win 5).blk t).view.emb (ix2 p j) = (ix2 i j : S50000x128.Idx) := by
    funext a; apply Fin.ext
    match a with
    | ⟨0, _⟩ => show win3_5.index t (0 : Fin 2) * 5000 + 1 * p.val = i.val; rw [e0, hi]; omega
    | ⟨1, _⟩ => show win3_5.index t (1 : Fin 2) * 128 + 1 * j.val = j.val; rw [e1]; omega
  show V c main_v33 (((cfg3.win 5).blk t).view.emb (ix2 p j)) = V c main_v33 (ix2 i j)
  rw [h]

theorem updWaBlock_c3 (c : Dev nD) (t : Fin cfg3.N) : (iblk3 V c 1 t : Vec Ideal S256x128 .f32) = updWa_c3 V c := by
  obtain ⟨-, -, -, e0, e1, -⟩ := updIndex_c3 t
  funext y
  have h : ((cfg3.win 1).blk t).view.emb y = (y : S256x128.Idx) := by
    funext a; apply Fin.ext
    match a with
    | ⟨0, _⟩ => show win3_1.index t (0 : Fin 2) * 256 + 1 * (y 0).val = (y 0).val; rw [e0]; omega
    | ⟨1, _⟩ => show win3_1.index t (1 : Fin 2) * 128 + 1 * (y 1).val = (y 1).val; rw [e1]; omega
  show V c main_v53 (((cfg3.win 1).blk t).view.emb y) = V c main_v53 y
  rw [h]

theorem updBaBlock_c3 (c : Dev nD) (t : Fin cfg3.N) : (iblk3 V c 2 t : Vec Ideal S1x128 .f32) = updBa_c3 V c := by
  obtain ⟨-, -, -, -, -, e0, e1, -⟩ := updIndex_c3 t
  funext y
  have h : ((cfg3.win 2).blk t).view.emb y = (y : S1x128.Idx) := by
    funext a; apply Fin.ext
    match a with
    | ⟨0, _⟩ => show win3_2.index t (0 : Fin 2) * 1 + 1 * (y 0).val = (y 0).val; rw [e0]; omega
    | ⟨1, _⟩ => show win3_2.index t (1 : Fin 2) * 128 + 1 * (y 1).val = (y 1).val; rw [e1]; omega
  show V c main_v60 (((cfg3.win 2).blk t).view.emb y) = V c main_v60 y
  rw [h]

theorem updWbBlock_c3 (c : Dev nD) (t : Fin cfg3.N) : (iblk3 V c 3 t : Vec Ideal S128x128 .f32) = updWb_c3 V c := by
  obtain ⟨-, -, -, -, -, -, -, e0, e1, -⟩ := updIndex_c3 t
  funext y
  have h : ((cfg3.win 3).blk t).view.emb y = (y : S128x128.Idx) := by
    funext a; apply Fin.ext
    match a with
    | ⟨0, _⟩ => show win3_3.index t (0 : Fin 2) * 128 + 1 * (y 0).val = (y 0).val; rw [e0]; omega
    | ⟨1, _⟩ => show win3_3.index t (1 : Fin 2) * 128 + 1 * (y 1).val = (y 1).val; rw [e1]; omega
  show V c main_v57 (((cfg3.win 3).blk t).view.emb y) = V c main_v57 y
  rw [h]

theorem updBbBlock_c3 (c : Dev nD) (t : Fin cfg3.N) : (iblk3 V c 4 t : Vec Ideal S1x128 .f32) = updBb_c3 V c := by
  obtain ⟨-, -, -, -, -, -, -, -, -, e0, e1, -⟩ := updIndex_c3 t
  funext y
  have h : ((cfg3.win 4).blk t).view.emb y = (y : S1x128.Idx) := by
    funext a; apply Fin.ext
    match a with
    | ⟨0, _⟩ => show win3_4.index t (0 : Fin 2) * 1 + 1 * (y 0).val = (y 0).val; rw [e0]; omega
    | ⟨1, _⟩ => show win3_4.index t (1 : Fin 2) * 128 + 1 * (y 1).val = (y 1).val; rw [e1]; omega
  show V c main_v61 (((cfg3.win 4).blk t).view.emb y) = V c main_v61 y
  rw [h]

theorem updPoint_c3 (x0 : Vec Ideal S5000x256 .f32) (x1 : Vec Ideal S256x128 .f32) (x2 : Vec Ideal S1x128 .f32)
    (x3 : Vec Ideal S128x128 .f32) (x4 : Vec Ideal S1x128 .f32) (x5 : Vec Ideal S5000x128 .f32)
    (X : Vec Ideal S50000x256 .f32) (Wa : Vec Ideal S256x128 .f32) (Ba : Vec Ideal S1x128 .f32)
    (Wb : Vec Ideal S128x128 .f32) (Bb : Vec Ideal S1x128 .f32) (R : Vec Ideal S50000x128 .f32)
    (p : Fin 5000) (j : Fin 128) (i : Fin 50000)
    (hx : ∀ l : Fin 256, x0 (ix2 p l) = X (ix2 i l)) (h1 : x1 = Wa) (h2 : x2 = Ba) (h3 : x3 = Wb) (h4 : x4 = Bb)
    (hr : x5 (ix2 p j) = R (ix2 i j)) :
    k1_pay1 (F := Ideal) x0 x1 x2 x3 x4 x5 (ix2 p j) = R (ix2 i j) + Cert.Spec.mlpAt X Wa Ba Wb Bb i j := by
  subst h1 h2 h3 h4
  rw [k1_pay1_apply, hr, Cert.Spec.mlpAt_congr_row x0 X x1 x2 x3 x4 p i j hx]

theorem updFlushed_c3 (c : Dev nD) (t : Fin cfg3.N) :
    (dat3 (F := Ideal) V c).flushed 6 t = ((cfg3.win 6).blk t).view.read (Elt Ideal) (updG_c3 V c) := by
  show (cfg3.win 6).cut (grid3.coords t) ((dat3 (F := Ideal) V c).after 6 t) = _
  rw [after3_6]
  unfold out1_6
  rw [View.canon_unit_zero updZeros_c3]
  simp only [View.ld_unit_zero (S := S5000x256) updZeros_c3, View.ld_unit_zero (S := S256x128) updZeros_c3,
    View.ld_unit_zero (S := S1x128) updZeros_c3, View.ld_unit_zero (S := S128x128) updZeros_c3,
    View.ld_unit_zero (S := S5000x128) updZeros_c3]
  obtain ⟨ht, -, -, -, -, -, -, -, -, -, -, -, -, e0, e1⟩ := updIndex_c3 t
  funext y
  obtain ⟨p, j, rfl⟩ : ∃ (p : Fin 5000) (j : Fin 128), y = ix2 p j := ⟨y 0, y 1, eq_ix2 y⟩
  obtain ⟨i, hi⟩ : ∃ i : Fin 50000, i.val = t.val * 5000 + p.val :=
    ⟨⟨t.val * 5000 + p.val, by have := p.isLt; omega⟩, rfl⟩
  have h : ((cfg3.win 6).blk t).view.emb (ix2 p j) = (ix2 i j : S50000x128.Idx) := by
    funext a; apply Fin.ext
    match a with
    | ⟨0, _⟩ => show win3_6.index t (0 : Fin 2) * 5000 + 1 * p.val = i.val; rw [e0, hi]; omega
    | ⟨1, _⟩ => show win3_6.index t (1 : Fin 2) * 128 + 1 * j.val = j.val; rw [e1]; omega
  show k1_pay1 (F := Ideal) (iblk3 V c 0 t) (iblk3 V c 1 t) (iblk3 V c 2 t) (iblk3 V c 3 t) (iblk3 V c 4 t) (iblk3 V c 5 t) (ix2 p j)
    = updG_c3 V c (((cfg3.win 6).blk t).view.emb (ix2 p j))
  rw [h]
  exact updPoint_c3 (iblk3 V c 0 t) (iblk3 V c 1 t) (iblk3 V c 2 t) (iblk3 V c 3 t) (iblk3 V c 4 t) (iblk3 V c 5 t)
    (updIn_c3 V c) (updWa_c3 V c) (updBa_c3 V c) (updWb_c3 V c) (updBb_c3 V c) (updRes_c3 V c) p j i
    (fun l => updInBlock_c3 V c t p l i hi) (updWaBlock_c3 V c t) (updBaBlock_c3 V c t) (updWbBlock_c3 V c t) (updBbBlock_c3 V c t)
    (updResBlock_c3 V c t p j i hi)

theorem updMemBlk_c3 (t : Fin cfg3.N) (i : S50000x128.Idx) :
    i ∈ ((cfg3.win 6).blk t).view.set ↔ ∀ a : Fin 2, win3_6.index t a * S5000x128.size a ≤ (i a).val
      ∧ (i a).val < win3_6.index t a * S5000x128.size a + S5000x128.size a := by
  show i ∈ ((View.whole main_v62).slice (win3_6.rect t)).set ↔ _
  rw [View.set_slice_whole, Rect.mem_set_unit]
  exact Iff.rfl

theorem updCover_c3 (i : S50000x128.Idx) :
    ∃ t : Fin cfg3.N, (cfg3.win 6).flush t = true ∧ i ∈ ((cfg3.win 6).blk t).view.set := by
  have hi0 : (i 0).val < 50000 := (i 0).isLt
  have hi1 : (i 1).val < 128 := (i 1).isLt
  obtain ⟨t, q0, q1⟩ := updOnto_c3 ⟨(i 0).val / 5000, by omega⟩
  have q0' : win3_6.index t (0 : Fin 2) = (i 0).val / 5000 := q0
  refine ⟨t, flush3_6 t, ?_⟩
  rw [updMemBlk_c3]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 128 ≤ (i 1).val ∧ (i 1).val < win3_6.index t (1 : Fin 2) * 128 + 128; omega

theorem updFinal_c3 (c : Dev nD) : (dat3 (F := Ideal) V c).arrAt 6 cfg3.N = updG_c3 V c :=
  (dat3 (F := Ideal) V c).arrAt_eq_of_cover 6 (updG_c3 V c) (fun t _ => updFlushed_c3 V c t) updCover_c3

theorem updArr3 (c : Dev nD) (i : Fin 50000) (j : Fin 128) :
    ((dat3 (F := Ideal) V c).arrAt 6 cfg3.N : S50000x128.Idx → EReal) (ix2 i j)
      = updRes_c3 V c (ix2 i j)
        + Cert.Spec.mlpAt (updIn_c3 V c) (updWa_c3 V c) (updBa_c3 V c) (updWb_c3 V c) (updBb_c3 V c) i j := by
  rw [updFinal_c3]
  rfl

end Cert.KernelIdeal.Hand

end
-- ==== Proof.KI.UpdArr5.lean ====
import proofs.«407354_j16939351015862_1_alg».proof.Proof.KI.Region5
import proofs.«407354_j16939351015862_1_alg».proof.Proof.KI.Payload
import proofs.«407354_j16939351015862_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem updZeros_c5 : (![0, 0] : Fin 2 → Nat) = fun _ => 0 := funext fun a => by fin_cases a <;> rfl

abbrev updIn_c5 (c : Dev nD) : Vec Ideal S50000x256 .f32 := V c main_v80

abbrev updWa_c5 (c : Dev nD) : Vec Ideal S256x128 .f32 := V c main_v82

abbrev updBa_c5 (c : Dev nD) : Vec Ideal S1x128 .f32 := V c main_v89

abbrev updWb_c5 (c : Dev nD) : Vec Ideal S128x128 .f32 := V c main_v86

abbrev updBb_c5 (c : Dev nD) : Vec Ideal S1x128 .f32 := V c main_v90

abbrev updRes_c5 (c : Dev nD) : Vec Ideal S50000x128 .f32 := V c main_v62

def updG_c5 (c : Dev nD) : Vec Ideal S50000x128 .f32 := fun idx =>
  updRes_c5 V c idx
    + Cert.Spec.mlpAt (updIn_c5 V c) (updWa_c5 V c) (updBa_c5 V c) (updWb_c5 V c) (updBb_c5 V c) (idx 0) (idx 1)

theorem updIndex_c5 : ∀ t : Fin cfg5.N, t.val < 10
    ∧ win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0
    ∧ win5_6.index t (0 : Fin 2) = t.val ∧ win5_6.index t (1 : Fin 2) = 0 :=
  (by decide +kernel : ∀ t : Fin grid5.N, _)

theorem updOnto_c5 : ∀ q : Fin 10, ∃ t : Fin cfg5.N, win5_6.index t (0 : Fin 2) = q.val ∧ win5_6.index t (1 : Fin 2) = 0 :=
  (by decide +kernel : ∀ q : Fin 10, ∃ t : Fin grid5.N, win5_6.index t (0 : Fin 2) = q.val ∧ win5_6.index t (1 : Fin 2) = 0)

theorem updInBlock_c5 (c : Dev nD) (t : Fin cfg5.N) (p : Fin 5000) (l : Fin 256) (i : Fin 50000)
    (hi : i.val = t.val * 5000 + p.val) :
    (iblk5 V c 0 t : Vec Ideal S5000x256 .f32) (ix2 p l) = updIn_c5 V c (ix2 i l) := by
  obtain ⟨-, e0, e1, -⟩ := updIndex_c5 t
  have h : ((cfg5.win 0).blk t).view.emb (ix2 p l) = (ix2 i l : S50000x256.Idx) := by
    funext a; apply Fin.ext
    match a with
    | ⟨0, _⟩ => show win5_0.index t (0 : Fin 2) * 5000 + 1 * p.val = i.val; rw [e0, hi]; omega
    | ⟨1, _⟩ => show win5_0.index t (1 : Fin 2) * 256 + 1 * l.val = l.val; rw [e1]; omega
  show V c main_v80 (((cfg5.win 0).blk t).view.emb (ix2 p l)) = V c main_v80 (ix2 i l)
  rw [h]

theorem updResBlock_c5 (c : Dev nD) (t : Fin cfg5.N) (p : Fin 5000) (j : Fin 128) (i : Fin 50000)
    (hi : i.val = t.val * 5000 + p.val) :
    (iblk5 V c 5 t : Vec Ideal S5000x128 .f32) (ix2 p j) = updRes_c5 V c (ix2 i j) := by
  obtain ⟨-, -, -, -, -, -, -, -, -, -, -, e0, e1, -⟩ := updIndex_c5 t
  have h : ((cfg5.win 5).blk t).view.emb (ix2 p j) = (ix2 i j : S50000x128.Idx) := by
    funext a; apply Fin.ext
    match a with
    | ⟨0, _⟩ => show win5_5.index t (0 : Fin 2) * 5000 + 1 * p.val = i.val; rw [e0, hi]; omega
    | ⟨1, _⟩ => show win5_5.index t (1 : Fin 2) * 128 + 1 * j.val = j.val; rw [e1]; omega
  show V c main_v62 (((cfg5.win 5).blk t).view.emb (ix2 p j)) = V c main_v62 (ix2 i j)
  rw [h]

theorem updWaBlock_c5 (c : Dev nD) (t : Fin cfg5.N) : (iblk5 V c 1 t : Vec Ideal S256x128 .f32) = updWa_c5 V c := by
  obtain ⟨-, -, -, e0, e1, -⟩ := updIndex_c5 t
  funext y
  have h : ((cfg5.win 1).blk t).view.emb y = (y : S256x128.Idx) := by
    funext a; apply Fin.ext
    match a with
    | ⟨0, _⟩ => show win5_1.index t (0 : Fin 2) * 256 + 1 * (y 0).val = (y 0).val; rw [e0]; omega
    | ⟨1, _⟩ => show win5_1.index t (1 : Fin 2) * 128 + 1 * (y 1).val = (y 1).val; rw [e1]; omega
  show V c main_v82 (((cfg5.win 1).blk t).view.emb y) = V c main_v82 y
  rw [h]

theorem updBaBlock_c5 (c : Dev nD) (t : Fin cfg5.N) : (iblk5 V c 2 t : Vec Ideal S1x128 .f32) = updBa_c5 V c := by
  obtain ⟨-, -, -, -, -, e0, e1, -⟩ := updIndex_c5 t
  funext y
  have h : ((cfg5.win 2).blk t).view.emb y = (y : S1x128.Idx) := by
    funext a; apply Fin.ext
    match a with
    | ⟨0, _⟩ => show win5_2.index t (0 : Fin 2) * 1 + 1 * (y 0).val = (y 0).val; rw [e0]; omega
    | ⟨1, _⟩ => show win5_2.index t (1 : Fin 2) * 128 + 1 * (y 1).val = (y 1).val; rw [e1]; omega
  show V c main_v89 (((cfg5.win 2).blk t).view.emb y) = V c main_v89 y
  rw [h]

theorem updWbBlock_c5 (c : Dev nD) (t : Fin cfg5.N) : (iblk5 V c 3 t : Vec Ideal S128x128 .f32) = updWb_c5 V c := by
  obtain ⟨-, -, -, -, -, -, -, e0, e1, -⟩ := updIndex_c5 t
  funext y
  have h : ((cfg5.win 3).blk t).view.emb y = (y : S128x128.Idx) := by
    funext a; apply Fin.ext
    match a with
    | ⟨0, _⟩ => show win5_3.index t (0 : Fin 2) * 128 + 1 * (y 0).val = (y 0).val; rw [e0]; omega
    | ⟨1, _⟩ => show win5_3.index t (1 : Fin 2) * 128 + 1 * (y 1).val = (y 1).val; rw [e1]; omega
  show V c main_v86 (((cfg5.win 3).blk t).view.emb y) = V c main_v86 y
  rw [h]

theorem updBbBlock_c5 (c : Dev nD) (t : Fin cfg5.N) : (iblk5 V c 4 t : Vec Ideal S1x128 .f32) = updBb_c5 V c := by
  obtain ⟨-, -, -, -, -, -, -, -, -, e0, e1, -⟩ := updIndex_c5 t
  funext y
  have h : ((cfg5.win 4).blk t).view.emb y = (y : S1x128.Idx) := by
    funext a; apply Fin.ext
    match a with
    | ⟨0, _⟩ => show win5_4.index t (0 : Fin 2) * 1 + 1 * (y 0).val = (y 0).val; rw [e0]; omega
    | ⟨1, _⟩ => show win5_4.index t (1 : Fin 2) * 128 + 1 * (y 1).val = (y 1).val; rw [e1]; omega
  show V c main_v90 (((cfg5.win 4).blk t).view.emb y) = V c main_v90 y
  rw [h]

theorem updPoint_c5 (x0 : Vec Ideal S5000x256 .f32) (x1 : Vec Ideal S256x128 .f32) (x2 : Vec Ideal S1x128 .f32)
    (x3 : Vec Ideal S128x128 .f32) (x4 : Vec Ideal S1x128 .f32) (x5 : Vec Ideal S5000x128 .f32)
    (X : Vec Ideal S50000x256 .f32) (Wa : Vec Ideal S256x128 .f32) (Ba : Vec Ideal S1x128 .f32)
    (Wb : Vec Ideal S128x128 .f32) (Bb : Vec Ideal S1x128 .f32) (R : Vec Ideal S50000x128 .f32)
    (p : Fin 5000) (j : Fin 128) (i : Fin 50000)
    (hx : ∀ l : Fin 256, x0 (ix2 p l) = X (ix2 i l)) (h1 : x1 = Wa) (h2 : x2 = Ba) (h3 : x3 = Wb) (h4 : x4 = Bb)
    (hr : x5 (ix2 p j) = R (ix2 i j)) :
    k1_pay1 (F := Ideal) x0 x1 x2 x3 x4 x5 (ix2 p j) = R (ix2 i j) + Cert.Spec.mlpAt X Wa Ba Wb Bb i j := by
  subst h1 h2 h3 h4
  rw [k1_pay1_apply, hr, Cert.Spec.mlpAt_congr_row x0 X x1 x2 x3 x4 p i j hx]

theorem updFlushed_c5 (c : Dev nD) (t : Fin cfg5.N) :
    (dat5 (F := Ideal) V c).flushed 6 t = ((cfg5.win 6).blk t).view.read (Elt Ideal) (updG_c5 V c) := by
  show (cfg5.win 6).cut (grid5.coords t) ((dat5 (F := Ideal) V c).after 6 t) = _
  rw [after5_6]
  unfold out1_6
  rw [View.canon_unit_zero updZeros_c5]
  simp only [View.ld_unit_zero (S := S5000x256) updZeros_c5, View.ld_unit_zero (S := S256x128) updZeros_c5,
    View.ld_unit_zero (S := S1x128) updZeros_c5, View.ld_unit_zero (S := S128x128) updZeros_c5,
    View.ld_unit_zero (S := S5000x128) updZeros_c5]
  obtain ⟨ht, -, -, -, -, -, -, -, -, -, -, -, -, e0, e1⟩ := updIndex_c5 t
  funext y
  obtain ⟨p, j, rfl⟩ : ∃ (p : Fin 5000) (j : Fin 128), y = ix2 p j := ⟨y 0, y 1, eq_ix2 y⟩
  obtain ⟨i, hi⟩ : ∃ i : Fin 50000, i.val = t.val * 5000 + p.val :=
    ⟨⟨t.val * 5000 + p.val, by have := p.isLt; omega⟩, rfl⟩
  have h : ((cfg5.win 6).blk t).view.emb (ix2 p j) = (ix2 i j : S50000x128.Idx) := by
    funext a; apply Fin.ext
    match a with
    | ⟨0, _⟩ => show win5_6.index t (0 : Fin 2) * 5000 + 1 * p.val = i.val; rw [e0, hi]; omega
    | ⟨1, _⟩ => show win5_6.index t (1 : Fin 2) * 128 + 1 * j.val = j.val; rw [e1]; omega
  show k1_pay1 (F := Ideal) (iblk5 V c 0 t) (iblk5 V c 1 t) (iblk5 V c 2 t) (iblk5 V c 3 t) (iblk5 V c 4 t) (iblk5 V c 5 t) (ix2 p j)
    = updG_c5 V c (((cfg5.win 6).blk t).view.emb (ix2 p j))
  rw [h]
  exact updPoint_c5 (iblk5 V c 0 t) (iblk5 V c 1 t) (iblk5 V c 2 t) (iblk5 V c 3 t) (iblk5 V c 4 t) (iblk5 V c 5 t)
    (updIn_c5 V c) (updWa_c5 V c) (updBa_c5 V c) (updWb_c5 V c) (updBb_c5 V c) (updRes_c5 V c) p j i
    (fun l => updInBlock_c5 V c t p l i hi) (updWaBlock_c5 V c t) (updBaBlock_c5 V c t) (updWbBlock_c5 V c t) (updBbBlock_c5 V c t)
    (updResBlock_c5 V c t p j i hi)

theorem updMemBlk_c5 (t : Fin cfg5.N) (i : S50000x128.Idx) :
    i ∈ ((cfg5.win 6).blk t).view.set ↔ ∀ a : Fin 2, win5_6.index t a * S5000x128.size a ≤ (i a).val
      ∧ (i a).val < win5_6.index t a * S5000x128.size a + S5000x128.size a := by
  show i ∈ ((View.whole main_v91).slice (win5_6.rect t)).set ↔ _
  rw [View.set_slice_whole, Rect.mem_set_unit]
  exact Iff.rfl

theorem updCover_c5 (i : S50000x128.Idx) :
    ∃ t : Fin cfg5.N, (cfg5.win 6).flush t = true ∧ i ∈ ((cfg5.win 6).blk t).view.set := by
  have hi0 : (i 0).val < 50000 := (i 0).isLt
  have hi1 : (i 1).val < 128 := (i 1).isLt
  obtain ⟨t, q0, q1⟩ := updOnto_c5 ⟨(i 0).val / 5000, by omega⟩
  have q0' : win5_6.index t (0 : Fin 2) = (i 0).val / 5000 := q0
  refine ⟨t, flush5_6 t, ?_⟩
  rw [updMemBlk_c5]
  intro a
  match a with
  | ⟨0, _⟩ => show win5_6.index t (0 : Fin 2) * 5000 ≤ (i 0).val ∧ (i 0).val < win5_6.index t (0 : Fin 2) * 5000 + 5000; omega
  | ⟨1, _⟩ => show win5_6.index t (1 : Fin 2) * 128 ≤ (i 1).val ∧ (i 1).val < win5_6.index t (1 : Fin 2) * 128 + 128; omega

theorem updFinal_c5 (c : Dev nD) : (dat5 (F := Ideal) V c).arrAt 6 cfg5.N = updG_c5 V c :=
  (dat5 (F := Ideal) V c).arrAt_eq_of_cover 6 (updG_c5 V c) (fun t _ => updFlushed_c5 V c t) updCover_c5

theorem updArr5 (c : Dev nD) (i : Fin 50000) (j : Fin 128) :
    ((dat5 (F := Ideal) V c).arrAt 6 cfg5.N : S50000x128.Idx → EReal) (ix2 i j)
      = updRes_c5 V c (ix2 i j)
        + Cert.Spec.mlpAt (updIn_c5 V c) (updWa_c5 V c) (updBa_c5 V c) (updWb_c5 V c) (updBb_c5 V c) i j := by
  rw [updFinal_c5]
  rfl

end Cert.KernelIdeal.Hand

end
-- ==== Proof.Pre.Range.lean ====
import proofs.«407354_j16939351015862_1_alg».proof.Pre_finite_inputs
import Idealize.ShloMosaic.Lib.ReduceAll

namespace Cert.Hand.Pre

open Idealize.ShloMosaic
open Cert.Pre_finite_inputs

variable {F : FTy → Type} [FloatOps F] [Cert.Pre_finite_inputs.Facts]

instance : Subsingleton S_.Idx := ⟨fun a b => funext fun d => d.elim0⟩

theorem part4_ranges (a0 : IVec S50000 32) (a1 : IVec S2x400000 32) (p q : IVec S_ 1) (j : S_.Idx)
    (h : fn_part4 (F := F) a0 a1 p q j = 1#1) :
    (∀ i : S50000.Idx, IntOp.cmpi .sge (a0 i) 0#32 = 1#1 ∧ IntOp.cmpi .slt (a0 i) 101#32 = 1#1)
    ∧ (∀ i : S2x400000.Idx, IntOp.cmpi .sge (a1 i) 0#32 = 1#1 ∧ IntOp.cmpi .slt (a1 i) 50000#32 = 1#1) := by

  obtain ⟨h75, h81⟩ := IntOp.andi_eq_one.1 (show IntOp.andi _ _ = 1#1 from h)
  obtain ⟨-, h74⟩ := IntOp.andi_eq_one.1 (show IntOp.andi _ _ = 1#1 from h75)
  refine ⟨fun i => ?_, fun i => ?_⟩
  · have e := Host.reduce_andi_all _ _ _ _ j h74 i
    exact IntOp.andi_eq_one.1 (show IntOp.andi _ _ = 1#1 from e)
  · have e := Host.reduce_andi_all _ _ _ _ j h81 i
    exact IntOp.andi_eq_one.1 (show IntOp.andi _ _ = 1#1 from e)

theorem ranges (a0 : IVec S50000 32) (a1 : IVec S2x400000 32) (a2 : FVec F S400000x1 .f32) (a3 : IVec S50000 32)
    (a4 : FVec F S101x128 .f32) (a5 : FVec F S3x257x128 .f32) (a6 : FVec F S3x128 .f32) (a7 : FVec F S3x128x128 .f32)
    (a8 : FVec F S3x128 .f32) (a9 : FVec F S3x256x128 .f32) (a10 : FVec F S3x128 .f32) (a11 : FVec F S3x128x128 .f32)
    (a12 : FVec F S3x128 .f32) (a13 : FVec F S128x128 .f32) (a14 : FVec F S128 .f32) (a15 : FVec F S128x1 .f32)
    (a16 : FVec F S1 .f32)
    (h : Cert.Pre_finite_inputs.fn (F := F) a0 a1 a2 a3 a4 a5 a6 a7 a8 a9 a10 a11 a12 a13 a14 a15 a16 = fun _ => 1#1) :
    (∀ i : S50000.Idx, IntOp.cmpi .sge (a0 i) 0#32 = 1#1 ∧ IntOp.cmpi .slt (a0 i) 101#32 = 1#1)
    ∧ (∀ i : S2x400000.Idx, IntOp.cmpi .sge (a1 i) 0#32 = 1#1 ∧ IntOp.cmpi .slt (a1 i) 50000#32 = 1#1) := by
  have j : S_.Idx := fun d => d.elim0
  have hj := congrFun h j

  exact part4_ranges (F := F) a0 a1 _ _ j (show fn_part4 (F := F) a0 a1 _ _ j = 1#1 from hj)

end Cert.Hand.Pre
-- ==== Proof.KI.Take.lean ====
import proofs.«407354_j16939351015862_1_alg».proof.KernelIdeal
import Idealize.ShloMosaic.Lib.Affine
import Idealize.ShloMosaic.PureOps.Reduce

noncomputable section

namespace Cert.KernelIdeal.Hand

open Idealize.ShloMosaic
open Cert.KernelIdeal

theorem wrap_word (a n : BitVec 32) (h0 : IntOp.cmpi .sge a 0#32 = 1#1) :
    Scalar.select (IntOp.cmpi .slt a 0#32) (IntOp.addi a n) a = a := by
  have h0' := IntOp.cmpi_sge.1 h0
  unfold Scalar.select
  rw [if_neg]
  intro hc
  have hc' := IntOp.cmpi_slt.1 hc
  omega

theorem inrange_word (a m n : BitVec 32) (h0 : IntOp.cmpi .sge a 0#32 = 1#1) (h1 : IntOp.cmpi .slt a n = 1#1)
    (hmn : m.toInt + 1 = n.toInt) :
    IntOp.andi (IntOp.cmpi .sge a 0#32) (IntOp.cmpi .sle a m) = 1#1 :=
  IntOp.andi_eq_one.2 ⟨h0, IntOp.cmpi_sle.2 (by have h1' := IntOp.cmpi_slt.1 h1; omega)⟩

theorem foldl_andi_ones {ι : Type} (f : ι → BitVec 1) (hf : ∀ n, f n = 1#1) :
    ∀ l : List ι, l.foldl (fun r n => IntOp.andi r (f n)) 1#1 = 1#1
  | [] => rfl
  | a :: l => by
    show l.foldl (fun r n => IntOp.andi r (f n)) (IntOp.andi 1#1 (f a)) = 1#1
    rw [hf a, show IntOp.andi 1#1 1#1 = (1#1 : BitVec 1) from by decide]
    exact foldl_andi_ones f hf l

theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x hx _

variable {F : FTy → Type} [FloatOps F] [Cert.KernelIdeal.Facts]
open Facts₀ Facts

def normEmbed (z : IVec S50000 32) : IVec S50000x1 32 :=
  broadcastInDim S50000x1 ![0] bcast_S50000_S50000x1_0
    (select (cmpi .slt z (broadcastInDim S50000 ![] bcast_S_S50000 (constantI S_ 32 0#32)))
      (addi z (broadcastInDim S50000 ![] bcast_S_S50000 (constantI S_ 32 101#32))) z)

def okEmbed (z : IVec S50000 32) : IVec S50000 1 :=
  Host.reduce IntOp.andi
    (andi (cmpi .sge (normEmbed z) (broadcastInDim S50000x1 ![] bcast_S_S50000x1 (constantI S_ 32 0#32)))
      (cmpi .sle (normEmbed z)
        (broadcastInDim S50000x1 ![0, 1] bcast_S1x1_S50000x1_0_1
          (broadcastInDim S1x1 ![1] bcast_S1_S1x1_1 (constantI S1 32 100#32)))))
    (constantI S_ 1 1#1) reducesTo_S50000x1_S50000_d1 h_S_

def takeEmbed (tbl : FVec F S101x128 .f32) (z : IVec S50000 32) : FVec F S50000x128 .f32 :=
  let c : IVec S_ 32 := constantI S_ 32 0#32
  let v0 : IVec S50000 32 := broadcastInDim S50000 ![] bcast_S_S50000 c
  let v1 : IVec S50000 1 := cmpi .slt z v0
  let c_0 : IVec S_ 32 := constantI S_ 32 101#32
  let v2 : IVec S50000 32 := broadcastInDim S50000 ![] bcast_S_S50000 c_0
  let v3 : IVec S50000 32 := addi z v2
  let v4 : IVec S50000 32 := select v1 v3 z
  let v5 : IVec S50000x1 32 := broadcastInDim S50000x1 ![0] bcast_S50000_S50000x1_0 v4
  let c_1 : IVec S1 32 := constantI S1 32 100#32
  let c_2 : IVec S_ 32 := constantI S_ 32 0#32
  let v6 : IVec S50000x1 32 := broadcastInDim S50000x1 ![] bcast_S_S50000x1 c_2
  let v7 : IVec S50000x1 1 := cmpi .sge v5 v6
  let v8 : IVec S1x1 32 := broadcastInDim S1x1 ![1] bcast_S1_S1x1_1 c_1
  let v9 : IVec S50000x1 32 := broadcastInDim S50000x1 ![0, 1] bcast_S1x1_S50000x1_0_1 v8
  let v10 : IVec S50000x1 1 := cmpi .sle v5 v9
  let v11 : IVec S50000x1 1 := andi v7 v10
  let c_3 : IVec S_ 1 := constantI S_ 1 1#1
  let v12 : IVec S50000 1 := (fun x v => Host.reduce IntOp.andi x v reducesTo_S50000x1_S50000_d1 h_S_) v11 c_3
  let v13 : FVec F S50000x128 .f32 := (fun x i => Host.gather gather_S101x128_S50000x1_S50000x128_1_0_n_n_0_1_1128 x i) tbl v5
  let v14 : IVec S50000x128 1 := broadcastInDim S50000x128 ![0] bcast_S50000_S50000x128_0 v12
  let cst : FVec F S_ .f32 := constant S_ .f32 0x7FC00000#32
  let v15 : FVec F S50000x128 .f32 := broadcastInDim S50000x128 ![] bcast_S_S50000x128 cst
  select v14 v13 v15

theorem takeEmbed_def (tbl : FVec F S101x128 .f32) (z : IVec S50000 32) :
    takeEmbed tbl z
      = select (broadcastInDim S50000x128 ![0] bcast_S50000_S50000x128_0 (okEmbed z))
          (Host.gather gather_S101x128_S50000x1_S50000x128_1_0_n_n_0_1_1128 tbl (normEmbed z))
          (broadcastInDim S50000x128 ![] bcast_S_S50000x128 (constant S_ .f32 0x7FC00000#32)) := rfl

theorem normEmbed_mem (z : IVec S50000 32) (h0 : ∀ k : S50000.Idx, IntOp.cmpi .sge (z k) 0#32 = 1#1)
    (i : S50000x1.Idx) : ∃ k : S50000.Idx, normEmbed z i = z k :=
  ⟨_, wrap_word _ 101#32 (h0 _)⟩

theorem okEmbed_eq (z : IVec S50000 32)
    (h : ∀ i : S50000.Idx, IntOp.cmpi .sge (z i) 0#32 = 1#1 ∧ IntOp.cmpi .slt (z i) 101#32 = 1#1)
    (r : S50000.Idx) : okEmbed z r = 1#1 := by
  refine reduce_andi_ones _ _ _ _ (fun i => ?_) (fun _ => rfl) r
  obtain ⟨k, hk⟩ := normEmbed_mem z (fun k => (h k).1) i
  show IntOp.andi (IntOp.cmpi .sge (normEmbed z i) 0#32) (IntOp.cmpi .sle (normEmbed z i) 100#32) = 1#1
  rw [hk]
  exact inrange_word _ _ _ (h k).1 (h k).2 (by decide)

theorem takeEmbed_eq (tbl : FVec F S101x128 .f32) (z : IVec S50000 32)
    (hz : ∀ i : S50000.Idx, IntOp.cmpi .sge (z i) 0#32 = 1#1 ∧ IntOp.cmpi .slt (z i) 101#32 = 1#1) :
    takeEmbed tbl z = Host.gather gather_S101x128_S50000x1_S50000x128_1_0_n_n_0_1_1128 tbl (normEmbed z) := by
  rw [takeEmbed_def]
  funext j
  show Scalar.select (okEmbed z _) (Host.gather gather_S101x128_S50000x1_S50000x128_1_0_n_n_0_1_1128 tbl (normEmbed z) j) _ = _
  rw [okEmbed_eq z hz]
  rfl

def normNode (idx : IVec S400000 32) : IVec S400000x1 32 :=
  broadcastInDim S400000x1 ![0] bcast_S400000_S400000x1_0
    (select (cmpi .slt idx (broadcastInDim S400000 ![] bcast_S_S400000 (constantI S_ 32 0#32)))
      (addi idx (broadcastInDim S400000 ![] bcast_S_S400000 (constantI S_ 32 50000#32))) idx)

def okNode (idx : IVec S400000 32) : IVec S400000 1 :=
  Host.reduce IntOp.andi
    (andi (cmpi .sge (normNode idx) (broadcastInDim S400000x1 ![] bcast_S_S400000x1 (constantI S_ 32 0#32)))
      (cmpi .sle (normNode idx)
        (broadcastInDim S400000x1 ![0, 1] bcast_S1x1_S400000x1_0_1
          (broadcastInDim S1x1 ![1] bcast_S1_S1x1_1 (constantI S1 32 49999#32)))))
    (constantI S_ 1 1#1) reducesTo_S400000x1_S400000_d1 h_S_

def takeNode (tbl : FVec F S50000x128 .f32) (idx : IVec S400000 32) : FVec F S400000x128 .f32 :=
  let c : IVec S_ 32 := constantI S_ 32 0#32
  let v0 : IVec S400000 32 := broadcastInDim S400000 ![] bcast_S_S400000 c
  let v1 : IVec S400000 1 := cmpi .slt idx v0
  let c_0 : IVec S_ 32 := constantI S_ 32 50000#32
  let v2 : IVec S400000 32 := broadcastInDim S400000 ![] bcast_S_S400000 c_0
  let v3 : IVec S400000 32 := addi idx v2
  let v4 : IVec S400000 32 := select v1 v3 idx
  let v5 : IVec S400000x1 32 := broadcastInDim S400000x1 ![0] bcast_S400000_S400000x1_0 v4
  let c_1 : IVec S1 32 := constantI S1 32 49999#32
  let c_2 : IVec S_ 32 := constantI S_ 32 0#32
  let v6 : IVec S400000x1 32 := broadcastInDim S400000x1 ![] bcast_S_S400000x1 c_2
  let v7 : IVec S400000x1 1 := cmpi .sge v5 v6
  let v8 : IVec S1x1 32 := broadcastInDim S1x1 ![1] bcast_S1_S1x1_1 c_1
  let v9 : IVec S400000x1 32 := broadcastInDim S400000x1 ![0, 1] bcast_S1x1_S400000x1_0_1 v8
  let v10 : IVec S400000x1 1 := cmpi .sle v5 v9
  let v11 : IVec S400000x1 1 := andi v7 v10
  let c_3 : IVec S_ 1 := constantI S_ 1 1#1
  let v12 : IVec S400000 1 := (fun x v => Host.reduce IntOp.andi x v reducesTo_S400000x1_S400000_d1 h_S_) v11 c_3
  let v13 : FVec F S400000x128 .f32 := (fun x i => Host.gather gather_S50000x128_S400000x1_S400000x128_1_0_n_n_0_1_1128 x i) tbl v5
  let v14 : IVec S400000x128 1 := broadcastInDim S400000x128 ![0] bcast_S400000_S400000x128_0 v12
  let cst : FVec F S_ .f32 := constant S_ .f32 0x7FC00000#32
  let v15 : FVec F S400000x128 .f32 := broadcastInDim S400000x128 ![] bcast_S_S400000x128 cst
  select v14 v13 v15

theorem takeNode_def (tbl : FVec F S50000x128 .f32) (idx : IVec S400000 32) :
    takeNode tbl idx
      = select (broadcastInDim S400000x128 ![0] bcast_S400000_S400000x128_0 (okNode idx))
          (Host.gather gather_S50000x128_S400000x1_S400000x128_1_0_n_n_0_1_1128 tbl (normNode idx))
          (broadcastInDim S400000x128 ![] bcast_S_S400000x128 (constant S_ .f32 0x7FC00000#32)) := rfl

theorem normNode_mem (idx : IVec S400000 32) (h0 : ∀ k : S400000.Idx, IntOp.cmpi .sge (idx k) 0#32 = 1#1)
    (i : S400000x1.Idx) : ∃ k : S400000.Idx, normNode idx i = idx k :=
  ⟨_, wrap_word _ 50000#32 (h0 _)⟩

theorem okNode_eq (idx : IVec S400000 32)
    (h : ∀ i : S400000.Idx, IntOp.cmpi .sge (idx i) 0#32 = 1#1 ∧ IntOp.cmpi .slt (idx i) 50000#32 = 1#1)
    (r : S400000.Idx) : okNode idx r = 1#1 := by
  refine reduce_andi_ones _ _ _ _ (fun i => ?_) (fun _ => rfl) r
  obtain ⟨k, hk⟩ := normNode_mem idx (fun k => (h k).1) i
  show IntOp.andi (IntOp.cmpi .sge (normNode idx i) 0#32) (IntOp.cmpi .sle (normNode idx i) 49999#32) = 1#1
  rw [hk]
  exact inrange_word _ _ _ (h k).1 (h k).2 (by decide)

theorem takeNode_eq (tbl : FVec F S50000x128 .f32) (idx : IVec S400000 32)
    (h : ∀ i : S400000.Idx, IntOp.cmpi .sge (idx i) 0#32 = 1#1 ∧ IntOp.cmpi .slt (idx i) 50000#32 = 1#1) :
    takeNode tbl idx = Host.gather gather_S50000x128_S400000x1_S400000x128_1_0_n_n_0_1_1128 tbl (normNode idx) := by
  rw [takeNode_def]
  funext j
  show Scalar.select (okNode idx _) (Host.gather gather_S50000x128_S400000x1_S400000x128_1_0_n_n_0_1_1128 tbl (normNode idx) j) _ = _
  rw [okNode_eq idx h]
  rfl

def srcOf (ei : IVec S2x400000 32) : IVec S400000 32 :=
  shapeCast S400000 (extractStridedSlice S1x400000 ![0, 0] ei slices_S2x400000_S1x400000_0_0) shapeCasts_S1x400000_S400000

def dstOf (ei : IVec S2x400000 32) : IVec S400000 32 :=
  shapeCast S400000 (extractStridedSlice S1x400000 ![1, 0] ei slices_S2x400000_S1x400000_1_0) shapeCasts_S1x400000_S400000

theorem src_range (ei : IVec S2x400000 32)
    (h : ∀ i : S2x400000.Idx, IntOp.cmpi .sge (ei i) 0#32 = 1#1 ∧ IntOp.cmpi .slt (ei i) 50000#32 = 1#1) :
    ∀ i : S400000.Idx, IntOp.cmpi .sge (srcOf ei i) 0#32 = 1#1 ∧ IntOp.cmpi .slt (srcOf ei i) 50000#32 = 1#1 :=
  fun i => h _

theorem dst_range (ei : IVec S2x400000 32)
    (h : ∀ i : S2x400000.Idx, IntOp.cmpi .sge (ei i) 0#32 = 1#1 ∧ IntOp.cmpi .slt (ei i) 50000#32 = 1#1) :
    ∀ i : S400000.Idx, IntOp.cmpi .sge (dstOf ei i) 0#32 = 1#1 ∧ IntOp.cmpi .slt (dstOf ei i) 50000#32 = 1#1 :=
  fun i => h _

end Cert.KernelIdeal.Hand

end
-- ==== Proof.Bridge.Layer0a.lean ====
import proofs.«407354_j16939351015862_1_alg».proof.Proof.Gen.KernelIdeal.Regions
import proofs.«407354_j16939351015862_1_alg».proof.Proof.KI.Take
import Idealize.ShloMosaic.Lib.StableHlo.Run

set_option maxRecDepth 4096

noncomputable section

namespace Cert.Hand.Bridge

open Cert.KernelIdeal Cert.KernelIdeal.Gen Cert.KernelIdeal.Hand
open Idealize.ShloMosaic Idealize.ShloMosaic.TcCoe Idealize.ShloMosaic.StableHlo

variable {F : FTy → Type} [FloatOps F]

section Stretch

variable (W : Valuation τ sig (Elt F))

theorem read_src : (StableHlo.after hostOps0 W (Proc.devRef .tc main_v1) : IVec S400000 32) = srcOf (W main_arg1) := by
  after_results
  rfl

theorem read_dst : (StableHlo.after hostOps0 W (Proc.devRef .tc main_v3) : IVec S400000 32) = dstOf (W main_arg1) := by
  after_results
  rfl

set_option maxHeartbeats 2000000 in
theorem read_h0 :
    (StableHlo.after hostOps0_1 W (Proc.devRef .tc main_v4) : FVec F S50000x128 .f32) = takeEmbed (W main_arg4) (W main_arg0) := by
  after_results_simp <;> (try simp only [TRef.ofBuf, TRef.toBuf, cast_eq]) <;> rfl

set_option maxHeartbeats 2000000 in
theorem read_hsrc :
    (StableHlo.after hostOps0_2 W (Proc.devRef .tc main_v5) : FVec F S400000x128 .f32) = takeNode (W main_v4) (W main_v1) := by
  after_results_simp <;> (try simp only [TRef.ofBuf, TRef.toBuf, cast_eq]) <;> rfl

set_option maxHeartbeats 2000000 in
theorem read_hdst :
    (StableHlo.after hostOps0_3 W (Proc.devRef .tc main_v6) : FVec F S400000x128 .f32) = takeNode (W main_v4) (W main_v3) := by
  after_results_simp <;> (try simp only [TRef.ofBuf, TRef.toBuf, cast_eq]) <;> rfl

theorem read_min :
    (StableHlo.after hostOps0_4 W (Proc.devRef .tc main_v7) : FVec F S400000x257 .f32)
      = concatenate S400000x257 1 [⟨S400000x128, W main_v5⟩, ⟨S400000x128, W main_v6⟩, ⟨S400000x1, W main_arg2⟩]
          concatenates_S400000x128_S400000x128_S400000x1_S400000x257_d1 := by
  after_results_simp <;> rfl

theorem read_w1 :
    (StableHlo.after hostOps0_4 W (Proc.devRef .tc main_v9) : FVec F S257x128 .f32)
      = shapeCast S257x128 (extractStridedSlice S1x257x128 ![0, 0, 0] (W main_arg5) slices_S3x257x128_S1x257x128_0_0_0)
          shapeCasts_S1x257x128_S257x128 := by
  after_results_simp <;> rfl

theorem read_b1 :
    (StableHlo.after hostOps0_4 W (Proc.devRef .tc main_v16) : FVec F S1x128 .f32)
      = shapeCast S1x128 (shapeCast S128 (extractStridedSlice S1x128 ![0, 0] (W main_arg6) slices_S3x128_S1x128_0_0)
          shapeCasts_S1x128_S128) shapeCasts_S128_S1x128 := by
  after_results_simp <;> rfl

theorem read_w2 :
    (StableHlo.after hostOps0_4 W (Proc.devRef .tc main_v13) : FVec F S128x128 .f32)
      = shapeCast S128x128 (extractStridedSlice S1x128x128 ![0, 0, 0] (W main_arg7) slices_S3x128x128_S1x128x128_0_0_0)
          shapeCasts_S1x128x128_S128x128 := by
  after_results_simp <;> rfl

theorem read_b2 :
    (StableHlo.after hostOps0_4 W (Proc.devRef .tc main_v17) : FVec F S1x128 .f32)
      = shapeCast S1x128 (shapeCast S128 (extractStridedSlice S1x128 ![0, 0] (W main_arg8) slices_S3x128_S1x128_0_0)
          shapeCasts_S1x128_S128) shapeCasts_S128_S1x128 := by
  after_results_simp <;> rfl

theorem read_uin :
    (StableHlo.after hostOps1 W (Proc.devRef .tc main_v22) : FVec F S50000x256 .f32)
      = concatenate S50000x256 1
          [⟨S50000x128, W main_v4⟩,
           ⟨S50000x128, Host.scatterAdd scatter_S50000x128_S400000x1_S400000x128_1_0_0_1
              (broadcastInDim S50000x128 ![] bcast_S_S50000x128 (constant S_ .f32 0x00000000#32))
              (broadcastInDim S400000x1 ![0] bcast_S400000_S400000x1_0 (W main_v3)) (W main_v18)⟩]
          concatenates_S50000x128_S50000x128_S50000x256_d1 := by
  after_results_simp <;> rfl

theorem read_uw1 :
    (StableHlo.after hostOps1 W (Proc.devRef .tc main_v24) : FVec F S256x128 .f32)
      = shapeCast S256x128 (extractStridedSlice S1x256x128 ![0, 0, 0] (W main_arg9) slices_S3x256x128_S1x256x128_0_0_0)
          shapeCasts_S1x256x128_S256x128 := by
  after_results_simp <;> rfl

theorem read_ub1 :
    (StableHlo.after hostOps1 W (Proc.devRef .tc main_v31) : FVec F S1x128 .f32)
      = shapeCast S1x128 (shapeCast S128 (extractStridedSlice S1x128 ![0, 0] (W main_arg10) slices_S3x128_S1x128_0_0)
          shapeCasts_S1x128_S128) shapeCasts_S128_S1x128 := by
  after_results_simp <;> rfl

theorem read_uw2 :
    (StableHlo.after hostOps1 W (Proc.devRef .tc main_v28) : FVec F S128x128 .f32)
      = shapeCast S128x128 (extractStridedSlice S1x128x128 ![0, 0, 0] (W main_arg11) slices_S3x128x128_S1x128x128_0_0_0)
          shapeCasts_S1x128x128_S128x128 := by
  after_results_simp <;> rfl

theorem read_ub2 :
    (StableHlo.after hostOps1 W (Proc.devRef .tc main_v32) : FVec F S1x128 .f32)
      = shapeCast S1x128 (shapeCast S128 (extractStridedSlice S1x128 ![0, 0] (W main_arg12) slices_S3x128_S1x128_0_0)
          shapeCasts_S1x128_S128) shapeCasts_S128_S1x128 := by
  after_results_simp <;> rfl

end Stretch

section Run

variable (m : (ℓ : Loc nD τ sig) → Buf (Elt F) ℓ) (outs : Outs (F := F)) (c : Dev nD)

abbrev A0 : IVec S50000 32 := V0 m c main_arg0

abbrev A1 : IVec S2x400000 32 := V0 m c main_arg1

abbrev A2 : FVec F S400000x1 .f32 := V0 m c main_arg2

abbrev A4 : FVec F S101x128 .f32 := V0 m c main_arg4

abbrev A5 : FVec F S3x257x128 .f32 := V0 m c main_arg5

abbrev A6 : FVec F S3x128 .f32 := V0 m c main_arg6

abbrev A7 : FVec F S3x128x128 .f32 := V0 m c main_arg7

abbrev A8 : FVec F S3x128 .f32 := V0 m c main_arg8

abbrev A9 : FVec F S3x256x128 .f32 := V0 m c main_arg9

abbrev A10 : FVec F S3x128 .f32 := V0 m c main_arg10

abbrev A11 : FVec F S3x128x128 .f32 := V0 m c main_arg11

abbrev A12 : FVec F S3x128 .f32 := V0 m c main_arg12

theorem V4_keep (r : Ref sig .tc) (h0 : r ∉ hostOps0_W) (h1 : r ∉ hostOps0_1_W) (h2 : r ∉ hostOps0_2_W)
    (h3 : r ∉ hostOps0_3_W) : V4 m c r = V0 m c r :=
  (V4_of m c r h3).trans <| (V3_of m c r h2).trans <| (V2_of m c r h1).trans (V1_of m c r h0)

theorem V6_keep (r : Ref sig .tc) (h0 : r ∉ hostOps0_W) (h1 : r ∉ hostOps0_1_W) (h2 : r ∉ hostOps0_2_W)
    (h3 : r ∉ hostOps0_3_W) (h4 : r ∉ hostOps0_4_W) (h5 : r ∉ ([main_v18] : List (Ref sig .tc))) :
    V6 m outs c r = V0 m c r :=
  (V6_of m outs c r h5).trans <| (V5_of m c r h4).trans (V4_keep m c r h0 h1 h2 h3)

theorem K_src : (V1 m c main_v1 : IVec S400000 32) = srcOf (A1 m c) := read_src (V0 m c)

theorem K_dst : (V1 m c main_v3 : IVec S400000 32) = dstOf (A1 m c) := read_dst (V0 m c)

theorem K_h0 : (V2 m c main_v4 : FVec F S50000x128 .f32) = takeEmbed (A4 m c) (A0 m c) :=
  (read_h0 (V1 m c)).trans
    (congrArg₂ takeEmbed (V1_of m c main_arg4 (by decide)) (V1_of m c main_arg0 (by decide)))

theorem K_h0_5 : (V5 m c main_v4 : FVec F S50000x128 .f32) = takeEmbed (A4 m c) (A0 m c) :=
  (V5_of m c main_v4 (by decide)).trans <| (V4_of m c main_v4 (by decide)).trans <|
    (V3_of m c main_v4 (by decide)).trans (K_h0 m c)

theorem K_h0_7 : (V7 m outs c main_v4 : FVec F S50000x128 .f32) = takeEmbed (A4 m c) (A0 m c) :=
  (V7_of m outs c main_v4 (by decide)).trans <| (V6_of m outs c main_v4 (by decide)).trans (K_h0_5 m c)

theorem K_hsrc : (V3 m c main_v5 : FVec F S400000x128 .f32) = takeNode (takeEmbed (A4 m c) (A0 m c)) (srcOf (A1 m c)) :=
  (read_hsrc (V2 m c)).trans
    (congrArg₂ takeNode (K_h0 m c) ((V2_of m c main_v1 (by decide)).trans (K_src m c)))

theorem K_hdst : (V4 m c main_v6 : FVec F S400000x128 .f32) = takeNode (takeEmbed (A4 m c) (A0 m c)) (dstOf (A1 m c)) :=
  (read_hdst (V3 m c)).trans
    (congrArg₂ takeNode ((V3_of m c main_v4 (by decide)).trans (K_h0 m c))
      ((V3_of m c main_v3 (by decide)).trans <| (V2_of m c main_v3 (by decide)).trans (K_dst m c)))

theorem K_min :
    (V5 m c main_v7 : FVec F S400000x257 .f32)
      = concatenate S400000x257 1
          [⟨S400000x128, takeNode (takeEmbed (A4 m c) (A0 m c)) (srcOf (A1 m c))⟩,
           ⟨S400000x128, takeNode (takeEmbed (A4 m c) (A0 m c)) (dstOf (A1 m c))⟩,
           ⟨S400000x1, A2 m c⟩]
          concatenates_S400000x128_S400000x128_S400000x1_S400000x257_d1 := by
  refine (read_min (V4 m c)).trans ?_
  rw [(V4_of m c main_v5 (by decide)).trans (K_hsrc m c), K_hdst m c,
    V4_keep m c main_arg2 (by decide) (by decide) (by decide) (by decide)]

theorem K_w1 :
    (V5 m c main_v9 : FVec F S257x128 .f32)
      = shapeCast S257x128 (extractStridedSlice S1x257x128 ![0, 0, 0] (A5 m c) slices_S3x257x128_S1x257x128_0_0_0)
          shapeCasts_S1x257x128_S257x128 := by
  refine (read_w1 (V4 m c)).trans ?_
  rw [V4_keep m c main_arg5 (by decide) (by decide) (by decide) (by decide)]

theorem K_b1 :
    (V5 m c main_v16 : FVec F S1x128 .f32)
      = shapeCast S1x128 (shapeCast S128 (extractStridedSlice S1x128 ![0, 0] (A6 m c) slices_S3x128_S1x128_0_0)
          shapeCasts_S1x128_S128) shapeCasts_S128_S1x128 := by
  refine (read_b1 (V4 m c)).trans ?_
  rw [V4_keep m c main_arg6 (by decide) (by decide) (by decide) (by decide)]

theorem K_w2 :
    (V5 m c main_v13 : FVec F S128x128 .f32)
      = shapeCast S128x128 (extractStridedSlice S1x128x128 ![0, 0, 0] (A7 m c) slices_S3x128x128_S1x128x128_0_0_0)
          shapeCasts_S1x128x128_S128x128 := by
  refine (read_w2 (V4 m c)).trans ?_
  rw [V4_keep m c main_arg7 (by decide) (by decide) (by decide) (by decide)]

theorem K_b2 :
    (V5 m c main_v17 : FVec F S1x128 .f32)
      = shapeCast S1x128 (shapeCast S128 (extractStridedSlice S1x128 ![0, 0] (A8 m c) slices_S3x128_S1x128_0_0)
          shapeCasts_S1x128_S128) shapeCasts_S128_S1x128 := by
  refine (read_b2 (V4 m c)).trans ?_
  rw [V4_keep m c main_arg8 (by decide) (by decide) (by decide) (by decide)]

theorem K_msg : V6 m outs c main_v18 = outs 6 main_v18 c := Function.update_self ..

theorem K_uin :
    (V7 m outs c main_v22 : FVec F S50000x256 .f32)
      = concatenate S50000x256 1
          [⟨S50000x128, takeEmbed (A4 m c) (A0 m c)⟩,
           ⟨S50000x128, Host.scatterAdd scatter_S50000x128_S400000x1_S400000x128_1_0_0_1
              (broadcastInDim S50000x128 ![] bcast_S_S50000x128 (constant S_ .f32 0x00000000#32))
              (broadcastInDim S400000x1 ![0] bcast_S400000_S400000x1_0 (dstOf (A1 m c))) (outs 6 main_v18 c)⟩]
          concatenates_S50000x128_S50000x128_S50000x256_d1 := by
  refine (read_uin (V6 m outs c)).trans ?_
  rw [(V6_of m outs c main_v4 (by decide)).trans (K_h0_5 m c), K_msg m outs c,
    (V6_of m outs c main_v3 (by decide)).trans <| (V5_of m c main_v3 (by decide)).trans <|
      (V4_of m c main_v3 (by decide)).trans <| (V3_of m c main_v3 (by decide)).trans <|
      (V2_of m c main_v3 (by decide)).trans (K_dst m c)]

theorem K_uw1 :
    (V7 m outs c main_v24 : FVec F S256x128 .f32)
      = shapeCast S256x128 (extractStridedSlice S1x256x128 ![0, 0, 0] (A9 m c) slices_S3x256x128_S1x256x128_0_0_0)
          shapeCasts_S1x256x128_S256x128 := by
  refine (read_uw1 (V6 m outs c)).trans ?_
  rw [V6_keep m outs c main_arg9 (by decide) (by decide) (by decide) (by decide) (by decide) (by decide)]

theorem K_ub1 :
    (V7 m outs c main_v31 : FVec F S1x128 .f32)
      = shapeCast S1x128 (shapeCast S128 (extractStridedSlice S1x128 ![0, 0] (A10 m c) slices_S3x128_S1x128_0_0)
          shapeCasts_S1x128_S128) shapeCasts_S128_S1x128 := by
  refine (read_ub1 (V6 m outs c)).trans ?_
  rw [V6_keep m outs c main_arg10 (by decide) (by decide) (by decide) (by decide) (by decide) (by decide)]

theorem K_uw2 :
    (V7 m outs c main_v28 : FVec F S128x128 .f32)
      = shapeCast S128x128 (extractStridedSlice S1x128x128 ![0, 0, 0] (A11 m c) slices_S3x128x128_S1x128x128_0_0_0)
          shapeCasts_S1x128x128_S128x128 := by
  refine (read_uw2 (V6 m outs c)).trans ?_
  rw [V6_keep m outs c main_arg11 (by decide) (by decide) (by decide) (by decide) (by decide) (by decide)]

theorem K_ub2 :
    (V7 m outs c main_v32 : FVec F S1x128 .f32)
      = shapeCast S1x128 (shapeCast S128 (extractStridedSlice S1x128 ![0, 0] (A12 m c) slices_S3x128_S1x128_0_0)
          shapeCasts_S1x128_S128) shapeCasts_S128_S1x128 := by
  refine (read_ub2 (V6 m outs c)).trans ?_
  rw [V6_keep m outs c main_arg12 (by decide) (by decide) (by decide) (by decide) (by decide) (by decide)]

theorem K_upd : V8 m outs c main_v33 = outs 8 main_v33 c := Function.update_self ..

end Run

end Cert.Hand.Bridge

end
-- ==== Proof.Ref.ReadP.lean ====
import proofs.«407354_j16939351015862_1_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

/-! The reference's operations as stage functions of @main's arguments, with the read-at-an-index lemmas the comparison cites. -/

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

section
variable (x0 : (⟨S50000, .i32⟩ : BufTy).Contents (Elt F)) (x1 : (⟨S2x400000, .i32⟩ : BufTy).Contents (Elt F)) (x2 : (⟨S400000x1, .f32⟩ : BufTy).Contents (Elt F)) (x3 : (⟨S50000, .i32⟩ : BufTy).Contents (Elt F)) (x4 : (⟨S101x128, .f32⟩ : BufTy).Contents (Elt F)) (x5 : (⟨S3x257x128, .f32⟩ : BufTy).Contents (Elt F)) (x6 : (⟨S3x128, .f32⟩ : BufTy).Contents (Elt F)) (x7 : (⟨S3x128x128, .f32⟩ : BufTy).Contents (Elt F)) (x8 : (⟨S3x128, .f32⟩ : BufTy).Contents (Elt F)) (x9 : (⟨S3x256x128, .f32⟩ : BufTy).Contents (Elt F)) (x10 : (⟨S3x128, .f32⟩ : BufTy).Contents (Elt F)) (x11 : (⟨S3x128x128, .f32⟩ : BufTy).Contents (Elt F)) (x12 : (⟨S3x128, .f32⟩ : BufTy).Contents (Elt F)) (x13 : (⟨S128x128, .f32⟩ : BufTy).Contents (Elt F)) (x14 : (⟨S128, .f32⟩ : BufTy).Contents (Elt F)) (x15 : (⟨S128x1, .f32⟩ : BufTy).Contents (Elt F)) (x16 : (⟨S1, .f32⟩ : BufTy).Contents (Elt F))

def val_main_v0 : (⟨S1x400000, .i32⟩ : BufTy).Contents (Elt F) :=
  extractStridedSlice S1x400000 ![0, 0] (x1) slices_S2x400000_S1x400000_0_0
def val_main_v1 : (⟨S400000, .i32⟩ : BufTy).Contents (Elt F) :=
  shapeCast _ (val_main_v0 (F := F) x1) shapeCasts_S1x400000_S400000
def val_main_v2 : (⟨S1x400000, .i32⟩ : BufTy).Contents (Elt F) :=
  extractStridedSlice S1x400000 ![1, 0] (x1) slices_S2x400000_S1x400000_1_0
def val_main_v3 : (⟨S400000, .i32⟩ : BufTy).Contents (Elt F) :=
  shapeCast _ (val_main_v2 (F := F) x1) shapeCasts_S1x400000_S400000
def val_main_c : (⟨S_, .i32⟩ : BufTy).Contents (Elt F) :=
  constantI S_ 32 0#32
def val_main_v4 : (⟨S50000, .i32⟩ : BufTy).Contents (Elt F) :=
  broadcastInDim S50000 ![] bcast_S_S50000 (val_main_c (F := F))
def val_main_v5 : (⟨S50000, .i1⟩ : BufTy).Contents (Elt F) :=
  cmpi .slt (x0) (val_main_v4 (F := F))
def val_main_c_0 : (⟨S_, .i32⟩ : BufTy).Contents (Elt F) :=
  constantI S_ 32 101#32
def val_main_v6 : (⟨S50000, .i32⟩ : BufTy).Contents (Elt F) :=
  broadcastInDim S50000 ![] bcast_S_S50000 (val_main_c_0 (F := F))
def val_main_v7 : (⟨S50000, .i32⟩ : BufTy).Contents (Elt F) :=
  addi (x0) (val_main_v6 (F := F))
def val_main_v8 : (⟨S50000, .i32⟩ : BufTy).Contents (Elt F) :=
  select (val_main_v5 (F := F) x0) (val_main_v7 (F := F) x0) (x0)
def val_main_v9 : (⟨S50000x1, .i32⟩ : BufTy).Contents (Elt F) :=
  broadcastInDim S50000x1 ![0] bcast_S50000_S50000x1_0 (val_main_v8 (F := F) x0)
def val_main_v10 : (⟨S50000x128, .f32⟩ : BufTy).Contents (Elt F) :=
  Host.gather gather_S101x128_S50000x1_S50000x128_1_0_n_n_0_1_1128 (x4) (val_main_v9 (F := F) x0)
def val_main_c_1 : (⟨S_, .i32⟩ : BufTy).Contents (Elt F) :=
  constantI S_ 32 0#32
def val_main_v11 : (⟨S400000, .i32⟩ : BufTy).Contents (Elt F) :=
  broadcastInDim S400000 ![] bcast_S_S400000 (val_main_c_1 (F := F))
def val_main_v12 : (⟨S400000, .i1⟩ : BufTy).Contents (Elt F) :=
  cmpi .slt (val_main_v1 (F := F) x1) (val_main_v11 (F := F))
def val_main_c_2 : (⟨S_, .i32⟩ : BufTy).Contents (Elt F) :=
  constantI S_ 32 50000#32
def val_main_v13 : (⟨S400000, .i32⟩ : BufTy).Contents (Elt F) :=
  broadcastInDim S400000 ![] bcast_S_S400000 (val_main_c_2 (F := F))
def val_main_v14 : (⟨S400000, .i32⟩ : BufTy).Contents (Elt F) :=
  addi (val_main_v1 (F := F) x1) (val_main_v13 (F := F))
def val_main_v15 : (⟨S400000, .i32⟩ : BufTy).Contents (Elt F) :=
  select (val_main_v12 (F := F) x1) (val_main_v14 (F := F) x1) (val_main_v1 (F := F) x1)
def val_main_v16 : (⟨S400000x1, .i32⟩ : BufTy).Contents (Elt F) :=
  broadcastInDim S400000x1 ![0] bcast_S400000_S400000x1_0 (val_main_v15 (F := F) x1)
def val_main_v17 : (⟨S400000x128, .f32⟩ : BufTy).Contents (Elt F) :=
  Host.gather gather_S50000x128_S400000x1_S400000x128_1_0_n_n_0_1_1128 (val_main_v10 (F := F) x0 x4) (val_main_v16 (F := F) x1)
def val_main_c_3 : (⟨S_, .i32⟩ : BufTy).Contents (Elt F) :=
  constantI S_ 32 0#32
def val_main_v18 : (⟨S400000, .i32⟩ : BufTy).Contents (Elt F) :=
  broadcastInDim S400000 ![] bcast_S_S400000 (val_main_c_3 (F := F))
def val_main_v19 : (⟨S400000, .i1⟩ : BufTy).Contents (Elt F) :=
  cmpi .slt (val_main_v3 (F := F) x1) (val_main_v18 (F := F))
def val_main_c_4 : (⟨S_, .i32⟩ : BufTy).Contents (Elt F) :=
  constantI S_ 32 50000#32
def val_main_v20 : (⟨S400000, .i32⟩ : BufTy).Contents (Elt F) :=
  broadcastInDim S400000 ![] bcast_S_S400000 (val_main_c_4 (F := F))
def val_main_v21 : (⟨S400000, .i32⟩ : BufTy).Contents (Elt F) :=
  addi (val_main_v3 (F := F) x1) (val_main_v20 (F := F))
def val_main_v22 : (⟨S400000, .i32⟩ : BufTy).Contents (Elt F) :=
  select (val_main_v19 (F := F) x1) (val_main_v21 (F := F) x1) (val_main_v3 (F := F) x1)
def val_main_v23 : (⟨S400000x1, .i32⟩ : BufTy).Contents (Elt F) :=
  broadcastInDim S400000x1 ![0] bcast_S400000_S400000x1_0 (val_main_v22 (F := F) x1)
def val_main_v24 : (⟨S400000x128, .f32⟩ : BufTy).Contents (Elt F) :=
  Host.gather gather_S50000x128_S400000x1_S400000x128_1_0_n_n_0_1_1128 (val_main_v10 (F := F) x0 x4) (val_main_v23 (F := F) x1)
def val_main_v25 : (⟨S400000x257, .f32⟩ : BufTy).Contents (Elt F) :=
  concatenate S400000x257 1 [⟨S400000x128, (val_main_v17 (F := F) x0 x1 x4)⟩, ⟨S400000x128, (val_main_v24 (F := F) x0 x1 x4)⟩, ⟨S400000x1, (x2)⟩] concatenates_S400000x128_S400000x128_S400000x1_S400000x257_d1
def val_main_v26 : (⟨S1x257x128, .f32⟩ : BufTy).Contents (Elt F) :=
  extractStridedSlice S1x257x128 ![0, 0, 0] (x5) slices_S3x257x128_S1x257x128_0_0_0
def val_main_v27 : (⟨S257x128, .f32⟩ : BufTy).Contents (Elt F) :=
  shapeCast _ (val_main_v26 (F := F) x5) shapeCasts_S1x257x128_S257x128
def val_main_v28 : (⟨S1x128, .f32⟩ : BufTy).Contents (Elt F) :=
  extractStridedSlice S1x128 ![0, 0] (x6) slices_S3x128_S1x128_0_0
def val_main_v29 : (⟨S128, .f32⟩ : BufTy).Contents (Elt F) :=
  shapeCast _ (val_main_v28 (F := F) x6) shapeCasts_S1x128_S128
def val_main_v30 : (⟨S400000x128, .f32⟩ : BufTy).Contents (Elt F) :=
  Host.dotGeneral dot_S400000x257_S257x128_S400000x128_1_0_0_1_n_n none (val_main_v25 (F := F) x0 x1 x2 x4) (val_main_v27 (F := F) x5)
theorem lhs_main_v30_0 (i : S400000x128.Idx) (q : dot_S400000x257_S257x128_S400000x128_1_0_0_1_n_n.contr.Idx) :
    (dot_S400000x257_S257x128_S400000x128_1_0_0_1_n_n.lhsIdx i q 0).val = (i 0).val := by
  unfold DotDims.lhsIdx
  rw [dif_neg (show ¬(0 : Fin S400000x257.rank) ∈ dot_S400000x257_S257x128_S400000x128_1_0_0_1_n_n.lhsBatch by decide), dif_pos (show (0 : Fin S400000x257.rank) ∈ dot_S400000x257_S257x128_S400000x128_1_0_0_1_n_n.lhsNonContracting by decide)]
  rfl
theorem lhs_main_v30_1 (i : S400000x128.Idx) (q : dot_S400000x257_S257x128_S400000x128_1_0_0_1_n_n.contr.Idx) :
    (dot_S400000x257_S257x128_S400000x128_1_0_0_1_n_n.lhsIdx i q 1).val = (q ⟨0, by decide⟩).val :=
  dot_S400000x257_S257x128_S400000x128_1_0_0_1_n_n.lhsIdx_val_of_single rfl i q
theorem rhs_main_v30_0 (i : S400000x128.Idx) (q : dot_S400000x257_S257x128_S400000x128_1_0_0_1_n_n.contr.Idx) :
    (dot_S400000x257_S257x128_S400000x128_1_0_0_1_n_n.rhsIdx i q 0).val = (q ⟨0, by decide⟩).val :=
  dot_S400000x257_S257x128_S400000x128_1_0_0_1_n_n.rhsIdx_val_of_single rfl i q
theorem rhs_main_v30_1 (i : S400000x128.Idx) (q : dot_S400000x257_S257x128_S400000x128_1_0_0_1_n_n.contr.Idx) :
    (dot_S400000x257_S257x128_S400000x128_1_0_0_1_n_n.rhsIdx i q 1).val = (i 1).val := by
  unfold DotDims.rhsIdx
  rw [dif_neg (show ¬(1 : Fin S257x128.rank) ∈ dot_S400000x257_S257x128_S400000x128_1_0_0_1_n_n.rhsBatch by decide), dif_pos (show (1 : Fin S257x128.rank) ∈ dot_S400000x257_S257x128_S400000x128_1_0_0_1_n_n.rhsNonContracting by decide)]
  rfl
abbrev lidx_main_v30 (i : S400000x128.Idx) (k : Fin 257) : S400000x257.Idx := fun a => match a with
  | ⟨0, _⟩ => ⟨(i 0).val, (i 0).isLt⟩
  | ⟨1, _⟩ => ⟨k.val, k.isLt⟩
abbrev ridx_main_v30 (i : S400000x128.Idx) (k : Fin 257) : S257x128.Idx := fun a => match a with
  | ⟨0, _⟩ => ⟨k.val, k.isLt⟩
  | ⟨1, _⟩ => ⟨(i 1).val, (i 1).isLt⟩
def val_main_v31 : (⟨S1x128, .f32⟩ : BufTy).Contents (Elt F) :=
  broadcastInDim S1x128 ![1] bcast_S128_S1x128_1 (val_main_v29 (F := F) x6)
abbrev idx_main_v31 (i : S1x128.Idx) : S128.Idx := fun a => match a with
  | ⟨0, _⟩ => ⟨(i 1).val, (i 1).isLt⟩
theorem val_main_v31_apply (i : S1x128.Idx) :
    val_main_v31 (F := F) x6 i = val_main_v29 (F := F) x6 (idx_main_v31 i) := by
  unfold val_main_v31
  generalize val_main_v29 (F := F) x6 = y
  exact broadcastInDim_apply _ bcast_S128_S1x128_1 y i (idx_main_v31 i) (fun a => match a with
    | ⟨0, _⟩ => by show (i 1).val = if (128 : Nat) = 1 then 0 else (i 1).val; rw [if_neg (by decide)])
def val_main_v32 : (⟨S400000x128, .f32⟩ : BufTy).Contents (Elt F) :=
  broadcastInDim S400000x128 ![0, 1] bcast_S1x128_S400000x128_0_1 (val_main_v31 (F := F) x6)
abbrev idx_main_v32 (i : S400000x128.Idx) : S1x128.Idx := fun a => match a with
  | ⟨0, _⟩ => ⟨0, Nat.one_pos⟩
  | ⟨1, _⟩ => ⟨(i 1).val, (i 1).isLt⟩
theorem val_main_v32_apply (i : S400000x128.Idx) :
    val_main_v32 (F := F) x6 i = val_main_v31 (F := F) x6 (idx_main_v32 i) := by
  unfold val_main_v32
  generalize val_main_v31 (F := F) x6 = y
  exact broadcastInDim_apply _ bcast_S1x128_S400000x128_0_1 y i (idx_main_v32 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v33 : (⟨S400000x128, .f32⟩ : BufTy).Contents (Elt F) :=
  addf (val_main_v30 (F := F) x0 x1 x2 x4 x5) (val_main_v32 (F := F) x6)
theorem val_main_v33_apply (i : S400000x128.Idx) :
    val_main_v33 (F := F) x0 x1 x2 x4 x5 x6 i = FloatOps.addf (val_main_v30 (F := F) x0 x1 x2 x4 x5 i) (val_main_v32 (F := F) x6 i) := rfl
def val_main_call0_cst : (⟨S_, .f32⟩ : BufTy).Contents (Elt F) :=
  constant S_ .f32 0x00000000#32
theorem val_main_call0_cst_apply (i : S_.Idx) :
    val_main_call0_cst (F := F) i = FloatOps.ofBits .f32 0x00000000#32 := rfl
def val_main_call0_v0 : (⟨S400000x128, .f32⟩ : BufTy).Contents (Elt F) :=
  broadcastInDim S400000x128 ![] bcast_S_S400000x128 (val_main_call0_cst (F := F))
abbrev idx_main_call0_v0 (i : S400000x128.Idx) : S_.Idx := fun a => a.elim0
theorem val_main_call0_v0_apply (i : S400000x128.Idx) :
    val_main_call0_v0 (F := F) i = val_main_call0_cst (F := F) (idx_main_call0_v0 i) := by
  unfold val_main_call0_v0
  generalize val_main_call0_cst (F := F) = y
  exact broadcastInDim_apply _ bcast_S_S400000x128 y i (idx_main_call0_v0 i) (fun a => a.elim0)
def val_main_v34 : (⟨S400000x128, .f32⟩ : BufTy).Contents (Elt F) :=
  maximumf (val_main_v33 (F := F) x0 x1 x2 x4 x5 x6) (val_main_call0_v0 (F := F))
theorem val_main_v34_apply (i : S400000x128.Idx) :
    val_main_v34 (F := F) x0 x1 x2 x4 x5 x6 i = FloatOps.maximumf (val_main_v33 (F := F) x0 x1 x2 x4 x5 x6 i) (val_main_call0_v0 (F := F) i) := rfl
def val_main_v35 : (⟨S1x128x128, .f32⟩ : BufTy).Contents (Elt F) :=
  extractStridedSlice S1x128x128 ![0, 0, 0] (x7) slices_S3x128x128_S1x128x128_0_0_0
def val_main_v36 : (⟨S128x128, .f32⟩ : BufTy).Contents (Elt F) :=
  shapeCast _ (val_main_v35 (F := F) x7) shapeCasts_S1x128x128_S128x128
def val_main_v37 : (⟨S1x128, .f32⟩ : BufTy).Contents (Elt F) :=
  extractStridedSlice S1x128 ![0, 0] (x8) slices_S3x128_S1x128_0_0
def val_main_v38 : (⟨S128, .f32⟩ : BufTy).Contents (Elt F) :=
  shapeCast _ (val_main_v37 (F := F) x8) shapeCasts_S1x128_S128
def val_main_v39 : (⟨S400000x128, .f32⟩ : BufTy).Contents (Elt F) :=
  Host.dotGeneral dot_S400000x128_S128x128_S400000x128_1_0_0_1_n_n none (val_main_v34 (F := F) x0 x1 x2 x4 x5 x6) (val_main_v36 (F := F) x7)
theorem lhs_main_v39_0 (i : S400000x128.Idx) (q : dot_S400000x128_S128x128_S400000x128_1_0_0_1_n_n.contr.Idx) :
    (dot_S400000x128_S128x128_S400000x128_1_0_0_1_n_n.lhsIdx i q 0).val = (i 0).val := by
  unfold DotDims.lhsIdx
  rw [dif_neg (show ¬(0 : Fin S400000x128.rank) ∈ dot_S400000x128_S128x128_S400000x128_1_0_0_1_n_n.lhsBatch by decide), dif_pos (show (0 : Fin S400000x128.rank) ∈ dot_S400000x128_S128x128_S400000x128_1_0_0_1_n_n.lhsNonContracting by decide)]
  rfl
theorem lhs_main_v39_1 (i : S400000x128.Idx) (q : dot_S400000x128_S128x128_S400000x128_1_0_0_1_n_n.contr.Idx) :
    (dot_S400000x128_S128x128_S400000x128_1_0_0_1_n_n.lhsIdx i q 1).val = (q ⟨0, by decide⟩).val :=
  dot_S400000x128_S128x128_S400000x128_1_0_0_1_n_n.lhsIdx_val_of_single rfl i q
theorem rhs_main_v39_0 (i : S400000x128.Idx) (q : dot_S400000x128_S128x128_S400000x128_1_0_0_1_n_n.contr.Idx) :
    (dot_S400000x128_S128x128_S400000x128_1_0_0_1_n_n.rhsIdx i q 0).val = (q ⟨0, by decide⟩).val :=
  dot_S400000x128_S128x128_S400000x128_1_0_0_1_n_n.rhsIdx_val_of_single rfl i q
theorem rhs_main_v39_1 (i : S400000x128.Idx) (q : dot_S400000x128_S128x128_S400000x128_1_0_0_1_n_n.contr.Idx) :
    (dot_S400000x128_S128x128_S400000x128_1_0_0_1_n_n.rhsIdx i q 1).val = (i 1).val := by
  unfold DotDims.rhsIdx
  rw [dif_neg (show ¬(1 : Fin S128x128.rank) ∈ dot_S400000x128_S128x128_S400000x128_1_0_0_1_n_n.rhsBatch by decide), dif_pos (show (1 : Fin S128x128.rank) ∈ dot_S400000x128_S128x128_S400000x128_1_0_0_1_n_n.rhsNonContracting by decide)]
  rfl
abbrev lidx_main_v39 (i : S400000x128.Idx) (k : Fin 128) : S400000x128.Idx := fun a => match a with
  | ⟨0, _⟩ => ⟨(i 0).val, (i 0).isLt⟩
  | ⟨1, _⟩ => ⟨k.val, k.isLt⟩
abbrev ridx_main_v39 (i : S400000x128.Idx) (k : Fin 128) : S128x128.Idx := fun a => match a with
  | ⟨0, _⟩ => ⟨k.val, k.isLt⟩
  | ⟨1, _⟩ => ⟨(i 1).val, (i 1).isLt⟩
def val_main_v40 : (⟨S1x128, .f32⟩ : BufTy).Contents (Elt F) :=
  broadcastInDim S1x128 ![1] bcast_S128_S1x128_1 (val_main_v38 (F := F) x8)
abbrev idx_main_v40 (i : S1x128.Idx) : S128.Idx := fun a => match a with
  | ⟨0, _⟩ => ⟨(i 1).val, (i 1).isLt⟩
theorem val_main_v40_apply (i : S1x128.Idx) :
    val_main_v40 (F := F) x8 i = val_main_v38 (F := F) x8 (idx_main_v40 i) := by
  unfold val_main_v40
  generalize val_main_v38 (F := F) x8 = y
  exact broadcastInDim_apply _ bcast_S128_S1x128_1 y i (idx_main_v40 i) (fun a => match a with
    | ⟨0, _⟩ => by show (i 1).val = if (128 : Nat) = 1 then 0 else (i 1).val; rw [if_neg (by decide)])
def val_main_v41 : (⟨S400000x128, .f32⟩ : BufTy).Contents (Elt F) :=
  broadcastInDim S400000x128 ![0, 1] bcast_S1x128_S400000x128_0_1 (val_main_v40 (F := F) x8)
abbrev idx_main_v41 (i : S400000x128.Idx) : S1x128.Idx := fun a => match a with
  | ⟨0, _⟩ => ⟨0, Nat.one_pos⟩
  | ⟨1, _⟩ => ⟨(i 1).val, (i 1).isLt⟩
theorem val_main_v41_apply (i : S400000x128.Idx) :
    val_main_v41 (F := F) x8 i = val_main_v40 (F := F) x8 (idx_main_v41 i) := by
  unfold val_main_v41
  generalize val_main_v40 (F := F) x8 = y
  exact broadcastInDim_apply _ bcast_S1x128_S400000x128_0_1 y i (idx_main_v41 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v42 : (⟨S400000x128, .f32⟩ : BufTy).Contents (Elt F) :=
  addf (val_main_v39 (F := F) x0 x1 x2 x4 x5 x6 x7) (val_main_v41 (F := F) x8)
theorem val_main_v42_apply (i : S400000x128.Idx) :
    val_main_v42 (F := F) x0 x1 x2 x4 x5 x6 x7 x8 i = FloatOps.addf (val_main_v39 (F := F) x0 x1 x2 x4 x5 x6 x7 i) (val_main_v41 (F := F) x8 i) := rfl
def val_main_cst : (⟨S_, .f32⟩ : BufTy).Contents (Elt F) :=
  constant S_ .f32 0x00000000#32
def val_main_v43 : (⟨S50000x128, .f32⟩ : BufTy).Contents (Elt F) :=
  broadcastInDim S50000x128 ![] bcast_S_S50000x128 (val_main_cst (F := F))
def val_main_v44 : (⟨S400000x1, .i32⟩ : BufTy).Contents (Elt F) :=
  broadcastInDim S400000x1 ![0] bcast_S400000_S400000x1_0 (val_main_v3 (F := F) x1)
def val_main_v45 : (⟨S50000x128, .f32⟩ : BufTy).Contents (Elt F) :=
  Host.scatterAdd scatter_S50000x128_S400000x1_S400000x128_1_0_0_1 (val_main_v43 (F := F)) (val_main_v44 (F := F) x1) (val_main_v42 (F := F) x0 x1 x2 x4 x5 x6 x7 x8)
def val_main_v46 : (⟨S50000x256, .f32⟩ : BufTy).Contents (Elt F) :=
  concatenate S50000x256 1 [⟨S50000x128, (val_main_v10 (F := F) x0 x4)⟩, ⟨S50000x128, (val_main_v45 (F := F) x0 x1 x2 x4 x5 x6 x7 x8)⟩] concatenates_S50000x128_S50000x128_S50000x256_d1
def val_main_v47 : (⟨S1x256x128, .f32⟩ : BufTy).Contents (Elt F) :=
  extractStridedSlice S1x256x128 ![0, 0, 0] (x9) slices_S3x256x128_S1x256x128_0_0_0
def val_main_v48 : (⟨S256x128, .f32⟩ : BufTy).Contents (Elt F) :=
  shapeCast _ (val_main_v47 (F := F) x9) shapeCasts_S1x256x128_S256x128
def val_main_v49 : (⟨S1x128, .f32⟩ : BufTy).Contents (Elt F) :=
  extractStridedSlice S1x128 ![0, 0] (x10) slices_S3x128_S1x128_0_0
def val_main_v50 : (⟨S128, .f32⟩ : BufTy).Contents (Elt F) :=
  shapeCast _ (val_main_v49 (F := F) x10) shapeCasts_S1x128_S128
def val_main_v51 : (⟨S50000x128, .f32⟩ : BufTy).Contents (Elt F) :=
  Host.dotGeneral dot_S50000x256_S256x128_S50000x128_1_0_0_1_n_n none (val_main_v46 (F := F) x0 x1 x2 x4 x5 x6 x7 x8) (val_main_v48 (F := F) x9)
theorem lhs_main_v51_0 (i : S50000x128.Idx) (q : dot_S50000x256_S256x128_S50000x128_1_0_0_1_n_n.contr.Idx) :
    (dot_S50000x256_S256x128_S50000x128_1_0_0_1_n_n.lhsIdx i q 0).val = (i 0).val := by
  unfold DotDims.lhsIdx
  rw [dif_neg (show ¬(0 : Fin S50000x256.rank) ∈ dot_S50000x256_S256x128_S50000x128_1_0_0_1_n_n.lhsBatch by decide), dif_pos (show (0 : Fin S50000x256.rank) ∈ dot_S50000x256_S256x128_S50000x128_1_0_0_1_n_n.lhsNonContracting by decide)]
  rfl
theorem lhs_main_v51_1 (i : S50000x128.Idx) (q : dot_S50000x256_S256x128_S50000x128_1_0_0_1_n_n.contr.Idx) :
    (dot_S50000x256_S256x128_S50000x128_1_0_0_1_n_n.lhsIdx i q 1).val = (q ⟨0, by decide⟩).val :=
  dot_S50000x256_S256x128_S50000x128_1_0_0_1_n_n.lhsIdx_val_of_single rfl i q
theorem rhs_main_v51_0 (i : S50000x128.Idx) (q : dot_S50000x256_S256x128_S50000x128_1_0_0_1_n_n.contr.Idx) :
    (dot_S50000x256_S256x128_S50000x128_1_0_0_1_n_n.rhsIdx i q 0).val = (q ⟨0, by decide⟩).val :=
  dot_S50000x256_S256x128_S50000x128_1_0_0_1_n_n.rhsIdx_val_of_single rfl i q
theorem rhs_main_v51_1 (i : S50000x128.Idx) (q : dot_S50000x256_S256x128_S50000x128_1_0_0_1_n_n.contr.Idx) :
    (dot_S50000x256_S256x128_S50000x128_1_0_0_1_n_n.rhsIdx i q 1).val = (i 1).val := by
  unfold DotDims.rhsIdx
  rw [dif_neg (show ¬(1 : Fin S256x128.rank) ∈ dot_S50000x256_S256x128_S50000x128_1_0_0_1_n_n.rhsBatch by decide), dif_pos (show (1 : Fin S256x128.rank) ∈ dot_S50000x256_S256x128_S50000x128_1_0_0_1_n_n.rhsNonContracting by decide)]
  rfl
abbrev lidx_main_v51 (i : S50000x128.Idx) (k : Fin 256) : S50000x256.Idx := fun a => match a with
  | ⟨0, _⟩ => ⟨(i 0).val, (i 0).isLt⟩
  | ⟨1, _⟩ => ⟨k.val, k.isLt⟩
abbrev ridx_main_v51 (i : S50000x128.Idx) (k : Fin 256) : S256x128.Idx := fun a => match a with
  | ⟨0, _⟩ => ⟨k.val, k.isLt⟩
  | ⟨1, _⟩ => ⟨(i 1).val, (i 1).isLt⟩
def val_main_v52 : (⟨S1x128, .f32⟩ : BufTy).Contents (Elt F) :=
  broadcastInDim S1x128 ![1] bcast_S128_S1x128_1 (val_main_v50 (F := F) x10)
abbrev idx_main_v52 (i : S1x128.Idx) : S128.Idx := fun a => match a with
  | ⟨0, _⟩ => ⟨(i 1).val, (i 1).isLt⟩
theorem val_main_v52_apply (i : S1x128.Idx) :
    val_main_v52 (F := F) x10 i = val_main_v50 (F := F) x10 (idx_main_v52 i) := by
  unfold val_main_v52
  generalize val_main_v50 (F := F) x10 = y
  exact broadcastInDim_apply _ bcast_S128_S1x128_1 y i (idx_main_v52 i) (fun a => match a with
    | ⟨0, _⟩ => by show (i 1).val = if (128 : Nat) = 1 then 0 else (i 1).val; rw [if_neg (by decide)])
def val_main_v53 : (⟨S50000x128, .f32⟩ : BufTy).Contents (Elt F) :=
  broadcastInDim S50000x128 ![0, 1] bcast_S1x128_S50000x128_0_1 (val_main_v52 (F := F) x10)
abbrev idx_main_v53 (i : S50000x128.Idx) : S1x128.Idx := fun a => match a with
  | ⟨0, _⟩ => ⟨0, Nat.one_pos⟩
  | ⟨1, _⟩ => ⟨(i 1).val, (i 1).isLt⟩
theorem val_main_v53_apply (i : S50000x128.Idx) :
    val_main_v53 (F := F) x10 i = val_main_v52 (F := F) x10 (idx_main_v53 i) := by
  unfold val_main_v53
  generalize val_main_v52 (F := F) x10 = y
  exact broadcastInDim_apply _ bcast_S1x128_S50000x128_0_1 y i (idx_main_v53 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v54 : (⟨S50000x128, .f32⟩ : BufTy).Contents (Elt F) :=
  addf (val_main_v51 (F := F) x0 x1 x2 x4 x5 x6 x7 x8 x9) (val_main_v53 (F := F) x10)
theorem val_main_v54_apply (i : S50000x128.Idx) :
    val_main_v54 (F := F) x0 x1 x2 x4 x5 x6 x7 x8 x9 x10 i = FloatOps.addf (val_main_v51 (F := F) x0 x1 x2 x4 x5 x6 x7 x8 x9 i) (val_main_v53 (F := F) x10 i) := rfl
def val_main_call1_cst : (⟨S_, .f32⟩ : BufTy).Contents (Elt F) :=
  constant S_ .f32 0x00000000#32
theorem val_main_call1_cst_apply (i : S_.Idx) :
    val_main_call1_cst (F := F) i = FloatOps.ofBits .f32 0x00000000#32 := rfl
def val_main_call1_v0 : (⟨S50000x128, .f32⟩ : BufTy).Contents (Elt F) :=
  broadcastInDim S50000x128 ![] bcast_S_S50000x128 (val_main_call1_cst (F := F))
abbrev idx_main_call1_v0 (i : S50000x128.Idx) : S_.Idx := fun a => a.elim0
theorem val_main_call1_v0_apply (i : S50000x128.Idx) :
    val_main_call1_v0 (F := F) i = val_main_call1_cst (F := F) (idx_main_call1_v0 i) := by
  unfold val_main_call1_v0
  generalize val_main_call1_cst (F := F) = y
  exact broadcastInDim_apply _ bcast_S_S50000x128 y i (idx_main_call1_v0 i) (fun a => a.elim0)
def val_main_v55 : (⟨S50000x128, .f32⟩ : BufTy).Contents (Elt F) :=
  maximumf (val_main_v54 (F := F) x0 x1 x2 x4 x5 x6 x7 x8 x9 x10) (val_main_call1_v0 (F := F))
theorem val_main_v55_apply (i : S50000x128.Idx) :
    val_main_v55 (F := F) x0 x1 x2 x4 x5 x6 x7 x8 x9 x10 i = FloatOps.maximumf (val_main_v54 (F := F) x0 x1 x2 x4 x5 x6 x7 x8 x9 x10 i) (val_main_call1_v0 (F := F) i) := rfl
def val_main_v56 : (⟨S1x128x128, .f32⟩ : BufTy).Contents (Elt F) :=
  extractStridedSlice S1x128x128 ![0, 0, 0] (x11) slices_S3x128x128_S1x128x128_0_0_0
def val_main_v57 : (⟨S128x128, .f32⟩ : BufTy).Contents (Elt F) :=
  shapeCast _ (val_main_v56 (F := F) x11) shapeCasts_S1x128x128_S128x128
def val_main_v58 : (⟨S1x128, .f32⟩ : BufTy).Contents (Elt F) :=
  extractStridedSlice S1x128 ![0, 0] (x12) slices_S3x128_S1x128_0_0
def val_main_v59 : (⟨S128, .f32⟩ : BufTy).Contents (Elt F) :=
  shapeCast _ (val_main_v58 (F := F) x12) shapeCasts_S1x128_S128
def val_main_v60 : (⟨S50000x128, .f32⟩ : BufTy).Contents (Elt F) :=
  Host.dotGeneral dot_S50000x128_S128x128_S50000x128_1_0_0_1_n_n none (val_main_v55 (F := F) x0 x1 x2 x4 x5 x6 x7 x8 x9 x10) (val_main_v57 (F := F) x11)
theorem lhs_main_v60_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem lhs_main_v60_1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
theorem rhs_main_v60_0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
theorem rhs_main_v60_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl
abbrev lidx_main_v60 (i : S50000x128.Idx) (k : Fin 128) : S50000x128.Idx := fun a => match a with
  | ⟨0, _⟩ => ⟨(i 0).val, (i 0).isLt⟩
  | ⟨1, _⟩ => ⟨k.val, k.isLt⟩
abbrev ridx_main_v60 (i : S50000x128.Idx) (k : Fin 128) : S128x128.Idx := fun a => match a with
  | ⟨0, _⟩ => ⟨k.val, k.isLt⟩
  | ⟨1, _⟩ => ⟨(i 1).val, (i 1).isLt⟩
def val_main_v61 : (⟨S1x128, .f32⟩ : BufTy).Contents (Elt F) :=
  broadcastInDim S1x128 ![1] bcast_S128_S1x128_1 (val_main_v59 (F := F) x12)
abbrev idx_main_v61 (i : S1x128.Idx) : S128.Idx := fun a => match a with
  | ⟨0, _⟩ => ⟨(i 1).val, (i 1).isLt⟩
theorem val_main_v61_apply (i : S1x128.Idx) :
    val_main_v61 (F := F) x12 i = val_main_v59 (F := F) x12 (idx_main_v61 i) := by
  unfold val_main_v61
  generalize val_main_v59 (F := F) x12 = y
  exact broadcastInDim_apply _ bcast_S128_S1x128_1 y i (idx_main_v61 i) (fun a => match a with
    | ⟨0, _⟩ => by show (i 1).val = if (128 : Nat) = 1 then 0 else (i 1).val; rw [if_neg (by decide)])
def val_main_v62 : (⟨S50000x128, .f32⟩ : BufTy).Contents (Elt F) :=
  broadcastInDim S50000x128 ![0, 1] bcast_S1x128_S50000x128_0_1 (val_main_v61 (F := F) x12)
abbrev idx_main_v62 (i : S50000x128.Idx) : S1x128.Idx := fun a => match a with
  | ⟨0, _⟩ => ⟨0, Nat.one_pos⟩
  | ⟨1, _⟩ => ⟨(i 1).val, (i 1).isLt⟩
theorem val_main_v62_apply (i : S50000x128.Idx) :
    val_main_v62 (F := F) x12 i = val_main_v61 (F := F) x12 (idx_main_v62 i) := by
  unfold val_main_v62
  generalize val_main_v61 (F := F) x12 = y
  exact broadcastInDim_apply _ bcast_S1x128_S50000x128_0_1 y i (idx_main_v62 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v63 : (⟨S50000x128, .f32⟩ : BufTy).Contents (Elt F) :=
  addf (val_main_v60 (F := F) x0 x1 x2 x4 x5 x6 x7 x8 x9 x10 x11) (val_main_v62 (F := F) x12)
theorem val_main_v63_apply (i : S50000x128.Idx) :
    val_main_v63 (F := F) x0 x1 x2 x4 x5 x6 x7 x8 x9 x10 x11 x12 i = FloatOps.addf (val_main_v60 (F := F) x0 x1 x2 x4 x5 x6 x7 x8 x9 x10 x11 i) (val_main_v62 (F := F) x12 i) := rfl
def val_main_v64 : (⟨S50000x128, .f32⟩ : BufTy).Contents (Elt F) :=
  addf (val_main_v10 (F := F) x0 x4) (val_main_v63 (F := F) x0 x1 x2 x4 x5 x6 x7 x8 x9 x10 x11 x12)
theorem val_main_v64_apply (i : S50000x128.Idx) :
    val_main_v64 (F := F) x0 x1 x2 x4 x5 x6 x7 x8 x9 x10 x11 x12 i = FloatOps.addf (val_main_v10 (F := F) x0 x4 i) (val_main_v63 (F := F) x0 x1 x2 x4 x5 x6 x7 x8 x9 x10 x11 x12 i) := rfl
def val_main_c_5 : (⟨S_, .i32⟩ : BufTy).Contents (Elt F) :=
  constantI S_ 32 0#32
def val_main_v65 : (⟨S400000, .i32⟩ : BufTy).Contents (Elt F) :=
  broadcastInDim S400000 ![] bcast_S_S400000 (val_main_c_5 (F := F))
def val_main_v66 : (⟨S400000, .i1⟩ : BufTy).Contents (Elt F) :=
  cmpi .slt (val_main_v1 (F := F) x1) (val_main_v65 (F := F))
def val_main_c_6 : (⟨S_, .i32⟩ : BufTy).Contents (Elt F) :=
  constantI S_ 32 50000#32
def val_main_v67 : (⟨S400000, .i32⟩ : BufTy).Contents (Elt F) :=
  broadcastInDim S400000 ![] bcast_S_S400000 (val_main_c_6 (F := F))
def val_main_v68 : (⟨S400000, .i32⟩ : BufTy).Contents (Elt F) :=
  addi (val_main_v1 (F := F) x1) (val_main_v67 (F := F))
def val_main_v69 : (⟨S400000, .i32⟩ : BufTy).Contents (Elt F) :=
  select (val_main_v66 (F := F) x1) (val_main_v68 (F := F) x1) (val_main_v1 (F := F) x1)
def val_main_v70 : (⟨S400000x1, .i32⟩ : BufTy).Contents (Elt F) :=
  broadcastInDim S400000x1 ![0] bcast_S400000_S400000x1_0 (val_main_v69 (F := F) x1)
def val_main_v71 : (⟨S400000x128, .f32⟩ : BufTy).Contents (Elt F) :=
  Host.gather gather_S50000x128_S400000x1_S400000x128_1_0_n_n_0_1_1128 (val_main_v64 (F := F) x0 x1 x2 x4 x5 x6 x7 x8 x9 x10 x11 x12) (val_main_v70 (F := F) x1)
def val_main_c_7 : (⟨S_, .i32⟩ : BufTy).Contents (Elt F) :=
  constantI S_ 32 0#32
def val_main_v72 : (⟨S400000, .i32⟩ : BufTy).Contents (Elt F) :=
  broadcastInDim S400000 ![] bcast_S_S400000 (val_main_c_7 (F := F))
def val_main_v73 : (⟨S400000, .i1⟩ : BufTy).Contents (Elt F) :=
  cmpi .slt (val_main_v3 (F := F) x1) (val_main_v72 (F := F))
def val_main_c_8 : (⟨S_, .i32⟩ : BufTy).Contents (Elt F) :=
  constantI S_ 32 50000#32
def val_main_v74 : (⟨S400000, .i32⟩ : BufTy).Contents (Elt F) :=
  broadcastInDim S400000 ![] bcast_S_S400000 (val_main_c_8 (F := F))
def val_main_v75 : (⟨S400000, .i32⟩ : BufTy).Contents (Elt F) :=
  addi (val_main_v3 (F := F) x1) (val_main_v74 (F := F))
def val_main_v76 : (⟨S400000, .i32⟩ : BufTy).Contents (Elt F) :=
  select (val_main_v73 (F := F) x1) (val_main_v75 (F := F) x1) (val_main_v3 (F := F) x1)
def val_main_v77 : (⟨S400000x1, .i32⟩ : BufTy).Contents (Elt F) :=
  broadcastInDim S400000x1 ![0] bcast_S400000_S400000x1_0 (val_main_v76 (F := F) x1)
def val_main_v78 : (⟨S400000x128, .f32⟩ : BufTy).Contents (Elt F) :=
  Host.gather gather_S50000x128_S400000x1_S400000x128_1_0_n_n_0_1_1128 (val_main_v64 (F := F) x0 x1 x2 x4 x5 x6 x7 x8 x9 x10 x11 x12) (val_main_v77 (F := F) x1)
def val_main_v79 : (⟨S400000x257, .f32⟩ : BufTy).Contents (Elt F) :=
  concatenate S400000x257 1 [⟨S400000x128, (val_main_v71 (F := F) x0 x1 x2 x4 x5 x6 x7 x8 x9 x10 x11 x12)⟩, ⟨S400000x128, (val_main_v78 (F := F) x0 x1 x2 x4 x5 x6 x7 x8 x9 x10 x11 x12)⟩, ⟨S400000x1, (x2)⟩] concatenates_S400000x128_S400000x128_S400000x1_S400000x257_d1
def val_main_v80 : (⟨S1x257x128, .f32⟩ : BufTy).Contents (Elt F) :=
  extractStridedSlice S1x257x128 ![1, 0, 0] (x5) slices_S3x257x128_S1x257x128_1_0_0
def val_main_v81 : (⟨S257x128, .f32⟩ : BufTy).Contents (Elt F) :=
  shapeCast _ (val_main_v80 (F := F) x5) shapeCasts_S1x257x128_S257x128
def val_main_v82 : (⟨S1x128, .f32⟩ : BufTy).Contents (Elt F) :=
  extractStridedSlice S1x128 ![1, 0] (x6) slices_S3x128_S1x128_1_0
def val_main_v83 : (⟨S128, .f32⟩ : BufTy).Contents (Elt F) :=
  shapeCast _ (val_main_v82 (F := F) x6) shapeCasts_S1x128_S128
def val_main_v84 : (⟨S400000x128, .f32⟩ : BufTy).Contents (Elt F) :=
  Host.dotGeneral dot_S400000x257_S257x128_S400000x128_1_0_0_1_n_n none (val_main_v79 (F := F) x0 x1 x2 x4 x5 x6 x7 x8 x9 x10 x11 x12) (val_main_v81 (F := F) x5)
abbrev lidx_main_v84 (i : S400000x128.Idx) (k : Fin 257) : S400000x257.Idx := fun a => match a with
  | ⟨0, _⟩ => ⟨(i 0).val, (i 0).isLt⟩
  | ⟨1, _⟩ => ⟨k.val, k.isLt⟩
abbrev ridx_main_v84 (i : S400000x128.Idx) (k : Fin 257) : S257x128.Idx := fun a => match a with
  | ⟨0, _⟩ => ⟨k.val, k.isLt⟩
  | ⟨1, _⟩ => ⟨(i 1).val, (i 1).isLt⟩
def val_main_v85 : (⟨S1x128, .f32⟩ : BufTy).Contents (Elt F) :=
  broadcastInDim S1x128 ![1] bcast_S128_S1x128_1 (val_main_v83 (F := F) x6)
abbrev idx_main_v85 (i : S1x128.Idx) : S128.Idx := fun a => match a with
  | ⟨0, _⟩ => ⟨(i 1).val, (i 1).isLt⟩
theorem val_main_v85_apply (i : S1x128.Idx) :
    val_main_v85 (F := F) x6 i = val_main_v83 (F := F) x6 (idx_main_v85 i) := by
  unfold val_main_v85
  generalize val_main_v83 (F := F) x6 = y
  exact broadcastInDim_apply _ bcast_S128_S1x128_1 y i (idx_main_v85 i) (fun a => match a with
    | ⟨0, _⟩ => by show (i 1).val = if (128 : Nat) = 1 then 0 else (i 1).val; rw [if_neg (by decide)])
def val_main_v86 : (⟨S400000x128, .f32⟩ : BufTy).Contents (Elt F) :=
  broadcastInDim S400000x128 ![0, 1] bcast_S1x128_S400000x128_0_1 (val_main_v85 (F := F) x6)
abbrev idx_main_v86 (i : S400000x128.Idx) : S1x128.Idx := fun a => match a with
  | ⟨0, _⟩ => ⟨0, Nat.one_pos⟩
  | ⟨1, _⟩ => ⟨(i 1).val, (i 1).isLt⟩
theorem val_main_v86_apply (i : S400000x128.Idx) :
    val_main_v86 (F := F) x6 i = val_main_v85 (F := F) x6 (idx_main_v86 i) := by
  unfold val_main_v86
  generalize val_main_v85 (F := F) x6 = y
  exact broadcastInDim_apply _ bcast_S1x128_S400000x128_0_1 y i (idx_main_v86 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v87 : (⟨S400000x128, .f32⟩ : BufTy).Contents (Elt F) :=
  addf (val_main_v84 (F := F) x0 x1 x2 x4 x5 x6 x7 x8 x9 x10 x11 x12) (val_main_v86 (F := F) x6)
theorem val_main_v87_apply (i : S400000x128.Idx) :
    val_main_v87 (F := F) x0 x1 x2 x4 x5 x6 x7 x8 x9 x10 x11 x12 i = FloatOps.addf (val_main_v84 (F := F) x0 x1 x2 x4 x5 x6 x7 x8 x9 x10 x11 x12 i) (val_main_v86 (F := F) x6 i) := rfl
def val_main_call2_cst : (⟨S_, .f32⟩ : BufTy).Contents (Elt F) :=
  constant S_ .f32 0x00000000#32
theorem val_main_call2_cst_apply (i : S_.Idx) :
    val_main_call2_cst (F := F) i = FloatOps.ofBits .f32 0x00000000#32 := rfl
def val_main_call2_v0 : (⟨S400000x128, .f32⟩ : BufTy).Contents (Elt F) :=
  broadcastInDim S400000x128 ![] bcast_S_S400000x128 (val_main_call2_cst (F := F))
abbrev idx_main_call2_v0 (i : S400000x128.Idx) : S_.Idx := fun a => a.elim0
theorem val_main_call2_v0_apply (i : S400000x128.Idx) :
    val_main_call2_v0 (F := F) i = val_main_call2_cst (F := F) (idx_main_call2_v0 i) := by
  unfold val_main_call2_v0
  generalize val_main_call2_cst (F := F) = y
  exact broadcastInDim_apply _ bcast_S_S400000x128 y i (idx_main_call2_v0 i) (fun a => a.elim0)
def val_main_v88 : (⟨S400000x128, .f32⟩ : BufTy).Contents (Elt F) :=
  maximumf (val_main_v87 (F := F) x0 x1 x2 x4 x5 x6 x7 x8 x9 x10 x11 x12) (val_main_call2_v0 (F := F))
theorem val_main_v88_apply (i : S400000x128.Idx) :
    val_main_v88 (F := F) x0 x1 x2 x4 x5 x6 x7 x8 x9 x10 x11 x12 i = FloatOps.maximumf (val_main_v87 (F := F) x0 x1 x2 x4 x5 x6 x7 x8 x9 x10 x11 x12 i) (val_main_call2_v0 (F := F) i) := rfl
def val_main_v89 : (⟨S1x128x128, .f32⟩ : BufTy).Contents (Elt F) :=
  extractStridedSlice S1x128x128 ![1, 0, 0] (x7) slices_S3x128x128_S1x128x128_1_0_0
def val_main_v90 : (⟨S128x128, .f32⟩ : BufTy).Contents (Elt F) :=
  shapeCast _ (val_main_v89 (F := F) x7) shapeCasts_S1x128x128_S128x128
def val_main_v91 : (⟨S1x128, .f32⟩ : BufTy).Contents (Elt F) :=
  extractStridedSlice S1x128 ![1, 0] (x8) slices_S3x128_S1x128_1_0
def val_main_v92 : (⟨S128, .f32⟩ : BufTy).Contents (Elt F) :=
  shapeCast _ (val_main_v91 (F := F) x8) shapeCasts_S1x128_S128
def val_main_v93 : (⟨S400000x128, .f32⟩ : BufTy).Contents (Elt F) :=
  Host.dotGeneral dot_S400000x128_S128x128_S400000x128_1_0_0_1_n_n none (val_main_v88 (F := F) x0 x1 x2 x4 x5 x6 x7 x8 x9 x10 x11 x12) (val_main_v90 (F := F) x7)
abbrev lidx_main_v93 (i : S400000x128.Idx) (k : Fin 128) : S400000x128.Idx := fun a => match a with
  | ⟨0, _⟩ => ⟨(i 0).val, (i 0).isLt⟩
  | ⟨1, _⟩ => ⟨k.val, k.isLt⟩
abbrev ridx_main_v93 (i : S400000x128.Idx) (k : Fin 128) : S128x128.Idx := fun a => match a with
  | ⟨0, _⟩ => ⟨k.val, k.isLt⟩
  | ⟨1, _⟩ => ⟨(i 1).val, (i 1).isLt⟩
def val_main_v94 : (⟨S1x128, .f32⟩ : BufTy).Contents (Elt F) :=
  broadcastInDim S1x128 ![1] bcast_S128_S1x128_1 (val_main_v92 (F := F) x8)
abbrev idx_main_v94 (i : S1x128.Idx) : S128.Idx := fun a => match a with
  | ⟨0, _⟩ => ⟨(i 1).val, (i 1).isLt⟩
theorem val_main_v94_apply (i : S1x128.Idx) :
    val_main_v94 (F := F) x8 i = val_main_v92 (F := F) x8 (idx_main_v94 i) := by
  unfold val_main_v94
  generalize val_main_v92 (F := F) x8 = y
  exact broadcastInDim_apply _ bcast_S128_S1x128_1 y i (idx_main_v94 i) (fun a => match a with
    | ⟨0, _⟩ => by show (i 1).val = if (128 : Nat) = 1 then 0 else (i 1).val; rw [if_neg (by decide)])
def val_main_v95 : (⟨S400000x128, .f32⟩ : BufTy).Contents (Elt F) :=
  broadcastInDim S400000x128 ![0, 1] bcast_S1x128_S400000x128_0_1 (val_main_v94 (F := F) x8)
abbrev idx_main_v95 (i : S400000x128.Idx) : S1x128.Idx := fun a => match a with
  | ⟨0, _⟩ => ⟨0, Nat.one_pos⟩
  | ⟨1, _⟩ => ⟨(i 1).val, (i 1).isLt⟩
theorem val_main_v95_apply (i : S400000x128.Idx) :
    val_main_v95 (F := F) x8 i = val_main_v94 (F := F) x8 (idx_main_v95 i) := by
  unfold val_main_v95
  generalize val_main_v94 (F := F) x8 = y
  exact broadcastInDim_apply _ bcast_S1x128_S400000x128_0_1 y i (idx_main_v95 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v96 : (⟨S400000x128, .f32⟩ : BufTy).Contents (Elt F) :=
  addf (val_main_v93 (F := F) x0 x1 x2 x4 x5 x6 x7 x8 x9 x10 x11 x12) (val_main_v95 (F := F) x8)
theorem val_main_v96_apply (i : S400000x128.Idx) :
    val_main_v96 (F := F) x0 x1 x2 x4 x5 x6 x7 x8 x9 x10 x11 x12 i = FloatOps.addf (val_main_v93 (F := F) x0 x1 x2 x4 x5 x6 x7 x8 x9 x10 x11 x12 i) (val_main_v95 (F := F) x8 i) := rfl
def val_main_cst_9 : (⟨S_, .f32⟩ : BufTy).Contents (Elt F) :=
  constant S_ .f32 0x00000000#32
def val_main_v97 : (⟨S50000x128, .f32⟩ : BufTy).Contents (Elt F) :=
  broadcastInDim S50000x128 ![] bcast_S_S50000x128 (val_main_cst_9 (F := F))
def val_main_v98 : (⟨S400000x1, .i32⟩ : BufTy).Contents (Elt F) :=
  broadcastInDim S400000x1 ![0] bcast_S400000_S400000x1_0 (val_main_v3 (F := F) x1)
def val_main_v99 : (⟨S50000x128, .f32⟩ : BufTy).Contents (Elt F) :=
  Host.scatterAdd scatter_S50000x128_S400000x1_S400000x128_1_0_0_1 (val_main_v97 (F := F)) (val_main_v98 (F := F) x1) (val_main_v96 (F := F) x0 x1 x2 x4 x5 x6 x7 x8 x9 x10 x11 x12)
def val_main_v100 : (⟨S50000x256, .f32⟩ : BufTy).Contents (Elt F) :=
  concatenate S50000x256 1 [⟨S50000x128, (val_main_v64 (F := F) x0 x1 x2 x4 x5 x6 x7 x8 x9 x10 x11 x12)⟩, ⟨S50000x128, (val_main_v99 (F := F) x0 x1 x2 x4 x5 x6 x7 x8 x9 x10 x11 x12)⟩] concatenates_S50000x128_S50000x128_S50000x256_d1
def val_main_v101 : (⟨S1x256x128, .f32⟩ : BufTy).Contents (Elt F) :=
  extractStridedSlice S1x256x128 ![1, 0, 0] (x9) slices_S3x256x128_S1x256x128_1_0_0
def val_main_v102 : (⟨S256x128, .f32⟩ : BufTy).Contents (Elt F) :=
  shapeCast _ (val_main_v101 (F := F) x9) shapeCasts_S1x256x128_S256x128
def val_main_v103 : (⟨S1x128, .f32⟩ : BufTy).Contents (Elt F) :=
  extractStridedSlice S1x128 ![1, 0] (x10) slices_S3x128_S1x128_1_0
def val_main_v104 : (⟨S128, .f32⟩ : BufTy).Contents (Elt F) :=
  shapeCast _ (val_main_v103 (F := F) x10) shapeCasts_S1x128_S128
def val_main_v105 : (⟨S50000x128, .f32⟩ : BufTy).Contents (Elt F) :=
  Host.dotGeneral dot_S50000x256_S256x128_S50000x128_1_0_0_1_n_n none (val_main_v100 (F := F) x0 x1 x2 x4 x5 x6 x7 x8 x9 x10 x11 x12) (val_main_v102 (F := F) x9)
abbrev lidx_main_v105 (i : S50000x128.Idx) (k : Fin 256) : S50000x256.Idx := fun a => match a with
  | ⟨0, _⟩ => ⟨(i 0).val, (i 0).isLt⟩
  | ⟨1, _⟩ => ⟨k.val, k.isLt⟩
abbrev ridx_main_v105 (i : S50000x128.Idx) (k : Fin 256) : S256x128.Idx := fun a => match a with
  | ⟨0, _⟩ => ⟨k.val, k.isLt⟩
  | ⟨1, _⟩ => ⟨(i 1).val, (i 1).isLt⟩
def val_main_v106 : (⟨S1x128, .f32⟩ : BufTy).Contents (Elt F) :=
  broadcastInDim S1x128 ![1] bcast_S128_S1x128_1 (val_main_v104 (F := F) x10)
abbrev idx_main_v106 (i : S1x128.Idx) : S128.Idx := fun a => match a with
  | ⟨0, _⟩ => ⟨(i 1).val, (i 1).isLt⟩
theorem val_main_v106_apply (i : S1x128.Idx) :
    val_main_v106 (F := F) x10 i = val_main_v104 (F := F) x10 (idx_main_v106 i) := by
  unfold val_main_v106
  generalize val_main_v104 (F := F) x10 = y
  exact broadcastInDim_apply _ bcast_S128_S1x128_1 y i (idx_main_v106 i) (fun a => match a with
    | ⟨0, _⟩ => by show (i 1).val = if (128 : Nat) = 1 then 0 else (i 1).val; rw [if_neg (by decide)])
def val_main_v107 : (⟨S50000x128, .f32⟩ : BufTy).Contents (Elt F) :=
  broadcastInDim S50000x128 ![0, 1] bcast_S1x128_S50000x128_0_1 (val_main_v106 (F := F) x10)
abbrev idx_main_v107 (i : S50000x128.Idx) : S1x128.Idx := fun a => match a with
  | ⟨0, _⟩ => ⟨0, Nat.one_pos⟩
  | ⟨1, _⟩ => ⟨(i 1).val, (i 1).isLt⟩
theorem val_main_v107_apply (i : S50000x128.Idx) :
    val_main_v107 (F := F) x10 i = val_main_v106 (F := F) x10 (idx_main_v107 i) := by
  unfold val_main_v107
  generalize val_main_v106 (F := F) x10 = y
  exact broadcastInDim_apply _ bcast_S1x128_S50000x128_0_1 y i (idx_main_v107 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v108 : (⟨S50000x128, .f32⟩ : BufTy).Contents (Elt F) :=
  addf (val_main_v105 (F := F) x0 x1 x2 x4 x5 x6 x7 x8 x9 x10 x11 x12) (val_main_v107 (F := F) x10)
theorem val_main_v108_apply (i : S50000x128.Idx) :
    val_main_v108 (F := F) x0 x1 x2 x4 x5 x6 x7 x8 x9 x10 x11 x12 i = FloatOps.addf (val_main_v105 (F := F) x0 x1 x2 x4 x5 x6 x7 x8 x9 x10 x11 x12 i) (val_main_v107 (F := F) x10 i) := rfl
def val_main_call3_cst : (⟨S_, .f32⟩ : BufTy).Contents (Elt F) :=
  constant S_ .f32 0x00000000#32
theorem val_main_call3_cst_apply (i : S_.Idx) :
    val_main_call3_cst (F := F) i = FloatOps.ofBits .f32 0x00000000#32 := rfl
def val_main_call3_v0 : (⟨S50000x128, .f32⟩ : BufTy).Contents (Elt F) :=
  broadcastInDim S50000x128 ![] bcast_S_S50000x128 (val_main_call3_cst (F := F))
abbrev idx_main_call3_v0 (i : S50000x128.Idx) : S_.Idx := fun a => a.elim0
theorem val_main_call3_v0_apply (i : S50000x128.Idx) :
    val_main_call3_v0 (F := F) i = val_main_call3_cst (F := F) (idx_main_call3_v0 i) := by
  unfold val_main_call3_v0
  generalize val_main_call3_cst (F := F) = y
  exact broadcastInDim_apply _ bcast_S_S50000x128 y i (idx_main_call3_v0 i) (fun a => a.elim0)
def val_main_v109 : (⟨S50000x128, .f32⟩ : BufTy).Contents (Elt F) :=
  maximumf (val_main_v108 (F := F) x0 x1 x2 x4 x5 x6 x7 x8 x9 x10 x11 x12) (val_main_call3_v0 (F := F))
theorem val_main_v109_apply (i : S50000x128.Idx) :
    val_main_v109 (F := F) x0 x1 x2 x4 x5 x6 x7 x8 x9 x10 x11 x12 i = FloatOps.maximumf (val_main_v108 (F := F) x0 x1 x2 x4 x5 x6 x7 x8 x9 x10 x11 x12 i) (val_main_call3_v0 (F := F) i) := rfl
def val_main_v110 : (⟨S1x128x128, .f32⟩ : BufTy).Contents (Elt F) :=
  extractStridedSlice S1x128x128 ![1, 0, 0] (x11) slices_S3x128x128_S1x128x128_1_0_0
def val_main_v111 : (⟨S128x128, .f32⟩ : BufTy).Contents (Elt F) :=
  shapeCast _ (val_main_v110 (F := F) x11) shapeCasts_S1x128x128_S128x128
def val_main_v112 : (⟨S1x128, .f32⟩ : BufTy).Contents (Elt F) :=
  extractStridedSlice S1x128 ![1, 0] (x12) slices_S3x128_S1x128_1_0
def val_main_v113 : (⟨S128, .f32⟩ : BufTy).Contents (Elt F) :=
  shapeCast _ (val_main_v112 (F := F) x12) shapeCasts_S1x128_S128
def val_main_v114 : (⟨S50000x128, .f32⟩ : BufTy).Contents (Elt F) :=
  Host.dotGeneral dot_S50000x128_S128x128_S50000x128_1_0_0_1_n_n none (val_main_v109 (F := F) x0 x1 x2 x4 x5 x6 x7 x8 x9 x10 x11 x12) (val_main_v111 (F := F) x11)
abbrev lidx_main_v114 (i : S50000x128.Idx) (k : Fin 128) : S50000x128.Idx := fun a => match a with
  | ⟨0, _⟩ => ⟨(i 0).val, (i 0).isLt⟩
  | ⟨1, _⟩ => ⟨k.val, k.isLt⟩
abbrev ridx_main_v114 (i : S50000x128.Idx) (k : Fin 128) : S128x128.Idx := fun a => match a with
  | ⟨0, _⟩ => ⟨k.val, k.isLt⟩
  | ⟨1, _⟩ => ⟨(i 1).val, (i 1).isLt⟩
def val_main_v115 : (⟨S1x128, .f32⟩ : BufTy).Contents (Elt F) :=
  broadcastInDim S1x128 ![1] bcast_S128_S1x128_1 (val_main_v113 (F := F) x12)
abbrev idx_main_v115 (i : S1x128.Idx) : S128.Idx := fun a => match a with
  | ⟨0, _⟩ => ⟨(i 1).val, (i 1).isLt⟩
theorem val_main_v115_apply (i : S1x128.Idx) :
    val_main_v115 (F := F) x12 i = val_main_v113 (F := F) x12 (idx_main_v115 i) := by
  unfold val_main_v115
  generalize val_main_v113 (F := F) x12 = y
  exact broadcastInDim_apply _ bcast_S128_S1x128_1 y i (idx_main_v115 i) (fun a => match a with
    | ⟨0, _⟩ => by show (i 1).val = if (128 : Nat) = 1 then 0 else (i 1).val; rw [if_neg (by decide)])
def val_main_v116 : (⟨S50000x128, .f32⟩ : BufTy).Contents (Elt F) :=
  broadcastInDim S50000x128 ![0, 1] bcast_S1x128_S50000x128_0_1 (val_main_v115 (F := F) x12)
abbrev idx_main_v116 (i : S50000x128.Idx) : S1x128.Idx := fun a => match a with
  | ⟨0, _⟩ => ⟨0, Nat.one_pos⟩
  | ⟨1, _⟩ => ⟨(i 1).val, (i 1).isLt⟩
theorem val_main_v116_apply (i : S50000x128.Idx) :
    val_main_v116 (F := F) x12 i = val_main_v115 (F := F) x12 (idx_main_v116 i) := by
  unfold val_main_v116
  generalize val_main_v115 (F := F) x12 = y
  exact broadcastInDim_apply _ bcast_S1x128_S50000x128_0_1 y i (idx_main_v116 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v117 : (⟨S50000x128, .f32⟩ : BufTy).Contents (Elt F) :=
  addf (val_main_v114 (F := F) x0 x1 x2 x4 x5 x6 x7 x8 x9 x10 x11 x12) (val_main_v116 (F := F) x12)
theorem val_main_v117_apply (i : S50000x128.Idx) :
    val_main_v117 (F := F) x0 x1 x2 x4 x5 x6 x7 x8 x9 x10 x11 x12 i = FloatOps.addf (val_main_v114 (F := F) x0 x1 x2 x4 x5 x6 x7 x8 x9 x10 x11 x12 i) (val_main_v116 (F := F) x12 i) := rfl
def val_main_v118 : (⟨S50000x128, .f32⟩ : BufTy).Contents (Elt F) :=
  addf (val_main_v64 (F := F) x0 x1 x2 x4 x5 x6 x7 x8 x9 x10 x11 x12) (val_main_v117 (F := F) x0 x1 x2 x4 x5 x6 x7 x8 x9 x10 x11 x12)
theorem val_main_v118_apply (i : S50000x128.Idx) :
    val_main_v118 (F := F) x0 x1 x2 x4 x5 x6 x7 x8 x9 x10 x11 x12 i = FloatOps.addf (val_main_v64 (F := F) x0 x1 x2 x4 x5 x6 x7 x8 x9 x10 x11 x12 i) (val_main_v117 (F := F) x0 x1 x2 x4 x5 x6 x7 x8 x9 x10 x11 x12 i) := rfl
def val_main_c_10 : (⟨S_, .i32⟩ : BufTy).Contents (Elt F) :=
  constantI S_ 32 0#32
def val_main_v119 : (⟨S400000, .i32⟩ : BufTy).Contents (Elt F) :=
  broadcastInDim S400000 ![] bcast_S_S400000 (val_main_c_10 (F := F))
def val_main_v120 : (⟨S400000, .i1⟩ : BufTy).Contents (Elt F) :=
  cmpi .slt (val_main_v1 (F := F) x1) (val_main_v119 (F := F))
def val_main_c_11 : (⟨S_, .i32⟩ : BufTy).Contents (Elt F) :=
  constantI S_ 32 50000#32
def val_main_v121 : (⟨S400000, .i32⟩ : BufTy).Contents (Elt F) :=
  broadcastInDim S400000 ![] bcast_S_S400000 (val_main_c_11 (F := F))
def val_main_v122 : (⟨S400000, .i32⟩ : BufTy).Contents (Elt F) :=
  addi (val_main_v1 (F := F) x1) (val_main_v121 (F := F))
def val_main_v123 : (⟨S400000, .i32⟩ : BufTy).Contents (Elt F) :=
  select (val_main_v120 (F := F) x1) (val_main_v122 (F := F) x1) (val_main_v1 (F := F) x1)
def val_main_v124 : (⟨S400000x1, .i32⟩ : BufTy).Contents (Elt F) :=
  broadcastInDim S400000x1 ![0] bcast_S400000_S400000x1_0 (val_main_v123 (F := F) x1)
def val_main_v125 : (⟨S400000x128, .f32⟩ : BufTy).Contents (Elt F) :=
  Host.gather gather_S50000x128_S400000x1_S400000x128_1_0_n_n_0_1_1128 (val_main_v118 (F := F) x0 x1 x2 x4 x5 x6 x7 x8 x9 x10 x11 x12) (val_main_v124 (F := F) x1)
def val_main_c_12 : (⟨S_, .i32⟩ : BufTy).Contents (Elt F) :=
  constantI S_ 32 0#32
def val_main_v126 : (⟨S400000, .i32⟩ : BufTy).Contents (Elt F) :=
  broadcastInDim S400000 ![] bcast_S_S400000 (val_main_c_12 (F := F))
def val_main_v127 : (⟨S400000, .i1⟩ : BufTy).Contents (Elt F) :=
  cmpi .slt (val_main_v3 (F := F) x1) (val_main_v126 (F := F))
def val_main_c_13 : (⟨S_, .i32⟩ : BufTy).Contents (Elt F) :=
  constantI S_ 32 50000#32
def val_main_v128 : (⟨S400000, .i32⟩ : BufTy).Contents (Elt F) :=
  broadcastInDim S400000 ![] bcast_S_S400000 (val_main_c_13 (F := F))
def val_main_v129 : (⟨S400000, .i32⟩ : BufTy).Contents (Elt F) :=
  addi (val_main_v3 (F := F) x1) (val_main_v128 (F := F))
def val_main_v130 : (⟨S400000, .i32⟩ : BufTy).Contents (Elt F) :=
  select (val_main_v127 (F := F) x1) (val_main_v129 (F := F) x1) (val_main_v3 (F := F) x1)
def val_main_v131 : (⟨S400000x1, .i32⟩ : BufTy).Contents (Elt F) :=
  broadcastInDim S400000x1 ![0] bcast_S400000_S400000x1_0 (val_main_v130 (F := F) x1)
def val_main_v132 : (⟨S400000x128, .f32⟩ : BufTy).Contents (Elt F) :=
  Host.gather gather_S50000x128_S400000x1_S400000x128_1_0_n_n_0_1_1128 (val_main_v118 (F := F) x0 x1 x2 x4 x5 x6 x7 x8 x9 x10 x11 x12) (val_main_v131 (F := F) x1)
def val_main_v133 : (⟨S400000x257, .f32⟩ : BufTy).Contents (Elt F) :=
  concatenate S400000x257 1 [⟨S400000x128, (val_main_v125 (F := F) x0 x1 x2 x4 x5 x6 x7 x8 x9 x10 x11 x12)⟩, ⟨S400000x128, (val_main_v132 (F := F) x0 x1 x2 x4 x5 x6 x7 x8 x9 x10 x11 x12)⟩, ⟨S400000x1, (x2)⟩] concatenates_S400000x128_S400000x128_S400000x1_S400000x257_d1
def val_main_v134 : (⟨S1x257x128, .f32⟩ : BufTy).Contents (Elt F) :=
  extractStridedSlice S1x257x128 ![2, 0, 0] (x5) slices_S3x257x128_S1x257x128_2_0_0
def val_main_v135 : (⟨S257x128, .f32⟩ : BufTy).Contents (Elt F) :=
  shapeCast _ (val_main_v134 (F := F) x5) shapeCasts_S1x257x128_S257x128
def val_main_v136 : (⟨S1x128, .f32⟩ : BufTy).Contents (Elt F) :=
  extractStridedSlice S1x128 ![2, 0] (x6) slices_S3x128_S1x128_2_0
def val_main_v137 : (⟨S128, .f32⟩ : BufTy).Contents (Elt F) :=
  shapeCast _ (val_main_v136 (F := F) x6) shapeCasts_S1x128_S128
def val_main_v138 : (⟨S400000x128, .f32⟩ : BufTy).Contents (Elt F) :=
  Host.dotGeneral dot_S400000x257_S257x128_S400000x128_1_0_0_1_n_n none (val_main_v133 (F := F) x0 x1 x2 x4 x5 x6 x7 x8 x9 x10 x11 x12) (val_main_v135 (F := F) x5)
abbrev lidx_main_v138 (i : S400000x128.Idx) (k : Fin 257) : S400000x257.Idx := fun a => match a with
  | ⟨0, _⟩ => ⟨(i 0).val, (i 0).isLt⟩
  | ⟨1, _⟩ => ⟨k.val, k.isLt⟩
abbrev ridx_main_v138 (i : S400000x128.Idx) (k : Fin 257) : S257x128.Idx := fun a => match a with
  | ⟨0, _⟩ => ⟨k.val, k.isLt⟩
  | ⟨1, _⟩ => ⟨(i 1).val, (i 1).isLt⟩
def val_main_v139 : (⟨S1x128, .f32⟩ : BufTy).Contents (Elt F) :=
  broadcastInDim S1x128 ![1] bcast_S128_S1x128_1 (val_main_v137 (F := F) x6)
abbrev idx_main_v139 (i : S1x128.Idx) : S128.Idx := fun a => match a with
  | ⟨0, _⟩ => ⟨(i 1).val, (i 1).isLt⟩
theorem val_main_v139_apply (i : S1x128.Idx) :
    val_main_v139 (F := F) x6 i = val_main_v137 (F := F) x6 (idx_main_v139 i) := by
  unfold val_main_v139
  generalize val_main_v137 (F := F) x6 = y
  exact broadcastInDim_apply _ bcast_S128_S1x128_1 y i (idx_main_v139 i) (fun a => match a with
    | ⟨0, _⟩ => by show (i 1).val = if (128 : Nat) = 1 then 0 else (i 1).val; rw [if_neg (by decide)])
def val_main_v140 : (⟨S400000x128, .f32⟩ : BufTy).Contents (Elt F) :=
  broadcastInDim S400000x128 ![0, 1] bcast_S1x128_S400000x128_0_1 (val_main_v139 (F := F) x6)
abbrev idx_main_v140 (i : S400000x128.Idx) : S1x128.Idx := fun a => match a with
  | ⟨0, _⟩ => ⟨0, Nat.one_pos⟩
  | ⟨1, _⟩ => ⟨(i 1).val, (i 1).isLt⟩
theorem val_main_v140_apply (i : S400000x128.Idx) :
    val_main_v140 (F := F) x6 i = val_main_v139 (F := F) x6 (idx_main_v140 i) := by
  unfold val_main_v140
  generalize val_main_v139 (F := F) x6 = y
  exact broadcastInDim_apply _ bcast_S1x128_S400000x128_0_1 y i (idx_main_v140 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v141 : (⟨S400000x128, .f32⟩ : BufTy).Contents (Elt F) :=
  addf (val_main_v138 (F := F) x0 x1 x2 x4 x5 x6 x7 x8 x9 x10 x11 x12) (val_main_v140 (F := F) x6)
theorem val_main_v141_apply (i : S400000x128.Idx) :
    val_main_v141 (F := F) x0 x1 x2 x4 x5 x6 x7 x8 x9 x10 x11 x12 i = FloatOps.addf (val_main_v138 (F := F) x0 x1 x2 x4 x5 x6 x7 x8 x9 x10 x11 x12 i) (val_main_v140 (F := F) x6 i) := rfl
def val_main_call4_cst : (⟨S_, .f32⟩ : BufTy).Contents (Elt F) :=
  constant S_ .f32 0x00000000#32
theorem val_main_call4_cst_apply (i : S_.Idx) :
    val_main_call4_cst (F := F) i = FloatOps.ofBits .f32 0x00000000#32 := rfl
def val_main_call4_v0 : (⟨S400000x128, .f32⟩ : BufTy).Contents (Elt F) :=
  broadcastInDim S400000x128 ![] bcast_S_S400000x128 (val_main_call4_cst (F := F))
abbrev idx_main_call4_v0 (i : S400000x128.Idx) : S_.Idx := fun a => a.elim0
theorem val_main_call4_v0_apply (i : S400000x128.Idx) :
    val_main_call4_v0 (F := F) i = val_main_call4_cst (F := F) (idx_main_call4_v0 i) := by
  unfold val_main_call4_v0
  generalize val_main_call4_cst (F := F) = y
  exact broadcastInDim_apply _ bcast_S_S400000x128 y i (idx_main_call4_v0 i) (fun a => a.elim0)
def val_main_v142 : (⟨S400000x128, .f32⟩ : BufTy).Contents (Elt F) :=
  maximumf (val_main_v141 (F := F) x0 x1 x2 x4 x5 x6 x7 x8 x9 x10 x11 x12) (val_main_call4_v0 (F := F))
theorem val_main_v142_apply (i : S400000x128.Idx) :
    val_main_v142 (F := F) x0 x1 x2 x4 x5 x6 x7 x8 x9 x10 x11 x12 i = FloatOps.maximumf (val_main_v141 (F := F) x0 x1 x2 x4 x5 x6 x7 x8 x9 x10 x11 x12 i) (val_main_call4_v0 (F := F) i) := rfl
def val_main_v143 : (⟨S1x128x128, .f32⟩ : BufTy).Contents (Elt F) :=
  extractStridedSlice S1x128x128 ![2, 0, 0] (x7) slices_S3x128x128_S1x128x128_2_0_0
def val_main_v144 : (⟨S128x128, .f32⟩ : BufTy).Contents (Elt F) :=
  shapeCast _ (val_main_v143 (F := F) x7) shapeCasts_S1x128x128_S128x128
def val_main_v145 : (⟨S1x128, .f32⟩ : BufTy).Contents (Elt F) :=
  extractStridedSlice S1x128 ![2, 0] (x8) slices_S3x128_S1x128_2_0
def val_main_v146 : (⟨S128, .f32⟩ : BufTy).Contents (Elt F) :=
  shapeCast _ (val_main_v145 (F := F) x8) shapeCasts_S1x128_S128
def val_main_v147 : (⟨S400000x128, .f32⟩ : BufTy).Contents (Elt F) :=
  Host.dotGeneral dot_S400000x128_S128x128_S400000x128_1_0_0_1_n_n none (val_main_v142 (F := F) x0 x1 x2 x4 x5 x6 x7 x8 x9 x10 x11 x12) (val_main_v144 (F := F) x7)
abbrev lidx_main_v147 (i : S400000x128.Idx) (k : Fin 128) : S400000x128.Idx := fun a => match a with
  | ⟨0, _⟩ => ⟨(i 0).val, (i 0).isLt⟩
  | ⟨1, _⟩ => ⟨k.val, k.isLt⟩
abbrev ridx_main_v147 (i : S400000x128.Idx) (k : Fin 128) : S128x128.Idx := fun a => match a with
  | ⟨0, _⟩ => ⟨k.val, k.isLt⟩
  | ⟨1, _⟩ => ⟨(i 1).val, (i 1).isLt⟩
def val_main_v148 : (⟨S1x128, .f32⟩ : BufTy).Contents (Elt F) :=
  broadcastInDim S1x128 ![1] bcast_S128_S1x128_1 (val_main_v146 (F := F) x8)
abbrev idx_main_v148 (i : S1x128.Idx) : S128.Idx := fun a => match a with
  | ⟨0, _⟩ => ⟨(i 1).val, (i 1).isLt⟩
theorem val_main_v148_apply (i : S1x128.Idx) :
    val_main_v148 (F := F) x8 i = val_main_v146 (F := F) x8 (idx_main_v148 i) := by
  unfold val_main_v148
  generalize val_main_v146 (F := F) x8 = y
  exact broadcastInDim_apply _ bcast_S128_S1x128_1 y i (idx_main_v148 i) (fun a => match a with
    | ⟨0, _⟩ => by show (i 1).val = if (128 : Nat) = 1 then 0 else (i 1).val; rw [if_neg (by decide)])
def val_main_v149 : (⟨S400000x128, .f32⟩ : BufTy).Contents (Elt F) :=
  broadcastInDim S400000x128 ![0, 1] bcast_S1x128_S400000x128_0_1 (val_main_v148 (F := F) x8)
abbrev idx_main_v149 (i : S400000x128.Idx) : S1x128.Idx := fun a => match a with
  | ⟨0, _⟩ => ⟨0, Nat.one_pos⟩
  | ⟨1, _⟩ => ⟨(i 1).val, (i 1).isLt⟩
theorem val_main_v149_apply (i : S400000x128.Idx) :
    val_main_v149 (F := F) x8 i = val_main_v148 (F := F) x8 (idx_main_v149 i) := by
  unfold val_main_v149
  generalize val_main_v148 (F := F) x8 = y
  exact broadcastInDim_apply _ bcast_S1x128_S400000x128_0_1 y i (idx_main_v149 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v150 : (⟨S400000x128, .f32⟩ : BufTy).Contents (Elt F) :=
  addf (val_main_v147 (F := F) x0 x1 x2 x4 x5 x6 x7 x8 x9 x10 x11 x12) (val_main_v149 (F := F) x8)
theorem val_main_v150_apply (i : S400000x128.Idx) :
    val_main_v150 (F := F) x0 x1 x2 x4 x5 x6 x7 x8 x9 x10 x11 x12 i = FloatOps.addf (val_main_v147 (F := F) x0 x1 x2 x4 x5 x6 x7 x8 x9 x10 x11 x12 i) (val_main_v149 (F := F) x8 i) := rfl
def val_main_cst_14 : (⟨S_, .f32⟩ : BufTy).Contents (Elt F) :=
  constant S_ .f32 0x00000000#32
def val_main_v151 : (⟨S50000x128, .f32⟩ : BufTy).Contents (Elt F) :=
  broadcastInDim S50000x128 ![] bcast_S_S50000x128 (val_main_cst_14 (F := F))
def val_main_v152 : (⟨S400000x1, .i32⟩ : BufTy).Contents (Elt F) :=
  broadcastInDim S400000x1 ![0] bcast_S400000_S400000x1_0 (val_main_v3 (F := F) x1)
def val_main_v153 : (⟨S50000x128, .f32⟩ : BufTy).Contents (Elt F) :=
  Host.scatterAdd scatter_S50000x128_S400000x1_S400000x128_1_0_0_1 (val_main_v151 (F := F)) (val_main_v152 (F := F) x1) (val_main_v150 (F := F) x0 x1 x2 x4 x5 x6 x7 x8 x9 x10 x11 x12)
def val_main_v154 : (⟨S50000x256, .f32⟩ : BufTy).Contents (Elt F) :=
  concatenate S50000x256 1 [⟨S50000x128, (val_main_v118 (F := F) x0 x1 x2 x4 x5 x6 x7 x8 x9 x10 x11 x12)⟩, ⟨S50000x128, (val_main_v153 (F := F) x0 x1 x2 x4 x5 x6 x7 x8 x9 x10 x11 x12)⟩] concatenates_S50000x128_S50000x128_S50000x256_d1
def val_main_v155 : (⟨S1x256x128, .f32⟩ : BufTy).Contents (Elt F) :=
  extractStridedSlice S1x256x128 ![2, 0, 0] (x9) slices_S3x256x128_S1x256x128_2_0_0
def val_main_v156 : (⟨S256x128, .f32⟩ : BufTy).Contents (Elt F) :=
  shapeCast _ (val_main_v155 (F := F) x9) shapeCasts_S1x256x128_S256x128
def val_main_v157 : (⟨S1x128, .f32⟩ : BufTy).Contents (Elt F) :=
  extractStridedSlice S1x128 ![2, 0] (x10) slices_S3x128_S1x128_2_0
def val_main_v158 : (⟨S128, .f32⟩ : BufTy).Contents (Elt F) :=
  shapeCast _ (val_main_v157 (F := F) x10) shapeCasts_S1x128_S128
def val_main_v159 : (⟨S50000x128, .f32⟩ : BufTy).Contents (Elt F) :=
  Host.dotGeneral dot_S50000x256_S256x128_S50000x128_1_0_0_1_n_n none (val_main_v154 (F := F) x0 x1 x2 x4 x5 x6 x7 x8 x9 x10 x11 x12) (val_main_v156 (F := F) x9)
abbrev lidx_main_v159 (i : S50000x128.Idx) (k : Fin 256) : S50000x256.Idx := fun a => match a with
  | ⟨0, _⟩ => ⟨(i 0).val, (i 0).isLt⟩
  | ⟨1, _⟩ => ⟨k.val, k.isLt⟩
abbrev ridx_main_v159 (i : S50000x128.Idx) (k : Fin 256) : S256x128.Idx := fun a => match a with
  | ⟨0, _⟩ => ⟨k.val, k.isLt⟩
  | ⟨1, _⟩ => ⟨(i 1).val, (i 1).isLt⟩
def val_main_v160 : (⟨S1x128, .f32⟩ : BufTy).Contents (Elt F) :=
  broadcastInDim S1x128 ![1] bcast_S128_S1x128_1 (val_main_v158 (F := F) x10)
abbrev idx_main_v160 (i : S1x128.Idx) : S128.Idx := fun a => match a with
  | ⟨0, _⟩ => ⟨(i 1).val, (i 1).isLt⟩
theorem val_main_v160_apply (i : S1x128.Idx) :
    val_main_v160 (F := F) x10 i = val_main_v158 (F := F) x10 (idx_main_v160 i) := by
  unfold val_main_v160
  generalize val_main_v158 (F := F) x10 = y
  exact broadcastInDim_apply _ bcast_S128_S1x128_1 y i (idx_main_v160 i) (fun a => match a with
    | ⟨0, _⟩ => by show (i 1).val = if (128 : Nat) = 1 then 0 else (i 1).val; rw [if_neg (by decide)])
def val_main_v161 : (⟨S50000x128, .f32⟩ : BufTy).Contents (Elt F) :=
  broadcastInDim S50000x128 ![0, 1] bcast_S1x128_S50000x128_0_1 (val_main_v160 (F := F) x10)
abbrev idx_main_v161 (i : S50000x128.Idx) : S1x128.Idx := fun a => match a with
  | ⟨0, _⟩ => ⟨0, Nat.one_pos⟩
  | ⟨1, _⟩ => ⟨(i 1).val, (i 1).isLt⟩
theorem val_main_v161_apply (i : S50000x128.Idx) :
    val_main_v161 (F := F) x10 i = val_main_v160 (F := F) x10 (idx_main_v161 i) := by
  unfold val_main_v161
  generalize val_main_v160 (F := F) x10 = y
  exact broadcastInDim_apply _ bcast_S1x128_S50000x128_0_1 y i (idx_main_v161 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v162 : (⟨S50000x128, .f32⟩ : BufTy).Contents (Elt F) :=
  addf (val_main_v159 (F := F) x0 x1 x2 x4 x5 x6 x7 x8 x9 x10 x11 x12) (val_main_v161 (F := F) x10)
theorem val_main_v162_apply (i : S50000x128.Idx) :
    val_main_v162 (F := F) x0 x1 x2 x4 x5 x6 x7 x8 x9 x10 x11 x12 i = FloatOps.addf (val_main_v159 (F := F) x0 x1 x2 x4 x5 x6 x7 x8 x9 x10 x11 x12 i) (val_main_v161 (F := F) x10 i) := rfl
def val_main_call5_cst : (⟨S_, .f32⟩ : BufTy).Contents (Elt F) :=
  constant S_ .f32 0x00000000#32
theorem val_main_call5_cst_apply (i : S_.Idx) :
    val_main_call5_cst (F := F) i = FloatOps.ofBits .f32 0x00000000#32 := rfl
def val_main_call5_v0 : (⟨S50000x128, .f32⟩ : BufTy).Contents (Elt F) :=
  broadcastInDim S50000x128 ![] bcast_S_S50000x128 (val_main_call5_cst (F := F))
abbrev idx_main_call5_v0 (i : S50000x128.Idx) : S_.Idx := fun a => a.elim0
theorem val_main_call5_v0_apply (i : S50000x128.Idx) :
    val_main_call5_v0 (F := F) i = val_main_call5_cst (F := F) (idx_main_call5_v0 i) := by
  unfold val_main_call5_v0
  generalize val_main_call5_cst (F := F) = y
  exact broadcastInDim_apply _ bcast_S_S50000x128 y i (idx_main_call5_v0 i) (fun a => a.elim0)
def val_main_v163 : (⟨S50000x128, .f32⟩ : BufTy).Contents (Elt F) :=
  maximumf (val_main_v162 (F := F) x0 x1 x2 x4 x5 x6 x7 x8 x9 x10 x11 x12) (val_main_call5_v0 (F := F))
theorem val_main_v163_apply (i : S50000x128.Idx) :
    val_main_v163 (F := F) x0 x1 x2 x4 x5 x6 x7 x8 x9 x10 x11 x12 i = FloatOps.maximumf (val_main_v162 (F := F) x0 x1 x2 x4 x5 x6 x7 x8 x9 x10 x11 x12 i) (val_main_call5_v0 (F := F) i) := rfl
def val_main_v164 : (⟨S1x128x128, .f32⟩ : BufTy).Contents (Elt F) :=
  extractStridedSlice S1x128x128 ![2, 0, 0] (x11) slices_S3x128x128_S1x128x128_2_0_0
def val_main_v165 : (⟨S128x128, .f32⟩ : BufTy).Contents (Elt F) :=
  shapeCast _ (val_main_v164 (F := F) x11) shapeCasts_S1x128x128_S128x128
def val_main_v166 : (⟨S1x128, .f32⟩ : BufTy).Contents (Elt F) :=
  extractStridedSlice S1x128 ![2, 0] (x12) slices_S3x128_S1x128_2_0
def val_main_v167 : (⟨S128, .f32⟩ : BufTy).Contents (Elt F) :=
  shapeCast _ (val_main_v166 (F := F) x12) shapeCasts_S1x128_S128
def val_main_v168 : (⟨S50000x128, .f32⟩ : BufTy).Contents (Elt F) :=
  Host.dotGeneral dot_S50000x128_S128x128_S50000x128_1_0_0_1_n_n none (val_main_v163 (F := F) x0 x1 x2 x4 x5 x6 x7 x8 x9 x10 x11 x12) (val_main_v165 (F := F) x11)
abbrev lidx_main_v168 (i : S50000x128.Idx) (k : Fin 128) : S50000x128.Idx := fun a => match a with
  | ⟨0, _⟩ => ⟨(i 0).val, (i 0).isLt⟩
  | ⟨1, _⟩ => ⟨k.val, k.isLt⟩
abbrev ridx_main_v168 (i : S50000x128.Idx) (k : Fin 128) : S128x128.Idx := fun a => match a with
  | ⟨0, _⟩ => ⟨k.val, k.isLt⟩
  | ⟨1, _⟩ => ⟨(i 1).val, (i 1).isLt⟩
def val_main_v169 : (⟨S1x128, .f32⟩ : BufTy).Contents (Elt F) :=
  broadcastInDim S1x128 ![1] bcast_S128_S1x128_1 (val_main_v167 (F := F) x12)
abbrev idx_main_v169 (i : S1x128.Idx) : S128.Idx := fun a => match a with
  | ⟨0, _⟩ => ⟨(i 1).val, (i 1).isLt⟩
theorem val_main_v169_apply (i : S1x128.Idx) :
    val_main_v169 (F := F) x12 i = val_main_v167 (F := F) x12 (idx_main_v169 i) := by
  unfold val_main_v169
  generalize val_main_v167 (F := F) x12 = y
  exact broadcastInDim_apply _ bcast_S128_S1x128_1 y i (idx_main_v169 i) (fun a => match a with
    | ⟨0, _⟩ => by show (i 1).val = if (128 : Nat) = 1 then 0 else (i 1).val; rw [if_neg (by decide)])
def val_main_v170 : (⟨S50000x128, .f32⟩ : BufTy).Contents (Elt F) :=
  broadcastInDim S50000x128 ![0, 1] bcast_S1x128_S50000x128_0_1 (val_main_v169 (F := F) x12)
abbrev idx_main_v170 (i : S50000x128.Idx) : S1x128.Idx := fun a => match a with
  | ⟨0, _⟩ => ⟨0, Nat.one_pos⟩
  | ⟨1, _⟩ => ⟨(i 1).val, (i 1).isLt⟩
theorem val_main_v170_apply (i : S50000x128.Idx) :
    val_main_v170 (F := F) x12 i = val_main_v169 (F := F) x12 (idx_main_v170 i) := by
  unfold val_main_v170
  generalize val_main_v169 (F := F) x12 = y
  exact broadcastInDim_apply _ bcast_S1x128_S50000x128_0_1 y i (idx_main_v170 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v171 : (⟨S50000x128, .f32⟩ : BufTy).Contents (Elt F) :=
  addf (val_main_v168 (F := F) x0 x1 x2 x4 x5 x6 x7 x8 x9 x10 x11 x12) (val_main_v170 (F := F) x12)
theorem val_main_v171_apply (i : S50000x128.Idx) :
    val_main_v171 (F := F) x0 x1 x2 x4 x5 x6 x7 x8 x9 x10 x11 x12 i = FloatOps.addf (val_main_v168 (F := F) x0 x1 x2 x4 x5 x6 x7 x8 x9 x10 x11 x12 i) (val_main_v170 (F := F) x12 i) := rfl
def val_main_v172 : (⟨S50000x128, .f32⟩ : BufTy).Contents (Elt F) :=
  addf (val_main_v118 (F := F) x0 x1 x2 x4 x5 x6 x7 x8 x9 x10 x11 x12) (val_main_v171 (F := F) x0 x1 x2 x4 x5 x6 x7 x8 x9 x10 x11 x12)
theorem val_main_v172_apply (i : S50000x128.Idx) :
    val_main_v172 (F := F) x0 x1 x2 x4 x5 x6 x7 x8 x9 x10 x11 x12 i = FloatOps.addf (val_main_v118 (F := F) x0 x1 x2 x4 x5 x6 x7 x8 x9 x10 x11 x12 i) (val_main_v171 (F := F) x0 x1 x2 x4 x5 x6 x7 x8 x9 x10 x11 x12 i) := rfl
def val_main_cst_15 : (⟨S_, .f32⟩ : BufTy).Contents (Elt F) :=
  constant S_ .f32 0x00000000#32
def val_main_v173 : (⟨S64x128, .f32⟩ : BufTy).Contents (Elt F) :=
  broadcastInDim S64x128 ![] bcast_S_S64x128 (val_main_cst_15 (F := F))
def val_main_v174 : (⟨S50000x1, .i32⟩ : BufTy).Contents (Elt F) :=
  broadcastInDim S50000x1 ![0] bcast_S50000_S50000x1_0 (x3)
def val_main_v175 : (⟨S64x128, .f32⟩ : BufTy).Contents (Elt F) :=
  Host.scatterAdd scatter_S64x128_S50000x1_S50000x128_1_0_0_1 (val_main_v173 (F := F)) (val_main_v174 (F := F) x3) (val_main_v172 (F := F) x0 x1 x2 x4 x5 x6 x7 x8 x9 x10 x11 x12)
def val_main_cst_16 : (⟨S_, .f32⟩ : BufTy).Contents (Elt F) :=
  constant S_ .f32 0x3F800000#32
def val_main_v176 : (⟨S50000x1, .f32⟩ : BufTy).Contents (Elt F) :=
  broadcastInDim S50000x1 ![] bcast_S_S50000x1 (val_main_cst_16 (F := F))
def val_main_cst_17 : (⟨S_, .f32⟩ : BufTy).Contents (Elt F) :=
  constant S_ .f32 0x00000000#32
def val_main_v177 : (⟨S64x1, .f32⟩ : BufTy).Contents (Elt F) :=
  broadcastInDim S64x1 ![] bcast_S_S64x1 (val_main_cst_17 (F := F))
def val_main_v178 : (⟨S50000x1, .i32⟩ : BufTy).Contents (Elt F) :=
  broadcastInDim S50000x1 ![0] bcast_S50000_S50000x1_0 (x3)
def val_main_v179 : (⟨S64x1, .f32⟩ : BufTy).Contents (Elt F) :=
  Host.scatterAdd scatter_S64x1_S50000x1_S50000x1_1_0_0_1 (val_main_v177 (F := F)) (val_main_v178 (F := F) x3) (val_main_v176 (F := F))
def val_main_cst_18 : (⟨S_, .f32⟩ : BufTy).Contents (Elt F) :=
  constant S_ .f32 0x3F800000#32
def val_main_v180 : (⟨S64x1, .f32⟩ : BufTy).Contents (Elt F) :=
  broadcastInDim S64x1 ![] bcast_S_S64x1 (val_main_cst_18 (F := F))
def val_main_v181 : (⟨S64x1, .f32⟩ : BufTy).Contents (Elt F) :=
  maximumf (val_main_v179 (F := F) x3) (val_main_v180 (F := F))
def val_main_v182 : (⟨S64x128, .f32⟩ : BufTy).Contents (Elt F) :=
  broadcastInDim S64x128 ![0, 1] bcast_S64x1_S64x128_0_1 (val_main_v181 (F := F) x3)
def val_main_v183 : (⟨S64x128, .f32⟩ : BufTy).Contents (Elt F) :=
  Host.divf (val_main_v175 (F := F) x0 x1 x2 x3 x4 x5 x6 x7 x8 x9 x10 x11 x12) (val_main_v182 (F := F) x3)
def val_main_v184 : (⟨S64x128, .f32⟩ : BufTy).Contents (Elt F) :=
  Host.dotGeneral dot_S64x128_S128x128_S64x128_1_0_0_1_n_n none (val_main_v183 (F := F) x0 x1 x2 x3 x4 x5 x6 x7 x8 x9 x10 x11 x12) (x13)
def val_main_v185 : (⟨S1x128, .f32⟩ : BufTy).Contents (Elt F) :=
  broadcastInDim S1x128 ![1] bcast_S128_S1x128_1 (x14)
def val_main_v186 : (⟨S64x128, .f32⟩ : BufTy).Contents (Elt F) :=
  broadcastInDim S64x128 ![0, 1] bcast_S1x128_S64x128_0_1 (val_main_v185 (F := F) x14)
def val_main_v187 : (⟨S64x128, .f32⟩ : BufTy).Contents (Elt F) :=
  addf (val_main_v184 (F := F) x0 x1 x2 x3 x4 x5 x6 x7 x8 x9 x10 x11 x12 x13) (val_main_v186 (F := F) x14)
def val_main_call6_cst : (⟨S_, .f32⟩ : BufTy).Contents (Elt F) :=
  constant S_ .f32 0x00000000#32
def val_main_call6_v0 : (⟨S64x128, .f32⟩ : BufTy).Contents (Elt F) :=
  broadcastInDim S64x128 ![] bcast_S_S64x128 (val_main_call6_cst (F := F))
def val_main_v188 : (⟨S64x128, .f32⟩ : BufTy).Contents (Elt F) :=
  maximumf (val_main_v187 (F := F) x0 x1 x2 x3 x4 x5 x6 x7 x8 x9 x10 x11 x12 x13 x14) (val_main_call6_v0 (F := F))
def val_main_v189 : (⟨S64x1, .f32⟩ : BufTy).Contents (Elt F) :=
  Host.dotGeneral dot_S64x128_S128x1_S64x1_1_0_0_1_n_n none (val_main_v188 (F := F) x0 x1 x2 x3 x4 x5 x6 x7 x8 x9 x10 x11 x12 x13 x14) (x15)
def val_main_v190 : (⟨S1x1, .f32⟩ : BufTy).Contents (Elt F) :=
  broadcastInDim S1x1 ![1] bcast_S1_S1x1_1 (x16)
def val_main_v191 : (⟨S64x1, .f32⟩ : BufTy).Contents (Elt F) :=
  broadcastInDim S64x1 ![0, 1] bcast_S1x1_S64x1_0_1 (val_main_v190 (F := F) x16)
def val_main_v192 : (⟨S64x1, .f32⟩ : BufTy).Contents (Elt F) :=
  addf (val_main_v189 (F := F) x0 x1 x2 x3 x4 x5 x6 x7 x8 x9 x10 x11 x12 x13 x14 x15) (val_main_v191 (F := F) x16)
end

section
variable (x0 : (⟨S50000, .i32⟩ : BufTy).Contents (Elt Ideal)) (x1 : (⟨S2x400000, .i32⟩ : BufTy).Contents (Elt Ideal)) (x2 : (⟨S400000x1, .f32⟩ : BufTy).Contents (Elt Ideal)) (x4 : (⟨S101x128, .f32⟩ : BufTy).Contents (Elt Ideal)) (x5 : (⟨S3x257x128, .f32⟩ : BufTy).Contents (Elt Ideal)) (x6 : (⟨S3x128, .f32⟩ : BufTy).Contents (Elt Ideal)) (x7 : (⟨S3x128x128, .f32⟩ : BufTy).Contents (Elt Ideal)) (x8 : (⟨S3x128, .f32⟩ : BufTy).Contents (Elt Ideal)) (x9 : (⟨S3x256x128, .f32⟩ : BufTy).Contents (Elt Ideal)) (x10 : (⟨S3x128, .f32⟩ : BufTy).Contents (Elt Ideal)) (x11 : (⟨S3x128x128, .f32⟩ : BufTy).Contents (Elt Ideal)) (x12 : (⟨S3x128, .f32⟩ : BufTy).Contents (Elt Ideal))

/-- An entry of a matrix product is the sum, over the contracted axis, of the products of the two operands' entries. -/
theorem dot_main_v30_apply (y0 : FVec Ideal S400000x257 .f32) (y1 : FVec Ideal S257x128 .f32) (i : S400000x128.Idx) :
    Host.dotGeneral (F := Ideal) dot_S400000x257_S257x128_S400000x128_1_0_0_1_n_n none y0 y1 i = ∑ k : Fin 257, y0 (lidx_main_v30 i k) * y1 (ridx_main_v30 i k) := by
  simp only [Host.dotGeneral]
  rw [Ideal.dotGeneral_apply, ← Equiv.sum_comp (ValueIdx.contrEquiv1 dot_S400000x257_S257x128_S400000x128_1_0_0_1_n_n 257 rfl rfl).symm]
  refine Finset.sum_congr rfl fun k _ => ?_
  have hk := ValueIdx.contrEquiv1_symm_val dot_S400000x257_S257x128_S400000x128_1_0_0_1_n_n 257 rfl rfl k
  have el : dot_S400000x257_S257x128_S400000x128_1_0_0_1_n_n.lhsIdx i ((ValueIdx.contrEquiv1 dot_S400000x257_S257x128_S400000x128_1_0_0_1_n_n 257 rfl rfl).symm k) = lidx_main_v30 i k := funext fun a => Fin.ext (by
    match a with
    | ⟨0, _⟩ => exact lhs_main_v30_0 _ _
    | ⟨1, _⟩ => exact (lhs_main_v30_1 _ _).trans hk)
  have er : dot_S400000x257_S257x128_S400000x128_1_0_0_1_n_n.rhsIdx i ((ValueIdx.contrEquiv1 dot_S400000x257_S257x128_S400000x128_1_0_0_1_n_n 257 rfl rfl).symm k) = ridx_main_v30 i k := funext fun a => Fin.ext (by
    match a with
    | ⟨0, _⟩ => exact (rhs_main_v30_0 _ _).trans hk
    | ⟨1, _⟩ => exact rhs_main_v30_1 _ _)
  rw [el, er]
theorem val_main_v30_apply (i : S400000x128.Idx) :
    val_main_v30 (F := Ideal) x0 x1 x2 x4 x5 i = ∑ k : Fin 257, (val_main_v25 (F := Ideal) x0 x1 x2 x4) (lidx_main_v30 i k) * (val_main_v27 (F := Ideal) x5) (ridx_main_v30 i k) := by
  unfold val_main_v30
  exact dot_main_v30_apply _ _ i
theorem dot_main_v39_apply (y0 : FVec Ideal S400000x128 .f32) (y1 : FVec Ideal S128x128 .f32) (i : S400000x128.Idx) :
    Host.dotGeneral (F := Ideal) dot_S400000x128_S128x128_S400000x128_1_0_0_1_n_n none y0 y1 i = ∑ k : Fin 128, y0 (lidx_main_v39 i k) * y1 (ridx_main_v39 i k) := by
  simp only [Host.dotGeneral]
  rw [Ideal.dotGeneral_apply, ← Equiv.sum_comp (ValueIdx.contrEquiv1 dot_S400000x128_S128x128_S400000x128_1_0_0_1_n_n 128 rfl rfl).symm]
  refine Finset.sum_congr rfl fun k _ => ?_
  have hk := ValueIdx.contrEquiv1_symm_val dot_S400000x128_S128x128_S400000x128_1_0_0_1_n_n 128 rfl rfl k
  have el : dot_S400000x128_S128x128_S400000x128_1_0_0_1_n_n.lhsIdx i ((ValueIdx.contrEquiv1 dot_S400000x128_S128x128_S400000x128_1_0_0_1_n_n 128 rfl rfl).symm k) = lidx_main_v39 i k := funext fun a => Fin.ext (by
    match a with
    | ⟨0, _⟩ => exact lhs_main_v39_0 _ _
    | ⟨1, _⟩ => exact (lhs_main_v39_1 _ _).trans hk)
  have er : dot_S400000x128_S128x128_S400000x128_1_0_0_1_n_n.rhsIdx i ((ValueIdx.contrEquiv1 dot_S400000x128_S128x128_S400000x128_1_0_0_1_n_n 128 rfl rfl).symm k) = ridx_main_v39 i k := funext fun a => Fin.ext (by
    match a with
    | ⟨0, _⟩ => exact (rhs_main_v39_0 _ _).trans hk
    | ⟨1, _⟩ => exact rhs_main_v39_1 _ _)
  rw [el, er]
theorem val_main_v39_apply (i : S400000x128.Idx) :
    val_main_v39 (F := Ideal) x0 x1 x2 x4 x5 x6 x7 i = ∑ k : Fin 128, (val_main_v34 (F := Ideal) x0 x1 x2 x4 x5 x6) (lidx_main_v39 i k) * (val_main_v36 (F := Ideal) x7) (ridx_main_v39 i k) := by
  unfold val_main_v39
  exact dot_main_v39_apply _ _ i
theorem dot_main_v51_apply (y0 : FVec Ideal S50000x256 .f32) (y1 : FVec Ideal S256x128 .f32) (i : S50000x128.Idx) :
    Host.dotGeneral (F := Ideal) dot_S50000x256_S256x128_S50000x128_1_0_0_1_n_n none y0 y1 i = ∑ k : Fin 256, y0 (lidx_main_v51 i k) * y1 (ridx_main_v51 i k) := by
  simp only [Host.dotGeneral]
  rw [Ideal.dotGeneral_apply, ← Equiv.sum_comp (ValueIdx.contrEquiv1 dot_S50000x256_S256x128_S50000x128_1_0_0_1_n_n 256 rfl rfl).symm]
  refine Finset.sum_congr rfl fun k _ => ?_
  have hk := ValueIdx.contrEquiv1_symm_val dot_S50000x256_S256x128_S50000x128_1_0_0_1_n_n 256 rfl rfl k
  have el : dot_S50000x256_S256x128_S50000x128_1_0_0_1_n_n.lhsIdx i ((ValueIdx.contrEquiv1 dot_S50000x256_S256x128_S50000x128_1_0_0_1_n_n 256 rfl rfl).symm k) = lidx_main_v51 i k := funext fun a => Fin.ext (by
    match a with
    | ⟨0, _⟩ => exact lhs_main_v51_0 _ _
    | ⟨1, _⟩ => exact (lhs_main_v51_1 _ _).trans hk)
  have er : dot_S50000x256_S256x128_S50000x128_1_0_0_1_n_n.rhsIdx i ((ValueIdx.contrEquiv1 dot_S50000x256_S256x128_S50000x128_1_0_0_1_n_n 256 rfl rfl).symm k) = ridx_main_v51 i k := funext fun a => Fin.ext (by
    match a with
    | ⟨0, _⟩ => exact (rhs_main_v51_0 _ _).trans hk
    | ⟨1, _⟩ => exact rhs_main_v51_1 _ _)
  rw [el, er]
theorem val_main_v51_apply (i : S50000x128.Idx) :
    val_main_v51 (F := Ideal) x0 x1 x2 x4 x5 x6 x7 x8 x9 i = ∑ k : Fin 256, (val_main_v46 (F := Ideal) x0 x1 x2 x4 x5 x6 x7 x8) (lidx_main_v51 i k) * (val_main_v48 (F := Ideal) x9) (ridx_main_v51 i k) := by
  unfold val_main_v51
  exact dot_main_v51_apply _ _ i
theorem dot_main_v60_apply (y0 : FVec Ideal S50000x128 .f32) (y1 : FVec Ideal S128x128 .f32) (i : S50000x128.Idx) :
    Host.dotGeneral (F := Ideal) dot_S50000x128_S128x128_S50000x128_1_0_0_1_n_n none y0 y1 i = ∑ k : Fin 128, y0 (lidx_main_v60 i k) * y1 (ridx_main_v60 i k) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx i ((ValueIdx.contrEquiv1 dot_S50000x128_S128x128_S50000x128_1_0_0_1_n_n 128 rfl rfl).symm k) = lidx_main_v60 i k := funext fun a => Fin.ext (by
    match a with
    | ⟨0, _⟩ => exact lhs_main_v60_0 _ _
    | ⟨1, _⟩ => exact (lhs_main_v60_1 _ _).trans hk)
  have er : dot_S50000x128_S128x128_S50000x128_1_0_0_1_n_n.rhsIdx i ((ValueIdx.contrEquiv1 dot_S50000x128_S128x128_S50000x128_1_0_0_1_n_n 128 rfl rfl).symm k) = ridx_main_v60 i k := funext fun a => Fin.ext (by
    match a with
    | ⟨0, _⟩ => exact (rhs_main_v60_0 _ _).trans hk
    | ⟨1, _⟩ => exact rhs_main_v60_1 _ _)
  rw [el, er]
theorem val_main_v60_apply (i : S50000x128.Idx) :
    val_main_v60 (F := Ideal) x0 x1 x2 x4 x5 x6 x7 x8 x9 x10 x11 i = ∑ k : Fin 128, (val_main_v55 (F := Ideal) x0 x1 x2 x4 x5 x6 x7 x8 x9 x10) (lidx_main_v60 i k) * (val_main_v57 (F := Ideal) x11) (ridx_main_v60 i k) := by
  unfold val_main_v60
  exact dot_main_v60_apply _ _ i
theorem val_main_v84_apply (i : S400000x128.Idx) :
    val_main_v84 (F := Ideal) x0 x1 x2 x4 x5 x6 x7 x8 x9 x10 x11 x12 i = ∑ k : Fin 257, (val_main_v79 (F := Ideal) x0 x1 x2 x4 x5 x6 x7 x8 x9 x10 x11 x12) (lidx_main_v84 i k) * (val_main_v81 (F := Ideal) x5) (ridx_main_v84 i k) := by
  unfold val_main_v84
  exact dot_main_v30_apply _ _ i
theorem val_main_v93_apply (i : S400000x128.Idx) :
    val_main_v93 (F := Ideal) x0 x1 x2 x4 x5 x6 x7 x8 x9 x10 x11 x12 i = ∑ k : Fin 128, (val_main_v88 (F := Ideal) x0 x1 x2 x4 x5 x6 x7 x8 x9 x10 x11 x12) (lidx_main_v93 i k) * (val_main_v90 (F := Ideal) x7) (ridx_main_v93 i k) := by
  unfold val_main_v93
  exact dot_main_v39_apply _ _ i
theorem val_main_v105_apply (i : S50000x128.Idx) :
    val_main_v105 (F := Ideal) x0 x1 x2 x4 x5 x6 x7 x8 x9 x10 x11 x12 i = ∑ k : Fin 256, (val_main_v100 (F := Ideal) x0 x1 x2 x4 x5 x6 x7 x8 x9 x10 x11 x12) (lidx_main_v105 i k) * (val_main_v102 (F := Ideal) x9) (ridx_main_v105 i k) := by
  unfold val_main_v105
  exact dot_main_v51_apply _ _ i
theorem val_main_v114_apply (i : S50000x128.Idx) :
    val_main_v114 (F := Ideal) x0 x1 x2 x4 x5 x6 x7 x8 x9 x10 x11 x12 i = ∑ k : Fin 128, (val_main_v109 (F := Ideal) x0 x1 x2 x4 x5 x6 x7 x8 x9 x10 x11 x12) (lidx_main_v114 i k) * (val_main_v111 (F := Ideal) x11) (ridx_main_v114 i k) := by
  unfold val_main_v114
  exact dot_main_v60_apply _ _ i
theorem val_main_v138_apply (i : S400000x128.Idx) :
    val_main_v138 (F := Ideal) x0 x1 x2 x4 x5 x6 x7 x8 x9 x10 x11 x12 i = ∑ k : Fin 257, (val_main_v133 (F := Ideal) x0 x1 x2 x4 x5 x6 x7 x8 x9 x10 x11 x12) (lidx_main_v138 i k) * (val_main_v135 (F := Ideal) x5) (ridx_main_v138 i k) := by
  unfold val_main_v138
  exact dot_main_v30_apply _ _ i
theorem val_main_v147_apply (i : S400000x128.Idx) :
    val_main_v147 (F := Ideal) x0 x1 x2 x4 x5 x6 x7 x8 x9 x10 x11 x12 i = ∑ k : Fin 128, (val_main_v142 (F := Ideal) x0 x1 x2 x4 x5 x6 x7 x8 x9 x10 x11 x12) (lidx_main_v147 i k) * (val_main_v144 (F := Ideal) x7) (ridx_main_v147 i k) := by
  unfold val_main_v147
  exact dot_main_v39_apply _ _ i
theorem val_main_v159_apply (i : S50000x128.Idx) :
    val_main_v159 (F := Ideal) x0 x1 x2 x4 x5 x6 x7 x8 x9 x10 x11 x12 i = ∑ k : Fin 256, (val_main_v154 (F := Ideal) x0 x1 x2 x4 x5 x6 x7 x8 x9 x10 x11 x12) (lidx_main_v159 i k) * (val_main_v156 (F := Ideal) x9) (ridx_main_v159 i k) := by
  unfold val_main_v159
  exact dot_main_v51_apply _ _ i
theorem val_main_v168_apply (i : S50000x128.Idx) :
    val_main_v168 (F := Ideal) x0 x1 x2 x4 x5 x6 x7 x8 x9 x10 x11 x12 i = ∑ k : Fin 128, (val_main_v163 (F := Ideal) x0 x1 x2 x4 x5 x6 x7 x8 x9 x10 x11 x12) (lidx_main_v168 i k) * (val_main_v165 (F := Ideal) x11) (ridx_main_v168 i k) := by
  unfold val_main_v168
  exact dot_main_v60_apply _ _ i
end

end Cert.ReferenceIdeal.Read

end
-- ==== Proof.Bridge.Layer0b.lean ====
import proofs.«407354_j16939351015862_1_alg».proof.Proof.Bridge.Layer0a
import proofs.«407354_j16939351015862_1_alg».proof.Proof.Ref.ReadP
import proofs.«407354_j16939351015862_1_alg».proof.Proof.Spec
import Idealize.ShloMosaic.Lib.ValueLayout
import Idealize.ShloMosaic.PureOps.Ideal.Laws

set_option maxRecDepth 4096

noncomputable section

namespace Cert.Hand.Bridge

open Cert.KernelIdeal Cert.KernelIdeal.Gen Cert.KernelIdeal.Hand
open Idealize.ShloMosaic Idealize.ShloMosaic.TcCoe Idealize.ShloMosaic.ValueIdx
open Cert.ReferenceIdeal.Read
open scoped BigOperators

abbrev rowOf (b : FVec Ideal S128 .f32) : FVec Ideal S1x128 .f32 := shapeCast S1x128 b shapeCasts_S128_S1x128

theorem rowOf_apply (b : FVec Ideal S128 .f32) (u : Fin 1) (k : Fin 128) : rowOf b (ix2 u k) = b (ix1 k) :=
  shapeCast_a_1a_apply b shapeCasts_S128_S1x128 u k
section Msg

variable (x0 : IVec S50000 32) (x1 : IVec S2x400000 32) (x2 : FVec Ideal S400000x1 .f32) (x4 : FVec Ideal S101x128 .f32)
  (x5 : FVec Ideal S3x257x128 .f32) (x6 : FVec Ideal S3x128 .f32) (x7 : FVec Ideal S3x128x128 .f32) (x8 : FVec Ideal S3x128 .f32)

theorem ref_hidden_msg (i : Fin 400000) (k : Fin 128) :
    val_main_v34 (F := Ideal) x0 x1 x2 x4 x5 x6 (ix2 i k)
      = Cert.Spec.hiddenAt (val_main_v25 (F := Ideal) x0 x1 x2 x4) (val_main_v27 (F := Ideal) x5)
          (rowOf (val_main_v29 (F := Ideal) x6)) i k := by
  unfold Cert.Spec.hiddenAt
  rw [val_main_v34_apply, val_main_v33_apply, val_main_v30_apply, val_main_v32_apply, val_main_v31_apply,
    val_main_call0_v0_apply, val_main_call0_cst_apply, rowOf_apply]
  show max (_ + _) (Ideal.ofBits .f32 0x00000000#32) = _
  rw [Ideal.ofBits_zero_f32]
  have e1 : ∀ l : Fin 257, lidx_main_v30 (ix2 i k) l = ix2 i l := fun l =>
    funext fun a => match a with | ⟨0, _⟩ => rfl | ⟨1, _⟩ => rfl
  have e2 : ∀ l : Fin 257, ridx_main_v30 (ix2 i k) l = ix2 l k := fun l =>
    funext fun a => match a with | ⟨0, _⟩ => rfl | ⟨1, _⟩ => rfl
  have e3 : idx_main_v31 (idx_main_v32 (ix2 i k)) = ix1 k :=
    funext fun a => match a with | ⟨0, _⟩ => rfl
  simp only [e1, e2, e3]

theorem ref_msg (i : Fin 400000) (j : Fin 128) :
    val_main_v42 (F := Ideal) x0 x1 x2 x4 x5 x6 x7 x8 (ix2 i j)
      = Cert.Spec.mlpAt (val_main_v25 (F := Ideal) x0 x1 x2 x4) (val_main_v27 (F := Ideal) x5)
          (rowOf (val_main_v29 (F := Ideal) x6)) (val_main_v36 (F := Ideal) x7) (rowOf (val_main_v38 (F := Ideal) x8)) i j := by
  rw [Cert.Spec.mlpAt_eq_hidden, val_main_v42_apply, val_main_v39_apply, val_main_v41_apply, val_main_v40_apply, rowOf_apply]
  have e1 : ∀ k : Fin 128, lidx_main_v39 (ix2 i j) k = ix2 i k := fun k =>
    funext fun a => match a with | ⟨0, _⟩ => rfl | ⟨1, _⟩ => rfl
  have e2 : ∀ k : Fin 128, ridx_main_v39 (ix2 i j) k = ix2 k j := fun k =>
    funext fun a => match a with | ⟨0, _⟩ => rfl | ⟨1, _⟩ => rfl
  have e3 : idx_main_v40 (idx_main_v41 (ix2 i j)) = ix1 j :=
    funext fun a => match a with | ⟨0, _⟩ => rfl
  simp only [e1, e2, e3, ref_hidden_msg]
  rfl

end Msg

section Upd

variable (x0 : IVec S50000 32) (x1 : IVec S2x400000 32) (x2 : FVec Ideal S400000x1 .f32) (x4 : FVec Ideal S101x128 .f32)
  (x5 : FVec Ideal S3x257x128 .f32) (x6 : FVec Ideal S3x128 .f32) (x7 : FVec Ideal S3x128x128 .f32) (x8 : FVec Ideal S3x128 .f32)
  (x9 : FVec Ideal S3x256x128 .f32) (x10 : FVec Ideal S3x128 .f32) (x11 : FVec Ideal S3x128x128 .f32) (x12 : FVec Ideal S3x128 .f32)

theorem ref_hidden_upd (i : Fin 50000) (k : Fin 128) :
    val_main_v55 (F := Ideal) x0 x1 x2 x4 x5 x6 x7 x8 x9 x10 (ix2 i k)
      = Cert.Spec.hiddenAt (val_main_v46 (F := Ideal) x0 x1 x2 x4 x5 x6 x7 x8) (val_main_v48 (F := Ideal) x9)
          (rowOf (val_main_v50 (F := Ideal) x10)) i k := by
  unfold Cert.Spec.hiddenAt
  rw [val_main_v55_apply, val_main_v54_apply, val_main_v51_apply, val_main_v53_apply, val_main_v52_apply,
    val_main_call1_v0_apply, val_main_call1_cst_apply, rowOf_apply]
  show max (_ + _) (Ideal.ofBits .f32 0x00000000#32) = _
  rw [Ideal.ofBits_zero_f32]
  have e1 : ∀ l : Fin 256, lidx_main_v51 (ix2 i k) l = ix2 i l := fun l =>
    funext fun a => match a with | ⟨0, _⟩ => rfl | ⟨1, _⟩ => rfl
  have e2 : ∀ l : Fin 256, ridx_main_v51 (ix2 i k) l = ix2 l k := fun l =>
    funext fun a => match a with | ⟨0, _⟩ => rfl | ⟨1, _⟩ => rfl
  have e3 : idx_main_v52 (idx_main_v53 (ix2 i k)) = ix1 k :=
    funext fun a => match a with | ⟨0, _⟩ => rfl
  simp only [e1, e2, e3]

theorem ref_upd (i : Fin 50000) (j : Fin 128) :
    val_main_v63 (F := Ideal) x0 x1 x2 x4 x5 x6 x7 x8 x9 x10 x11 x12 (ix2 i j)
      = Cert.Spec.mlpAt (val_main_v46 (F := Ideal) x0 x1 x2 x4 x5 x6 x7 x8) (val_main_v48 (F := Ideal) x9)
          (rowOf (val_main_v50 (F := Ideal) x10)) (val_main_v57 (F := Ideal) x11) (rowOf (val_main_v59 (F := Ideal) x12)) i j := by
  rw [Cert.Spec.mlpAt_eq_hidden, val_main_v63_apply, val_main_v60_apply, val_main_v62_apply, val_main_v61_apply, rowOf_apply]
  have e1 : ∀ k : Fin 128, lidx_main_v60 (ix2 i j) k = ix2 i k := fun k =>
    funext fun a => match a with | ⟨0, _⟩ => rfl | ⟨1, _⟩ => rfl
  have e2 : ∀ k : Fin 128, ridx_main_v60 (ix2 i j) k = ix2 k j := fun k =>
    funext fun a => match a with | ⟨0, _⟩ => rfl | ⟨1, _⟩ => rfl
  have e3 : idx_main_v61 (idx_main_v62 (ix2 i j)) = ix1 j :=
    funext fun a => match a with | ⟨0, _⟩ => rfl
  simp only [e1, e2, e3, ref_hidden_upd]
  rfl

theorem ref_h1 (i : Fin 50000) (j : Fin 128) :
    val_main_v64 (F := Ideal) x0 x1 x2 x4 x5 x6 x7 x8 x9 x10 x11 x12 (ix2 i j)
      = val_main_v10 (F := Ideal) x0 x4 (ix2 i j)
        + Cert.Spec.mlpAt (val_main_v46 (F := Ideal) x0 x1 x2 x4 x5 x6 x7 x8) (val_main_v48 (F := Ideal) x9)
            (rowOf (val_main_v50 (F := Ideal) x10)) (val_main_v57 (F := Ideal) x11) (rowOf (val_main_v59 (F := Ideal) x12)) i j := by
  rw [val_main_v64_apply, ref_upd]
  rfl

end Upd

section Inputs

variable (x0 : IVec S50000 32) (x1 : IVec S2x400000 32) (x2 : FVec Ideal S400000x1 .f32) (x4 : FVec Ideal S101x128 .f32)

theorem src_ref : srcOf x1 = val_main_v1 (F := Ideal) x1 := rfl

theorem dst_ref : dstOf x1 = val_main_v3 (F := Ideal) x1 := rfl

theorem take_h0 (hz : ∀ i : S50000.Idx, IntOp.cmpi .sge (x0 i) 0#32 = 1#1 ∧ IntOp.cmpi .slt (x0 i) 101#32 = 1#1) :
    takeEmbed x4 x0 = val_main_v10 (F := Ideal) x0 x4 :=
  (takeEmbed_eq x4 x0 hz).trans rfl

theorem take_src (h : FVec Ideal S50000x128 .f32)
    (hei : ∀ i : S2x400000.Idx, IntOp.cmpi .sge (x1 i) 0#32 = 1#1 ∧ IntOp.cmpi .slt (x1 i) 50000#32 = 1#1) :
    takeNode h (srcOf x1)
      = Host.gather gather_S50000x128_S400000x1_S400000x128_1_0_n_n_0_1_1128 h (val_main_v16 (F := Ideal) x1) :=
  (takeNode_eq h (srcOf x1) (src_range x1 hei)).trans rfl

theorem take_dst (h : FVec Ideal S50000x128 .f32)
    (hei : ∀ i : S2x400000.Idx, IntOp.cmpi .sge (x1 i) 0#32 = 1#1 ∧ IntOp.cmpi .slt (x1 i) 50000#32 = 1#1) :
    takeNode h (dstOf x1)
      = Host.gather gather_S50000x128_S400000x1_S400000x128_1_0_n_n_0_1_1128 h (val_main_v23 (F := Ideal) x1) :=
  (takeNode_eq h (dstOf x1) (dst_range x1 hei)).trans rfl

theorem min_ref (hz : ∀ i : S50000.Idx, IntOp.cmpi .sge (x0 i) 0#32 = 1#1 ∧ IntOp.cmpi .slt (x0 i) 101#32 = 1#1)
    (hei : ∀ i : S2x400000.Idx, IntOp.cmpi .sge (x1 i) 0#32 = 1#1 ∧ IntOp.cmpi .slt (x1 i) 50000#32 = 1#1) :
    concatenate S400000x257 1
        [⟨S400000x128, takeNode (takeEmbed x4 x0) (srcOf x1)⟩, ⟨S400000x128, takeNode (takeEmbed x4 x0) (dstOf x1)⟩,
         ⟨S400000x1, x2⟩]
        concatenates_S400000x128_S400000x128_S400000x1_S400000x257_d1
      = val_main_v25 (F := Ideal) x0 x1 x2 x4 := by
  rw [take_src x1 _ hei, take_dst x1 _ hei, take_h0 x0 x4 hz]
  rfl

end Inputs

section Bridge

variable (m : (ℓ : Loc nD τ sig) → Buf (Elt Ideal) ℓ) (outs : Outs (F := Ideal)) (c : Dev nD)

abbrev resid0 : FVec Ideal S50000x128 .f32 := V7 m outs c main_v4

theorem src_eq : (V1 m c main_v1 : IVec S400000 32) = val_main_v1 (F := Ideal) (A1 m c) := K_src m c

theorem dst_eq : (V1 m c main_v3 : IVec S400000 32) = val_main_v3 (F := Ideal) (A1 m c) := K_dst m c

theorem h0_eq
    (hz : ∀ i : S50000.Idx, IntOp.cmpi .sge (A0 m c i) 0#32 = 1#1 ∧ IntOp.cmpi .slt (A0 m c i) 101#32 = 1#1) :
    (V5 m c main_v4 : FVec Ideal S50000x128 .f32) = val_main_v10 (F := Ideal) (A0 m c) (A4 m c) :=
  (K_h0_5 m c).trans (take_h0 (A0 m c) (A4 m c) hz)

theorem msg_eq
    (hz : ∀ i : S50000.Idx, IntOp.cmpi .sge (A0 m c i) 0#32 = 1#1 ∧ IntOp.cmpi .slt (A0 m c i) 101#32 = 1#1)
    (hei : ∀ i : S2x400000.Idx, IntOp.cmpi .sge (A1 m c i) 0#32 = 1#1 ∧ IntOp.cmpi .slt (A1 m c i) 50000#32 = 1#1)
    (hmsg : ∀ (i : Fin 400000) (j : Fin 128), (outs 6 main_v18 c : FVec Ideal S400000x128 .f32) (ix2 i j)
      = Cert.Spec.mlpAt (R := 400000) (K := 257) (H := 128) (O := 128) (V5 m c main_v7) (V5 m c main_v9) (V5 m c main_v16)
          (V5 m c main_v13) (V5 m c main_v17) i j) :
    (outs 6 main_v18 c : FVec Ideal S400000x128 .f32)
      = val_main_v42 (F := Ideal) (A0 m c) (A1 m c) (A2 m c) (A4 m c) (A5 m c) (A6 m c) (A7 m c) (A8 m c) := by
  funext idx
  obtain ⟨i, j, rfl⟩ : ∃ (i : Fin 400000) (j : Fin 128), idx = ix2 i j := ⟨idx 0, idx 1, eq_ix2 idx⟩
  rw [hmsg, ref_msg, K_min, K_w1, K_b1, K_w2, K_b2, min_ref (A0 m c) (A1 m c) (A2 m c) (A4 m c) hz hei]
  rfl

theorem uin_eq
    (hz : ∀ i : S50000.Idx, IntOp.cmpi .sge (A0 m c i) 0#32 = 1#1 ∧ IntOp.cmpi .slt (A0 m c i) 101#32 = 1#1)
    (hei : ∀ i : S2x400000.Idx, IntOp.cmpi .sge (A1 m c i) 0#32 = 1#1 ∧ IntOp.cmpi .slt (A1 m c i) 50000#32 = 1#1)
    (hmsg : ∀ (i : Fin 400000) (j : Fin 128), (outs 6 main_v18 c : FVec Ideal S400000x128 .f32) (ix2 i j)
      = Cert.Spec.mlpAt (R := 400000) (K := 257) (H := 128) (O := 128) (V5 m c main_v7) (V5 m c main_v9) (V5 m c main_v16)
          (V5 m c main_v13) (V5 m c main_v17) i j) :
    (V7 m outs c main_v22 : FVec Ideal S50000x256 .f32)
      = val_main_v46 (F := Ideal) (A0 m c) (A1 m c) (A2 m c) (A4 m c) (A5 m c) (A6 m c) (A7 m c) (A8 m c) := by
  rw [K_uin, msg_eq m outs c hz hei hmsg, take_h0 (A0 m c) (A4 m c) hz]
  rfl

theorem layer0
    (hz : ∀ i : S50000.Idx, IntOp.cmpi .sge (A0 m c i) 0#32 = 1#1 ∧ IntOp.cmpi .slt (A0 m c i) 101#32 = 1#1)
    (hei : ∀ i : S2x400000.Idx, IntOp.cmpi .sge (A1 m c i) 0#32 = 1#1 ∧ IntOp.cmpi .slt (A1 m c i) 50000#32 = 1#1)
    (hmsg : ∀ (i : Fin 400000) (j : Fin 128), (outs 6 main_v18 c : FVec Ideal S400000x128 .f32) (ix2 i j)
      = Cert.Spec.mlpAt (R := 400000) (K := 257) (H := 128) (O := 128) (V5 m c main_v7) (V5 m c main_v9) (V5 m c main_v16)
          (V5 m c main_v13) (V5 m c main_v17) i j)
    (hupd : ∀ (i : Fin 50000) (j : Fin 128), (outs 8 main_v33 c : FVec Ideal S50000x128 .f32) (ix2 i j)
      = resid0 m outs c (ix2 i j)
        + Cert.Spec.mlpAt (R := 50000) (K := 256) (H := 128) (O := 128) (V7 m outs c main_v22) (V7 m outs c main_v24)
            (V7 m outs c main_v31) (V7 m outs c main_v28) (V7 m outs c main_v32) i j) :
    (V8 m outs c main_v33 : FVec Ideal S50000x128 .f32)
      = val_main_v64 (F := Ideal) (A0 m c) (A1 m c) (A2 m c) (A4 m c) (A5 m c) (A6 m c) (A7 m c) (A8 m c) (A9 m c)
          (A10 m c) (A11 m c) (A12 m c) := by
  funext idx
  obtain ⟨i, j, rfl⟩ : ∃ (i : Fin 50000) (j : Fin 128), idx = ix2 i j := ⟨idx 0, idx 1, eq_ix2 idx⟩
  rw [K_upd, hupd, ref_h1, show resid0 m outs c = _ from K_h0_7 m outs c, uin_eq m outs c hz hei hmsg, K_uw1, K_ub1, K_uw2, K_ub2,
    take_h0 (A0 m c) (A4 m c) hz]
  rfl

end Bridge

end Cert.Hand.Bridge

end
-- ==== Proof.Bridge.Layer1a.lean ====
import proofs.«407354_j16939351015862_1_alg».proof.Proof.Gen.KernelIdeal.Regions
import proofs.«407354_j16939351015862_1_alg».proof.Proof.KI.Take
import Idealize.ShloMosaic.Lib.StableHlo.Run
import Idealize.ShloMosaic.Lib.Pipeline.Value
import Idealize.ShloMosaic.Lib.ValueIdx

set_option maxRecDepth 4096

noncomputable section

namespace Cert.Hand.Bridge.L1

open Cert.KernelIdeal Cert.KernelIdeal.Gen Cert.KernelIdeal.Hand
open Idealize.ShloMosaic Idealize.ShloMosaic.TcCoe Idealize.ShloMosaic.StableHlo

variable {F : FTy → Type} [FloatOps F]

section Lines

variable (W : Valuation τ sig (Elt F))

theorem line0_src : after (hostOps0 (F := F)) W main_v1 = srcOf (W main_arg1) := by
  after_results <;> rfl

theorem line0_dst : after (hostOps0 (F := F)) W main_v3 = dstOf (W main_arg1) := by
  after_results <;> rfl

set_option maxHeartbeats 2000000 in
theorem line2_v34 : after (hostOps2 (F := F)) W main_v34 = takeNode (W main_v33) (W main_v1) := by
  after_results_simp <;> (try simp only [TRef.ofBuf, TRef.toBuf, cast_eq]) <;> rfl

set_option maxHeartbeats 2000000 in
theorem line2_1_v35 : after (hostOps2_1 (F := F)) W main_v35 = takeNode (W main_v33) (W main_v3) := by
  after_results_simp <;> (try simp only [TRef.ofBuf, TRef.toBuf, cast_eq]) <;> rfl

theorem line2_2_v36 :
    after (hostOps2_2 (F := F)) W main_v36
      = concatenate S400000x257 1 [⟨S400000x128, W main_v34⟩, ⟨S400000x128, W main_v35⟩, ⟨S400000x1, W main_arg2⟩]
          concatenates_S400000x128_S400000x128_S400000x1_S400000x257_d1 := by
  after_results <;> rfl

theorem line2_2_v38 :
    after (hostOps2_2 (F := F)) W main_v38
      = shapeCast S257x128 (extractStridedSlice S1x257x128 ![1, 0, 0] (W main_arg5) slices_S3x257x128_S1x257x128_1_0_0)
          shapeCasts_S1x257x128_S257x128 := by
  after_results <;> rfl

theorem line2_2_v45 :
    after (hostOps2_2 (F := F)) W main_v45
      = shapeCast S1x128 (shapeCast S128 (extractStridedSlice S1x128 ![1, 0] (W main_arg6) slices_S3x128_S1x128_1_0)
          shapeCasts_S1x128_S128) shapeCasts_S128_S1x128 := by
  after_results <;> rfl

theorem line2_2_v42 :
    after (hostOps2_2 (F := F)) W main_v42
      = shapeCast S128x128 (extractStridedSlice S1x128x128 ![1, 0, 0] (W main_arg7) slices_S3x128x128_S1x128x128_1_0_0)
          shapeCasts_S1x128x128_S128x128 := by
  after_results <;> rfl

theorem line2_2_v46 :
    after (hostOps2_2 (F := F)) W main_v46
      = shapeCast S1x128 (shapeCast S128 (extractStridedSlice S1x128 ![1, 0] (W main_arg8) slices_S3x128_S1x128_1_0)
          shapeCasts_S1x128_S128) shapeCasts_S128_S1x128 := by
  after_results <;> rfl

theorem line3_v51 :
    after (hostOps3 (F := F)) W main_v51
      = concatenate S50000x256 1 [⟨S50000x128, W main_v33⟩,
          ⟨S50000x128, Host.scatterAdd scatter_S50000x128_S400000x1_S400000x128_1_0_0_1
            (broadcastInDim S50000x128 ![] bcast_S_S50000x128 (constant S_ .f32 0x00000000#32))
            (broadcastInDim S400000x1 ![0] bcast_S400000_S400000x1_0 (W main_v3)) (W main_v47)⟩]
          concatenates_S50000x128_S50000x128_S50000x256_d1 := by
  after_results <;> rfl

theorem line3_v53 :
    after (hostOps3 (F := F)) W main_v53
      = shapeCast S256x128 (extractStridedSlice S1x256x128 ![1, 0, 0] (W main_arg9) slices_S3x256x128_S1x256x128_1_0_0)
          shapeCasts_S1x256x128_S256x128 := by
  after_results <;> rfl

theorem line3_v60 :
    after (hostOps3 (F := F)) W main_v60
      = shapeCast S1x128 (shapeCast S128 (extractStridedSlice S1x128 ![1, 0] (W main_arg10) slices_S3x128_S1x128_1_0)
          shapeCasts_S1x128_S128) shapeCasts_S128_S1x128 := by
  after_results <;> rfl

theorem line3_v57 :
    after (hostOps3 (F := F)) W main_v57
      = shapeCast S128x128 (extractStridedSlice S1x128x128 ![1, 0, 0] (W main_arg11) slices_S3x128x128_S1x128x128_1_0_0)
          shapeCasts_S1x128x128_S128x128 := by
  after_results <;> rfl

theorem line3_v61 :
    after (hostOps3 (F := F)) W main_v61
      = shapeCast S1x128 (shapeCast S128 (extractStridedSlice S1x128 ![1, 0] (W main_arg12) slices_S3x128_S1x128_1_0)
          shapeCasts_S1x128_S128) shapeCasts_S128_S1x128 := by
  after_results <;> rfl

end Lines

def w257 (x : FVec F S3x257x128 .f32) : FVec F S257x128 .f32 :=
  shapeCast S257x128 (extractStridedSlice S1x257x128 ![1, 0, 0] x slices_S3x257x128_S1x257x128_1_0_0)
    shapeCasts_S1x257x128_S257x128

def w256 (x : FVec F S3x256x128 .f32) : FVec F S256x128 .f32 :=
  shapeCast S256x128 (extractStridedSlice S1x256x128 ![1, 0, 0] x slices_S3x256x128_S1x256x128_1_0_0)
    shapeCasts_S1x256x128_S256x128

def w128 (x : FVec F S3x128x128 .f32) : FVec F S128x128 .f32 :=
  shapeCast S128x128 (extractStridedSlice S1x128x128 ![1, 0, 0] x slices_S3x128x128_S1x128x128_1_0_0)
    shapeCasts_S1x128x128_S128x128

def biasVec (x : FVec F S3x128 .f32) : FVec F S128 .f32 :=
  shapeCast S128 (extractStridedSlice S1x128 ![1, 0] x slices_S3x128_S1x128_1_0) shapeCasts_S1x128_S128

def biasRow (x : FVec F S3x128 .f32) : FVec F S1x128 .f32 :=
  shapeCast S1x128 (biasVec x) shapeCasts_S128_S1x128

def msgIn (h : FVec F S50000x128 .f32) (ei : IVec S2x400000 32) (ea : FVec F S400000x1 .f32) : FVec F S400000x257 .f32 :=
  concatenate S400000x257 1 [⟨S400000x128, takeNode h (srcOf ei)⟩, ⟨S400000x128, takeNode h (dstOf ei)⟩, ⟨S400000x1, ea⟩]
    concatenates_S400000x128_S400000x128_S400000x1_S400000x257_d1

def aggOf (ei : IVec S2x400000 32) (msg : FVec F S400000x128 .f32) : FVec F S50000x128 .f32 :=
  Host.scatterAdd scatter_S50000x128_S400000x1_S400000x128_1_0_0_1
    (broadcastInDim S50000x128 ![] bcast_S_S50000x128 (constant S_ .f32 0x00000000#32))
    (broadcastInDim S400000x1 ![0] bcast_S400000_S400000x1_0 (dstOf ei)) msg

def updIn (h : FVec F S50000x128 .f32) (ei : IVec S2x400000 32) (msg : FVec F S400000x128 .f32) : FVec F S50000x256 .f32 :=
  concatenate S50000x256 1 [⟨S50000x128, h⟩, ⟨S50000x128, aggOf ei msg⟩] concatenates_S50000x128_S50000x128_S50000x256_d1

theorem biasRow_apply (x : FVec F S3x128 .f32) (p : Fin 1) (q : Fin 128) :
    biasRow x (ValueIdx.ix2 p q) = biasVec x (ValueIdx.ix1 q) := by
  unfold biasRow
  exact shapeCast_apply (biasVec x) shapeCasts_S128_S1x128 (ValueIdx.ix2 p q) (ValueIdx.ix1 q)
    (by rewrite [Shape.rowMajor_val_one, Shape.rowMajor_val_two]; have hp := p.isLt; show q.val = p.val * 128 + q.val; omega)

section Keeps

variable (m : (ℓ : Loc nD τ sig) → Buf (Elt F) ℓ) (outs : Outs (F := F)) (c : Dev nD)

theorem keep_1_8 (r : Ref sig .tc) (h2 : r ∉ hostOps0_1_W) (h3 : r ∉ hostOps0_2_W) (h4 : r ∉ hostOps0_3_W)
    (h5 : r ∉ hostOps0_4_W) (h6 : r ∉ ([main_v18] : List (Ref sig .tc))) (h7 : r ∉ hostOps1_W)
    (h8 : r ∉ ([main_v33] : List (Ref sig .tc))) : V8 m outs c r = V1 m c r :=
  (V8_of m outs c r h8).trans <| (V7_of m outs c r h7).trans <| (V6_of m outs c r h6).trans <|
    (V5_of m c r h5).trans <| (V4_of m c r h4).trans <| (V3_of m c r h3).trans (V2_of m c r h2)

theorem keep_8_12 (r : Ref sig .tc) (h9 : r ∉ hostOps2_W) (h10 : r ∉ hostOps2_1_W) (h11 : r ∉ hostOps2_2_W)
    (h12 : r ∉ ([main_v47] : List (Ref sig .tc))) : V12 m outs c r = V8 m outs c r :=
  (V12_of m outs c r h12).trans <| (V11_of m outs c r h11).trans <| (V10_of m outs c r h10).trans (V9_of m outs c r h9)

theorem keep_0_10 (r : Ref sig .tc) (h1 : r ∉ hostOps0_W) (h2 : r ∉ hostOps0_1_W) (h3 : r ∉ hostOps0_2_W)
    (h4 : r ∉ hostOps0_3_W) (h5 : r ∉ hostOps0_4_W) (h6 : r ∉ ([main_v18] : List (Ref sig .tc))) (h7 : r ∉ hostOps1_W)
    (h8 : r ∉ ([main_v33] : List (Ref sig .tc))) (h9 : r ∉ hostOps2_W) (h10 : r ∉ hostOps2_1_W) :
    V10 m outs c r = V0 m c r :=
  (V10_of m outs c r h10).trans <| (V9_of m outs c r h9).trans <| (keep_1_8 m outs c r h2 h3 h4 h5 h6 h7 h8).trans
    (V1_of m c r h1)

theorem keep_0_12 (r : Ref sig .tc) (h1 : r ∉ hostOps0_W) (h2 : r ∉ hostOps0_1_W) (h3 : r ∉ hostOps0_2_W)
    (h4 : r ∉ hostOps0_3_W) (h5 : r ∉ hostOps0_4_W) (h6 : r ∉ ([main_v18] : List (Ref sig .tc))) (h7 : r ∉ hostOps1_W)
    (h8 : r ∉ ([main_v33] : List (Ref sig .tc))) (h9 : r ∉ hostOps2_W) (h10 : r ∉ hostOps2_1_W)
    (h11 : r ∉ hostOps2_2_W) (h12 : r ∉ ([main_v47] : List (Ref sig .tc))) :
    V12 m outs c r = V0 m c r :=
  (keep_8_12 m outs c r h9 h10 h11 h12).trans <| (keep_1_8 m outs c r h2 h3 h4 h5 h6 h7 h8).trans (V1_of m c r h1)

theorem V8_src : V8 m outs c main_v1 = srcOf (V0 m c main_arg1) :=
  (keep_1_8 m outs c main_v1 (by decide) (by decide) (by decide) (by decide) (by decide) (by decide) (by decide)).trans
    (line0_src (V0 m c))

theorem V8_dst : V8 m outs c main_v3 = dstOf (V0 m c main_arg1) :=
  (keep_1_8 m outs c main_v3 (by decide) (by decide) (by decide) (by decide) (by decide) (by decide) (by decide)).trans
    (line0_dst (V0 m c))

theorem V9_dst : V9 m outs c main_v3 = dstOf (V0 m c main_arg1) :=
  (V9_of m outs c main_v3 (by decide)).trans (V8_dst m outs c)

theorem V12_dst : V12 m outs c main_v3 = dstOf (V0 m c main_arg1) :=
  (keep_8_12 m outs c main_v3 (by decide) (by decide) (by decide) (by decide)).trans (V8_dst m outs c)

theorem V9_h : V9 m outs c main_v33 = V8 m outs c main_v33 := V9_of m outs c main_v33 (by decide)

theorem V12_h : V12 m outs c main_v33 = V8 m outs c main_v33 :=
  keep_8_12 m outs c main_v33 (by decide) (by decide) (by decide) (by decide)

theorem V13_h : V13 m outs c main_v33 = V8 m outs c main_v33 :=
  (V13_of m outs c main_v33 (by decide)).trans (V12_h m outs c)

theorem V10_arg2 : V10 m outs c main_arg2 = V0 m c main_arg2 :=
  keep_0_10 m outs c main_arg2 (by decide) (by decide) (by decide) (by decide) (by decide) (by decide) (by decide) (by decide) (by decide) (by decide)
theorem V10_arg5 : V10 m outs c main_arg5 = V0 m c main_arg5 :=
  keep_0_10 m outs c main_arg5 (by decide) (by decide) (by decide) (by decide) (by decide) (by decide) (by decide) (by decide) (by decide) (by decide)
theorem V10_arg6 : V10 m outs c main_arg6 = V0 m c main_arg6 :=
  keep_0_10 m outs c main_arg6 (by decide) (by decide) (by decide) (by decide) (by decide) (by decide) (by decide) (by decide) (by decide) (by decide)
theorem V10_arg7 : V10 m outs c main_arg7 = V0 m c main_arg7 :=
  keep_0_10 m outs c main_arg7 (by decide) (by decide) (by decide) (by decide) (by decide) (by decide) (by decide) (by decide) (by decide) (by decide)
theorem V10_arg8 : V10 m outs c main_arg8 = V0 m c main_arg8 :=
  keep_0_10 m outs c main_arg8 (by decide) (by decide) (by decide) (by decide) (by decide) (by decide) (by decide) (by decide) (by decide) (by decide)
theorem V12_arg9 : V12 m outs c main_arg9 = V0 m c main_arg9 :=
  keep_0_12 m outs c main_arg9 (by decide) (by decide) (by decide) (by decide) (by decide) (by decide) (by decide) (by decide) (by decide) (by decide) (by decide) (by decide)
theorem V12_arg10 : V12 m outs c main_arg10 = V0 m c main_arg10 :=
  keep_0_12 m outs c main_arg10 (by decide) (by decide) (by decide) (by decide) (by decide) (by decide) (by decide) (by decide) (by decide) (by decide) (by decide) (by decide)
theorem V12_arg11 : V12 m outs c main_arg11 = V0 m c main_arg11 :=
  keep_0_12 m outs c main_arg11 (by decide) (by decide) (by decide) (by decide) (by decide) (by decide) (by decide) (by decide) (by decide) (by decide) (by decide) (by decide)
theorem V12_arg12 : V12 m outs c main_arg12 = V0 m c main_arg12 :=
  keep_0_12 m outs c main_arg12 (by decide) (by decide) (by decide) (by decide) (by decide) (by decide) (by decide) (by decide) (by decide) (by decide) (by decide) (by decide)

theorem V12_msg : V12 m outs c main_v47 = outs 12 main_v47 c := Function.update_self _ _ _

theorem V14_out : V14 m outs c main_v62 = outs 14 main_v62 c := Function.update_self _ _ _

end Keeps

section Layer

variable (m : (ℓ : Loc nD τ sig) → Buf (Elt F) ℓ) (outs : Outs (F := F)) (c : Dev nD)

theorem V10_v34 : V10 m outs c main_v34 = takeNode (V8 m outs c main_v33) (srcOf (V0 m c main_arg1)) :=
  (V10_of m outs c main_v34 (by decide)).trans <| (line2_v34 (V8 m outs c)).trans
    (congrArg (takeNode (V8 m outs c main_v33)) (V8_src m outs c))

theorem V10_v35 : V10 m outs c main_v35 = takeNode (V8 m outs c main_v33) (dstOf (V0 m c main_arg1)) :=
  (line2_1_v35 (V9 m outs c)).trans (congrArg₂ takeNode (V9_h m outs c) (V9_dst m outs c))

theorem V11_v36 :
    V11 m outs c main_v36 = msgIn (V8 m outs c main_v33) (V0 m c main_arg1) (V0 m c main_arg2) := by
  refine (line2_2_v36 (V10 m outs c)).trans ?_
  rw [V10_v34 m outs c, V10_v35 m outs c, V10_arg2 m outs c]
  rfl

theorem V11_v38 : V11 m outs c main_v38 = w257 (V0 m c main_arg5) :=
  (line2_2_v38 (V10 m outs c)).trans (congrArg w257 (V10_arg5 m outs c))

theorem V11_v45 : V11 m outs c main_v45 = biasRow (V0 m c main_arg6) :=
  (line2_2_v45 (V10 m outs c)).trans (congrArg biasRow (V10_arg6 m outs c))

theorem V11_v42 : V11 m outs c main_v42 = w128 (V0 m c main_arg7) :=
  (line2_2_v42 (V10 m outs c)).trans (congrArg w128 (V10_arg7 m outs c))

theorem V11_v46 : V11 m outs c main_v46 = biasRow (V0 m c main_arg8) :=
  (line2_2_v46 (V10 m outs c)).trans (congrArg biasRow (V10_arg8 m outs c))

theorem V13_v51 :
    V13 m outs c main_v51 = updIn (V8 m outs c main_v33) (V0 m c main_arg1) (outs 12 main_v47 c) := by
  refine (line3_v51 (V12 m outs c)).trans ?_
  rw [V12_h m outs c, V12_dst m outs c, V12_msg m outs c]
  rfl

theorem V13_v53 : V13 m outs c main_v53 = w256 (V0 m c main_arg9) :=
  (line3_v53 (V12 m outs c)).trans (congrArg w256 (V12_arg9 m outs c))

theorem V13_v60 : V13 m outs c main_v60 = biasRow (V0 m c main_arg10) :=
  (line3_v60 (V12 m outs c)).trans (congrArg biasRow (V12_arg10 m outs c))

theorem V13_v57 : V13 m outs c main_v57 = w128 (V0 m c main_arg11) :=
  (line3_v57 (V12 m outs c)).trans (congrArg w128 (V12_arg11 m outs c))

theorem V13_v61 : V13 m outs c main_v61 = biasRow (V0 m c main_arg12) :=
  (line3_v61 (V12 m outs c)).trans (congrArg biasRow (V12_arg12 m outs c))

end Layer

end Cert.Hand.Bridge.L1

end
-- ==== Proof.Bridge.Layer1b.lean ====
import proofs.«407354_j16939351015862_1_alg».proof.Proof.Ref.ReadP
import proofs.«407354_j16939351015862_1_alg».proof.Proof.Spec
import Idealize.ShloMosaic.Lib.ValueIdx
import Idealize.ShloMosaic.PureOps.Ideal.Laws

noncomputable section

open scoped BigOperators

namespace Cert.Hand.Bridge.L1

open Idealize.ShloMosaic
open Cert.ReferenceIdeal Cert.ReferenceIdeal.Read

theorem lidx84 (i : Fin 400000) (k : Fin 128) (l : Fin 257) :
    lidx_main_v84 (ValueIdx.ix2 i k) l = ValueIdx.ix2 i l :=
  funext fun a => Fin.ext (by match a with | ⟨0, _⟩ => rfl | ⟨1, _⟩ => rfl)
theorem ridx84 (i : Fin 400000) (k : Fin 128) (l : Fin 257) :
    ridx_main_v84 (ValueIdx.ix2 i k) l = ValueIdx.ix2 l k :=
  funext fun a => Fin.ext (by match a with | ⟨0, _⟩ => rfl | ⟨1, _⟩ => rfl)
theorem idx86 (i : Fin 400000) (k : Fin 128) :
    idx_main_v86 (ValueIdx.ix2 i k) = ValueIdx.ix2 (0 : Fin 1) k :=
  funext fun a => Fin.ext (by match a with | ⟨0, _⟩ => rfl | ⟨1, _⟩ => rfl)
theorem lidx93 (i : Fin 400000) (j : Fin 128) (k : Fin 128) :
    lidx_main_v93 (ValueIdx.ix2 i j) k = ValueIdx.ix2 i k :=
  funext fun a => Fin.ext (by match a with | ⟨0, _⟩ => rfl | ⟨1, _⟩ => rfl)
theorem ridx93 (i : Fin 400000) (j : Fin 128) (k : Fin 128) :
    ridx_main_v93 (ValueIdx.ix2 i j) k = ValueIdx.ix2 k j :=
  funext fun a => Fin.ext (by match a with | ⟨0, _⟩ => rfl | ⟨1, _⟩ => rfl)
theorem idx95 (i : Fin 400000) (j : Fin 128) :
    idx_main_v95 (ValueIdx.ix2 i j) = ValueIdx.ix2 (0 : Fin 1) j :=
  funext fun a => Fin.ext (by match a with | ⟨0, _⟩ => rfl | ⟨1, _⟩ => rfl)

theorem lidx105 (i : Fin 50000) (k : Fin 128) (l : Fin 256) :
    lidx_main_v105 (ValueIdx.ix2 i k) l = ValueIdx.ix2 i l :=
  funext fun a => Fin.ext (by match a with | ⟨0, _⟩ => rfl | ⟨1, _⟩ => rfl)
theorem ridx105 (i : Fin 50000) (k : Fin 128) (l : Fin 256) :
    ridx_main_v105 (ValueIdx.ix2 i k) l = ValueIdx.ix2 l k :=
  funext fun a => Fin.ext (by match a with | ⟨0, _⟩ => rfl | ⟨1, _⟩ => rfl)
theorem idx107 (i : Fin 50000) (k : Fin 128) :
    idx_main_v107 (ValueIdx.ix2 i k) = ValueIdx.ix2 (0 : Fin 1) k :=
  funext fun a => Fin.ext (by match a with | ⟨0, _⟩ => rfl | ⟨1, _⟩ => rfl)
theorem lidx114 (i : Fin 50000) (j : Fin 128) (k : Fin 128) :
    lidx_main_v114 (ValueIdx.ix2 i j) k = ValueIdx.ix2 i k :=
  funext fun a => Fin.ext (by match a with | ⟨0, _⟩ => rfl | ⟨1, _⟩ => rfl)
theorem ridx114 (i : Fin 50000) (j : Fin 128) (k : Fin 128) :
    ridx_main_v114 (ValueIdx.ix2 i j) k = ValueIdx.ix2 k j :=
  funext fun a => Fin.ext (by match a with | ⟨0, _⟩ => rfl | ⟨1, _⟩ => rfl)
theorem idx116 (i : Fin 50000) (j : Fin 128) :
    idx_main_v116 (ValueIdx.ix2 i j) = ValueIdx.ix2 (0 : Fin 1) j :=
  funext fun a => Fin.ext (by match a with | ⟨0, _⟩ => rfl | ⟨1, _⟩ => rfl)

theorem relu_zero_msg (i : S400000x128.Idx) : val_main_call2_v0 (F := Ideal) i = 0 := by
  rw [val_main_call2_v0_apply, val_main_call2_cst_apply, Ideal.ofBits_def, Ideal.ofBits_zero_f32]
theorem relu_zero_upd (i : S50000x128.Idx) : val_main_call3_v0 (F := Ideal) i = 0 := by
  rw [val_main_call3_v0_apply, val_main_call3_cst_apply, Ideal.ofBits_def, Ideal.ofBits_zero_f32]

theorem ref_msg_hidden (x0 : IVec S50000 32) (x1 : IVec S2x400000 32) (x2 : FVec Ideal S400000x1 .f32) (x4 : FVec Ideal S101x128 .f32)
    (x5 : FVec Ideal S3x257x128 .f32) (x6 : FVec Ideal S3x128 .f32) (x7 : FVec Ideal S3x128x128 .f32) (x8 : FVec Ideal S3x128 .f32)
    (x9 : FVec Ideal S3x256x128 .f32) (x10 : FVec Ideal S3x128 .f32) (x11 : FVec Ideal S3x128x128 .f32) (x12 : FVec Ideal S3x128 .f32) (i : Fin 400000) (k : Fin 128) :
    val_main_v88 (F := Ideal) x0 x1 x2 x4 x5 x6 x7 x8 x9 x10 x11 x12 (ValueIdx.ix2 i k)
      = Cert.Spec.hiddenAt (val_main_v79 (F := Ideal) x0 x1 x2 x4 x5 x6 x7 x8 x9 x10 x11 x12) (val_main_v81 (F := Ideal) x5)
          (val_main_v85 (F := Ideal) x6) i k := by
  rw [val_main_v88_apply, val_main_v87_apply, val_main_v84_apply, val_main_v86_apply, relu_zero_msg, idx86]
  simp only [lidx84, ridx84]
  rfl

theorem ref_upd_hidden (x0 : IVec S50000 32) (x1 : IVec S2x400000 32) (x2 : FVec Ideal S400000x1 .f32) (x4 : FVec Ideal S101x128 .f32)
    (x5 : FVec Ideal S3x257x128 .f32) (x6 : FVec Ideal S3x128 .f32) (x7 : FVec Ideal S3x128x128 .f32) (x8 : FVec Ideal S3x128 .f32)
    (x9 : FVec Ideal S3x256x128 .f32) (x10 : FVec Ideal S3x128 .f32) (x11 : FVec Ideal S3x128x128 .f32) (x12 : FVec Ideal S3x128 .f32) (i : Fin 50000) (k : Fin 128) :
    val_main_v109 (F := Ideal) x0 x1 x2 x4 x5 x6 x7 x8 x9 x10 x11 x12 (ValueIdx.ix2 i k)
      = Cert.Spec.hiddenAt (val_main_v100 (F := Ideal) x0 x1 x2 x4 x5 x6 x7 x8 x9 x10 x11 x12) (val_main_v102 (F := Ideal) x9)
          (val_main_v106 (F := Ideal) x10) i k := by
  rw [val_main_v109_apply, val_main_v108_apply, val_main_v105_apply, val_main_v107_apply, relu_zero_upd, idx107]
  simp only [lidx105, ridx105]
  rfl

theorem ref_msg_at (x0 : IVec S50000 32) (x1 : IVec S2x400000 32) (x2 : FVec Ideal S400000x1 .f32) (x4 : FVec Ideal S101x128 .f32)
    (x5 : FVec Ideal S3x257x128 .f32) (x6 : FVec Ideal S3x128 .f32) (x7 : FVec Ideal S3x128x128 .f32) (x8 : FVec Ideal S3x128 .f32)
    (x9 : FVec Ideal S3x256x128 .f32) (x10 : FVec Ideal S3x128 .f32) (x11 : FVec Ideal S3x128x128 .f32) (x12 : FVec Ideal S3x128 .f32) (i : Fin 400000) (j : Fin 128) :
    val_main_v96 (F := Ideal) x0 x1 x2 x4 x5 x6 x7 x8 x9 x10 x11 x12 (ValueIdx.ix2 i j)
      = Cert.Spec.mlpAt (val_main_v79 (F := Ideal) x0 x1 x2 x4 x5 x6 x7 x8 x9 x10 x11 x12) (val_main_v81 (F := Ideal) x5)
          (val_main_v85 (F := Ideal) x6) (val_main_v90 (F := Ideal) x7) (val_main_v94 (F := Ideal) x8) i j := by
  rw [Cert.Spec.mlpAt_eq_hidden, val_main_v96_apply, val_main_v93_apply, val_main_v95_apply, idx95]
  simp only [lidx93, ridx93, ref_msg_hidden]
  rfl

theorem ref_upd_at (x0 : IVec S50000 32) (x1 : IVec S2x400000 32) (x2 : FVec Ideal S400000x1 .f32) (x4 : FVec Ideal S101x128 .f32)
    (x5 : FVec Ideal S3x257x128 .f32) (x6 : FVec Ideal S3x128 .f32) (x7 : FVec Ideal S3x128x128 .f32) (x8 : FVec Ideal S3x128 .f32)
    (x9 : FVec Ideal S3x256x128 .f32) (x10 : FVec Ideal S3x128 .f32) (x11 : FVec Ideal S3x128x128 .f32) (x12 : FVec Ideal S3x128 .f32) (i : Fin 50000) (j : Fin 128) :
    val_main_v117 (F := Ideal) x0 x1 x2 x4 x5 x6 x7 x8 x9 x10 x11 x12 (ValueIdx.ix2 i j)
      = Cert.Spec.mlpAt (val_main_v100 (F := Ideal) x0 x1 x2 x4 x5 x6 x7 x8 x9 x10 x11 x12) (val_main_v102 (F := Ideal) x9)
          (val_main_v106 (F := Ideal) x10) (val_main_v111 (F := Ideal) x11) (val_main_v115 (F := Ideal) x12) i j := by
  rw [Cert.Spec.mlpAt_eq_hidden, val_main_v117_apply, val_main_v114_apply, val_main_v116_apply, idx116]
  simp only [lidx114, ridx114, ref_upd_hidden]
  rfl

theorem ref_h2_at (x0 : IVec S50000 32) (x1 : IVec S2x400000 32) (x2 : FVec Ideal S400000x1 .f32) (x4 : FVec Ideal S101x128 .f32)
    (x5 : FVec Ideal S3x257x128 .f32) (x6 : FVec Ideal S3x128 .f32) (x7 : FVec Ideal S3x128x128 .f32) (x8 : FVec Ideal S3x128 .f32)
    (x9 : FVec Ideal S3x256x128 .f32) (x10 : FVec Ideal S3x128 .f32) (x11 : FVec Ideal S3x128x128 .f32) (x12 : FVec Ideal S3x128 .f32) (i : Fin 50000) (j : Fin 128) :
    val_main_v118 (F := Ideal) x0 x1 x2 x4 x5 x6 x7 x8 x9 x10 x11 x12 (ValueIdx.ix2 i j)
      = val_main_v64 (F := Ideal) x0 x1 x2 x4 x5 x6 x7 x8 x9 x10 x11 x12 (ValueIdx.ix2 i j)
        + Cert.Spec.mlpAt (val_main_v100 (F := Ideal) x0 x1 x2 x4 x5 x6 x7 x8 x9 x10 x11 x12) (val_main_v102 (F := Ideal) x9)
            (val_main_v106 (F := Ideal) x10) (val_main_v111 (F := Ideal) x11) (val_main_v115 (F := Ideal) x12) i j := by
  rw [val_main_v118_apply, ref_upd_at]
  rfl

end Cert.Hand.Bridge.L1

end
-- ==== Proof.Bridge.Layer1.lean ====
import proofs.«407354_j16939351015862_1_alg».proof.Proof.Bridge.Layer0a
import proofs.«407354_j16939351015862_1_alg».proof.Proof.Bridge.Layer1a
import proofs.«407354_j16939351015862_1_alg».proof.Proof.Bridge.Layer1b

set_option maxRecDepth 4096

noncomputable section

namespace Cert.Hand.Bridge

open Cert.KernelIdeal Cert.KernelIdeal.Gen Cert.KernelIdeal.Hand
open Idealize.ShloMosaic Idealize.ShloMosaic.TcCoe

namespace L1

theorem mlpAt_congr {R K H O : ℕ} {x x' : (⟨2, ![R, K]⟩ : Shape).Idx → EReal} {w1 w1' : (⟨2, ![K, H]⟩ : Shape).Idx → EReal}
    {b1 b1' : (⟨2, ![1, H]⟩ : Shape).Idx → EReal} {w2 w2' : (⟨2, ![H, O]⟩ : Shape).Idx → EReal}
    {b2 b2' : (⟨2, ![1, O]⟩ : Shape).Idx → EReal} (hx : x = x') (h1 : w1 = w1') (hb1 : b1 = b1') (h2 : w2 = w2')
    (hb2 : b2 = b2') (i : Fin R) (j : Fin O) :
    Cert.Spec.mlpAt x w1 b1 w2 b2 i j = Cert.Spec.mlpAt x' w1' b1' w2' b2' i j := by
  subst hx h1 hb1 h2 hb2
  rfl

theorem w257_ref (x5 : FVec Ideal S3x257x128 .f32) : w257 x5 = Cert.ReferenceIdeal.Read.val_main_v81 (F := Ideal) x5 := rfl
theorem w128_ref_msg (x7 : FVec Ideal S3x128x128 .f32) : w128 x7 = Cert.ReferenceIdeal.Read.val_main_v90 (F := Ideal) x7 := rfl
theorem w256_ref (x9 : FVec Ideal S3x256x128 .f32) : w256 x9 = Cert.ReferenceIdeal.Read.val_main_v102 (F := Ideal) x9 := rfl
theorem w128_ref_upd (x11 : FVec Ideal S3x128x128 .f32) : w128 x11 = Cert.ReferenceIdeal.Read.val_main_v111 (F := Ideal) x11 := rfl

theorem biasRow_ref85 (x6 : FVec Ideal S3x128 .f32) : biasRow x6 = Cert.ReferenceIdeal.Read.val_main_v85 (F := Ideal) x6 := by
  funext idx
  obtain ⟨p, q, rfl⟩ : ∃ (p : Fin 1) (q : Fin 128), idx = ValueIdx.ix2 p q := ⟨idx 0, idx 1, ValueIdx.eq_ix2 idx⟩
  have e : Cert.ReferenceIdeal.Read.idx_main_v85 (ValueIdx.ix2 p q) = ValueIdx.ix1 q :=
    funext fun a => Fin.ext (by match a with | ⟨0, _⟩ => rfl)
  rw [biasRow_apply, Cert.ReferenceIdeal.Read.val_main_v85_apply, e]
  rfl
theorem biasRow_ref94 (x8 : FVec Ideal S3x128 .f32) : biasRow x8 = Cert.ReferenceIdeal.Read.val_main_v94 (F := Ideal) x8 := by
  funext idx
  obtain ⟨p, q, rfl⟩ : ∃ (p : Fin 1) (q : Fin 128), idx = ValueIdx.ix2 p q := ⟨idx 0, idx 1, ValueIdx.eq_ix2 idx⟩
  have e : Cert.ReferenceIdeal.Read.idx_main_v94 (ValueIdx.ix2 p q) = ValueIdx.ix1 q :=
    funext fun a => Fin.ext (by match a with | ⟨0, _⟩ => rfl)
  rw [biasRow_apply, Cert.ReferenceIdeal.Read.val_main_v94_apply, e]
  rfl
theorem biasRow_ref106 (x10 : FVec Ideal S3x128 .f32) : biasRow x10 = Cert.ReferenceIdeal.Read.val_main_v106 (F := Ideal) x10 := by
  funext idx
  obtain ⟨p, q, rfl⟩ : ∃ (p : Fin 1) (q : Fin 128), idx = ValueIdx.ix2 p q := ⟨idx 0, idx 1, ValueIdx.eq_ix2 idx⟩
  have e : Cert.ReferenceIdeal.Read.idx_main_v106 (ValueIdx.ix2 p q) = ValueIdx.ix1 q :=
    funext fun a => Fin.ext (by match a with | ⟨0, _⟩ => rfl)
  rw [biasRow_apply, Cert.ReferenceIdeal.Read.val_main_v106_apply, e]
  rfl
theorem biasRow_ref115 (x12 : FVec Ideal S3x128 .f32) : biasRow x12 = Cert.ReferenceIdeal.Read.val_main_v115 (F := Ideal) x12 := by
  funext idx
  obtain ⟨p, q, rfl⟩ : ∃ (p : Fin 1) (q : Fin 128), idx = ValueIdx.ix2 p q := ⟨idx 0, idx 1, ValueIdx.eq_ix2 idx⟩
  have e : Cert.ReferenceIdeal.Read.idx_main_v115 (ValueIdx.ix2 p q) = ValueIdx.ix1 q :=
    funext fun a => Fin.ext (by match a with | ⟨0, _⟩ => rfl)
  rw [biasRow_apply, Cert.ReferenceIdeal.Read.val_main_v115_apply, e]
  rfl

theorem msgIn_ref (x0 : IVec S50000 32) (x1 : IVec S2x400000 32) (x2 : FVec Ideal S400000x1 .f32) (x4 : FVec Ideal S101x128 .f32)
    (x5 : FVec Ideal S3x257x128 .f32) (x6 : FVec Ideal S3x128 .f32) (x7 : FVec Ideal S3x128x128 .f32) (x8 : FVec Ideal S3x128 .f32)
    (x9 : FVec Ideal S3x256x128 .f32) (x10 : FVec Ideal S3x128 .f32) (x11 : FVec Ideal S3x128x128 .f32) (x12 : FVec Ideal S3x128 .f32)
    (hei : ∀ i : S2x400000.Idx, IntOp.cmpi .sge (x1 i) 0#32 = 1#1 ∧ IntOp.cmpi .slt (x1 i) 50000#32 = 1#1) :
    msgIn (F := Ideal) (Cert.ReferenceIdeal.Read.val_main_v64 (F := Ideal) x0 x1 x2 x4 x5 x6 x7 x8 x9 x10 x11 x12) x1 x2 = Cert.ReferenceIdeal.Read.val_main_v79 (F := Ideal) x0 x1 x2 x4 x5 x6 x7 x8 x9 x10 x11 x12 := by
  unfold Cert.ReferenceIdeal.Read.val_main_v79 Cert.ReferenceIdeal.Read.val_main_v71 Cert.ReferenceIdeal.Read.val_main_v78
  generalize Cert.ReferenceIdeal.Read.val_main_v64 (F := Ideal) x0 x1 x2 x4 x5 x6 x7 x8 x9 x10 x11 x12 = H
  unfold msgIn
  rw [takeNode_eq (F := Ideal) H (srcOf x1) (src_range x1 hei), takeNode_eq (F := Ideal) H (dstOf x1) (dst_range x1 hei)]
  rfl

theorem updIn_ref (x0 : IVec S50000 32) (x1 : IVec S2x400000 32) (x2 : FVec Ideal S400000x1 .f32) (x4 : FVec Ideal S101x128 .f32)
    (x5 : FVec Ideal S3x257x128 .f32) (x6 : FVec Ideal S3x128 .f32) (x7 : FVec Ideal S3x128x128 .f32) (x8 : FVec Ideal S3x128 .f32)
    (x9 : FVec Ideal S3x256x128 .f32) (x10 : FVec Ideal S3x128 .f32) (x11 : FVec Ideal S3x128x128 .f32) (x12 : FVec Ideal S3x128 .f32) :
    updIn (F := Ideal) (Cert.ReferenceIdeal.Read.val_main_v64 (F := Ideal) x0 x1 x2 x4 x5 x6 x7 x8 x9 x10 x11 x12) x1 (Cert.ReferenceIdeal.Read.val_main_v96 (F := Ideal) x0 x1 x2 x4 x5 x6 x7 x8 x9 x10 x11 x12) = Cert.ReferenceIdeal.Read.val_main_v100 (F := Ideal) x0 x1 x2 x4 x5 x6 x7 x8 x9 x10 x11 x12 := by
  unfold Cert.ReferenceIdeal.Read.val_main_v100 Cert.ReferenceIdeal.Read.val_main_v99
  generalize Cert.ReferenceIdeal.Read.val_main_v64 (F := Ideal) x0 x1 x2 x4 x5 x6 x7 x8 x9 x10 x11 x12 = H
  generalize Cert.ReferenceIdeal.Read.val_main_v96 (F := Ideal) x0 x1 x2 x4 x5 x6 x7 x8 x9 x10 x11 x12 = M
  rfl

theorem layer1_aux (m : (ℓ : Loc nD τ sig) → Buf (Elt Ideal) ℓ) (outs : Outs (F := Ideal)) (c : Dev nD) (x0 : IVec S50000 32) (x1 : IVec S2x400000 32) (x2 : FVec Ideal S400000x1 .f32) (x4 : FVec Ideal S101x128 .f32)
    (x5 : FVec Ideal S3x257x128 .f32) (x6 : FVec Ideal S3x128 .f32) (x7 : FVec Ideal S3x128x128 .f32) (x8 : FVec Ideal S3x128 .f32)
    (x9 : FVec Ideal S3x256x128 .f32) (x10 : FVec Ideal S3x128 .f32) (x11 : FVec Ideal S3x128x128 .f32) (x12 : FVec Ideal S3x128 .f32)
    (e1 : V0 m c main_arg1 = x1) (e2 : V0 m c main_arg2 = x2) (e5 : V0 m c main_arg5 = x5) (e6 : V0 m c main_arg6 = x6)
    (e7 : V0 m c main_arg7 = x7) (e8 : V0 m c main_arg8 = x8) (e9 : V0 m c main_arg9 = x9) (e10 : V0 m c main_arg10 = x10)
    (e11 : V0 m c main_arg11 = x11) (e12 : V0 m c main_arg12 = x12)
    (res : FVec Ideal S50000x128 .f32) (eres : V13 m outs c main_v33 = res)
    (hei : ∀ i : S2x400000.Idx, IntOp.cmpi .sge (x1 i) 0#32 = 1#1 ∧ IntOp.cmpi .slt (x1 i) 50000#32 = 1#1)
    (hprev : (V8 m outs c main_v33 : S50000x128.Idx → EReal) = Cert.ReferenceIdeal.Read.val_main_v64 (F := Ideal) x0 x1 x2 x4 x5 x6 x7 x8 x9 x10 x11 x12)
    (hmsg : ∀ (i : Fin 400000) (j : Fin 128), (outs 12 main_v47 c : S400000x128.Idx → EReal) (ValueIdx.ix2 i j)
      = Cert.Spec.mlpAt (V11 m outs c main_v36) (V11 m outs c main_v38) (V11 m outs c main_v45) (V11 m outs c main_v42)
          (V11 m outs c main_v46) i j)
    (hupd : ∀ (i : Fin 50000) (j : Fin 128), (outs 14 main_v62 c : S50000x128.Idx → EReal) (ValueIdx.ix2 i j)
      = res (ValueIdx.ix2 i j)
        + Cert.Spec.mlpAt (V13 m outs c main_v51) (V13 m outs c main_v53) (V13 m outs c main_v60) (V13 m outs c main_v57)
            (V13 m outs c main_v61) i j) :
    (V14 m outs c main_v62 : S50000x128.Idx → EReal) = Cert.ReferenceIdeal.Read.val_main_v118 (F := Ideal) x0 x1 x2 x4 x5 x6 x7 x8 x9 x10 x11 x12 := by
  subst e1 e2 e5 e6 e7 e8 e9 e10 e11 e12 eres

  have k36 : (V11 m outs c main_v36 : S400000x257.Idx → EReal) = Cert.ReferenceIdeal.Read.val_main_v79 (F := Ideal) x0 (V0 m c main_arg1) (V0 m c main_arg2) x4 (V0 m c main_arg5) (V0 m c main_arg6) (V0 m c main_arg7) (V0 m c main_arg8) (V0 m c main_arg9) (V0 m c main_arg10) (V0 m c main_arg11) (V0 m c main_arg12) :=
    (V11_v36 m outs c).trans <|
      (congrArg (fun H : FVec Ideal S50000x128 .f32 => msgIn (F := Ideal) H (V0 m c main_arg1) (V0 m c main_arg2)) hprev).trans (msgIn_ref _ _ _ _ _ _ _ _ _ _ _ _ hei)
  have k38 := (V11_v38 m outs c).trans (w257_ref (V0 m c main_arg5))
  have k45 := (V11_v45 m outs c).trans (biasRow_ref85 (V0 m c main_arg6))
  have k42 := (V11_v42 m outs c).trans (w128_ref_msg (V0 m c main_arg7))
  have k46 := (V11_v46 m outs c).trans (biasRow_ref94 (V0 m c main_arg8))

  have hM : (outs 12 main_v47 c : S400000x128.Idx → EReal) = Cert.ReferenceIdeal.Read.val_main_v96 (F := Ideal) x0 (V0 m c main_arg1) (V0 m c main_arg2) x4 (V0 m c main_arg5) (V0 m c main_arg6) (V0 m c main_arg7) (V0 m c main_arg8) (V0 m c main_arg9) (V0 m c main_arg10) (V0 m c main_arg11) (V0 m c main_arg12) := by
    funext idx
    obtain ⟨i, j, rfl⟩ : ∃ (i : Fin 400000) (j : Fin 128), idx = ValueIdx.ix2 i j := ⟨idx 0, idx 1, ValueIdx.eq_ix2 idx⟩
    exact (hmsg i j).trans <| (mlpAt_congr k36 k38 k45 k42 k46 i j).trans (ref_msg_at _ _ _ _ _ _ _ _ _ _ _ _ i j).symm

  have k33 : (V13 m outs c main_v33 : S50000x128.Idx → EReal) = _ := (V13_h m outs c).trans hprev
  have k51 : (V13 m outs c main_v51 : S50000x256.Idx → EReal) = Cert.ReferenceIdeal.Read.val_main_v100 (F := Ideal) x0 (V0 m c main_arg1) (V0 m c main_arg2) x4 (V0 m c main_arg5) (V0 m c main_arg6) (V0 m c main_arg7) (V0 m c main_arg8) (V0 m c main_arg9) (V0 m c main_arg10) (V0 m c main_arg11) (V0 m c main_arg12) :=
    (V13_v51 m outs c).trans <|
      (congrArg₂ (fun (H : FVec Ideal S50000x128 .f32) (M : FVec Ideal S400000x128 .f32) => updIn (F := Ideal) H (V0 m c main_arg1) M) hprev hM).trans (updIn_ref _ _ _ _ _ _ _ _ _ _ _ _)
  have k53 := (V13_v53 m outs c).trans (w256_ref (V0 m c main_arg9))
  have k60 := (V13_v60 m outs c).trans (biasRow_ref106 (V0 m c main_arg10))
  have k57 := (V13_v57 m outs c).trans (w128_ref_upd (V0 m c main_arg11))
  have k61 := (V13_v61 m outs c).trans (biasRow_ref115 (V0 m c main_arg12))

  refine (V14_out m outs c).trans ?_
  funext idx
  obtain ⟨i, j, rfl⟩ : ∃ (i : Fin 50000) (j : Fin 128), idx = ValueIdx.ix2 i j := ⟨idx 0, idx 1, ValueIdx.eq_ix2 idx⟩
  refine (hupd i j).trans ?_
  rw [ref_h2_at, mlpAt_congr k51 k53 k60 k57 k61 i j, k33]

end L1

open L1

section Layer1

variable (m : (ℓ : Loc nD τ sig) → Buf (Elt Ideal) ℓ) (outs : Outs (F := Ideal)) (c : Dev nD)

abbrev resid1 : FVec Ideal S50000x128 .f32 := V13 m outs c main_v33

theorem layer1
    (hz : ∀ i : S50000.Idx, IntOp.cmpi .sge (A0 m c i) 0#32 = 1#1 ∧ IntOp.cmpi .slt (A0 m c i) 101#32 = 1#1)
    (hei : ∀ i : S2x400000.Idx, IntOp.cmpi .sge (A1 m c i) 0#32 = 1#1 ∧ IntOp.cmpi .slt (A1 m c i) 50000#32 = 1#1)
    (hprev : (V8 m outs c main_v33 : FVec Ideal S50000x128 .f32)
      = Cert.ReferenceIdeal.Read.val_main_v64 (F := Ideal) (A0 m c) (A1 m c) (A2 m c) (A4 m c) (A5 m c) (A6 m c) (A7 m c) (A8 m c) (A9 m c) (A10 m c) (A11 m c) (A12 m c))
    (hmsg : ∀ (i : Fin 400000) (j : Fin 128), (outs 12 main_v47 c : FVec Ideal S400000x128 .f32) (ValueIdx.ix2 i j)
      = Cert.Spec.mlpAt (R := 400000) (K := 257) (H := 128) (O := 128) (V11 m outs c main_v36) (V11 m outs c main_v38)
          (V11 m outs c main_v45) (V11 m outs c main_v42) (V11 m outs c main_v46) i j)
    (hupd : ∀ (i : Fin 50000) (j : Fin 128), (outs 14 main_v62 c : FVec Ideal S50000x128 .f32) (ValueIdx.ix2 i j)
      = resid1 m outs c (ValueIdx.ix2 i j)
        + Cert.Spec.mlpAt (R := 50000) (K := 256) (H := 128) (O := 128) (V13 m outs c main_v51) (V13 m outs c main_v53)
            (V13 m outs c main_v60) (V13 m outs c main_v57) (V13 m outs c main_v61) i j) :
    (V14 m outs c main_v62 : FVec Ideal S50000x128 .f32)
      = Cert.ReferenceIdeal.Read.val_main_v118 (F := Ideal) (A0 m c) (A1 m c) (A2 m c) (A4 m c) (A5 m c) (A6 m c) (A7 m c) (A8 m c) (A9 m c) (A10 m c) (A11 m c) (A12 m c) :=
  layer1_aux m outs c (A0 m c) (A1 m c) (A2 m c) (A4 m c) (A5 m c) (A6 m c) (A7 m c) (A8 m c) (A9 m c) (A10 m c) (A11 m c) (A12 m c)
    rfl rfl rfl rfl rfl rfl rfl rfl rfl rfl (resid1 m outs c) rfl hei hprev hmsg hupd

end Layer1

end Cert.Hand.Bridge

end
-- ==== Proof.Bridge.Layer2a.lean ====
import proofs.«407354_j16939351015862_1_alg».proof.Proof.Gen.KernelIdeal.Regions
import proofs.«407354_j16939351015862_1_alg».proof.Proof.KI.Take

set_option maxRecDepth 1896

noncomputable section

namespace Cert.Hand.Bridge.L2

open Idealize.ShloMosaic Idealize.ShloMosaic.TcCoe
open Cert.KernelIdeal Cert.KernelIdeal.Gen Cert.KernelIdeal.Hand

variable {F : FTy → Type} [FloatOps F]

section Reads

variable (W : Valuation τ sig (Elt F))

theorem rdTakeSrc2 :
    (StableHlo.after hostOps4 W (Proc.devRef .tc main_v63) : FVec F S400000x128 .f32)
      = takeNode (W (Proc.devRef .tc main_v62)) (W (Proc.devRef .tc main_v1)) := by
  after_results_simp
  simp only [StableHlo.TRef.ofBuf, StableHlo.TRef.toBuf, cast_eq]
  rfl

theorem rdTakeDst2 :
    (StableHlo.after hostOps4_1 W (Proc.devRef .tc main_v64) : FVec F S400000x128 .f32)
      = takeNode (W (Proc.devRef .tc main_v62)) (W (Proc.devRef .tc main_v3)) := by
  after_results_simp
  simp only [StableHlo.TRef.ofBuf, StableHlo.TRef.toBuf, cast_eq]
  rfl

theorem rdMsgIn2 :
    (StableHlo.after hostOps4_2 W (Proc.devRef .tc main_v65) : FVec F S400000x257 .f32)
      = concatenate S400000x257 1 [⟨S400000x128, W (Proc.devRef .tc main_v63)⟩, ⟨S400000x128, W (Proc.devRef .tc main_v64)⟩,
          ⟨S400000x1, W (Proc.devRef .tc main_arg2)⟩] concatenates_S400000x128_S400000x128_S400000x1_S400000x257_d1 := by
  after_results <;> rfl

theorem rdMsgW1 :
    (StableHlo.after hostOps4_2 W (Proc.devRef .tc main_v67) : FVec F S257x128 .f32)
      = shapeCast S257x128 (extractStridedSlice S1x257x128 ![2, 0, 0] (W (Proc.devRef .tc main_arg5) : FVec F S3x257x128 .f32)
          slices_S3x257x128_S1x257x128_2_0_0) shapeCasts_S1x257x128_S257x128 := by
  after_results <;> rfl

theorem rdMsgB1 :
    (StableHlo.after hostOps4_2 W (Proc.devRef .tc main_v74) : FVec F S1x128 .f32)
      = shapeCast S1x128 (shapeCast S128 (extractStridedSlice S1x128 ![2, 0] (W (Proc.devRef .tc main_arg6) : FVec F S3x128 .f32)
          slices_S3x128_S1x128_2_0) shapeCasts_S1x128_S128) shapeCasts_S128_S1x128 := by
  after_results <;> rfl

theorem rdMsgW2 :
    (StableHlo.after hostOps4_2 W (Proc.devRef .tc main_v71) : FVec F S128x128 .f32)
      = shapeCast S128x128 (extractStridedSlice S1x128x128 ![2, 0, 0] (W (Proc.devRef .tc main_arg7) : FVec F S3x128x128 .f32)
          slices_S3x128x128_S1x128x128_2_0_0) shapeCasts_S1x128x128_S128x128 := by
  after_results <;> rfl

theorem rdMsgB2 :
    (StableHlo.after hostOps4_2 W (Proc.devRef .tc main_v75) : FVec F S1x128 .f32)
      = shapeCast S1x128 (shapeCast S128 (extractStridedSlice S1x128 ![2, 0] (W (Proc.devRef .tc main_arg8) : FVec F S3x128 .f32)
          slices_S3x128_S1x128_2_0) shapeCasts_S1x128_S128) shapeCasts_S128_S1x128 := by
  after_results <;> rfl

theorem rdAgg2 :
    (StableHlo.after hostOps5 W (Proc.devRef .tc main_v79) : FVec F S50000x128 .f32)
      = Host.scatterAdd scatter_S50000x128_S400000x1_S400000x128_1_0_0_1
          (broadcastInDim S50000x128 ![] bcast_S_S50000x128 (constant (F := F) S_ .f32 0x00000000#32))
          (broadcastInDim S400000x1 ![0] bcast_S400000_S400000x1_0 (W (Proc.devRef .tc main_v3) : IVec S400000 32))
          (W (Proc.devRef .tc main_v76)) := by
  after_results <;> rfl

theorem rdUpdIn2 :
    (StableHlo.after hostOps5 W (Proc.devRef .tc main_v80) : FVec F S50000x256 .f32)
      = concatenate S50000x256 1 [⟨S50000x128, W (Proc.devRef .tc main_v62)⟩,
          ⟨S50000x128, (StableHlo.after hostOps5 W (Proc.devRef .tc main_v79) : FVec F S50000x128 .f32)⟩]
          concatenates_S50000x128_S50000x128_S50000x256_d1 := by
  after_results <;> rfl

theorem rdUpdW1 :
    (StableHlo.after hostOps5 W (Proc.devRef .tc main_v82) : FVec F S256x128 .f32)
      = shapeCast S256x128 (extractStridedSlice S1x256x128 ![2, 0, 0] (W (Proc.devRef .tc main_arg9) : FVec F S3x256x128 .f32)
          slices_S3x256x128_S1x256x128_2_0_0) shapeCasts_S1x256x128_S256x128 := by
  after_results <;> rfl

theorem rdUpdB1 :
    (StableHlo.after hostOps5 W (Proc.devRef .tc main_v89) : FVec F S1x128 .f32)
      = shapeCast S1x128 (shapeCast S128 (extractStridedSlice S1x128 ![2, 0] (W (Proc.devRef .tc main_arg10) : FVec F S3x128 .f32)
          slices_S3x128_S1x128_2_0) shapeCasts_S1x128_S128) shapeCasts_S128_S1x128 := by
  after_results <;> rfl

theorem rdUpdW2 :
    (StableHlo.after hostOps5 W (Proc.devRef .tc main_v86) : FVec F S128x128 .f32)
      = shapeCast S128x128 (extractStridedSlice S1x128x128 ![2, 0, 0] (W (Proc.devRef .tc main_arg11) : FVec F S3x128x128 .f32)
          slices_S3x128x128_S1x128x128_2_0_0) shapeCasts_S1x128x128_S128x128 := by
  after_results <;> rfl

theorem rdUpdB2 :
    (StableHlo.after hostOps5 W (Proc.devRef .tc main_v90) : FVec F S1x128 .f32)
      = shapeCast S1x128 (shapeCast S128 (extractStridedSlice S1x128 ![2, 0] (W (Proc.devRef .tc main_arg12) : FVec F S3x128 .f32)
          slices_S3x128_S1x128_2_0) shapeCasts_S1x128_S128) shapeCasts_S128_S1x128 := by
  after_results <;> rfl

end Reads

section Keeps

variable (m : (ℓ : Loc nD τ sig) → Buf (Elt F) ℓ) (outs : Outs (F := F)) (c : Dev nD)

theorem keep1to14 (r : Ref sig .tc)
    (h2 : r ∉ hostOps0_1_W := by decide) (h3 : r ∉ hostOps0_2_W := by decide) (h4 : r ∉ hostOps0_3_W := by decide)
    (h5 : r ∉ hostOps0_4_W := by decide) (h6 : r ∉ ([main_v18] : List (Ref sig .tc)) := by decide)
    (h7 : r ∉ hostOps1_W := by decide) (h8 : r ∉ ([main_v33] : List (Ref sig .tc)) := by decide)
    (h9 : r ∉ hostOps2_W := by decide) (h10 : r ∉ hostOps2_1_W := by decide) (h11 : r ∉ hostOps2_2_W := by decide)
    (h12 : r ∉ ([main_v47] : List (Ref sig .tc)) := by decide) (h13 : r ∉ hostOps3_W := by decide)
    (h14 : r ∉ ([main_v62] : List (Ref sig .tc)) := by decide) :
    V14 m outs c r = V1 m c r :=
  (V14_of m outs c r h14).trans <| (V13_of m outs c r h13).trans <| (V12_of m outs c r h12).trans <|
  (V11_of m outs c r h11).trans <| (V10_of m outs c r h10).trans <| (V9_of m outs c r h9).trans <|
  (V8_of m outs c r h8).trans <| (V7_of m outs c r h7).trans <| (V6_of m outs c r h6).trans <|
  (V5_of m c r h5).trans <| (V4_of m c r h4).trans <| (V3_of m c r h3).trans <| (V2_of m c r h2)

theorem keep14to16 (r : Ref sig .tc) (h15 : r ∉ hostOps4_W := by decide) (h16 : r ∉ hostOps4_1_W := by decide) :
    V16 m outs c r = V14 m outs c r :=
  (V16_of m outs c r h16).trans (V15_of m outs c r h15)

theorem keep14to18 (r : Ref sig .tc) (h15 : r ∉ hostOps4_W := by decide) (h16 : r ∉ hostOps4_1_W := by decide)
    (h17 : r ∉ hostOps4_2_W := by decide) (h18 : r ∉ ([main_v76] : List (Ref sig .tc)) := by decide) :
    V18 m outs c r = V14 m outs c r :=
  (V18_of m outs c r h18).trans <| (V17_of m outs c r h17).trans (keep14to16 m outs c r h15 h16)

theorem keep0to14 (r : Ref sig .tc) (h1 : r ∉ hostOps0_W := by decide)
    (h2 : r ∉ hostOps0_1_W := by decide) (h3 : r ∉ hostOps0_2_W := by decide) (h4 : r ∉ hostOps0_3_W := by decide)
    (h5 : r ∉ hostOps0_4_W := by decide) (h6 : r ∉ ([main_v18] : List (Ref sig .tc)) := by decide)
    (h7 : r ∉ hostOps1_W := by decide) (h8 : r ∉ ([main_v33] : List (Ref sig .tc)) := by decide)
    (h9 : r ∉ hostOps2_W := by decide) (h10 : r ∉ hostOps2_1_W := by decide) (h11 : r ∉ hostOps2_2_W := by decide)
    (h12 : r ∉ ([main_v47] : List (Ref sig .tc)) := by decide) (h13 : r ∉ hostOps3_W := by decide)
    (h14 : r ∉ ([main_v62] : List (Ref sig .tc)) := by decide) :
    V14 m outs c r = V0 m c r :=
  (keep1to14 m outs c r h2 h3 h4 h5 h6 h7 h8 h9 h10 h11 h12 h13 h14).trans (V1_of m c r h1)

theorem edgeSrc : (V1 m c main_v1 : IVec S400000 32) = srcOf (V0 m c main_arg1) := by
  show StableHlo.after hostOps0 (V0 m c) (Proc.devRef .tc main_v1) = _
  after_results <;> rfl

theorem edgeDst : (V1 m c main_v3 : IVec S400000 32) = dstOf (V0 m c main_arg1) := by
  show StableHlo.after hostOps0 (V0 m c) (Proc.devRef .tc main_v3) = _
  after_results <;> rfl

end Keeps

end Cert.Hand.Bridge.L2

end
-- ==== Proof.Bridge.Layer2b.lean ====
import proofs.«407354_j16939351015862_1_alg».proof.Proof.Ref.ReadP
import proofs.«407354_j16939351015862_1_alg».proof.Proof.Spec
import Idealize.ShloMosaic.Lib.ValueIdx
import Idealize.ShloMosaic.PureOps.Ideal.Laws

noncomputable section

open scoped BigOperators

namespace Cert.Hand.Bridge.L2

open Idealize.ShloMosaic
open Cert.ReferenceIdeal Cert.ReferenceIdeal.Read

theorem lidx138 (i : Fin 400000) (k : Fin 128) (l : Fin 257) :
    lidx_main_v138 (ValueIdx.ix2 i k) l = ValueIdx.ix2 i l :=
  funext fun a => Fin.ext (by match a with | ⟨0, _⟩ => rfl | ⟨1, _⟩ => rfl)
theorem ridx138 (i : Fin 400000) (k : Fin 128) (l : Fin 257) :
    ridx_main_v138 (ValueIdx.ix2 i k) l = ValueIdx.ix2 l k :=
  funext fun a => Fin.ext (by match a with | ⟨0, _⟩ => rfl | ⟨1, _⟩ => rfl)
theorem lidx147 (i : Fin 400000) (j : Fin 128) (k : Fin 128) :
    lidx_main_v147 (ValueIdx.ix2 i j) k = ValueIdx.ix2 i k :=
  funext fun a => Fin.ext (by match a with | ⟨0, _⟩ => rfl | ⟨1, _⟩ => rfl)
theorem ridx147 (i : Fin 400000) (j : Fin 128) (k : Fin 128) :
    ridx_main_v147 (ValueIdx.ix2 i j) k = ValueIdx.ix2 k j :=
  funext fun a => Fin.ext (by match a with | ⟨0, _⟩ => rfl | ⟨1, _⟩ => rfl)
theorem lidx159 (i : Fin 50000) (k : Fin 128) (l : Fin 256) :
    lidx_main_v159 (ValueIdx.ix2 i k) l = ValueIdx.ix2 i l :=
  funext fun a => Fin.ext (by match a with | ⟨0, _⟩ => rfl | ⟨1, _⟩ => rfl)
theorem ridx159 (i : Fin 50000) (k : Fin 128) (l : Fin 256) :
    ridx_main_v159 (ValueIdx.ix2 i k) l = ValueIdx.ix2 l k :=
  funext fun a => Fin.ext (by match a with | ⟨0, _⟩ => rfl | ⟨1, _⟩ => rfl)
theorem lidx168 (i : Fin 50000) (j : Fin 128) (k : Fin 128) :
    lidx_main_v168 (ValueIdx.ix2 i j) k = ValueIdx.ix2 i k :=
  funext fun a => Fin.ext (by match a with | ⟨0, _⟩ => rfl | ⟨1, _⟩ => rfl)
theorem ridx168 (i : Fin 50000) (j : Fin 128) (k : Fin 128) :
    ridx_main_v168 (ValueIdx.ix2 i j) k = ValueIdx.ix2 k j :=
  funext fun a => Fin.ext (by match a with | ⟨0, _⟩ => rfl | ⟨1, _⟩ => rfl)

theorem bidx140 (i : Fin 400000) (k : Fin 128) :
    idx_main_v139 (idx_main_v140 (ValueIdx.ix2 i k)) = ValueIdx.ix1 k :=
  funext fun a => Fin.ext (by match a with | ⟨0, _⟩ => rfl)
theorem bidx149 (i : Fin 400000) (k : Fin 128) :
    idx_main_v148 (idx_main_v149 (ValueIdx.ix2 i k)) = ValueIdx.ix1 k :=
  funext fun a => Fin.ext (by match a with | ⟨0, _⟩ => rfl)
theorem bidx161 (i : Fin 50000) (k : Fin 128) :
    idx_main_v160 (idx_main_v161 (ValueIdx.ix2 i k)) = ValueIdx.ix1 k :=
  funext fun a => Fin.ext (by match a with | ⟨0, _⟩ => rfl)
theorem bidx170 (i : Fin 50000) (k : Fin 128) :
    idx_main_v169 (idx_main_v170 (ValueIdx.ix2 i k)) = ValueIdx.ix1 k :=
  funext fun a => Fin.ext (by match a with | ⟨0, _⟩ => rfl)

theorem msgHidden (x0 : (⟨S50000, .i32⟩ : BufTy).Contents (Elt Ideal)) (x1 : (⟨S2x400000, .i32⟩ : BufTy).Contents (Elt Ideal)) (x2 : (⟨S400000x1, .f32⟩ : BufTy).Contents (Elt Ideal)) (x4 : (⟨S101x128, .f32⟩ : BufTy).Contents (Elt Ideal)) (x5 : (⟨S3x257x128, .f32⟩ : BufTy).Contents (Elt Ideal)) (x6 : (⟨S3x128, .f32⟩ : BufTy).Contents (Elt Ideal)) (x7 : (⟨S3x128x128, .f32⟩ : BufTy).Contents (Elt Ideal)) (x8 : (⟨S3x128, .f32⟩ : BufTy).Contents (Elt Ideal)) (x9 : (⟨S3x256x128, .f32⟩ : BufTy).Contents (Elt Ideal)) (x10 : (⟨S3x128, .f32⟩ : BufTy).Contents (Elt Ideal)) (x11 : (⟨S3x128x128, .f32⟩ : BufTy).Contents (Elt Ideal)) (x12 : (⟨S3x128, .f32⟩ : BufTy).Contents (Elt Ideal)) (i : Fin 400000) (k : Fin 128) :
    val_main_v142 (F := Ideal) x0 x1 x2 x4 x5 x6 x7 x8 x9 x10 x11 x12 (ValueIdx.ix2 i k)
      = max ((∑ l : Fin 257, val_main_v133 (F := Ideal) x0 x1 x2 x4 x5 x6 x7 x8 x9 x10 x11 x12 (ValueIdx.ix2 i l) * val_main_v135 (F := Ideal) x5 (ValueIdx.ix2 l k))
          + val_main_v137 (F := Ideal) x6 (ValueIdx.ix1 k)) 0 := by
  rw [val_main_v142_apply, val_main_v141_apply, val_main_v138_apply, val_main_call4_v0_apply, val_main_call4_cst_apply,
    val_main_v140_apply, val_main_v139_apply, bidx140]
  simp only [lidx138, ridx138]
  show max ((∑ l : Fin 257, _) + _) (Ideal.ofBits .f32 0x00000000#32) = _
  rw [Ideal.ofBits_zero_f32]

theorem msgOut (x0 : (⟨S50000, .i32⟩ : BufTy).Contents (Elt Ideal)) (x1 : (⟨S2x400000, .i32⟩ : BufTy).Contents (Elt Ideal)) (x2 : (⟨S400000x1, .f32⟩ : BufTy).Contents (Elt Ideal)) (x4 : (⟨S101x128, .f32⟩ : BufTy).Contents (Elt Ideal)) (x5 : (⟨S3x257x128, .f32⟩ : BufTy).Contents (Elt Ideal)) (x6 : (⟨S3x128, .f32⟩ : BufTy).Contents (Elt Ideal)) (x7 : (⟨S3x128x128, .f32⟩ : BufTy).Contents (Elt Ideal)) (x8 : (⟨S3x128, .f32⟩ : BufTy).Contents (Elt Ideal)) (x9 : (⟨S3x256x128, .f32⟩ : BufTy).Contents (Elt Ideal)) (x10 : (⟨S3x128, .f32⟩ : BufTy).Contents (Elt Ideal)) (x11 : (⟨S3x128x128, .f32⟩ : BufTy).Contents (Elt Ideal)) (x12 : (⟨S3x128, .f32⟩ : BufTy).Contents (Elt Ideal)) (i : Fin 400000) (j : Fin 128) :
    val_main_v150 (F := Ideal) x0 x1 x2 x4 x5 x6 x7 x8 x9 x10 x11 x12 (ValueIdx.ix2 i j)
      = (∑ k : Fin 128, val_main_v142 (F := Ideal) x0 x1 x2 x4 x5 x6 x7 x8 x9 x10 x11 x12 (ValueIdx.ix2 i k) * val_main_v144 (F := Ideal) x7 (ValueIdx.ix2 k j))
          + val_main_v146 (F := Ideal) x8 (ValueIdx.ix1 j) := by
  rw [val_main_v150_apply, val_main_v147_apply, val_main_v149_apply, val_main_v148_apply, bidx149]
  simp only [lidx147, ridx147]
  rfl

theorem refMsg2 (x0 : (⟨S50000, .i32⟩ : BufTy).Contents (Elt Ideal)) (x1 : (⟨S2x400000, .i32⟩ : BufTy).Contents (Elt Ideal)) (x2 : (⟨S400000x1, .f32⟩ : BufTy).Contents (Elt Ideal)) (x4 : (⟨S101x128, .f32⟩ : BufTy).Contents (Elt Ideal)) (x5 : (⟨S3x257x128, .f32⟩ : BufTy).Contents (Elt Ideal)) (x6 : (⟨S3x128, .f32⟩ : BufTy).Contents (Elt Ideal)) (x7 : (⟨S3x128x128, .f32⟩ : BufTy).Contents (Elt Ideal)) (x8 : (⟨S3x128, .f32⟩ : BufTy).Contents (Elt Ideal)) (x9 : (⟨S3x256x128, .f32⟩ : BufTy).Contents (Elt Ideal)) (x10 : (⟨S3x128, .f32⟩ : BufTy).Contents (Elt Ideal)) (x11 : (⟨S3x128x128, .f32⟩ : BufTy).Contents (Elt Ideal)) (x12 : (⟨S3x128, .f32⟩ : BufTy).Contents (Elt Ideal))
    (b1 b2 : (⟨2, ![1, 128]⟩ : Shape).Idx → EReal)
    (hb1 : ∀ k : Fin 128, b1 (ValueIdx.ix2 (0 : Fin 1) k) = val_main_v137 (F := Ideal) x6 (ValueIdx.ix1 k))
    (hb2 : ∀ k : Fin 128, b2 (ValueIdx.ix2 (0 : Fin 1) k) = val_main_v146 (F := Ideal) x8 (ValueIdx.ix1 k))
    (i : Fin 400000) (j : Fin 128) :
    val_main_v150 (F := Ideal) x0 x1 x2 x4 x5 x6 x7 x8 x9 x10 x11 x12 (ValueIdx.ix2 i j)
      = Cert.Spec.mlpAt (R := 400000) (K := 257) (H := 128) (O := 128) (val_main_v133 (F := Ideal) x0 x1 x2 x4 x5 x6 x7 x8 x9 x10 x11 x12) (val_main_v135 (F := Ideal) x5) b1
          (val_main_v144 (F := Ideal) x7) b2 i j := by
  rw [msgOut]
  unfold Cert.Spec.mlpAt
  rw [hb2]
  congr 1
  refine Finset.sum_congr rfl fun k _ => ?_
  rw [msgHidden, hb1]

theorem updHidden (x0 : (⟨S50000, .i32⟩ : BufTy).Contents (Elt Ideal)) (x1 : (⟨S2x400000, .i32⟩ : BufTy).Contents (Elt Ideal)) (x2 : (⟨S400000x1, .f32⟩ : BufTy).Contents (Elt Ideal)) (x4 : (⟨S101x128, .f32⟩ : BufTy).Contents (Elt Ideal)) (x5 : (⟨S3x257x128, .f32⟩ : BufTy).Contents (Elt Ideal)) (x6 : (⟨S3x128, .f32⟩ : BufTy).Contents (Elt Ideal)) (x7 : (⟨S3x128x128, .f32⟩ : BufTy).Contents (Elt Ideal)) (x8 : (⟨S3x128, .f32⟩ : BufTy).Contents (Elt Ideal)) (x9 : (⟨S3x256x128, .f32⟩ : BufTy).Contents (Elt Ideal)) (x10 : (⟨S3x128, .f32⟩ : BufTy).Contents (Elt Ideal)) (x11 : (⟨S3x128x128, .f32⟩ : BufTy).Contents (Elt Ideal)) (x12 : (⟨S3x128, .f32⟩ : BufTy).Contents (Elt Ideal)) (i : Fin 50000) (k : Fin 128) :
    val_main_v163 (F := Ideal) x0 x1 x2 x4 x5 x6 x7 x8 x9 x10 x11 x12 (ValueIdx.ix2 i k)
      = max ((∑ l : Fin 256, val_main_v154 (F := Ideal) x0 x1 x2 x4 x5 x6 x7 x8 x9 x10 x11 x12 (ValueIdx.ix2 i l) * val_main_v156 (F := Ideal) x9 (ValueIdx.ix2 l k))
          + val_main_v158 (F := Ideal) x10 (ValueIdx.ix1 k)) 0 := by
  rw [val_main_v163_apply, val_main_v162_apply, val_main_v159_apply, val_main_call5_v0_apply, val_main_call5_cst_apply,
    val_main_v161_apply, val_main_v160_apply, bidx161]
  simp only [lidx159, ridx159]
  show max ((∑ l : Fin 256, _) + _) (Ideal.ofBits .f32 0x00000000#32) = _
  rw [Ideal.ofBits_zero_f32]

theorem updOut (x0 : (⟨S50000, .i32⟩ : BufTy).Contents (Elt Ideal)) (x1 : (⟨S2x400000, .i32⟩ : BufTy).Contents (Elt Ideal)) (x2 : (⟨S400000x1, .f32⟩ : BufTy).Contents (Elt Ideal)) (x4 : (⟨S101x128, .f32⟩ : BufTy).Contents (Elt Ideal)) (x5 : (⟨S3x257x128, .f32⟩ : BufTy).Contents (Elt Ideal)) (x6 : (⟨S3x128, .f32⟩ : BufTy).Contents (Elt Ideal)) (x7 : (⟨S3x128x128, .f32⟩ : BufTy).Contents (Elt Ideal)) (x8 : (⟨S3x128, .f32⟩ : BufTy).Contents (Elt Ideal)) (x9 : (⟨S3x256x128, .f32⟩ : BufTy).Contents (Elt Ideal)) (x10 : (⟨S3x128, .f32⟩ : BufTy).Contents (Elt Ideal)) (x11 : (⟨S3x128x128, .f32⟩ : BufTy).Contents (Elt Ideal)) (x12 : (⟨S3x128, .f32⟩ : BufTy).Contents (Elt Ideal)) (i : Fin 50000) (j : Fin 128) :
    val_main_v171 (F := Ideal) x0 x1 x2 x4 x5 x6 x7 x8 x9 x10 x11 x12 (ValueIdx.ix2 i j)
      = (∑ k : Fin 128, val_main_v163 (F := Ideal) x0 x1 x2 x4 x5 x6 x7 x8 x9 x10 x11 x12 (ValueIdx.ix2 i k) * val_main_v165 (F := Ideal) x11 (ValueIdx.ix2 k j))
          + val_main_v167 (F := Ideal) x12 (ValueIdx.ix1 j) := by
  rw [val_main_v171_apply, val_main_v168_apply, val_main_v170_apply, val_main_v169_apply, bidx170]
  simp only [lidx168, ridx168]
  rfl

theorem refUpd2 (x0 : (⟨S50000, .i32⟩ : BufTy).Contents (Elt Ideal)) (x1 : (⟨S2x400000, .i32⟩ : BufTy).Contents (Elt Ideal)) (x2 : (⟨S400000x1, .f32⟩ : BufTy).Contents (Elt Ideal)) (x4 : (⟨S101x128, .f32⟩ : BufTy).Contents (Elt Ideal)) (x5 : (⟨S3x257x128, .f32⟩ : BufTy).Contents (Elt Ideal)) (x6 : (⟨S3x128, .f32⟩ : BufTy).Contents (Elt Ideal)) (x7 : (⟨S3x128x128, .f32⟩ : BufTy).Contents (Elt Ideal)) (x8 : (⟨S3x128, .f32⟩ : BufTy).Contents (Elt Ideal)) (x9 : (⟨S3x256x128, .f32⟩ : BufTy).Contents (Elt Ideal)) (x10 : (⟨S3x128, .f32⟩ : BufTy).Contents (Elt Ideal)) (x11 : (⟨S3x128x128, .f32⟩ : BufTy).Contents (Elt Ideal)) (x12 : (⟨S3x128, .f32⟩ : BufTy).Contents (Elt Ideal))
    (b1 b2 : (⟨2, ![1, 128]⟩ : Shape).Idx → EReal)
    (hb1 : ∀ k : Fin 128, b1 (ValueIdx.ix2 (0 : Fin 1) k) = val_main_v158 (F := Ideal) x10 (ValueIdx.ix1 k))
    (hb2 : ∀ k : Fin 128, b2 (ValueIdx.ix2 (0 : Fin 1) k) = val_main_v167 (F := Ideal) x12 (ValueIdx.ix1 k))
    (i : Fin 50000) (j : Fin 128) :
    val_main_v172 (F := Ideal) x0 x1 x2 x4 x5 x6 x7 x8 x9 x10 x11 x12 (ValueIdx.ix2 i j)
      = val_main_v118 (F := Ideal) x0 x1 x2 x4 x5 x6 x7 x8 x9 x10 x11 x12 (ValueIdx.ix2 i j)
        + Cert.Spec.mlpAt (R := 50000) (K := 256) (H := 128) (O := 128) (val_main_v154 (F := Ideal) x0 x1 x2 x4 x5 x6 x7 x8 x9 x10 x11 x12) (val_main_v156 (F := Ideal) x9) b1
            (val_main_v165 (F := Ideal) x11) b2 i j := by
  rw [val_main_v172_apply]
  show _ + val_main_v171 (F := Ideal) x0 x1 x2 x4 x5 x6 x7 x8 x9 x10 x11 x12 (ValueIdx.ix2 i j) = _
  rw [updOut]
  unfold Cert.Spec.mlpAt
  rw [hb2]
  congr 2
  refine Finset.sum_congr rfl fun k _ => ?_
  rw [updHidden, hb1]

end Cert.Hand.Bridge.L2

end
-- ==== Proof.Bridge.Layer2.lean ====
import proofs.«407354_j16939351015862_1_alg».proof.Proof.Bridge.Layer0a
import proofs.«407354_j16939351015862_1_alg».proof.Proof.Bridge.Layer2a
import proofs.«407354_j16939351015862_1_alg».proof.Proof.Bridge.Layer2b
import Idealize.ShloMosaic.Lib.ValueLayout

set_option maxRecDepth 1896

noncomputable section

open scoped BigOperators

namespace Cert.Hand.Bridge.L2

open Idealize.ShloMosaic Idealize.ShloMosaic.TcCoe
open Cert.KernelIdeal Cert.KernelIdeal.Gen Cert.KernelIdeal.Hand

section Same

variable {F : FTy → Type} [FloatOps F]

theorem sameNormSrc (x1 : IVec S2x400000 32) : normNode (srcOf x1) = Cert.ReferenceIdeal.Read.val_main_v124 (F := F) x1 := rfl

theorem sameNormDst (x1 : IVec S2x400000 32) : normNode (dstOf x1) = Cert.ReferenceIdeal.Read.val_main_v131 (F := F) x1 := rfl

theorem sameMsgIn (h : FVec F S50000x128 .f32) (x1 : IVec S2x400000 32) (x2 : FVec F S400000x1 .f32)
    (hr : ∀ i : S2x400000.Idx, IntOp.cmpi .sge (x1 i) 0#32 = 1#1 ∧ IntOp.cmpi .slt (x1 i) 50000#32 = 1#1) :
    concatenate S400000x257 1 [⟨S400000x128, takeNode h (srcOf x1)⟩, ⟨S400000x128, takeNode h (dstOf x1)⟩, ⟨S400000x1, x2⟩]
        concatenates_S400000x128_S400000x128_S400000x1_S400000x257_d1
      = concatenate Cert.ReferenceIdeal.S400000x257 1
          [⟨Cert.ReferenceIdeal.S400000x128, Host.gather Cert.ReferenceIdeal.gather_S50000x128_S400000x1_S400000x128_1_0_n_n_0_1_1128 h (Cert.ReferenceIdeal.Read.val_main_v124 (F := F) x1)⟩,
           ⟨Cert.ReferenceIdeal.S400000x128, Host.gather Cert.ReferenceIdeal.gather_S50000x128_S400000x1_S400000x128_1_0_n_n_0_1_1128 h (Cert.ReferenceIdeal.Read.val_main_v131 (F := F) x1)⟩,
           ⟨Cert.ReferenceIdeal.S400000x1, x2⟩]
          Cert.ReferenceIdeal.Gen.concatenates_S400000x128_S400000x128_S400000x1_S400000x257_d1 := by
  rw [takeNode_eq h (srcOf x1) (src_range x1 hr), takeNode_eq h (dstOf x1) (dst_range x1 hr)]
  rfl

theorem sameAgg (x1 : IVec S2x400000 32) (msg : FVec F S400000x128 .f32) :
    Host.scatterAdd scatter_S50000x128_S400000x1_S400000x128_1_0_0_1
        (broadcastInDim S50000x128 ![] bcast_S_S50000x128 (constant (F := F) S_ .f32 0x00000000#32))
        (broadcastInDim S400000x1 ![0] bcast_S400000_S400000x1_0 (dstOf x1)) msg
      = Host.scatterAdd Cert.ReferenceIdeal.scatter_S50000x128_S400000x1_S400000x128_1_0_0_1 (Cert.ReferenceIdeal.Read.val_main_v151 (F := F)) (Cert.ReferenceIdeal.Read.val_main_v152 (F := F) x1) msg := rfl

theorem sameUpdIn (h agg : FVec F S50000x128 .f32) :
    concatenate S50000x256 1 [⟨S50000x128, h⟩, ⟨S50000x128, agg⟩] concatenates_S50000x128_S50000x128_S50000x256_d1
      = concatenate Cert.ReferenceIdeal.S50000x256 1 [⟨Cert.ReferenceIdeal.S50000x128, h⟩, ⟨Cert.ReferenceIdeal.S50000x128, agg⟩] Cert.ReferenceIdeal.Gen.concatenates_S50000x128_S50000x128_S50000x256_d1 := rfl

theorem sameMsgW1 (x5 : FVec F S3x257x128 .f32) :
    shapeCast S257x128 (extractStridedSlice S1x257x128 ![2, 0, 0] x5 slices_S3x257x128_S1x257x128_2_0_0) shapeCasts_S1x257x128_S257x128
      = Cert.ReferenceIdeal.Read.val_main_v135 (F := F) x5 := rfl
theorem sameMsgW2 (x7 : FVec F S3x128x128 .f32) :
    shapeCast S128x128 (extractStridedSlice S1x128x128 ![2, 0, 0] x7 slices_S3x128x128_S1x128x128_2_0_0) shapeCasts_S1x128x128_S128x128
      = Cert.ReferenceIdeal.Read.val_main_v144 (F := F) x7 := rfl
theorem sameUpdW1 (x9 : FVec F S3x256x128 .f32) :
    shapeCast S256x128 (extractStridedSlice S1x256x128 ![2, 0, 0] x9 slices_S3x256x128_S1x256x128_2_0_0) shapeCasts_S1x256x128_S256x128
      = Cert.ReferenceIdeal.Read.val_main_v156 (F := F) x9 := rfl
theorem sameUpdW2 (x11 : FVec F S3x128x128 .f32) :
    shapeCast S128x128 (extractStridedSlice S1x128x128 ![2, 0, 0] x11 slices_S3x128x128_S1x128x128_2_0_0) shapeCasts_S1x128x128_S128x128
      = Cert.ReferenceIdeal.Read.val_main_v165 (F := F) x11 := rfl

theorem sameMsgB1 (x6 : FVec F S3x128 .f32) :
    shapeCast S128 (extractStridedSlice S1x128 ![2, 0] x6 slices_S3x128_S1x128_2_0) shapeCasts_S1x128_S128 = Cert.ReferenceIdeal.Read.val_main_v137 (F := F) x6 := rfl
theorem sameMsgB2 (x8 : FVec F S3x128 .f32) :
    shapeCast S128 (extractStridedSlice S1x128 ![2, 0] x8 slices_S3x128_S1x128_2_0) shapeCasts_S1x128_S128 = Cert.ReferenceIdeal.Read.val_main_v146 (F := F) x8 := rfl
theorem sameUpdB1 (x10 : FVec F S3x128 .f32) :
    shapeCast S128 (extractStridedSlice S1x128 ![2, 0] x10 slices_S3x128_S1x128_2_0) shapeCasts_S1x128_S128 = Cert.ReferenceIdeal.Read.val_main_v158 (F := F) x10 := rfl
theorem sameUpdB2 (x12 : FVec F S3x128 .f32) :
    shapeCast S128 (extractStridedSlice S1x128 ![2, 0] x12 slices_S3x128_S1x128_2_0) shapeCasts_S1x128_S128 = Cert.ReferenceIdeal.Read.val_main_v167 (F := F) x12 := rfl

end Same

section Of

variable {F : FTy → Type} [FloatOps F] (W : Valuation τ sig (Elt F))

theorem takeSrcOf (h : FVec F S50000x128 .f32) (idx : IVec S400000 32)
    (h62 : W (Proc.devRef .tc main_v62) = h) (h1 : W (Proc.devRef .tc main_v1) = idx) :
    (StableHlo.after hostOps4 W (Proc.devRef .tc main_v63) : FVec F S400000x128 .f32) = takeNode h idx := by
  subst h62 h1; exact rdTakeSrc2 W
theorem takeDstOf (h : FVec F S50000x128 .f32) (idx : IVec S400000 32)
    (h62 : W (Proc.devRef .tc main_v62) = h) (h3 : W (Proc.devRef .tc main_v3) = idx) :
    (StableHlo.after hostOps4_1 W (Proc.devRef .tc main_v64) : FVec F S400000x128 .f32) = takeNode h idx := by
  subst h62 h3; exact rdTakeDst2 W

theorem msgInOf (p q : FVec F S400000x128 .f32) (e : FVec F S400000x1 .f32)
    (hp : W (Proc.devRef .tc main_v63) = p) (hq : W (Proc.devRef .tc main_v64) = q) (he : W (Proc.devRef .tc main_arg2) = e) :
    (StableHlo.after hostOps4_2 W (Proc.devRef .tc main_v65) : FVec F S400000x257 .f32)
      = concatenate S400000x257 1 [⟨S400000x128, p⟩, ⟨S400000x128, q⟩, ⟨S400000x1, e⟩] concatenates_S400000x128_S400000x128_S400000x1_S400000x257_d1 := by
  subst hp hq he; exact rdMsgIn2 W

theorem msgW1Of (x5 : FVec F S3x257x128 .f32) (h : W (Proc.devRef .tc main_arg5) = x5) :
    (StableHlo.after hostOps4_2 W (Proc.devRef .tc main_v67) : FVec F S257x128 .f32) = Cert.ReferenceIdeal.Read.val_main_v135 (F := F) x5 := by
  subst h; exact (rdMsgW1 W).trans (sameMsgW1 _)
theorem msgB1Of (x6 : FVec F S3x128 .f32) (h : W (Proc.devRef .tc main_arg6) = x6) :
    (StableHlo.after hostOps4_2 W (Proc.devRef .tc main_v74) : FVec F S1x128 .f32)
      = shapeCast S1x128 (Cert.ReferenceIdeal.Read.val_main_v137 (F := F) x6) shapeCasts_S128_S1x128 := by
  subst h; exact (rdMsgB1 W).trans (congrArg (fun v => shapeCast S1x128 v shapeCasts_S128_S1x128) (sameMsgB1 _))
theorem msgW2Of (x7 : FVec F S3x128x128 .f32) (h : W (Proc.devRef .tc main_arg7) = x7) :
    (StableHlo.after hostOps4_2 W (Proc.devRef .tc main_v71) : FVec F S128x128 .f32) = Cert.ReferenceIdeal.Read.val_main_v144 (F := F) x7 := by
  subst h; exact (rdMsgW2 W).trans (sameMsgW2 _)
theorem msgB2Of (x8 : FVec F S3x128 .f32) (h : W (Proc.devRef .tc main_arg8) = x8) :
    (StableHlo.after hostOps4_2 W (Proc.devRef .tc main_v75) : FVec F S1x128 .f32)
      = shapeCast S1x128 (Cert.ReferenceIdeal.Read.val_main_v146 (F := F) x8) shapeCasts_S128_S1x128 := by
  subst h; exact (rdMsgB2 W).trans (congrArg (fun v => shapeCast S1x128 v shapeCasts_S128_S1x128) (sameMsgB2 _))

theorem aggOf (x1 : IVec S2x400000 32) (msg : FVec F S400000x128 .f32)
    (h3 : W (Proc.devRef .tc main_v3) = dstOf x1) (h76 : W (Proc.devRef .tc main_v76) = msg) :
    (StableHlo.after hostOps5 W (Proc.devRef .tc main_v79) : FVec F S50000x128 .f32)
      = Host.scatterAdd Cert.ReferenceIdeal.scatter_S50000x128_S400000x1_S400000x128_1_0_0_1 (Cert.ReferenceIdeal.Read.val_main_v151 (F := F)) (Cert.ReferenceIdeal.Read.val_main_v152 (F := F) x1) msg := by
  subst h76; refine (rdAgg2 W).trans ?_; rw [h3]; exact sameAgg x1 _

theorem updInOf (h agg : FVec F S50000x128 .f32)
    (h62 : W (Proc.devRef .tc main_v62) = h) (h79 : (StableHlo.after hostOps5 W (Proc.devRef .tc main_v79) : FVec F S50000x128 .f32) = agg) :
    (StableHlo.after hostOps5 W (Proc.devRef .tc main_v80) : FVec F S50000x256 .f32)
      = concatenate Cert.ReferenceIdeal.S50000x256 1 [⟨Cert.ReferenceIdeal.S50000x128, h⟩, ⟨Cert.ReferenceIdeal.S50000x128, agg⟩] Cert.ReferenceIdeal.Gen.concatenates_S50000x128_S50000x128_S50000x256_d1 := by
  subst h62 h79; exact (rdUpdIn2 W).trans (sameUpdIn _ _)

theorem updW1Of (x9 : FVec F S3x256x128 .f32) (h : W (Proc.devRef .tc main_arg9) = x9) :
    (StableHlo.after hostOps5 W (Proc.devRef .tc main_v82) : FVec F S256x128 .f32) = Cert.ReferenceIdeal.Read.val_main_v156 (F := F) x9 := by
  subst h; exact (rdUpdW1 W).trans (sameUpdW1 _)
theorem updB1Of (x10 : FVec F S3x128 .f32) (h : W (Proc.devRef .tc main_arg10) = x10) :
    (StableHlo.after hostOps5 W (Proc.devRef .tc main_v89) : FVec F S1x128 .f32)
      = shapeCast S1x128 (Cert.ReferenceIdeal.Read.val_main_v158 (F := F) x10) shapeCasts_S128_S1x128 := by
  subst h; exact (rdUpdB1 W).trans (congrArg (fun v => shapeCast S1x128 v shapeCasts_S128_S1x128) (sameUpdB1 _))
theorem updW2Of (x11 : FVec F S3x128x128 .f32) (h : W (Proc.devRef .tc main_arg11) = x11) :
    (StableHlo.after hostOps5 W (Proc.devRef .tc main_v86) : FVec F S128x128 .f32) = Cert.ReferenceIdeal.Read.val_main_v165 (F := F) x11 := by
  subst h; exact (rdUpdW2 W).trans (sameUpdW2 _)
theorem updB2Of (x12 : FVec F S3x128 .f32) (h : W (Proc.devRef .tc main_arg12) = x12) :
    (StableHlo.after hostOps5 W (Proc.devRef .tc main_v90) : FVec F S1x128 .f32)
      = shapeCast S1x128 (Cert.ReferenceIdeal.Read.val_main_v167 (F := F) x12) shapeCasts_S128_S1x128 := by
  subst h; exact (rdUpdB2 W).trans (congrArg (fun v => shapeCast S1x128 v shapeCasts_S128_S1x128) (sameUpdB2 _))

end Of

theorem biasRow (v : FVec Ideal S128 .f32) (k : Fin 128) :
    (shapeCast S1x128 v shapeCasts_S128_S1x128 : (⟨2, ![1, 128]⟩ : Shape).Idx → EReal) (ValueIdx.ix2 (0 : Fin 1) k) = v (ValueIdx.ix1 k) :=
  ValueIdx.shapeCast_a_1a_apply v shapeCasts_S128_S1x128 (0 : Fin 1) k

section Layer

variable (m : (ℓ : Loc nD τ sig) → Buf (Elt Ideal) ℓ) (outs : Outs (F := Ideal)) (c : Dev nD)

theorem argAt16 (r : Ref sig .tc) (h1 : r ∉ hostOps0_W := by decide)
    (h2 : r ∉ hostOps0_1_W := by decide) (h3 : r ∉ hostOps0_2_W := by decide) (h4 : r ∉ hostOps0_3_W := by decide)
    (h5 : r ∉ hostOps0_4_W := by decide) (h6 : r ∉ ([main_v18] : List (Ref sig .tc)) := by decide)
    (h7 : r ∉ hostOps1_W := by decide) (h8 : r ∉ ([main_v33] : List (Ref sig .tc)) := by decide)
    (h9 : r ∉ hostOps2_W := by decide) (h10 : r ∉ hostOps2_1_W := by decide) (h11 : r ∉ hostOps2_2_W := by decide)
    (h12 : r ∉ ([main_v47] : List (Ref sig .tc)) := by decide) (h13 : r ∉ hostOps3_W := by decide)
    (h14 : r ∉ ([main_v62] : List (Ref sig .tc)) := by decide)
    (h15 : r ∉ hostOps4_W := by decide) (h16 : r ∉ hostOps4_1_W := by decide) :
    V16 m outs c r = V0 m c r :=
  (keep14to16 m outs c r h15 h16).trans (keep0to14 m outs c r h1 h2 h3 h4 h5 h6 h7 h8 h9 h10 h11 h12 h13 h14)

theorem argAt18 (r : Ref sig .tc) (h1 : r ∉ hostOps0_W := by decide)
    (h2 : r ∉ hostOps0_1_W := by decide) (h3 : r ∉ hostOps0_2_W := by decide) (h4 : r ∉ hostOps0_3_W := by decide)
    (h5 : r ∉ hostOps0_4_W := by decide) (h6 : r ∉ ([main_v18] : List (Ref sig .tc)) := by decide)
    (h7 : r ∉ hostOps1_W := by decide) (h8 : r ∉ ([main_v33] : List (Ref sig .tc)) := by decide)
    (h9 : r ∉ hostOps2_W := by decide) (h10 : r ∉ hostOps2_1_W := by decide) (h11 : r ∉ hostOps2_2_W := by decide)
    (h12 : r ∉ ([main_v47] : List (Ref sig .tc)) := by decide) (h13 : r ∉ hostOps3_W := by decide)
    (h14 : r ∉ ([main_v62] : List (Ref sig .tc)) := by decide)
    (h15 : r ∉ hostOps4_W := by decide) (h16 : r ∉ hostOps4_1_W := by decide)
    (h17 : r ∉ hostOps4_2_W := by decide) (h18 : r ∉ ([main_v76] : List (Ref sig .tc)) := by decide) :
    V18 m outs c r = V0 m c r :=
  (keep14to18 m outs c r h15 h16 h17 h18).trans (keep0to14 m outs c r h1 h2 h3 h4 h5 h6 h7 h8 h9 h10 h11 h12 h13 h14)

theorem srcAt14 : (V14 m outs c main_v1 : IVec S400000 32) = srcOf (A1 m c) :=
  (keep1to14 m outs c main_v1).trans (edgeSrc m c)

theorem dstAt15 : (V15 m outs c main_v3 : IVec S400000 32) = dstOf (A1 m c) :=
  (V15_of m outs c main_v3 (by decide)).trans ((keep1to14 m outs c main_v3).trans (edgeDst m c))

theorem dstAt18 : (V18 m outs c main_v3 : IVec S400000 32) = dstOf (A1 m c) :=
  (keep14to18 m outs c main_v3).trans ((keep1to14 m outs c main_v3).trans (edgeDst m c))

variable (hei : ∀ i : S2x400000.Idx, IntOp.cmpi .sge (A1 m c i) 0#32 = 1#1 ∧ IntOp.cmpi .slt (A1 m c i) 50000#32 = 1#1)
variable (hprev : (V14 m outs c main_v62 : FVec Ideal S50000x128 .f32) = Cert.ReferenceIdeal.Read.val_main_v118 (F := Ideal) (A0 m c) (A1 m c) (A2 m c) (A4 m c) (A5 m c) (A6 m c) (A7 m c) (A8 m c) (A9 m c) (A10 m c) (A11 m c) (A12 m c))

include hprev in

theorem prevAt18 : (V18 m outs c main_v62 : FVec Ideal S50000x128 .f32) = Cert.ReferenceIdeal.Read.val_main_v118 (F := Ideal) (A0 m c) (A1 m c) (A2 m c) (A4 m c) (A5 m c) (A6 m c) (A7 m c) (A8 m c) (A9 m c) (A10 m c) (A11 m c) (A12 m c) :=
  (keep14to18 m outs c main_v62).trans hprev

include hei hprev in

theorem msgInEq : (V17 m outs c main_v65 : FVec Ideal S400000x257 .f32) = Cert.ReferenceIdeal.Read.val_main_v133 (F := Ideal) (A0 m c) (A1 m c) (A2 m c) (A4 m c) (A5 m c) (A6 m c) (A7 m c) (A8 m c) (A9 m c) (A10 m c) (A11 m c) (A12 m c) :=
  (msgInOf (F := Ideal) (V16 m outs c) _ _ _
      ((V16_of m outs c main_v63 (by decide)).trans (takeSrcOf (F := Ideal) (V14 m outs c) _ _ hprev (srcAt14 m outs c)))
      (takeDstOf (F := Ideal) (V15 m outs c) _ _ ((V15_of m outs c main_v62 (by decide)).trans hprev) (dstAt15 m outs c))
      (argAt16 m outs c main_arg2)).trans
    (sameMsgIn (F := Ideal) _ (A1 m c) (A2 m c) hei)

theorem msgW1Eq : (V17 m outs c main_v67 : FVec Ideal S257x128 .f32) = Cert.ReferenceIdeal.Read.val_main_v135 (F := Ideal) (A5 m c) :=
  msgW1Of (F := Ideal) (V16 m outs c) (A5 m c) (argAt16 m outs c main_arg5)
theorem msgB1Eq : (V17 m outs c main_v74 : FVec Ideal S1x128 .f32) = shapeCast S1x128 (Cert.ReferenceIdeal.Read.val_main_v137 (F := Ideal) (A6 m c)) shapeCasts_S128_S1x128 :=
  msgB1Of (F := Ideal) (V16 m outs c) (A6 m c) (argAt16 m outs c main_arg6)
theorem msgW2Eq : (V17 m outs c main_v71 : FVec Ideal S128x128 .f32) = Cert.ReferenceIdeal.Read.val_main_v144 (F := Ideal) (A7 m c) :=
  msgW2Of (F := Ideal) (V16 m outs c) (A7 m c) (argAt16 m outs c main_arg7)
theorem msgB2Eq : (V17 m outs c main_v75 : FVec Ideal S1x128 .f32) = shapeCast S1x128 (Cert.ReferenceIdeal.Read.val_main_v146 (F := Ideal) (A8 m c)) shapeCasts_S128_S1x128 :=
  msgB2Of (F := Ideal) (V16 m outs c) (A8 m c) (argAt16 m outs c main_arg8)

variable (hmsg : ∀ (i : Fin 400000) (j : Fin 128), (outs 18 main_v76 c : FVec Ideal S400000x128 .f32) (ValueIdx.ix2 i j)
      = Cert.Spec.mlpAt (R := 400000) (K := 257) (H := 128) (O := 128) (V17 m outs c main_v65) (V17 m outs c main_v67) (V17 m outs c main_v74)
          (V17 m outs c main_v71) (V17 m outs c main_v75) i j)

include hei hprev hmsg in

theorem msgAt (i : Fin 400000) (j : Fin 128) :
    (outs 18 main_v76 c : FVec Ideal S400000x128 .f32) (ValueIdx.ix2 i j) = Cert.ReferenceIdeal.Read.val_main_v150 (F := Ideal) (A0 m c) (A1 m c) (A2 m c) (A4 m c) (A5 m c) (A6 m c) (A7 m c) (A8 m c) (A9 m c) (A10 m c) (A11 m c) (A12 m c) (ValueIdx.ix2 i j) := by
  rw [hmsg i j, msgInEq m outs c hei hprev, msgW1Eq m outs c, msgB1Eq m outs c, msgW2Eq m outs c, msgB2Eq m outs c]
  exact (refMsg2 (A0 m c) (A1 m c) (A2 m c) (A4 m c) (A5 m c) (A6 m c) (A7 m c) (A8 m c) (A9 m c) (A10 m c) (A11 m c) (A12 m c) _ _ (biasRow _) (biasRow _) i j).symm

include hei hprev hmsg in

theorem msgEq : (outs 18 main_v76 c : FVec Ideal S400000x128 .f32) = Cert.ReferenceIdeal.Read.val_main_v150 (F := Ideal) (A0 m c) (A1 m c) (A2 m c) (A4 m c) (A5 m c) (A6 m c) (A7 m c) (A8 m c) (A9 m c) (A10 m c) (A11 m c) (A12 m c) :=
  funext fun j : S400000x128.Idx => by
    rw [ValueIdx.eq_ix2 j]
    exact msgAt m outs c hei hprev hmsg (j 0) (j 1)

include hei hprev hmsg in

theorem aggEq : (V19 m outs c main_v79 : FVec Ideal S50000x128 .f32) = Cert.ReferenceIdeal.Read.val_main_v153 (F := Ideal) (A0 m c) (A1 m c) (A2 m c) (A4 m c) (A5 m c) (A6 m c) (A7 m c) (A8 m c) (A9 m c) (A10 m c) (A11 m c) (A12 m c) :=
  aggOf (F := Ideal) (V18 m outs c) (A1 m c) _ (dstAt18 m outs c)
    ((Function.update_self (Proc.devRef .tc main_v76) (outs 18 main_v76 c) (V17 m outs c)).trans (msgEq m outs c hei hprev hmsg))

include hei hprev hmsg in

theorem updInEq : (V19 m outs c main_v80 : FVec Ideal S50000x256 .f32) = Cert.ReferenceIdeal.Read.val_main_v154 (F := Ideal) (A0 m c) (A1 m c) (A2 m c) (A4 m c) (A5 m c) (A6 m c) (A7 m c) (A8 m c) (A9 m c) (A10 m c) (A11 m c) (A12 m c) :=
  updInOf (F := Ideal) (V18 m outs c) _ _ (prevAt18 m outs c hprev) (aggEq m outs c hei hprev hmsg)

theorem updW1Eq : (V19 m outs c main_v82 : FVec Ideal S256x128 .f32) = Cert.ReferenceIdeal.Read.val_main_v156 (F := Ideal) (A9 m c) :=
  updW1Of (F := Ideal) (V18 m outs c) (A9 m c) (argAt18 m outs c main_arg9)
theorem updB1Eq : (V19 m outs c main_v89 : FVec Ideal S1x128 .f32) = shapeCast S1x128 (Cert.ReferenceIdeal.Read.val_main_v158 (F := Ideal) (A10 m c)) shapeCasts_S128_S1x128 :=
  updB1Of (F := Ideal) (V18 m outs c) (A10 m c) (argAt18 m outs c main_arg10)
theorem updW2Eq : (V19 m outs c main_v86 : FVec Ideal S128x128 .f32) = Cert.ReferenceIdeal.Read.val_main_v165 (F := Ideal) (A11 m c) :=
  updW2Of (F := Ideal) (V18 m outs c) (A11 m c) (argAt18 m outs c main_arg11)
theorem updB2Eq : (V19 m outs c main_v90 : FVec Ideal S1x128 .f32) = shapeCast S1x128 (Cert.ReferenceIdeal.Read.val_main_v167 (F := Ideal) (A12 m c)) shapeCasts_S128_S1x128 :=
  updB2Of (F := Ideal) (V18 m outs c) (A12 m c) (argAt18 m outs c main_arg12)

end Layer

end Cert.Hand.Bridge.L2

namespace Cert.Hand.Bridge

open Idealize.ShloMosaic Idealize.ShloMosaic.TcCoe
open Cert.KernelIdeal Cert.KernelIdeal.Gen Cert.KernelIdeal.Hand
open Cert.Hand.Bridge.L2

section Layer2

variable (m : (ℓ : Loc nD τ sig) → Buf (Elt Ideal) ℓ) (outs : Outs (F := Ideal)) (c : Dev nD)

abbrev resid2 : FVec Ideal S50000x128 .f32 := V19 m outs c main_v62

theorem layer2
    (hz : ∀ i : S50000.Idx, IntOp.cmpi .sge (A0 m c i) 0#32 = 1#1 ∧ IntOp.cmpi .slt (A0 m c i) 101#32 = 1#1)
    (hei : ∀ i : S2x400000.Idx, IntOp.cmpi .sge (A1 m c i) 0#32 = 1#1 ∧ IntOp.cmpi .slt (A1 m c i) 50000#32 = 1#1)
    (hprev : (V14 m outs c main_v62 : FVec Ideal S50000x128 .f32) = Cert.ReferenceIdeal.Read.val_main_v118 (F := Ideal) (A0 m c) (A1 m c) (A2 m c) (A4 m c) (A5 m c) (A6 m c) (A7 m c) (A8 m c) (A9 m c) (A10 m c) (A11 m c) (A12 m c))
    (hmsg : ∀ (i : Fin 400000) (j : Fin 128), (outs 18 main_v76 c : FVec Ideal S400000x128 .f32) (ValueIdx.ix2 i j)
      = Cert.Spec.mlpAt (R := 400000) (K := 257) (H := 128) (O := 128) (V17 m outs c main_v65) (V17 m outs c main_v67) (V17 m outs c main_v74)
          (V17 m outs c main_v71) (V17 m outs c main_v75) i j)
    (hupd : ∀ (i : Fin 50000) (j : Fin 128), (outs 20 main_v91 c : FVec Ideal S50000x128 .f32) (ValueIdx.ix2 i j)
      = resid2 m outs c (ValueIdx.ix2 i j)
        + Cert.Spec.mlpAt (R := 50000) (K := 256) (H := 128) (O := 128) (V19 m outs c main_v80) (V19 m outs c main_v82) (V19 m outs c main_v89)
            (V19 m outs c main_v86) (V19 m outs c main_v90) i j) :
    (V20 m outs c main_v91 : FVec Ideal S50000x128 .f32) = Cert.ReferenceIdeal.Read.val_main_v172 (F := Ideal) (A0 m c) (A1 m c) (A2 m c) (A4 m c) (A5 m c) (A6 m c) (A7 m c) (A8 m c) (A9 m c) (A10 m c) (A11 m c) (A12 m c) := by
  refine (Function.update_self (Proc.devRef .tc main_v91) (outs 20 main_v91 c) (V19 m outs c)).trans ?_
  funext idx
  obtain ⟨i, j, rfl⟩ : ∃ (i : Fin 50000) (j : Fin 128), idx = ValueIdx.ix2 i j := ⟨idx 0, idx 1, ValueIdx.eq_ix2 idx⟩
  rw [hupd i j, show resid2 m outs c = _ from (V19_of m outs c main_v62 (by decide)).trans (prevAt18 m outs c hprev),
    updInEq m outs c hei hprev hmsg, updW1Eq m outs c, updB1Eq m outs c, updW2Eq m outs c, updB2Eq m outs c]
  exact (refUpd2 (A0 m c) (A1 m c) (A2 m c) (A4 m c) (A5 m c) (A6 m c) (A7 m c) (A8 m c) (A9 m c) (A10 m c) (A11 m c) (A12 m c) _ _ (biasRow _) (biasRow _) i j).symm

end Layer2

end Cert.Hand.Bridge

end
-- ==== Proof.Bridge.Tail.lean ====
import proofs.«407354_j16939351015862_1_alg».proof.Proof.Gen.KernelIdeal.Regions
import proofs.«407354_j16939351015862_1_alg».proof.Proof.Ref.ReadP
import Idealize.ShloMosaic.Lib.StableHlo.Run

set_option maxRecDepth 4096

noncomputable section

namespace Cert.Hand.Bridge

open Cert.KernelIdeal Cert.KernelIdeal.Gen
open Idealize.ShloMosaic Idealize.ShloMosaic.TcCoe Idealize.ShloMosaic.StableHlo

namespace Tail

section AnyInstance

variable {F : FTy → Type} [FloatOps F]

def poolSum (h : FVec F S50000x128 .f32) (g : IVec S50000 32) : FVec F S64x128 .f32 :=
  Host.scatterAdd scatter_S64x128_S50000x1_S50000x128_1_0_0_1
    (broadcastInDim S64x128 ![] bcast_S_S64x128 (constant S_ .f32 0x00000000#32))
    (broadcastInDim S50000x1 ![0] bcast_S50000_S50000x1_0 g) h

def poolCount (g : IVec S50000 32) : FVec F S64x1 .f32 :=
  maximumf
    (Host.scatterAdd scatter_S64x1_S50000x1_S50000x1_1_0_0_1
      (broadcastInDim S64x1 ![] bcast_S_S64x1 (constant S_ .f32 0x00000000#32))
      (broadcastInDim S50000x1 ![0] bcast_S50000_S50000x1_0 g)
      (broadcastInDim S50000x1 ![] bcast_S_S50000x1 (constant S_ .f32 0x3F800000#32)))
    (broadcastInDim S64x1 ![] bcast_S_S64x1 (constant S_ .f32 0x3F800000#32))

def poolMean (h : FVec F S50000x128 .f32) (g : IVec S50000 32) : FVec F S64x128 .f32 :=
  Host.divf (poolSum h g) (broadcastInDim S64x128 ![0, 1] bcast_S64x1_S64x128_0_1 (poolCount (F := F) g))

def headOf (p : FVec F S64x128 .f32) (w1 : FVec F S128x128 .f32) (b1 : FVec F S128 .f32) (w2 : FVec F S128x1 .f32)
    (b2 : FVec F S1 .f32) : FVec F S64x1 .f32 :=
  addf
    (Host.dotGeneral dot_S64x128_S128x1_S64x1_1_0_0_1_n_n none
      (maximumf
        (addf (Host.dotGeneral dot_S64x128_S128x128_S64x128_1_0_0_1_n_n none p w1)
          (broadcastInDim S64x128 ![0, 1] bcast_S1x128_S64x128_0_1 (broadcastInDim S1x128 ![1] bcast_S128_S1x128_1 b1)))
        (broadcastInDim S64x128 ![] bcast_S_S64x128 (constant S_ .f32 0x00000000#32)))
      w2)
    (broadcastInDim S64x1 ![0, 1] bcast_S1x1_S64x1_0_1 (broadcastInDim S1x1 ![1] bcast_S1_S1x1_1 b2))

def pooledHead (h : FVec F S50000x128 .f32) (g : IVec S50000 32) (w1 : FVec F S128x128 .f32) (b1 : FVec F S128 .f32)
    (w2 : FVec F S128x1 .f32) (b2 : FVec F S1 .f32) : FVec F S64x1 .f32 :=
  headOf (poolMean h g) w1 b1 w2 b2

variable (m : (ℓ : Loc nD τ sig) → Buf (Elt F) ℓ) (outs : Outs (F := F)) (c : Dev nD)

theorem tail_readG (W : Valuation τ sig (Elt F)) :
    (StableHlo.after hostOps6 W (Proc.devRef .tc main_v112) : FVec F S64x1 .f32)
      = pooledHead (W main_v91) (W main_arg3) (W main_arg13) (W main_arg14) (W main_arg15) (W main_arg16) := by
  after_results_simp
  rfl

theorem tail_kernel :
    (V21 m outs c main_v112 : FVec F S64x1 .f32)
      = pooledHead (V20 m outs c main_v91) (V20 m outs c main_arg3) (V20 m outs c main_arg13) (V20 m outs c main_arg14)
          (V20 m outs c main_arg15) (V20 m outs c main_arg16) :=
  tail_readG (V20 m outs c)

theorem tail_arg3 : V20 m outs c main_arg3 = m ((c.tc : Thread nD τ).loc main_arg3) :=
  (V21_of m outs c main_arg3 (by decide)).symm.trans (V21_main_arg3 m outs c)
theorem tail_arg13 : V20 m outs c main_arg13 = m ((c.tc : Thread nD τ).loc main_arg13) :=
  (V21_of m outs c main_arg13 (by decide)).symm.trans (V21_main_arg13 m outs c)
theorem tail_arg14 : V20 m outs c main_arg14 = m ((c.tc : Thread nD τ).loc main_arg14) :=
  (V21_of m outs c main_arg14 (by decide)).symm.trans (V21_main_arg14 m outs c)
theorem tail_arg15 : V20 m outs c main_arg15 = m ((c.tc : Thread nD τ).loc main_arg15) :=
  (V21_of m outs c main_arg15 (by decide)).symm.trans (V21_main_arg15 m outs c)
theorem tail_arg16 : V20 m outs c main_arg16 = m ((c.tc : Thread nD τ).loc main_arg16) :=
  (V21_of m outs c main_arg16 (by decide)).symm.trans (V21_main_arg16 m outs c)

theorem tail_ref
    (x0 : (⟨S50000, .i32⟩ : BufTy).Contents (Elt F)) (x1 : (⟨S2x400000, .i32⟩ : BufTy).Contents (Elt F))
    (x2 : (⟨S400000x1, .f32⟩ : BufTy).Contents (Elt F)) (x3 : (⟨S50000, .i32⟩ : BufTy).Contents (Elt F))
    (x4 : (⟨S101x128, .f32⟩ : BufTy).Contents (Elt F)) (x5 : (⟨S3x257x128, .f32⟩ : BufTy).Contents (Elt F))
    (x6 : (⟨S3x128, .f32⟩ : BufTy).Contents (Elt F)) (x7 : (⟨S3x128x128, .f32⟩ : BufTy).Contents (Elt F))
    (x8 : (⟨S3x128, .f32⟩ : BufTy).Contents (Elt F)) (x9 : (⟨S3x256x128, .f32⟩ : BufTy).Contents (Elt F))
    (x10 : (⟨S3x128, .f32⟩ : BufTy).Contents (Elt F)) (x11 : (⟨S3x128x128, .f32⟩ : BufTy).Contents (Elt F))
    (x12 : (⟨S3x128, .f32⟩ : BufTy).Contents (Elt F)) (x13 : (⟨S128x128, .f32⟩ : BufTy).Contents (Elt F))
    (x14 : (⟨S128, .f32⟩ : BufTy).Contents (Elt F)) (x15 : (⟨S128x1, .f32⟩ : BufTy).Contents (Elt F))
    (x16 : (⟨S1, .f32⟩ : BufTy).Contents (Elt F)) :
    Cert.ReferenceIdeal.Read.val_main_v192 (F := F) x0 x1 x2 x3 x4 x5 x6 x7 x8 x9 x10 x11 x12 x13 x14 x15 x16
      = pooledHead (Cert.ReferenceIdeal.Read.val_main_v172 (F := F) x0 x1 x2 x4 x5 x6 x7 x8 x9 x10 x11 x12) x3 x13 x14 x15 x16 :=
  rfl

end AnyInstance

end Tail

open Tail

theorem tail (m : (ℓ : Loc nD τ sig) → Buf (Elt Ideal) ℓ) (outs : Outs (F := Ideal)) (c : Dev nD)
    (hprev : (V20 m outs c main_v91 : S50000x128.Idx → EReal)
      = Cert.ReferenceIdeal.Read.val_main_v172 (F := Ideal)
          (m ((c.tc : Thread nD τ).loc main_arg0)) (m ((c.tc : Thread nD τ).loc main_arg1)) (m ((c.tc : Thread nD τ).loc main_arg2))
          (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) (m ((c.tc : Thread nD τ).loc main_arg9))
          (m ((c.tc : Thread nD τ).loc main_arg10)) (m ((c.tc : Thread nD τ).loc main_arg11)) (m ((c.tc : Thread nD τ).loc main_arg12))) :
    (V21 m outs c main_v112 : S64x1.Idx → EReal)
      = Cert.ReferenceIdeal.Read.val_main_v192 (F := Ideal)
          (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14))
          (m ((c.tc : Thread nD τ).loc main_arg15)) (m ((c.tc : Thread nD τ).loc main_arg16)) := by
  refine (tail_kernel m outs c).trans ?_
  rw [tail_ref, hprev, tail_arg3, tail_arg13, tail_arg14, tail_arg15, tail_arg16]

end Cert.Hand.Bridge

end
-- ==== Proof.Bridge.Final.lean ====
import proofs.«407354_j16939351015862_1_alg».proof.Defs
import proofs.«407354_j16939351015862_1_alg».proof.Proof.Gen.Pre_finite_inputs
import proofs.«407354_j16939351015862_1_alg».proof.Proof.KI.Run
import proofs.«407354_j16939351015862_1_alg».proof.Proof.KI.MsgArr
import proofs.«407354_j16939351015862_1_alg».proof.Proof.KI.MsgArr2
import proofs.«407354_j16939351015862_1_alg».proof.Proof.KI.MsgArr4
import proofs.«407354_j16939351015862_1_alg».proof.Proof.KI.UpdArr
import proofs.«407354_j16939351015862_1_alg».proof.Proof.KI.UpdArr3
import proofs.«407354_j16939351015862_1_alg».proof.Proof.KI.UpdArr5
import proofs.«407354_j16939351015862_1_alg».proof.Proof.Pre.Range
import proofs.«407354_j16939351015862_1_alg».proof.Proof.Bridge.Layer0b
import proofs.«407354_j16939351015862_1_alg».proof.Proof.Bridge.Layer1
import proofs.«407354_j16939351015862_1_alg».proof.Proof.Bridge.Layer2
import proofs.«407354_j16939351015862_1_alg».proof.Proof.Bridge.Tail

set_option maxRecDepth 16384

noncomputable section

namespace Cert.Hand.Bridge

open Cert.KernelIdeal Cert.KernelIdeal.Gen Cert.KernelIdeal.Hand
open Idealize.ShloMosaic Idealize.ShloMosaic.TcCoe Idealize.SL.Sem

variable (m : (ℓ : Loc nD τ sig) → Buf (Elt Ideal) ℓ)

abbrev res4 (W : Valuation τ sig (Elt Ideal)) : FVec Ideal S50000x128 .f32 := W main_v4
abbrev res33 (W : Valuation τ sig (Elt Ideal)) : FVec Ideal S50000x128 .f32 := W main_v33
abbrev res62 (W : Valuation τ sig (Elt Ideal)) : FVec Ideal S50000x128 .f32 := W main_v62

theorem result_eq (hpre : Cert.Pre_KernelIdeal m) (c : Dev nD) :
    (X21 m c main_v112 : FVec Ideal S64x1 .f32) = Cert.ReferenceIdeal.Read.val_main_v192 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  obtain ⟨hz, hei⟩ := Cert.Hand.Pre.ranges _ _ _ _ _ _ _ _ _ _ _ _ _ _ _ _ _ (hpre c)

  have hl6 : outs m 6 main_v18 c = o6 m c := by
    show Function.update (V5 m c) main_v18 (o6 m c) main_v18 = _
    exact Function.update_self (β := fun b : DevRef τ sig => b.ty.Contents (Elt Ideal)) (Proc.devRef .tc main_v18) (o6 m c) (V5 m c)
  have key6 : ∀ (W : Valuation τ sig (Elt Ideal)), W = V5 m c → ∀ (i : Fin 400000) (j : Fin 128),
      (o6 m c : FVec Ideal S400000x128 .f32) (ValueIdx.ix2 i j)
        = Cert.Spec.mlpAt (R := 400000) (K := 257) (H := 128) (O := 128) (W main_v7) (W main_v9) (W main_v16) (W main_v13) (W main_v17) i j := by
    rintro W rfl i j; exact msgArr0 (atTc (V5 m)) c i j
  have hm6 : ∀ (i : Fin 400000) (j : Fin 128), (outs m 6 main_v18 c : FVec Ideal S400000x128 .f32) (ValueIdx.ix2 i j)
      = Cert.Spec.mlpAt (R := 400000) (K := 257) (H := 128) (O := 128) (V5 m c main_v7) (V5 m c main_v9) (V5 m c main_v16) (V5 m c main_v13) (V5 m c main_v17) i j :=
    fun i j => by rw [hl6]; exact key6 _ (rfl) i j
  have hl8 : outs m 8 main_v33 c = o8 m c := by
    show Function.update (X7 m c) main_v33 (o8 m c) main_v33 = _
    exact Function.update_self (β := fun b : DevRef τ sig => b.ty.Contents (Elt Ideal)) (Proc.devRef .tc main_v33) (o8 m c) (X7 m c)
  have key8 : ∀ (W : Valuation τ sig (Elt Ideal)), W = X7 m c → ∀ (i : Fin 50000) (j : Fin 128),
      (o8 m c : FVec Ideal S50000x128 .f32) (ValueIdx.ix2 i j)
        = res4 W (ValueIdx.ix2 i j)
          + Cert.Spec.mlpAt (R := 50000) (K := 256) (H := 128) (O := 128) (W main_v22) (W main_v24) (W main_v31) (W main_v28) (W main_v32) i j := by
    rintro W rfl i j; exact updArr1 (atTc (X7 m)) c i j
  have hu8 : ∀ (i : Fin 50000) (j : Fin 128), (outs m 8 main_v33 c : FVec Ideal S50000x128 .f32) (ValueIdx.ix2 i j)
      = res4 (V7 m (outs m) c) (ValueIdx.ix2 i j)
        + Cert.Spec.mlpAt (R := 50000) (K := 256) (H := 128) (O := 128) (V7 m (outs m) c main_v22) (V7 m (outs m) c main_v24) (V7 m (outs m) c main_v31) (V7 m (outs m) c main_v28) (V7 m (outs m) c main_v32) i j :=
    fun i j => by rw [hl8]; exact key8 _ (V7_eq m c) i j
  have h1 := layer0 m (outs m) c hz hei hm6 hu8
  have hl12 : outs m 12 main_v47 c = o12 m c := by
    show Function.update (X11 m c) main_v47 (o12 m c) main_v47 = _
    exact Function.update_self (β := fun b : DevRef τ sig => b.ty.Contents (Elt Ideal)) (Proc.devRef .tc main_v47) (o12 m c) (X11 m c)
  have key12 : ∀ (W : Valuation τ sig (Elt Ideal)), W = X11 m c → ∀ (i : Fin 400000) (j : Fin 128),
      (o12 m c : FVec Ideal S400000x128 .f32) (ValueIdx.ix2 i j)
        = Cert.Spec.mlpAt (R := 400000) (K := 257) (H := 128) (O := 128) (W main_v36) (W main_v38) (W main_v45) (W main_v42) (W main_v46) i j := by
    rintro W rfl i j; exact msgArr2 (atTc (X11 m)) c i j
  have hm12 : ∀ (i : Fin 400000) (j : Fin 128), (outs m 12 main_v47 c : FVec Ideal S400000x128 .f32) (ValueIdx.ix2 i j)
      = Cert.Spec.mlpAt (R := 400000) (K := 257) (H := 128) (O := 128) (V11 m (outs m) c main_v36) (V11 m (outs m) c main_v38) (V11 m (outs m) c main_v45) (V11 m (outs m) c main_v42) (V11 m (outs m) c main_v46) i j :=
    fun i j => by rw [hl12]; exact key12 _ (V11_eq m c) i j
  have hl14 : outs m 14 main_v62 c = o14 m c := by
    show Function.update (X13 m c) main_v62 (o14 m c) main_v62 = _
    exact Function.update_self (β := fun b : DevRef τ sig => b.ty.Contents (Elt Ideal)) (Proc.devRef .tc main_v62) (o14 m c) (X13 m c)
  have key14 : ∀ (W : Valuation τ sig (Elt Ideal)), W = X13 m c → ∀ (i : Fin 50000) (j : Fin 128),
      (o14 m c : FVec Ideal S50000x128 .f32) (ValueIdx.ix2 i j)
        = res33 W (ValueIdx.ix2 i j)
          + Cert.Spec.mlpAt (R := 50000) (K := 256) (H := 128) (O := 128) (W main_v51) (W main_v53) (W main_v60) (W main_v57) (W main_v61) i j := by
    rintro W rfl i j; exact updArr3 (atTc (X13 m)) c i j
  have hu14 : ∀ (i : Fin 50000) (j : Fin 128), (outs m 14 main_v62 c : FVec Ideal S50000x128 .f32) (ValueIdx.ix2 i j)
      = res33 (V13 m (outs m) c) (ValueIdx.ix2 i j)
        + Cert.Spec.mlpAt (R := 50000) (K := 256) (H := 128) (O := 128) (V13 m (outs m) c main_v51) (V13 m (outs m) c main_v53) (V13 m (outs m) c main_v60) (V13 m (outs m) c main_v57) (V13 m (outs m) c main_v61) i j :=
    fun i j => by rw [hl14]; exact key14 _ (V13_eq m c) i j
  have h2 := layer1 m (outs m) c hz hei h1 hm12 hu14
  have hl18 : outs m 18 main_v76 c = o18 m c := by
    show Function.update (X17 m c) main_v76 (o18 m c) main_v76 = _
    exact Function.update_self (β := fun b : DevRef τ sig => b.ty.Contents (Elt Ideal)) (Proc.devRef .tc main_v76) (o18 m c) (X17 m c)
  have key18 : ∀ (W : Valuation τ sig (Elt Ideal)), W = X17 m c → ∀ (i : Fin 400000) (j : Fin 128),
      (o18 m c : FVec Ideal S400000x128 .f32) (ValueIdx.ix2 i j)
        = Cert.Spec.mlpAt (R := 400000) (K := 257) (H := 128) (O := 128) (W main_v65) (W main_v67) (W main_v74) (W main_v71) (W main_v75) i j := by
    rintro W rfl i j; exact msgArr4 (atTc (X17 m)) c i j
  have hm18 : ∀ (i : Fin 400000) (j : Fin 128), (outs m 18 main_v76 c : FVec Ideal S400000x128 .f32) (ValueIdx.ix2 i j)
      = Cert.Spec.mlpAt (R := 400000) (K := 257) (H := 128) (O := 128) (V17 m (outs m) c main_v65) (V17 m (outs m) c main_v67) (V17 m (outs m) c main_v74) (V17 m (outs m) c main_v71) (V17 m (outs m) c main_v75) i j :=
    fun i j => by rw [hl18]; exact key18 _ (V17_eq m c) i j
  have hl20 : outs m 20 main_v91 c = o20 m c := by
    show Function.update (X19 m c) main_v91 (o20 m c) main_v91 = _
    exact Function.update_self (β := fun b : DevRef τ sig => b.ty.Contents (Elt Ideal)) (Proc.devRef .tc main_v91) (o20 m c) (X19 m c)
  have key20 : ∀ (W : Valuation τ sig (Elt Ideal)), W = X19 m c → ∀ (i : Fin 50000) (j : Fin 128),
      (o20 m c : FVec Ideal S50000x128 .f32) (ValueIdx.ix2 i j)
        = res62 W (ValueIdx.ix2 i j)
          + Cert.Spec.mlpAt (R := 50000) (K := 256) (H := 128) (O := 128) (W main_v80) (W main_v82) (W main_v89) (W main_v86) (W main_v90) i j := by
    rintro W rfl i j; exact updArr5 (atTc (X19 m)) c i j
  have hu20 : ∀ (i : Fin 50000) (j : Fin 128), (outs m 20 main_v91 c : FVec Ideal S50000x128 .f32) (ValueIdx.ix2 i j)
      = res62 (V19 m (outs m) c) (ValueIdx.ix2 i j)
        + Cert.Spec.mlpAt (R := 50000) (K := 256) (H := 128) (O := 128) (V19 m (outs m) c main_v80) (V19 m (outs m) c main_v82) (V19 m (outs m) c main_v89) (V19 m (outs m) c main_v86) (V19 m (outs m) c main_v90) i j :=
    fun i j => by rw [hl20]; exact key20 _ (V19_eq m c) i j
  have h3 := layer2 m (outs m) c hz hei h2 hm18 hu20
  have h4 := tail m (outs m) c h3
  rw [V21_eq] at h4
  exact h4

end Cert.Hand.Bridge

end
-- ==== Proof.Ref.RunHand1.lean ====
import proofs.«407354_j16939351015862_1_alg».proof.Proof.Gen.ReferenceIdeal
import Idealize.ShloMosaic.Lib.StableHlo.Run
import Idealize.ShloMosaic.Lib.Pipeline.Frame

/-! The reference's @main as ten consecutive lists of operations; each list writes only the references it names and leaves every other one as it was. -/

set_option maxRecDepth 8192

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

abbrev L0 : List (HloOp τ sig (Elt F)) :=
  [
    unary main_arg1 main_v0 (extractStridedSlice S1x400000 ![0, 0] · slices_S2x400000_S1x400000_0_0),
    reshape main_v0 main_v1 rfl shapeCasts_S1x400000_S400000,
    unary main_arg1 main_v2 (extractStridedSlice S1x400000 ![1, 0] · slices_S2x400000_S1x400000_1_0),
    reshape main_v2 main_v3 rfl shapeCasts_S1x400000_S400000,
    nullary main_c (constantI S_ 32 0#32),
    unary main_c main_v4 (broadcastInDim S50000 ![] bcast_S_S50000),
    binary main_arg0 main_v4 main_v5 (cmpi .slt),
    nullary main_c_0 (constantI S_ 32 101#32),
    unary main_c_0 main_v6 (broadcastInDim S50000 ![] bcast_S_S50000),
    binary main_arg0 main_v6 main_v7 (addi),
    ternary main_v5 main_v7 main_arg0 main_v8 (select),
    unary main_v8 main_v9 (broadcastInDim S50000x1 ![0] bcast_S50000_S50000x1_0),
    binary main_arg4 main_v9 main_v10 (fun x i => Host.gather gather_S101x128_S50000x1_S50000x128_1_0_n_n_0_1_1128 x i),
    nullary main_c_1 (constantI S_ 32 0#32),
    unary main_c_1 main_v11 (broadcastInDim S400000 ![] bcast_S_S400000),
    binary main_v1 main_v11 main_v12 (cmpi .slt),
    nullary main_c_2 (constantI S_ 32 50000#32),
    unary main_c_2 main_v13 (broadcastInDim S400000 ![] bcast_S_S400000),
    binary main_v1 main_v13 main_v14 (addi),
    ternary main_v12 main_v14 main_v1 main_v15 (select),
    unary main_v15 main_v16 (broadcastInDim S400000x1 ![0] bcast_S400000_S400000x1_0),
    binary main_v10 main_v16 main_v17 (fun x i => Host.gather gather_S50000x128_S400000x1_S400000x128_1_0_n_n_0_1_1128 x i),
    nullary main_c_3 (constantI S_ 32 0#32),
    unary main_c_3 main_v18 (broadcastInDim S400000 ![] bcast_S_S400000),
    binary main_v3 main_v18 main_v19 (cmpi .slt),
    nullary main_c_4 (constantI S_ 32 50000#32),
    unary main_c_4 main_v20 (broadcastInDim S400000 ![] bcast_S_S400000),
    binary main_v3 main_v20 main_v21 (addi),
    ternary main_v19 main_v21 main_v3 main_v22 (select),
    unary main_v22 main_v23 (broadcastInDim S400000x1 ![0] bcast_S400000_S400000x1_0),
    binary main_v10 main_v23 main_v24 (fun x i => Host.gather gather_S50000x128_S400000x1_S400000x128_1_0_n_n_0_1_1128 x i) ]

theorem L0_sub : (L0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem L0_fresh : (L0 : List (HloOp τ sig (Elt F))).Forall fun op => op.fresh = ∅ := by
  simp only [List.Forall]; repeat' constructor

abbrev L0_W : List (Ref sig .tc) := [main_v0, main_v1, main_v2, main_v3, main_c, main_v4, main_v5, main_c_0, main_v6, main_v7, main_v8, main_v9, main_v10, main_c_1, main_v11, main_v12, main_c_2, main_v13, main_v14, main_v15, main_v16, main_v17, main_c_3, main_v18, main_v19, main_c_4, main_v20, main_v21, main_v22, main_v23, main_v24]

theorem L0_writes : (L0 : List (HloOp τ sig (Elt F))).Forall fun op => op.writes ⊆ (L0_W.map (Proc.devRef (τ := τ) .tc)).toFinset := by
  simp only [List.Forall, nullary_writes, unary_writes, binary_writes, ternary_writes, quaternary_writes, reshape_writes, binaryIndexed_writes, unaryIndexed_writes, nary_writes, Finset.singleton_subset_iff, List.mem_toFinset]
  repeat' apply And.intro
  all_goals exact List.mem_map_of_mem (by decide)

theorem L0_keep (W : Valuation τ sig (Elt F)) (r : Ref sig .tc) (h : r ∉ L0_W) :
    after L0 W (Proc.devRef .tc r) = W (Proc.devRef .tc r) :=
  after_of_writes_sub L0 W L0_writes h

abbrev L1 : List (HloOp τ sig (Elt F)) :=
  [
    nary ![main_v17, main_v24, main_arg2] main_v25 (fun u => concatenate S400000x257 1 [⟨S400000x128, u 0⟩, ⟨S400000x128, u 1⟩, ⟨S400000x1, u 2⟩] concatenates_S400000x128_S400000x128_S400000x1_S400000x257_d1),
    unary main_arg5 main_v26 (extractStridedSlice S1x257x128 ![0, 0, 0] · slices_S3x257x128_S1x257x128_0_0_0),
    reshape main_v26 main_v27 rfl shapeCasts_S1x257x128_S257x128,
    unary main_arg6 main_v28 (extractStridedSlice S1x128 ![0, 0] · slices_S3x128_S1x128_0_0),
    reshape main_v28 main_v29 rfl shapeCasts_S1x128_S128,
    binary main_v25 main_v27 main_v30 (fun l r => Host.dotGeneral dot_S400000x257_S257x128_S400000x128_1_0_0_1_n_n none l r),
    unary main_v29 main_v31 (broadcastInDim S1x128 ![1] bcast_S128_S1x128_1),
    unary main_v31 main_v32 (broadcastInDim S400000x128 ![0, 1] bcast_S1x128_S400000x128_0_1),
    binary main_v30 main_v32 main_v33 (addf),
    TRef.nullary (TRef.of (T := ⟨S_, .f32⟩) main_call0_cst) (constant S_ .f32 0x00000000#32),
    TRef.unary (TRef.of (T := ⟨S_, .f32⟩) main_call0_cst) (TRef.of (T := ⟨S400000x128, .f32⟩) main_call0_v0) (broadcastInDim S400000x128 ![] bcast_S_S400000x128),
    TRef.binary (TRef.of (T := ⟨S400000x128, .f32⟩) main_v33) (TRef.of (T := ⟨S400000x128, .f32⟩) main_call0_v0) (TRef.of (T := ⟨S400000x128, .f32⟩) main_v34) maximumf,
    unary main_arg7 main_v35 (extractStridedSlice S1x128x128 ![0, 0, 0] · slices_S3x128x128_S1x128x128_0_0_0),
    reshape main_v35 main_v36 rfl shapeCasts_S1x128x128_S128x128,
    unary main_arg8 main_v37 (extractStridedSlice S1x128 ![0, 0] · slices_S3x128_S1x128_0_0),
    reshape main_v37 main_v38 rfl shapeCasts_S1x128_S128,
    binary main_v34 main_v36 main_v39 (fun l r => Host.dotGeneral dot_S400000x128_S128x128_S400000x128_1_0_0_1_n_n none l r),
    unary main_v38 main_v40 (broadcastInDim S1x128 ![1] bcast_S128_S1x128_1),
    unary main_v40 main_v41 (broadcastInDim S400000x128 ![0, 1] bcast_S1x128_S400000x128_0_1),
    binary main_v39 main_v41 main_v42 (addf),
    nullary main_cst (constant S_ .f32 0x00000000#32),
    unary main_cst main_v43 (broadcastInDim S50000x128 ![] bcast_S_S50000x128),
    unary main_v3 main_v44 (broadcastInDim S400000x1 ![0] bcast_S400000_S400000x1_0),
    ternary main_v43 main_v44 main_v42 main_v45 (fun x i u => Host.scatterAdd scatter_S50000x128_S400000x1_S400000x128_1_0_0_1 x i u) ]

theorem L1_sub : (L1 : List (HloOp τ sig (Elt F))).Forall fun op => op.bufs ⊆ tcRefs τ sig :=
  ⟨nary_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., binary_bufs_sub .., unary_bufs_sub .., unary_bufs_sub .., binary_bufs_sub .., nullary_bufs_sub .., unary_bufs_sub .., unary_bufs_sub .., ternary_bufs_sub ..⟩

theorem L1_fresh : (L1 : List (HloOp τ sig (Elt F))).Forall fun op => op.fresh = ∅ := by
  simp only [List.Forall]; repeat' constructor

abbrev L1_W : List (Ref sig .tc) := [main_v25, main_v26, main_v27, main_v28, main_v29, main_v30, main_v31, main_v32, main_v33, main_call0_cst, main_call0_v0, main_v34, main_v35, main_v36, main_v37, main_v38, main_v39, main_v40, main_v41, main_v42, main_cst, main_v43, main_v44, main_v45]

theorem L1_writes : (L1 : List (HloOp τ sig (Elt F))).Forall fun op => op.writes ⊆ (L1_W.map (Proc.devRef (τ := τ) .tc)).toFinset := by
  simp only [List.Forall, nullary_writes, unary_writes, binary_writes, ternary_writes, quaternary_writes, reshape_writes, binaryIndexed_writes, unaryIndexed_writes, nary_writes, Finset.singleton_subset_iff, List.mem_toFinset]
  repeat' apply And.intro
  all_goals exact List.mem_map_of_mem (by decide)

theorem L1_keep (W : Valuation τ sig (Elt F)) (r : Ref sig .tc) (h : r ∉ L1_W) :
    after L1 W (Proc.devRef .tc r) = W (Proc.devRef .tc r) :=
  after_of_writes_sub L1 W L1_writes h

abbrev L2 : List (HloOp τ sig (Elt F)) :=
  [
    binary main_v10 main_v45 main_v46 (fun a b => concatenate S50000x256 1 [⟨S50000x128, a⟩, ⟨S50000x128, b⟩] concatenates_S50000x128_S50000x128_S50000x256_d1),
    unary main_arg9 main_v47 (extractStridedSlice S1x256x128 ![0, 0, 0] · slices_S3x256x128_S1x256x128_0_0_0),
    reshape main_v47 main_v48 rfl shapeCasts_S1x256x128_S256x128,
    unary main_arg10 main_v49 (extractStridedSlice S1x128 ![0, 0] · slices_S3x128_S1x128_0_0),
    reshape main_v49 main_v50 rfl shapeCasts_S1x128_S128,
    binary main_v46 main_v48 main_v51 (fun l r => Host.dotGeneral dot_S50000x256_S256x128_S50000x128_1_0_0_1_n_n none l r),
    unary main_v50 main_v52 (broadcastInDim S1x128 ![1] bcast_S128_S1x128_1) ]

theorem L2_sub : (L2 : List (HloOp τ sig (Elt F))).Forall fun op => op.bufs ⊆ tcRefs τ sig :=
  ⟨binary_bufs_sub .., unary_bufs_sub .., reshape_bufs_sub .., unary_bufs_sub .., reshape_bufs_sub .., binary_bufs_sub .., unary_bufs_sub ..⟩

theorem L2_fresh : (L2 : List (HloOp τ sig (Elt F))).Forall fun op => op.fresh = ∅ := by
  simp only [List.Forall]; repeat' constructor

abbrev L2_W : List (Ref sig .tc) := [main_v46, main_v47, main_v48, main_v49, main_v50, main_v51, main_v52]

theorem L2_writes : (L2 : List (HloOp τ sig (Elt F))).Forall fun op => op.writes ⊆ (L2_W.map (Proc.devRef (τ := τ) .tc)).toFinset := by
  simp only [List.Forall, nullary_writes, unary_writes, binary_writes, ternary_writes, quaternary_writes, reshape_writes, binaryIndexed_writes, unaryIndexed_writes, nary_writes, Finset.singleton_subset_iff, List.mem_toFinset]
  repeat' apply And.intro
  all_goals exact List.mem_map_of_mem (by decide)

theorem L2_keep (W : Valuation τ sig (Elt F)) (r : Ref sig .tc) (h : r ∉ L2_W) :
    after L2 W (Proc.devRef .tc r) = W (Proc.devRef .tc r) :=
  after_of_writes_sub L2 W L2_writes h

abbrev L3 : List (HloOp τ sig (Elt F)) :=
  [
    unary main_v52 main_v53 (broadcastInDim S50000x128 ![0, 1] bcast_S1x128_S50000x128_0_1),
    binary main_v51 main_v53 main_v54 (addf),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v54) (TRef.of (T := ⟨S50000x128, .f32⟩) main_call1_v0) (TRef.of (T := ⟨S50000x128, .f32⟩) main_v55) maximumf,
    unary main_arg11 main_v56 (extractStridedSlice S1x128x128 ![0, 0, 0] · slices_S3x128x128_S1x128x128_0_0_0),
    reshape main_v56 main_v57 rfl shapeCasts_S1x128x128_S128x128,
    unary main_arg12 main_v58 (extractStridedSlice S1x128 ![0, 0] · slices_S3x128_S1x128_0_0),
    reshape main_v58 main_v59 rfl shapeCasts_S1x128_S128,
    binary main_v55 main_v57 main_v60 (fun l r => Host.dotGeneral dot_S50000x128_S128x128_S50000x128_1_0_0_1_n_n none l r),
    unary main_v59 main_v61 (broadcastInDim S1x128 ![1] bcast_S128_S1x128_1),
    unary main_v61 main_v62 (broadcastInDim S50000x128 ![0, 1] bcast_S1x128_S50000x128_0_1),
    binary main_v60 main_v62 main_v63 (addf),
    binary main_v10 main_v63 main_v64 (addf),
    nullary main_c_5 (constantI S_ 32 0#32),
    unary main_c_5 main_v65 (broadcastInDim S400000 ![] bcast_S_S400000),
    binary main_v1 main_v65 main_v66 (cmpi .slt),
    nullary main_c_6 (constantI S_ 32 50000#32),
    unary main_c_6 main_v67 (broadcastInDim S400000 ![] bcast_S_S400000),
    binary main_v1 main_v67 main_v68 (addi),
    ternary main_v66 main_v68 main_v1 main_v69 (select),
    unary main_v69 main_v70 (broadcastInDim S400000x1 ![0] bcast_S400000_S400000x1_0),
    binary main_v64 main_v70 main_v71 (fun x i => Host.gather gather_S50000x128_S400000x1_S400000x128_1_0_n_n_0_1_1128 x i),
    nullary main_c_7 (constantI S_ 32 0#32),
    unary main_c_7 main_v72 (broadcastInDim S400000 ![] bcast_S_S400000),
    binary main_v3 main_v72 main_v73 (cmpi .slt),
    nullary main_c_8 (constantI S_ 32 50000#32),
    unary main_c_8 main_v74 (broadcastInDim S400000 ![] bcast_S_S400000),
    binary main_v3 main_v74 main_v75 (addi),
    ternary main_v73 main_v75 main_v3 main_v76 (select),
    unary main_v76 main_v77 (broadcastInDim S400000x1 ![0] bcast_S400000_S400000x1_0),
    binary main_v64 main_v77 main_v78 (fun x i => Host.gather gather_S50000x128_S400000x1_S400000x128_1_0_n_n_0_1_1128 x i) ]

theorem L3_sub : (L3 : List (HloOp τ sig (Elt F))).Forall fun op => op.bufs ⊆ tcRefs τ sig :=
  ⟨unary_bufs_sub .., binary_bufs_sub .., nullary_bufs_sub .., unary_bufs_sub .., binary_bufs_sub .., unary_bufs_sub .., reshape_bufs_sub .., unary_bufs_sub .., reshape_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem L3_fresh : (L3 : List (HloOp τ sig (Elt F))).Forall fun op => op.fresh = ∅ := by
  simp only [List.Forall]; repeat' constructor

abbrev L3_W : List (Ref sig .tc) := [main_v53, main_v54, main_call1_cst, main_call1_v0, main_v55, main_v56, main_v57, main_v58, main_v59, main_v60, main_v61, main_v62, main_v63, main_v64, main_c_5, main_v65, main_v66, main_c_6, main_v67, main_v68, main_v69, main_v70, main_v71, main_c_7, main_v72, main_v73, main_c_8, main_v74, main_v75, main_v76, main_v77, main_v78]

theorem L3_writes : (L3 : List (HloOp τ sig (Elt F))).Forall fun op => op.writes ⊆ (L3_W.map (Proc.devRef (τ := τ) .tc)).toFinset := by
  simp only [List.Forall, nullary_writes, unary_writes, binary_writes, ternary_writes, quaternary_writes, reshape_writes, binaryIndexed_writes, unaryIndexed_writes, nary_writes, Finset.singleton_subset_iff, List.mem_toFinset]
  repeat' apply And.intro
  all_goals exact List.mem_map_of_mem (by decide)

theorem L3_keep (W : Valuation τ sig (Elt F)) (r : Ref sig .tc) (h : r ∉ L3_W) :
    after L3 W (Proc.devRef .tc r) = W (Proc.devRef .tc r) :=
  after_of_writes_sub L3 W L3_writes h

abbrev L4 : List (HloOp τ sig (Elt F)) :=
  [
    nary ![main_v71, main_v78, main_arg2] main_v79 (fun u => concatenate S400000x257 1 [⟨S400000x128, u 0⟩, ⟨S400000x128, u 1⟩, ⟨S400000x1, u 2⟩] concatenates_S400000x128_S400000x128_S400000x1_S400000x257_d1),
    unary main_arg5 main_v80 (extractStridedSlice S1x257x128 ![1, 0, 0] · slices_S3x257x128_S1x257x128_1_0_0),
    reshape main_v80 main_v81 rfl shapeCasts_S1x257x128_S257x128,
    unary main_arg6 main_v82 (extractStridedSlice S1x128 ![1, 0] · slices_S3x128_S1x128_1_0),
    reshape main_v82 main_v83 rfl shapeCasts_S1x128_S128,
    binary main_v79 main_v81 main_v84 (fun l r => Host.dotGeneral dot_S400000x257_S257x128_S400000x128_1_0_0_1_n_n none l r),
    unary main_v83 main_v85 (broadcastInDim S1x128 ![1] bcast_S128_S1x128_1),
    unary main_v85 main_v86 (broadcastInDim S400000x128 ![0, 1] bcast_S1x128_S400000x128_0_1),
    binary main_v84 main_v86 main_v87 (addf),
    TRef.nullary (TRef.of (T := ⟨S_, .f32⟩) main_call2_cst) (constant S_ .f32 0x00000000#32),
    TRef.unary (TRef.of (T := ⟨S_, .f32⟩) main_call2_cst) (TRef.of (T := ⟨S400000x128, .f32⟩) main_call2_v0) (broadcastInDim S400000x128 ![] bcast_S_S400000x128),
    TRef.binary (TRef.of (T := ⟨S400000x128, .f32⟩) main_v87) (TRef.of (T := ⟨S400000x128, .f32⟩) main_call2_v0) (TRef.of (T := ⟨S400000x128, .f32⟩) main_v88) maximumf,
    unary main_arg7 main_v89 (extractStridedSlice S1x128x128 ![1, 0, 0] · slices_S3x128x128_S1x128x128_1_0_0),
    reshape main_v89 main_v90 rfl shapeCasts_S1x128x128_S128x128,
    unary main_arg8 main_v91 (extractStridedSlice S1x128 ![1, 0] · slices_S3x128_S1x128_1_0),
    reshape main_v91 main_v92 rfl shapeCasts_S1x128_S128,
    binary main_v88 main_v90 main_v93 (fun l r => Host.dotGeneral dot_S400000x128_S128x128_S400000x128_1_0_0_1_n_n none l r),
    unary main_v92 main_v94 (broadcastInDim S1x128 ![1] bcast_S128_S1x128_1),
    unary main_v94 main_v95 (broadcastInDim S400000x128 ![0, 1] bcast_S1x128_S400000x128_0_1),
    binary main_v93 main_v95 main_v96 (addf),
    nullary main_cst_9 (constant S_ .f32 0x00000000#32),
    unary main_cst_9 main_v97 (broadcastInDim S50000x128 ![] bcast_S_S50000x128),
    unary main_v3 main_v98 (broadcastInDim S400000x1 ![0] bcast_S400000_S400000x1_0),
    ternary main_v97 main_v98 main_v96 main_v99 (fun x i u => Host.scatterAdd scatter_S50000x128_S400000x1_S400000x128_1_0_0_1 x i u) ]

theorem L4_sub : (L4 : List (HloOp τ sig (Elt F))).Forall fun op => op.bufs ⊆ tcRefs τ sig :=
  ⟨nary_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., binary_bufs_sub .., unary_bufs_sub .., unary_bufs_sub .., binary_bufs_sub .., nullary_bufs_sub .., unary_bufs_sub .., unary_bufs_sub .., ternary_bufs_sub ..⟩

theorem L4_fresh : (L4 : List (HloOp τ sig (Elt F))).Forall fun op => op.fresh = ∅ := by
  simp only [List.Forall]; repeat' constructor

abbrev L4_W : List (Ref sig .tc) := [main_v79, main_v80, main_v81, main_v82, main_v83, main_v84, main_v85, main_v86, main_v87, main_call2_cst, main_call2_v0, main_v88, main_v89, main_v90, main_v91, main_v92, main_v93, main_v94, main_v95, main_v96, main_cst_9, main_v97, main_v98, main_v99]

theorem L4_writes : (L4 : List (HloOp τ sig (Elt F))).Forall fun op => op.writes ⊆ (L4_W.map (Proc.devRef (τ := τ) .tc)).toFinset := by
  simp only [List.Forall, nullary_writes, unary_writes, binary_writes, ternary_writes, quaternary_writes, reshape_writes, binaryIndexed_writes, unaryIndexed_writes, nary_writes, Finset.singleton_subset_iff, List.mem_toFinset]
  repeat' apply And.intro
  all_goals exact List.mem_map_of_mem (by decide)

theorem L4_keep (W : Valuation τ sig (Elt F)) (r : Ref sig .tc) (h : r ∉ L4_W) :
    after L4 W (Proc.devRef .tc r) = W (Proc.devRef .tc r) :=
  after_of_writes_sub L4 W L4_writes h

abbrev L5 : List (HloOp τ sig (Elt F)) :=
  [
    binary main_v64 main_v99 main_v100 (fun a b => concatenate S50000x256 1 [⟨S50000x128, a⟩, ⟨S50000x128, b⟩] concatenates_S50000x128_S50000x128_S50000x256_d1),
    unary main_arg9 main_v101 (extractStridedSlice S1x256x128 ![1, 0, 0] · slices_S3x256x128_S1x256x128_1_0_0),
    reshape main_v101 main_v102 rfl shapeCasts_S1x256x128_S256x128,
    unary main_arg10 main_v103 (extractStridedSlice S1x128 ![1, 0] · slices_S3x128_S1x128_1_0),
    reshape main_v103 main_v104 rfl shapeCasts_S1x128_S128,
    binary main_v100 main_v102 main_v105 (fun l r => Host.dotGeneral dot_S50000x256_S256x128_S50000x128_1_0_0_1_n_n none l r),
    unary main_v104 main_v106 (broadcastInDim S1x128 ![1] bcast_S128_S1x128_1),
    unary main_v106 main_v107 (broadcastInDim S50000x128 ![0, 1] bcast_S1x128_S50000x128_0_1) ]

theorem L5_sub : (L5 : List (HloOp τ sig (Elt F))).Forall fun op => op.bufs ⊆ tcRefs τ sig :=
  ⟨binary_bufs_sub .., unary_bufs_sub .., reshape_bufs_sub .., unary_bufs_sub .., reshape_bufs_sub .., binary_bufs_sub .., unary_bufs_sub .., unary_bufs_sub ..⟩

theorem L5_fresh : (L5 : List (HloOp τ sig (Elt F))).Forall fun op => op.fresh = ∅ := by
  simp only [List.Forall]; repeat' constructor

abbrev L5_W : List (Ref sig .tc) := [main_v100, main_v101, main_v102, main_v103, main_v104, main_v105, main_v106, main_v107]

theorem L5_writes : (L5 : List (HloOp τ sig (Elt F))).Forall fun op => op.writes ⊆ (L5_W.map (Proc.devRef (τ := τ) .tc)).toFinset := by
  simp only [List.Forall, nullary_writes, unary_writes, binary_writes, ternary_writes, quaternary_writes, reshape_writes, binaryIndexed_writes, unaryIndexed_writes, nary_writes, Finset.singleton_subset_iff, List.mem_toFinset]
  repeat' apply And.intro
  all_goals exact List.mem_map_of_mem (by decide)

theorem L5_keep (W : Valuation τ sig (Elt F)) (r : Ref sig .tc) (h : r ∉ L5_W) :
    after L5 W (Proc.devRef .tc r) = W (Proc.devRef .tc r) :=
  after_of_writes_sub L5 W L5_writes h

abbrev L6 : List (HloOp τ sig (Elt F)) :=
  [
    binary main_v105 main_v107 main_v108 (addf),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v108) (TRef.of (T := ⟨S50000x128, .f32⟩) main_call3_v0) (TRef.of (T := ⟨S50000x128, .f32⟩) main_v109) maximumf,
    unary main_arg11 main_v110 (extractStridedSlice S1x128x128 ![1, 0, 0] · slices_S3x128x128_S1x128x128_1_0_0),
    reshape main_v110 main_v111 rfl shapeCasts_S1x128x128_S128x128,
    unary main_arg12 main_v112 (extractStridedSlice S1x128 ![1, 0] · slices_S3x128_S1x128_1_0),
    reshape main_v112 main_v113 rfl shapeCasts_S1x128_S128,
    binary main_v109 main_v111 main_v114 (fun l r => Host.dotGeneral dot_S50000x128_S128x128_S50000x128_1_0_0_1_n_n none l r),
    unary main_v113 main_v115 (broadcastInDim S1x128 ![1] bcast_S128_S1x128_1),
    unary main_v115 main_v116 (broadcastInDim S50000x128 ![0, 1] bcast_S1x128_S50000x128_0_1),
    binary main_v114 main_v116 main_v117 (addf),
    binary main_v64 main_v117 main_v118 (addf),
    nullary main_c_10 (constantI S_ 32 0#32),
    unary main_c_10 main_v119 (broadcastInDim S400000 ![] bcast_S_S400000),
    binary main_v1 main_v119 main_v120 (cmpi .slt),
    nullary main_c_11 (constantI S_ 32 50000#32),
    unary main_c_11 main_v121 (broadcastInDim S400000 ![] bcast_S_S400000),
    binary main_v1 main_v121 main_v122 (addi),
    ternary main_v120 main_v122 main_v1 main_v123 (select),
    unary main_v123 main_v124 (broadcastInDim S400000x1 ![0] bcast_S400000_S400000x1_0),
    binary main_v118 main_v124 main_v125 (fun x i => Host.gather gather_S50000x128_S400000x1_S400000x128_1_0_n_n_0_1_1128 x i),
    nullary main_c_12 (constantI S_ 32 0#32),
    unary main_c_12 main_v126 (broadcastInDim S400000 ![] bcast_S_S400000),
    binary main_v3 main_v126 main_v127 (cmpi .slt),
    nullary main_c_13 (constantI S_ 32 50000#32),
    unary main_c_13 main_v128 (broadcastInDim S400000 ![] bcast_S_S400000),
    binary main_v3 main_v128 main_v129 (addi),
    ternary main_v127 main_v129 main_v3 main_v130 (select),
    unary main_v130 main_v131 (broadcastInDim S400000x1 ![0] bcast_S400000_S400000x1_0),
    binary main_v118 main_v131 main_v132 (fun x i => Host.gather gather_S50000x128_S400000x1_S400000x128_1_0_n_n_0_1_1128 x i) ]

theorem L6_sub : (L6 : List (HloOp τ sig (Elt F))).Forall fun op => op.bufs ⊆ tcRefs τ sig :=
  ⟨binary_bufs_sub .., nullary_bufs_sub .., unary_bufs_sub .., binary_bufs_sub .., unary_bufs_sub .., reshape_bufs_sub .., unary_bufs_sub .., reshape_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem L6_fresh : (L6 : List (HloOp τ sig (Elt F))).Forall fun op => op.fresh = ∅ := by
  simp only [List.Forall]; repeat' constructor

abbrev L6_W : List (Ref sig .tc) := [main_v108, main_call3_cst, main_call3_v0, main_v109, main_v110, main_v111, main_v112, main_v113, main_v114, main_v115, main_v116, main_v117, main_v118, main_c_10, main_v119, main_v120, main_c_11, main_v121, main_v122, main_v123, main_v124, main_v125, main_c_12, main_v126, main_v127, main_c_13, main_v128, main_v129, main_v130, main_v131, main_v132]

theorem L6_writes : (L6 : List (HloOp τ sig (Elt F))).Forall fun op => op.writes ⊆ (L6_W.map (Proc.devRef (τ := τ) .tc)).toFinset := by
  simp only [List.Forall, nullary_writes, unary_writes, binary_writes, ternary_writes, quaternary_writes, reshape_writes, binaryIndexed_writes, unaryIndexed_writes, nary_writes, Finset.singleton_subset_iff, List.mem_toFinset]
  repeat' apply And.intro
  all_goals exact List.mem_map_of_mem (by decide)

theorem L6_keep (W : Valuation τ sig (Elt F)) (r : Ref sig .tc) (h : r ∉ L6_W) :
    after L6 W (Proc.devRef .tc r) = W (Proc.devRef .tc r) :=
  after_of_writes_sub L6 W L6_writes h

abbrev L7 : List (HloOp τ sig (Elt F)) :=
  [
    nary ![main_v125, main_v132, main_arg2] main_v133 (fun u => concatenate S400000x257 1 [⟨S400000x128, u 0⟩, ⟨S400000x128, u 1⟩, ⟨S400000x1, u 2⟩] concatenates_S400000x128_S400000x128_S400000x1_S400000x257_d1),
    unary main_arg5 main_v134 (extractStridedSlice S1x257x128 ![2, 0, 0] · slices_S3x257x128_S1x257x128_2_0_0),
    reshape main_v134 main_v135 rfl shapeCasts_S1x257x128_S257x128,
    unary main_arg6 main_v136 (extractStridedSlice S1x128 ![2, 0] · slices_S3x128_S1x128_2_0),
    reshape main_v136 main_v137 rfl shapeCasts_S1x128_S128,
    binary main_v133 main_v135 main_v138 (fun l r => Host.dotGeneral dot_S400000x257_S257x128_S400000x128_1_0_0_1_n_n none l r),
    unary main_v137 main_v139 (broadcastInDim S1x128 ![1] bcast_S128_S1x128_1),
    unary main_v139 main_v140 (broadcastInDim S400000x128 ![0, 1] bcast_S1x128_S400000x128_0_1),
    binary main_v138 main_v140 main_v141 (addf),
    TRef.nullary (TRef.of (T := ⟨S_, .f32⟩) main_call4_cst) (constant S_ .f32 0x00000000#32),
    TRef.unary (TRef.of (T := ⟨S_, .f32⟩) main_call4_cst) (TRef.of (T := ⟨S400000x128, .f32⟩) main_call4_v0) (broadcastInDim S400000x128 ![] bcast_S_S400000x128),
    TRef.binary (TRef.of (T := ⟨S400000x128, .f32⟩) main_v141) (TRef.of (T := ⟨S400000x128, .f32⟩) main_call4_v0) (TRef.of (T := ⟨S400000x128, .f32⟩) main_v142) maximumf,
    unary main_arg7 main_v143 (extractStridedSlice S1x128x128 ![2, 0, 0] · slices_S3x128x128_S1x128x128_2_0_0),
    reshape main_v143 main_v144 rfl shapeCasts_S1x128x128_S128x128,
    unary main_arg8 main_v145 (extractStridedSlice S1x128 ![2, 0] · slices_S3x128_S1x128_2_0),
    reshape main_v145 main_v146 rfl shapeCasts_S1x128_S128,
    binary main_v142 main_v144 main_v147 (fun l r => Host.dotGeneral dot_S400000x128_S128x128_S400000x128_1_0_0_1_n_n none l r),
    unary main_v146 main_v148 (broadcastInDim S1x128 ![1] bcast_S128_S1x128_1),
    unary main_v148 main_v149 (broadcastInDim S400000x128 ![0, 1] bcast_S1x128_S400000x128_0_1),
    binary main_v147 main_v149 main_v150 (addf),
    nullary main_cst_14 (constant S_ .f32 0x00000000#32),
    unary main_cst_14 main_v151 (broadcastInDim S50000x128 ![] bcast_S_S50000x128),
    unary main_v3 main_v152 (broadcastInDim S400000x1 ![0] bcast_S400000_S400000x1_0),
    ternary main_v151 main_v152 main_v150 main_v153 (fun x i u => Host.scatterAdd scatter_S50000x128_S400000x1_S400000x128_1_0_0_1 x i u) ]

theorem L7_sub : (L7 : List (HloOp τ sig (Elt F))).Forall fun op => op.bufs ⊆ tcRefs τ sig :=
  ⟨nary_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., binary_bufs_sub .., unary_bufs_sub .., unary_bufs_sub .., binary_bufs_sub .., nullary_bufs_sub .., unary_bufs_sub .., unary_bufs_sub .., ternary_bufs_sub ..⟩

theorem L7_fresh : (L7 : List (HloOp τ sig (Elt F))).Forall fun op => op.fresh = ∅ := by
  simp only [List.Forall]; repeat' constructor

abbrev L7_W : List (Ref sig .tc) := [main_v133, main_v134, main_v135, main_v136, main_v137, main_v138, main_v139, main_v140, main_v141, main_call4_cst, main_call4_v0, main_v142, main_v143, main_v144, main_v145, main_v146, main_v147, main_v148, main_v149, main_v150, main_cst_14, main_v151, main_v152, main_v153]

theorem L7_writes : (L7 : List (HloOp τ sig (Elt F))).Forall fun op => op.writes ⊆ (L7_W.map (Proc.devRef (τ := τ) .tc)).toFinset := by
  simp only [List.Forall, nullary_writes, unary_writes, binary_writes, ternary_writes, quaternary_writes, reshape_writes, binaryIndexed_writes, unaryIndexed_writes, nary_writes, Finset.singleton_subset_iff, List.mem_toFinset]
  repeat' apply And.intro
  all_goals exact List.mem_map_of_mem (by decide)

theorem L7_keep (W : Valuation τ sig (Elt F)) (r : Ref sig .tc) (h : r ∉ L7_W) :
    after L7 W (Proc.devRef .tc r) = W (Proc.devRef .tc r) :=
  after_of_writes_sub L7 W L7_writes h

abbrev L8 : List (HloOp τ sig (Elt F)) :=
  [
    binary main_v118 main_v153 main_v154 (fun a b => concatenate S50000x256 1 [⟨S50000x128, a⟩, ⟨S50000x128, b⟩] concatenates_S50000x128_S50000x128_S50000x256_d1),
    unary main_arg9 main_v155 (extractStridedSlice S1x256x128 ![2, 0, 0] · slices_S3x256x128_S1x256x128_2_0_0),
    reshape main_v155 main_v156 rfl shapeCasts_S1x256x128_S256x128,
    unary main_arg10 main_v157 (extractStridedSlice S1x128 ![2, 0] · slices_S3x128_S1x128_2_0),
    reshape main_v157 main_v158 rfl shapeCasts_S1x128_S128,
    binary main_v154 main_v156 main_v159 (fun l r => Host.dotGeneral dot_S50000x256_S256x128_S50000x128_1_0_0_1_n_n none l r),
    unary main_v158 main_v160 (broadcastInDim S1x128 ![1] bcast_S128_S1x128_1),
    unary main_v160 main_v161 (broadcastInDim S50000x128 ![0, 1] bcast_S1x128_S50000x128_0_1),
    binary main_v159 main_v161 main_v162 (addf) ]

theorem L8_sub : (L8 : List (HloOp τ sig (Elt F))).Forall fun op => op.bufs ⊆ tcRefs τ sig :=
  ⟨binary_bufs_sub .., unary_bufs_sub .., reshape_bufs_sub .., unary_bufs_sub .., reshape_bufs_sub .., binary_bufs_sub .., unary_bufs_sub .., unary_bufs_sub .., binary_bufs_sub ..⟩

theorem L8_fresh : (L8 : List (HloOp τ sig (Elt F))).Forall fun op => op.fresh = ∅ := by
  simp only [List.Forall]; repeat' constructor

abbrev L8_W : List (Ref sig .tc) := [main_v154, main_v155, main_v156, main_v157, main_v158, main_v159, main_v160, main_v161, main_v162]

theorem L8_writes : (L8 : List (HloOp τ sig (Elt F))).Forall fun op => op.writes ⊆ (L8_W.map (Proc.devRef (τ := τ) .tc)).toFinset := by
  simp only [List.Forall, nullary_writes, unary_writes, binary_writes, ternary_writes, quaternary_writes, reshape_writes, binaryIndexed_writes, unaryIndexed_writes, nary_writes, Finset.singleton_subset_iff, List.mem_toFinset]
  repeat' apply And.intro
  all_goals exact List.mem_map_of_mem (by decide)

theorem L8_keep (W : Valuation τ sig (Elt F)) (r : Ref sig .tc) (h : r ∉ L8_W) :
    after L8 W (Proc.devRef .tc r) = W (Proc.devRef .tc r) :=
  after_of_writes_sub L8 W L8_writes h

abbrev L9 : List (HloOp τ sig (Elt F)) :=
  [
    TRef.nullary (TRef.of (T := ⟨S_, .f32⟩) main_call5_cst) (constant S_ .f32 0x00000000#32),
    TRef.unary (TRef.of (T := ⟨S_, .f32⟩) main_call5_cst) (TRef.of (T := ⟨S50000x128, .f32⟩) main_call5_v0) (broadcastInDim S50000x128 ![] bcast_S_S50000x128),
    TRef.binary (TRef.of (T := ⟨S50000x128, .f32⟩) main_v162) (TRef.of (T := ⟨S50000x128, .f32⟩) main_call5_v0) (TRef.of (T := ⟨S50000x128, .f32⟩) main_v163) maximumf,
    unary main_arg11 main_v164 (extractStridedSlice S1x128x128 ![2, 0, 0] · slices_S3x128x128_S1x128x128_2_0_0),
    reshape main_v164 main_v165 rfl shapeCasts_S1x128x128_S128x128,
    unary main_arg12 main_v166 (extractStridedSlice S1x128 ![2, 0] · slices_S3x128_S1x128_2_0),
    reshape main_v166 main_v167 rfl shapeCasts_S1x128_S128,
    binary main_v163 main_v165 main_v168 (fun l r => Host.dotGeneral dot_S50000x128_S128x128_S50000x128_1_0_0_1_n_n none l r),
    unary main_v167 main_v169 (broadcastInDim S1x128 ![1] bcast_S128_S1x128_1),
    unary main_v169 main_v170 (broadcastInDim S50000x128 ![0, 1] bcast_S1x128_S50000x128_0_1),
    binary main_v168 main_v170 main_v171 (addf),
    binary main_v118 main_v171 main_v172 (addf),
    nullary main_cst_15 (constant S_ .f32 0x00000000#32),
    unary main_cst_15 main_v173 (broadcastInDim S64x128 ![] bcast_S_S64x128),
    unary main_arg3 main_v174 (broadcastInDim S50000x1 ![0] bcast_S50000_S50000x1_0),
    ternary main_v173 main_v174 main_v172 main_v175 (fun x i u => Host.scatterAdd scatter_S64x128_S50000x1_S50000x128_1_0_0_1 x i u),
    nullary main_cst_16 (constant S_ .f32 0x3F800000#32),
    unary main_cst_16 main_v176 (broadcastInDim S50000x1 ![] bcast_S_S50000x1),
    nullary main_cst_17 (constant S_ .f32 0x00000000#32),
    unary main_cst_17 main_v177 (broadcastInDim S64x1 ![] bcast_S_S64x1),
    unary main_arg3 main_v178 (broadcastInDim S50000x1 ![0] bcast_S50000_S50000x1_0),
    ternary main_v177 main_v178 main_v176 main_v179 (fun x i u => Host.scatterAdd scatter_S64x1_S50000x1_S50000x1_1_0_0_1 x i u),
    nullary main_cst_18 (constant S_ .f32 0x3F800000#32),
    unary main_cst_18 main_v180 (broadcastInDim S64x1 ![] bcast_S_S64x1),
    binary main_v179 main_v180 main_v181 (maximumf),
    unary main_v181 main_v182 (broadcastInDim S64x128 ![0, 1] bcast_S64x1_S64x128_0_1),
    binary main_v175 main_v182 main_v183 (Host.divf),
    binary main_v183 main_arg13 main_v184 (fun l r => Host.dotGeneral dot_S64x128_S128x128_S64x128_1_0_0_1_n_n none l r),
    unary main_arg14 main_v185 (broadcastInDim S1x128 ![1] bcast_S128_S1x128_1),
    unary main_v185 main_v186 (broadcastInDim S64x128 ![0, 1] bcast_S1x128_S64x128_0_1),
    binary main_v184 main_v186 main_v187 (addf),
    TRef.nullary (TRef.of (T := ⟨S_, .f32⟩) main_call6_cst) (constant S_ .f32 0x00000000#32),
    TRef.unary (TRef.of (T := ⟨S_, .f32⟩) main_call6_cst) (TRef.of (T := ⟨S64x128, .f32⟩) main_call6_v0) (broadcastInDim S64x128 ![] bcast_S_S64x128),
    TRef.binary (TRef.of (T := ⟨S64x128, .f32⟩) main_v187) (TRef.of (T := ⟨S64x128, .f32⟩) main_call6_v0) (TRef.of (T := ⟨S64x128, .f32⟩) main_v188) maximumf,
    binary main_v188 main_arg15 main_v189 (fun l r => Host.dotGeneral dot_S64x128_S128x1_S64x1_1_0_0_1_n_n none l r),
    unary main_arg16 main_v190 (broadcastInDim S1x1 ![1] bcast_S1_S1x1_1),
    unary main_v190 main_v191 (broadcastInDim S64x1 ![0, 1] bcast_S1x1_S64x1_0_1),
    binary main_v189 main_v191 main_v192 (addf) ]

theorem L9_sub : (L9 : List (HloOp τ sig (Elt F))).Forall fun op => op.bufs ⊆ tcRefs τ sig :=
  ⟨nullary_bufs_sub .., unary_bufs_sub .., binary_bufs_sub .., unary_bufs_sub .., reshape_bufs_sub .., unary_bufs_sub .., reshape_bufs_sub .., binary_bufs_sub .., unary_bufs_sub .., unary_bufs_sub .., binary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

theorem L9_fresh : (L9 : List (HloOp τ sig (Elt F))).Forall fun op => op.fresh = ∅ := by
  simp only [List.Forall]; repeat' constructor

abbrev L9_W : List (Ref sig .tc) := [main_call5_cst, main_call5_v0, main_v163, main_v164, main_v165, main_v166, main_v167, main_v168, main_v169, main_v170, main_v171, main_v172, main_cst_15, main_v173, main_v174, main_v175, main_cst_16, main_v176, main_cst_17, main_v177, main_v178, main_v179, main_cst_18, main_v180, main_v181, main_v182, main_v183, main_v184, main_v185, main_v186, main_v187, main_call6_cst, main_call6_v0, main_v188, main_v189, main_v190, main_v191, main_v192]

theorem L9_writes : (L9 : List (HloOp τ sig (Elt F))).Forall fun op => op.writes ⊆ (L9_W.map (Proc.devRef (τ := τ) .tc)).toFinset := by
  simp only [List.Forall, nullary_writes, unary_writes, binary_writes, ternary_writes, quaternary_writes, reshape_writes, binaryIndexed_writes, unaryIndexed_writes, nary_writes, Finset.singleton_subset_iff, List.mem_toFinset]
  repeat' apply And.intro
  all_goals exact List.mem_map_of_mem (by decide)

theorem L9_keep (W : Valuation τ sig (Elt F)) (r : Ref sig .tc) (h : r ∉ L9_W) :
    after L9 W (Proc.devRef .tc r) = W (Proc.devRef .tc r) :=
  after_of_writes_sub L9 W L9_writes h

set_option maxHeartbeats 4000000 in
theorem main_part0_eq (c : Dev nD) : main_part0 (F := F) c = seq (L0 ++ (L1 ++ L2)) := rfl

set_option maxHeartbeats 4000000 in
theorem main_part1_eq (c : Dev nD) : main_part1 (F := F) c = seq (L3 ++ (L4 ++ L5)) := rfl

set_option maxHeartbeats 4000000 in
theorem main_part2_eq (c : Dev nD) : main_part2 (F := F) c = seq (L6 ++ (L7 ++ L8)) := rfl

set_option maxHeartbeats 4000000 in
theorem main_part3_eq (c : Dev nD) : main_part3 (F := F) c = seq L9 := rfl

abbrev opsAll : List (HloOp τ sig (Elt F)) :=
  (L0 ++ (L1 ++ L2)) ++ ((L3 ++ (L4 ++ L5)) ++ ((L6 ++ (L7 ++ L8)) ++ L9))

theorem main_eq (c : Dev nD) : main (F := F) c = seq opsAll := by
  show main (F := F) c = seq ((L0 ++ (L1 ++ L2)) ++ ((L3 ++ (L4 ++ L5)) ++ ((L6 ++ (L7 ++ L8)) ++ L9)))
  rw [seq_append (L0 ++ (L1 ++ L2)), seq_append (L3 ++ (L4 ++ L5)), seq_append (L6 ++ (L7 ++ L8)), ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem opsAll_sub : (opsAll : List (HloOp τ sig (Elt F))).Forall fun op => op.bufs ⊆ tcRefs τ sig :=
  List.forall_append.2 ⟨List.forall_append.2 ⟨L0_sub, List.forall_append.2 ⟨L1_sub, L2_sub⟩⟩,
    List.forall_append.2 ⟨List.forall_append.2 ⟨L3_sub, List.forall_append.2 ⟨L4_sub, L5_sub⟩⟩,
      List.forall_append.2 ⟨List.forall_append.2 ⟨L6_sub, List.forall_append.2 ⟨L7_sub, L8_sub⟩⟩, L9_sub⟩⟩⟩

theorem opsAll_fresh : (opsAll : List (HloOp τ sig (Elt F))).Forall fun op => op.fresh = ∅ :=
  List.forall_append.2 ⟨List.forall_append.2 ⟨L0_fresh, List.forall_append.2 ⟨L1_fresh, L2_fresh⟩⟩,
    List.forall_append.2 ⟨List.forall_append.2 ⟨L3_fresh, List.forall_append.2 ⟨L4_fresh, L5_fresh⟩⟩,
      List.forall_append.2 ⟨List.forall_append.2 ⟨L6_fresh, List.forall_append.2 ⟨L7_fresh, L8_fresh⟩⟩, L9_fresh⟩⟩⟩

abbrev after0 (V : Valuation τ sig (Elt F)) : Valuation τ sig (Elt F) := after L0 V
abbrev after1 (V : Valuation τ sig (Elt F)) : Valuation τ sig (Elt F) := after L1 (after0 V)
abbrev after2 (V : Valuation τ sig (Elt F)) : Valuation τ sig (Elt F) := after L2 (after1 V)
abbrev after3 (V : Valuation τ sig (Elt F)) : Valuation τ sig (Elt F) := after L3 (after2 V)
abbrev after4 (V : Valuation τ sig (Elt F)) : Valuation τ sig (Elt F) := after L4 (after3 V)
abbrev after5 (V : Valuation τ sig (Elt F)) : Valuation τ sig (Elt F) := after L5 (after4 V)
abbrev after6 (V : Valuation τ sig (Elt F)) : Valuation τ sig (Elt F) := after L6 (after5 V)
abbrev after7 (V : Valuation τ sig (Elt F)) : Valuation τ sig (Elt F) := after L7 (after6 V)
abbrev after8 (V : Valuation τ sig (Elt F)) : Valuation τ sig (Elt F) := after L8 (after7 V)
abbrev after9 (V : Valuation τ sig (Elt F)) : Valuation τ sig (Elt F) := after L9 (after8 V)

theorem after_opsAll (V : Valuation τ sig (Elt F)) : after opsAll V = after9 V := by
  show after ((L0 ++ (L1 ++ L2)) ++ ((L3 ++ (L4 ++ L5)) ++ ((L6 ++ (L7 ++ L8)) ++ L9))) V = _
  rw [after_append, after_append, after_append, after_append, after_append, after_append, after_append, after_append,
    after_append]

theorem run_raw (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after9 (launchContents m c) (Proc.devRef .tc b) :=
  (θ_run defs _ _).mono (fun _ h c b => (h c b).trans (congrFun (after_opsAll (launchContents m c)) _))
    (run_seq scopedRefs_eq scopedSems_eq defs main (fun _ => opsAll) main_eq (fun _ => opsAll_sub) m ρ
      (fun _ => List.forall_iff_forall_mem.1 opsAll_fresh))

end Cert.ReferenceIdeal.RunHand

end
-- ==== Proof.Ref.RunHand2.lean ====
import proofs.«407354_j16939351015862_1_alg».proof.Proof.Ref.RunHand1
import proofs.«407354_j16939351015862_1_alg».proof.Proof.Ref.ReadP

set_option maxRecDepth 8192
set_option maxHeartbeats 2000000

noncomputable section

namespace Cert.ReferenceIdeal.RunHand

open Cert.ReferenceIdeal Cert.ReferenceIdeal.Gen Idealize.ShloMosaic Idealize.ShloMosaic.TcCoe Idealize.SL.Sem Idealize.ShloMosaic.StableHlo
open Cert.ReferenceIdeal.Read

variable {F : FTy → Type} [FloatOps F]

theorem s0_v1 (W : Valuation τ sig (Elt F))
    (x1 : (⟨S2x400000, .i32⟩ : BufTy).Contents (Elt F))
    (h_arg1 : (W (Proc.devRef .tc main_arg1) : (⟨S2x400000, .i32⟩ : BufTy).Contents (Elt F)) = x1) :
    (after L0 W (Proc.devRef .tc main_v1) : (⟨S400000, .i32⟩ : BufTy).Contents (Elt F)) = val_main_v1 (F := F) x1 := by
  after_results_simp
  try simp only [TRef.ofBuf, TRef.toBuf, cast_eq]
  rw [h_arg1]
  rfl

theorem s0_v3 (W : Valuation τ sig (Elt F))
    (x1 : (⟨S2x400000, .i32⟩ : BufTy).Contents (Elt F))
    (h_arg1 : (W (Proc.devRef .tc main_arg1) : (⟨S2x400000, .i32⟩ : BufTy).Contents (Elt F)) = x1) :
    (after L0 W (Proc.devRef .tc main_v3) : (⟨S400000, .i32⟩ : BufTy).Contents (Elt F)) = val_main_v3 (F := F) x1 := by
  after_results_simp
  try simp only [TRef.ofBuf, TRef.toBuf, cast_eq]
  rw [h_arg1]
  rfl

theorem s0_v10 (W : Valuation τ sig (Elt F))
    (x0 : (⟨S50000, .i32⟩ : BufTy).Contents (Elt F))
    (x4 : (⟨S101x128, .f32⟩ : BufTy).Contents (Elt F))
    (h_arg0 : (W (Proc.devRef .tc main_arg0) : (⟨S50000, .i32⟩ : BufTy).Contents (Elt F)) = x0)
    (h_arg4 : (W (Proc.devRef .tc main_arg4) : (⟨S101x128, .f32⟩ : BufTy).Contents (Elt F)) = x4) :
    (after L0 W (Proc.devRef .tc main_v10) : (⟨S50000x128, .f32⟩ : BufTy).Contents (Elt F)) = val_main_v10 (F := F) x0 x4 := by
  after_results_simp
  try simp only [TRef.ofBuf, TRef.toBuf, cast_eq]
  rw [h_arg0,
    h_arg4]
  rfl

theorem s0_v17 (W : Valuation τ sig (Elt F))
    (x0 : (⟨S50000, .i32⟩ : BufTy).Contents (Elt F))
    (x1 : (⟨S2x400000, .i32⟩ : BufTy).Contents (Elt F))
    (x4 : (⟨S101x128, .f32⟩ : BufTy).Contents (Elt F))
    (h_arg1 : (W (Proc.devRef .tc main_arg1) : (⟨S2x400000, .i32⟩ : BufTy).Contents (Elt F)) = x1)
    (h_arg0 : (W (Proc.devRef .tc main_arg0) : (⟨S50000, .i32⟩ : BufTy).Contents (Elt F)) = x0)
    (h_arg4 : (W (Proc.devRef .tc main_arg4) : (⟨S101x128, .f32⟩ : BufTy).Contents (Elt F)) = x4) :
    (after L0 W (Proc.devRef .tc main_v17) : (⟨S400000x128, .f32⟩ : BufTy).Contents (Elt F)) = val_main_v17 (F := F) x0 x1 x4 := by
  after_results_simp
  try simp only [TRef.ofBuf, TRef.toBuf, cast_eq]
  rw [h_arg1,
    h_arg0,
    h_arg4]
  rfl

theorem s0_v24 (W : Valuation τ sig (Elt F))
    (x0 : (⟨S50000, .i32⟩ : BufTy).Contents (Elt F))
    (x1 : (⟨S2x400000, .i32⟩ : BufTy).Contents (Elt F))
    (x4 : (⟨S101x128, .f32⟩ : BufTy).Contents (Elt F))
    (h_arg1 : (W (Proc.devRef .tc main_arg1) : (⟨S2x400000, .i32⟩ : BufTy).Contents (Elt F)) = x1)
    (h_arg0 : (W (Proc.devRef .tc main_arg0) : (⟨S50000, .i32⟩ : BufTy).Contents (Elt F)) = x0)
    (h_arg4 : (W (Proc.devRef .tc main_arg4) : (⟨S101x128, .f32⟩ : BufTy).Contents (Elt F)) = x4) :
    (after L0 W (Proc.devRef .tc main_v24) : (⟨S400000x128, .f32⟩ : BufTy).Contents (Elt F)) = val_main_v24 (F := F) x0 x1 x4 := by
  after_results_simp
  try simp only [TRef.ofBuf, TRef.toBuf, cast_eq]
  rw [h_arg1,
    h_arg0,
    h_arg4]
  rfl

theorem s1_v45 (W : Valuation τ sig (Elt F))
    (x0 : (⟨S50000, .i32⟩ : BufTy).Contents (Elt F))
    (x1 : (⟨S2x400000, .i32⟩ : BufTy).Contents (Elt F))
    (x2 : (⟨S400000x1, .f32⟩ : BufTy).Contents (Elt F))
    (x4 : (⟨S101x128, .f32⟩ : BufTy).Contents (Elt F))
    (x5 : (⟨S3x257x128, .f32⟩ : BufTy).Contents (Elt F))
    (x6 : (⟨S3x128, .f32⟩ : BufTy).Contents (Elt F))
    (x7 : (⟨S3x128x128, .f32⟩ : BufTy).Contents (Elt F))
    (x8 : (⟨S3x128, .f32⟩ : BufTy).Contents (Elt F))
    (h_v17 : (W (Proc.devRef .tc main_v17) : (⟨S400000x128, .f32⟩ : BufTy).Contents (Elt F)) = val_main_v17 (F := F) x0 x1 x4)
    (h_v24 : (W (Proc.devRef .tc main_v24) : (⟨S400000x128, .f32⟩ : BufTy).Contents (Elt F)) = val_main_v24 (F := F) x0 x1 x4)
    (h_arg2 : (W (Proc.devRef .tc main_arg2) : (⟨S400000x1, .f32⟩ : BufTy).Contents (Elt F)) = x2)
    (h_arg5 : (W (Proc.devRef .tc main_arg5) : (⟨S3x257x128, .f32⟩ : BufTy).Contents (Elt F)) = x5)
    (h_arg6 : (W (Proc.devRef .tc main_arg6) : (⟨S3x128, .f32⟩ : BufTy).Contents (Elt F)) = x6)
    (h_arg7 : (W (Proc.devRef .tc main_arg7) : (⟨S3x128x128, .f32⟩ : BufTy).Contents (Elt F)) = x7)
    (h_arg8 : (W (Proc.devRef .tc main_arg8) : (⟨S3x128, .f32⟩ : BufTy).Contents (Elt F)) = x8)
    (h_v3 : (W (Proc.devRef .tc main_v3) : (⟨S400000, .i32⟩ : BufTy).Contents (Elt F)) = val_main_v3 (F := F) x1) :
    (after L1 W (Proc.devRef .tc main_v45) : (⟨S50000x128, .f32⟩ : BufTy).Contents (Elt F)) = val_main_v45 (F := F) x0 x1 x2 x4 x5 x6 x7 x8 := by
  after_results_simp
  try simp only [TRef.ofBuf, TRef.toBuf, cast_eq]
  rw [show (W (Proc.devRef .tc (![main_v17, main_v24, main_arg2] 0)) : (⟨S400000x128, .f32⟩ : BufTy).Contents (Elt F)) = val_main_v17 (F := F) x0 x1 x4 from h_v17,
    show (W (Proc.devRef .tc (![main_v17, main_v24, main_arg2] 1)) : (⟨S400000x128, .f32⟩ : BufTy).Contents (Elt F)) = val_main_v24 (F := F) x0 x1 x4 from h_v24,
    show (W (Proc.devRef .tc (![main_v17, main_v24, main_arg2] 2)) : (⟨S400000x1, .f32⟩ : BufTy).Contents (Elt F)) = x2 from h_arg2,
    h_arg5,
    h_arg6,
    h_arg7,
    h_arg8,
    h_v3]
  rfl

theorem s2_v64 (W : Valuation τ sig (Elt F))
    (x0 : (⟨S50000, .i32⟩ : BufTy).Contents (Elt F))
    (x1 : (⟨S2x400000, .i32⟩ : BufTy).Contents (Elt F))
    (x2 : (⟨S400000x1, .f32⟩ : BufTy).Contents (Elt F))
    (x4 : (⟨S101x128, .f32⟩ : BufTy).Contents (Elt F))
    (x5 : (⟨S3x257x128, .f32⟩ : BufTy).Contents (Elt F))
    (x6 : (⟨S3x128, .f32⟩ : BufTy).Contents (Elt F))
    (x7 : (⟨S3x128x128, .f32⟩ : BufTy).Contents (Elt F))
    (x8 : (⟨S3x128, .f32⟩ : BufTy).Contents (Elt F))
    (x9 : (⟨S3x256x128, .f32⟩ : BufTy).Contents (Elt F))
    (x10 : (⟨S3x128, .f32⟩ : BufTy).Contents (Elt F))
    (x11 : (⟨S3x128x128, .f32⟩ : BufTy).Contents (Elt F))
    (x12 : (⟨S3x128, .f32⟩ : BufTy).Contents (Elt F))
    (h_v10 : (W (Proc.devRef .tc main_v10) : (⟨S50000x128, .f32⟩ : BufTy).Contents (Elt F)) = val_main_v10 (F := F) x0 x4)
    (h_v45 : (W (Proc.devRef .tc main_v45) : (⟨S50000x128, .f32⟩ : BufTy).Contents (Elt F)) = val_main_v45 (F := F) x0 x1 x2 x4 x5 x6 x7 x8)
    (h_arg9 : (W (Proc.devRef .tc main_arg9) : (⟨S3x256x128, .f32⟩ : BufTy).Contents (Elt F)) = x9)
    (h_arg10 : (W (Proc.devRef .tc main_arg10) : (⟨S3x128, .f32⟩ : BufTy).Contents (Elt F)) = x10)
    (h_arg11 : (W (Proc.devRef .tc main_arg11) : (⟨S3x128x128, .f32⟩ : BufTy).Contents (Elt F)) = x11)
    (h_arg12 : (W (Proc.devRef .tc main_arg12) : (⟨S3x128, .f32⟩ : BufTy).Contents (Elt F)) = x12) :
    (after L3 (after L2 W) (Proc.devRef .tc main_v64) : (⟨S50000x128, .f32⟩ : BufTy).Contents (Elt F)) = val_main_v64 (F := F) x0 x1 x2 x4 x5 x6 x7 x8 x9 x10 x11 x12 := by
  after_results_simp
  try simp only [TRef.ofBuf, TRef.toBuf, cast_eq]
  rw [h_v10,
    h_v45,
    h_arg9,
    h_arg10,
    h_arg11,
    h_arg12]
  rfl

theorem s2_v71 (W : Valuation τ sig (Elt F))
    (x0 : (⟨S50000, .i32⟩ : BufTy).Contents (Elt F))
    (x1 : (⟨S2x400000, .i32⟩ : BufTy).Contents (Elt F))
    (x2 : (⟨S400000x1, .f32⟩ : BufTy).Contents (Elt F))
    (x4 : (⟨S101x128, .f32⟩ : BufTy).Contents (Elt F))
    (x5 : (⟨S3x257x128, .f32⟩ : BufTy).Contents (Elt F))
    (x6 : (⟨S3x128, .f32⟩ : BufTy).Contents (Elt F))
    (x7 : (⟨S3x128x128, .f32⟩ : BufTy).Contents (Elt F))
    (x8 : (⟨S3x128, .f32⟩ : BufTy).Contents (Elt F))
    (x9 : (⟨S3x256x128, .f32⟩ : BufTy).Contents (Elt F))
    (x10 : (⟨S3x128, .f32⟩ : BufTy).Contents (Elt F))
    (x11 : (⟨S3x128x128, .f32⟩ : BufTy).Contents (Elt F))
    (x12 : (⟨S3x128, .f32⟩ : BufTy).Contents (Elt F))
    (h_v10 : (W (Proc.devRef .tc main_v10) : (⟨S50000x128, .f32⟩ : BufTy).Contents (Elt F)) = val_main_v10 (F := F) x0 x4)
    (h_v45 : (W (Proc.devRef .tc main_v45) : (⟨S50000x128, .f32⟩ : BufTy).Contents (Elt F)) = val_main_v45 (F := F) x0 x1 x2 x4 x5 x6 x7 x8)
    (h_arg9 : (W (Proc.devRef .tc main_arg9) : (⟨S3x256x128, .f32⟩ : BufTy).Contents (Elt F)) = x9)
    (h_arg10 : (W (Proc.devRef .tc main_arg10) : (⟨S3x128, .f32⟩ : BufTy).Contents (Elt F)) = x10)
    (h_arg11 : (W (Proc.devRef .tc main_arg11) : (⟨S3x128x128, .f32⟩ : BufTy).Contents (Elt F)) = x11)
    (h_arg12 : (W (Proc.devRef .tc main_arg12) : (⟨S3x128, .f32⟩ : BufTy).Contents (Elt F)) = x12)
    (h_v1 : (W (Proc.devRef .tc main_v1) : (⟨S400000, .i32⟩ : BufTy).Contents (Elt F)) = val_main_v1 (F := F) x1) :
    (after L3 (after L2 W) (Proc.devRef .tc main_v71) : (⟨S400000x128, .f32⟩ : BufTy).Contents (Elt F)) = val_main_v71 (F := F) x0 x1 x2 x4 x5 x6 x7 x8 x9 x10 x11 x12 := by
  after_results_simp
  try simp only [TRef.ofBuf, TRef.toBuf, cast_eq]
  rw [h_v10,
    h_v45,
    h_arg9,
    h_arg10,
    h_arg11,
    h_arg12,
    h_v1]
  rfl

theorem s2_v78 (W : Valuation τ sig (Elt F))
    (x0 : (⟨S50000, .i32⟩ : BufTy).Contents (Elt F))
    (x1 : (⟨S2x400000, .i32⟩ : BufTy).Contents (Elt F))
    (x2 : (⟨S400000x1, .f32⟩ : BufTy).Contents (Elt F))
    (x4 : (⟨S101x128, .f32⟩ : BufTy).Contents (Elt F))
    (x5 : (⟨S3x257x128, .f32⟩ : BufTy).Contents (Elt F))
    (x6 : (⟨S3x128, .f32⟩ : BufTy).Contents (Elt F))
    (x7 : (⟨S3x128x128, .f32⟩ : BufTy).Contents (Elt F))
    (x8 : (⟨S3x128, .f32⟩ : BufTy).Contents (Elt F))
    (x9 : (⟨S3x256x128, .f32⟩ : BufTy).Contents (Elt F))
    (x10 : (⟨S3x128, .f32⟩ : BufTy).Contents (Elt F))
    (x11 : (⟨S3x128x128, .f32⟩ : BufTy).Contents (Elt F))
    (x12 : (⟨S3x128, .f32⟩ : BufTy).Contents (Elt F))
    (h_v10 : (W (Proc.devRef .tc main_v10) : (⟨S50000x128, .f32⟩ : BufTy).Contents (Elt F)) = val_main_v10 (F := F) x0 x4)
    (h_v45 : (W (Proc.devRef .tc main_v45) : (⟨S50000x128, .f32⟩ : BufTy).Contents (Elt F)) = val_main_v45 (F := F) x0 x1 x2 x4 x5 x6 x7 x8)
    (h_arg9 : (W (Proc.devRef .tc main_arg9) : (⟨S3x256x128, .f32⟩ : BufTy).Contents (Elt F)) = x9)
    (h_arg10 : (W (Proc.devRef .tc main_arg10) : (⟨S3x128, .f32⟩ : BufTy).Contents (Elt F)) = x10)
    (h_arg11 : (W (Proc.devRef .tc main_arg11) : (⟨S3x128x128, .f32⟩ : BufTy).Contents (Elt F)) = x11)
    (h_arg12 : (W (Proc.devRef .tc main_arg12) : (⟨S3x128, .f32⟩ : BufTy).Contents (Elt F)) = x12)
    (h_v3 : (W (Proc.devRef .tc main_v3) : (⟨S400000, .i32⟩ : BufTy).Contents (Elt F)) = val_main_v3 (F := F) x1) :
    (after L3 (after L2 W) (Proc.devRef .tc main_v78) : (⟨S400000x128, .f32⟩ : BufTy).Contents (Elt F)) = val_main_v78 (F := F) x0 x1 x2 x4 x5 x6 x7 x8 x9 x10 x11 x12 := by
  after_results_simp
  try simp only [TRef.ofBuf, TRef.toBuf, cast_eq]
  rw [h_v10,
    h_v45,
    h_arg9,
    h_arg10,
    h_arg11,
    h_arg12,
    h_v3]
  rfl

theorem s3_v99 (W : Valuation τ sig (Elt F))
    (x0 : (⟨S50000, .i32⟩ : BufTy).Contents (Elt F))
    (x1 : (⟨S2x400000, .i32⟩ : BufTy).Contents (Elt F))
    (x2 : (⟨S400000x1, .f32⟩ : BufTy).Contents (Elt F))
    (x4 : (⟨S101x128, .f32⟩ : BufTy).Contents (Elt F))
    (x5 : (⟨S3x257x128, .f32⟩ : BufTy).Contents (Elt F))
    (x6 : (⟨S3x128, .f32⟩ : BufTy).Contents (Elt F))
    (x7 : (⟨S3x128x128, .f32⟩ : BufTy).Contents (Elt F))
    (x8 : (⟨S3x128, .f32⟩ : BufTy).Contents (Elt F))
    (x9 : (⟨S3x256x128, .f32⟩ : BufTy).Contents (Elt F))
    (x10 : (⟨S3x128, .f32⟩ : BufTy).Contents (Elt F))
    (x11 : (⟨S3x128x128, .f32⟩ : BufTy).Contents (Elt F))
    (x12 : (⟨S3x128, .f32⟩ : BufTy).Contents (Elt F))
    (h_v71 : (W (Proc.devRef .tc main_v71) : (⟨S400000x128, .f32⟩ : BufTy).Contents (Elt F)) = val_main_v71 (F := F) x0 x1 x2 x4 x5 x6 x7 x8 x9 x10 x11 x12)
    (h_v78 : (W (Proc.devRef .tc main_v78) : (⟨S400000x128, .f32⟩ : BufTy).Contents (Elt F)) = val_main_v78 (F := F) x0 x1 x2 x4 x5 x6 x7 x8 x9 x10 x11 x12)
    (h_arg2 : (W (Proc.devRef .tc main_arg2) : (⟨S400000x1, .f32⟩ : BufTy).Contents (Elt F)) = x2)
    (h_arg5 : (W (Proc.devRef .tc main_arg5) : (⟨S3x257x128, .f32⟩ : BufTy).Contents (Elt F)) = x5)
    (h_arg6 : (W (Proc.devRef .tc main_arg6) : (⟨S3x128, .f32⟩ : BufTy).Contents (Elt F)) = x6)
    (h_arg7 : (W (Proc.devRef .tc main_arg7) : (⟨S3x128x128, .f32⟩ : BufTy).Contents (Elt F)) = x7)
    (h_arg8 : (W (Proc.devRef .tc main_arg8) : (⟨S3x128, .f32⟩ : BufTy).Contents (Elt F)) = x8)
    (h_v3 : (W (Proc.devRef .tc main_v3) : (⟨S400000, .i32⟩ : BufTy).Contents (Elt F)) = val_main_v3 (F := F) x1) :
    (after L4 W (Proc.devRef .tc main_v99) : (⟨S50000x128, .f32⟩ : BufTy).Contents (Elt F)) = val_main_v99 (F := F) x0 x1 x2 x4 x5 x6 x7 x8 x9 x10 x11 x12 := by
  after_results_simp
  try simp only [TRef.ofBuf, TRef.toBuf, cast_eq]
  rw [show (W (Proc.devRef .tc (![main_v71, main_v78, main_arg2] 0)) : (⟨S400000x128, .f32⟩ : BufTy).Contents (Elt F)) = val_main_v71 (F := F) x0 x1 x2 x4 x5 x6 x7 x8 x9 x10 x11 x12 from h_v71,
    show (W (Proc.devRef .tc (![main_v71, main_v78, main_arg2] 1)) : (⟨S400000x128, .f32⟩ : BufTy).Contents (Elt F)) = val_main_v78 (F := F) x0 x1 x2 x4 x5 x6 x7 x8 x9 x10 x11 x12 from h_v78,
    show (W (Proc.devRef .tc (![main_v71, main_v78, main_arg2] 2)) : (⟨S400000x1, .f32⟩ : BufTy).Contents (Elt F)) = x2 from h_arg2,
    h_arg5,
    h_arg6,
    h_arg7,
    h_arg8,
    h_v3]
  rfl

theorem s4_v118 (W : Valuation τ sig (Elt F))
    (x0 : (⟨S50000, .i32⟩ : BufTy).Contents (Elt F))
    (x1 : (⟨S2x400000, .i32⟩ : BufTy).Contents (Elt F))
    (x2 : (⟨S400000x1, .f32⟩ : BufTy).Contents (Elt F))
    (x4 : (⟨S101x128, .f32⟩ : BufTy).Contents (Elt F))
    (x5 : (⟨S3x257x128, .f32⟩ : BufTy).Contents (Elt F))
    (x6 : (⟨S3x128, .f32⟩ : BufTy).Contents (Elt F))
    (x7 : (⟨S3x128x128, .f32⟩ : BufTy).Contents (Elt F))
    (x8 : (⟨S3x128, .f32⟩ : BufTy).Contents (Elt F))
    (x9 : (⟨S3x256x128, .f32⟩ : BufTy).Contents (Elt F))
    (x10 : (⟨S3x128, .f32⟩ : BufTy).Contents (Elt F))
    (x11 : (⟨S3x128x128, .f32⟩ : BufTy).Contents (Elt F))
    (x12 : (⟨S3x128, .f32⟩ : BufTy).Contents (Elt F))
    (h_v64 : (W (Proc.devRef .tc main_v64) : (⟨S50000x128, .f32⟩ : BufTy).Contents (Elt F)) = val_main_v64 (F := F) x0 x1 x2 x4 x5 x6 x7 x8 x9 x10 x11 x12)
    (h_v99 : (W (Proc.devRef .tc main_v99) : (⟨S50000x128, .f32⟩ : BufTy).Contents (Elt F)) = val_main_v99 (F := F) x0 x1 x2 x4 x5 x6 x7 x8 x9 x10 x11 x12)
    (h_arg9 : (W (Proc.devRef .tc main_arg9) : (⟨S3x256x128, .f32⟩ : BufTy).Contents (Elt F)) = x9)
    (h_arg10 : (W (Proc.devRef .tc main_arg10) : (⟨S3x128, .f32⟩ : BufTy).Contents (Elt F)) = x10)
    (h_arg11 : (W (Proc.devRef .tc main_arg11) : (⟨S3x128x128, .f32⟩ : BufTy).Contents (Elt F)) = x11)
    (h_arg12 : (W (Proc.devRef .tc main_arg12) : (⟨S3x128, .f32⟩ : BufTy).Contents (Elt F)) = x12) :
    (after L6 (after L5 W) (Proc.devRef .tc main_v118) : (⟨S50000x128, .f32⟩ : BufTy).Contents (Elt F)) = val_main_v118 (F := F) x0 x1 x2 x4 x5 x6 x7 x8 x9 x10 x11 x12 := by
  after_results_simp
  try simp only [TRef.ofBuf, TRef.toBuf, cast_eq]
  rw [h_v64,
    h_v99,
    h_arg9,
    h_arg10,
    h_arg11,
    h_arg12]
  rfl

theorem s4_v125 (W : Valuation τ sig (Elt F))
    (x0 : (⟨S50000, .i32⟩ : BufTy).Contents (Elt F))
    (x1 : (⟨S2x400000, .i32⟩ : BufTy).Contents (Elt F))
    (x2 : (⟨S400000x1, .f32⟩ : BufTy).Contents (Elt F))
    (x4 : (⟨S101x128, .f32⟩ : BufTy).Contents (Elt F))
    (x5 : (⟨S3x257x128, .f32⟩ : BufTy).Contents (Elt F))
    (x6 : (⟨S3x128, .f32⟩ : BufTy).Contents (Elt F))
    (x7 : (⟨S3x128x128, .f32⟩ : BufTy).Contents (Elt F))
    (x8 : (⟨S3x128, .f32⟩ : BufTy).Contents (Elt F))
    (x9 : (⟨S3x256x128, .f32⟩ : BufTy).Contents (Elt F))
    (x10 : (⟨S3x128, .f32⟩ : BufTy).Contents (Elt F))
    (x11 : (⟨S3x128x128, .f32⟩ : BufTy).Contents (Elt F))
    (x12 : (⟨S3x128, .f32⟩ : BufTy).Contents (Elt F))
    (h_v64 : (W (Proc.devRef .tc main_v64) : (⟨S50000x128, .f32⟩ : BufTy).Contents (Elt F)) = val_main_v64 (F := F) x0 x1 x2 x4 x5 x6 x7 x8 x9 x10 x11 x12)
    (h_v99 : (W (Proc.devRef .tc main_v99) : (⟨S50000x128, .f32⟩ : BufTy).Contents (Elt F)) = val_main_v99 (F := F) x0 x1 x2 x4 x5 x6 x7 x8 x9 x10 x11 x12)
    (h_arg9 : (W (Proc.devRef .tc main_arg9) : (⟨S3x256x128, .f32⟩ : BufTy).Contents (Elt F)) = x9)
    (h_arg10 : (W (Proc.devRef .tc main_arg10) : (⟨S3x128, .f32⟩ : BufTy).Contents (Elt F)) = x10)
    (h_arg11 : (W (Proc.devRef .tc main_arg11) : (⟨S3x128x128, .f32⟩ : BufTy).Contents (Elt F)) = x11)
    (h_arg12 : (W (Proc.devRef .tc main_arg12) : (⟨S3x128, .f32⟩ : BufTy).Contents (Elt F)) = x12)
    (h_v1 : (W (Proc.devRef .tc main_v1) : (⟨S400000, .i32⟩ : BufTy).Contents (Elt F)) = val_main_v1 (F := F) x1) :
    (after L6 (after L5 W) (Proc.devRef .tc main_v125) : (⟨S400000x128, .f32⟩ : BufTy).Contents (Elt F)) = val_main_v125 (F := F) x0 x1 x2 x4 x5 x6 x7 x8 x9 x10 x11 x12 := by
  after_results_simp
  try simp only [TRef.ofBuf, TRef.toBuf, cast_eq]
  rw [h_v64,
    h_v99,
    h_arg9,
    h_arg10,
    h_arg11,
    h_arg12,
    h_v1]
  rfl

theorem s4_v132 (W : Valuation τ sig (Elt F))
    (x0 : (⟨S50000, .i32⟩ : BufTy).Contents (Elt F))
    (x1 : (⟨S2x400000, .i32⟩ : BufTy).Contents (Elt F))
    (x2 : (⟨S400000x1, .f32⟩ : BufTy).Contents (Elt F))
    (x4 : (⟨S101x128, .f32⟩ : BufTy).Contents (Elt F))
    (x5 : (⟨S3x257x128, .f32⟩ : BufTy).Contents (Elt F))
    (x6 : (⟨S3x128, .f32⟩ : BufTy).Contents (Elt F))
    (x7 : (⟨S3x128x128, .f32⟩ : BufTy).Contents (Elt F))
    (x8 : (⟨S3x128, .f32⟩ : BufTy).Contents (Elt F))
    (x9 : (⟨S3x256x128, .f32⟩ : BufTy).Contents (Elt F))
    (x10 : (⟨S3x128, .f32⟩ : BufTy).Contents (Elt F))
    (x11 : (⟨S3x128x128, .f32⟩ : BufTy).Contents (Elt F))
    (x12 : (⟨S3x128, .f32⟩ : BufTy).Contents (Elt F))
    (h_v64 : (W (Proc.devRef .tc main_v64) : (⟨S50000x128, .f32⟩ : BufTy).Contents (Elt F)) = val_main_v64 (F := F) x0 x1 x2 x4 x5 x6 x7 x8 x9 x10 x11 x12)
    (h_v99 : (W (Proc.devRef .tc main_v99) : (⟨S50000x128, .f32⟩ : BufTy).Contents (Elt F)) = val_main_v99 (F := F) x0 x1 x2 x4 x5 x6 x7 x8 x9 x10 x11 x12)
    (h_arg9 : (W (Proc.devRef .tc main_arg9) : (⟨S3x256x128, .f32⟩ : BufTy).Contents (Elt F)) = x9)
    (h_arg10 : (W (Proc.devRef .tc main_arg10) : (⟨S3x128, .f32⟩ : BufTy).Contents (Elt F)) = x10)
    (h_arg11 : (W (Proc.devRef .tc main_arg11) : (⟨S3x128x128, .f32⟩ : BufTy).Contents (Elt F)) = x11)
    (h_arg12 : (W (Proc.devRef .tc main_arg12) : (⟨S3x128, .f32⟩ : BufTy).Contents (Elt F)) = x12)
    (h_v3 : (W (Proc.devRef .tc main_v3) : (⟨S400000, .i32⟩ : BufTy).Contents (Elt F)) = val_main_v3 (F := F) x1) :
    (after L6 (after L5 W) (Proc.devRef .tc main_v132) : (⟨S400000x128, .f32⟩ : BufTy).Contents (Elt F)) = val_main_v132 (F := F) x0 x1 x2 x4 x5 x6 x7 x8 x9 x10 x11 x12 := by
  after_results_simp
  try simp only [TRef.ofBuf, TRef.toBuf, cast_eq]
  rw [h_v64,
    h_v99,
    h_arg9,
    h_arg10,
    h_arg11,
    h_arg12,
    h_v3]
  rfl

theorem s5_v153 (W : Valuation τ sig (Elt F))
    (x0 : (⟨S50000, .i32⟩ : BufTy).Contents (Elt F))
    (x1 : (⟨S2x400000, .i32⟩ : BufTy).Contents (Elt F))
    (x2 : (⟨S400000x1, .f32⟩ : BufTy).Contents (Elt F))
    (x4 : (⟨S101x128, .f32⟩ : BufTy).Contents (Elt F))
    (x5 : (⟨S3x257x128, .f32⟩ : BufTy).Contents (Elt F))
    (x6 : (⟨S3x128, .f32⟩ : BufTy).Contents (Elt F))
    (x7 : (⟨S3x128x128, .f32⟩ : BufTy).Contents (Elt F))
    (x8 : (⟨S3x128, .f32⟩ : BufTy).Contents (Elt F))
    (x9 : (⟨S3x256x128, .f32⟩ : BufTy).Contents (Elt F))
    (x10 : (⟨S3x128, .f32⟩ : BufTy).Contents (Elt F))
    (x11 : (⟨S3x128x128, .f32⟩ : BufTy).Contents (Elt F))
    (x12 : (⟨S3x128, .f32⟩ : BufTy).Contents (Elt F))
    (h_v125 : (W (Proc.devRef .tc main_v125) : (⟨S400000x128, .f32⟩ : BufTy).Contents (Elt F)) = val_main_v125 (F := F) x0 x1 x2 x4 x5 x6 x7 x8 x9 x10 x11 x12)
    (h_v132 : (W (Proc.devRef .tc main_v132) : (⟨S400000x128, .f32⟩ : BufTy).Contents (Elt F)) = val_main_v132 (F := F) x0 x1 x2 x4 x5 x6 x7 x8 x9 x10 x11 x12)
    (h_arg2 : (W (Proc.devRef .tc main_arg2) : (⟨S400000x1, .f32⟩ : BufTy).Contents (Elt F)) = x2)
    (h_arg5 : (W (Proc.devRef .tc main_arg5) : (⟨S3x257x128, .f32⟩ : BufTy).Contents (Elt F)) = x5)
    (h_arg6 : (W (Proc.devRef .tc main_arg6) : (⟨S3x128, .f32⟩ : BufTy).Contents (Elt F)) = x6)
    (h_arg7 : (W (Proc.devRef .tc main_arg7) : (⟨S3x128x128, .f32⟩ : BufTy).Contents (Elt F)) = x7)
    (h_arg8 : (W (Proc.devRef .tc main_arg8) : (⟨S3x128, .f32⟩ : BufTy).Contents (Elt F)) = x8)
    (h_v3 : (W (Proc.devRef .tc main_v3) : (⟨S400000, .i32⟩ : BufTy).Contents (Elt F)) = val_main_v3 (F := F) x1) :
    (after L7 W (Proc.devRef .tc main_v153) : (⟨S50000x128, .f32⟩ : BufTy).Contents (Elt F)) = val_main_v153 (F := F) x0 x1 x2 x4 x5 x6 x7 x8 x9 x10 x11 x12 := by
  after_results_simp
  try simp only [TRef.ofBuf, TRef.toBuf, cast_eq]
  rw [show (W (Proc.devRef .tc (![main_v125, main_v132, main_arg2] 0)) : (⟨S400000x128, .f32⟩ : BufTy).Contents (Elt F)) = val_main_v125 (F := F) x0 x1 x2 x4 x5 x6 x7 x8 x9 x10 x11 x12 from h_v125,
    show (W (Proc.devRef .tc (![main_v125, main_v132, main_arg2] 1)) : (⟨S400000x128, .f32⟩ : BufTy).Contents (Elt F)) = val_main_v132 (F := F) x0 x1 x2 x4 x5 x6 x7 x8 x9 x10 x11 x12 from h_v132,
    show (W (Proc.devRef .tc (![main_v125, main_v132, main_arg2] 2)) : (⟨S400000x1, .f32⟩ : BufTy).Contents (Elt F)) = x2 from h_arg2,
    h_arg5,
    h_arg6,
    h_arg7,
    h_arg8,
    h_v3]
  rfl

theorem s6_v192 (W : Valuation τ sig (Elt F))
    (x0 : (⟨S50000, .i32⟩ : BufTy).Contents (Elt F))
    (x1 : (⟨S2x400000, .i32⟩ : BufTy).Contents (Elt F))
    (x2 : (⟨S400000x1, .f32⟩ : BufTy).Contents (Elt F))
    (x3 : (⟨S50000, .i32⟩ : BufTy).Contents (Elt F))
    (x4 : (⟨S101x128, .f32⟩ : BufTy).Contents (Elt F))
    (x5 : (⟨S3x257x128, .f32⟩ : BufTy).Contents (Elt F))
    (x6 : (⟨S3x128, .f32⟩ : BufTy).Contents (Elt F))
    (x7 : (⟨S3x128x128, .f32⟩ : BufTy).Contents (Elt F))
    (x8 : (⟨S3x128, .f32⟩ : BufTy).Contents (Elt F))
    (x9 : (⟨S3x256x128, .f32⟩ : BufTy).Contents (Elt F))
    (x10 : (⟨S3x128, .f32⟩ : BufTy).Contents (Elt F))
    (x11 : (⟨S3x128x128, .f32⟩ : BufTy).Contents (Elt F))
    (x12 : (⟨S3x128, .f32⟩ : BufTy).Contents (Elt F))
    (x13 : (⟨S128x128, .f32⟩ : BufTy).Contents (Elt F))
    (x14 : (⟨S128, .f32⟩ : BufTy).Contents (Elt F))
    (x15 : (⟨S128x1, .f32⟩ : BufTy).Contents (Elt F))
    (x16 : (⟨S1, .f32⟩ : BufTy).Contents (Elt F))
    (h_v118 : (W (Proc.devRef .tc main_v118) : (⟨S50000x128, .f32⟩ : BufTy).Contents (Elt F)) = val_main_v118 (F := F) x0 x1 x2 x4 x5 x6 x7 x8 x9 x10 x11 x12)
    (h_v153 : (W (Proc.devRef .tc main_v153) : (⟨S50000x128, .f32⟩ : BufTy).Contents (Elt F)) = val_main_v153 (F := F) x0 x1 x2 x4 x5 x6 x7 x8 x9 x10 x11 x12)
    (h_arg9 : (W (Proc.devRef .tc main_arg9) : (⟨S3x256x128, .f32⟩ : BufTy).Contents (Elt F)) = x9)
    (h_arg10 : (W (Proc.devRef .tc main_arg10) : (⟨S3x128, .f32⟩ : BufTy).Contents (Elt F)) = x10)
    (h_arg11 : (W (Proc.devRef .tc main_arg11) : (⟨S3x128x128, .f32⟩ : BufTy).Contents (Elt F)) = x11)
    (h_arg12 : (W (Proc.devRef .tc main_arg12) : (⟨S3x128, .f32⟩ : BufTy).Contents (Elt F)) = x12)
    (h_arg3 : (W (Proc.devRef .tc main_arg3) : (⟨S50000, .i32⟩ : BufTy).Contents (Elt F)) = x3)
    (h_arg13 : (W (Proc.devRef .tc main_arg13) : (⟨S128x128, .f32⟩ : BufTy).Contents (Elt F)) = x13)
    (h_arg14 : (W (Proc.devRef .tc main_arg14) : (⟨S128, .f32⟩ : BufTy).Contents (Elt F)) = x14)
    (h_arg15 : (W (Proc.devRef .tc main_arg15) : (⟨S128x1, .f32⟩ : BufTy).Contents (Elt F)) = x15)
    (h_arg16 : (W (Proc.devRef .tc main_arg16) : (⟨S1, .f32⟩ : BufTy).Contents (Elt F)) = x16) :
    (after L9 (after L8 W) (Proc.devRef .tc main_v192) : (⟨S64x1, .f32⟩ : BufTy).Contents (Elt F)) = val_main_v192 (F := F) x0 x1 x2 x3 x4 x5 x6 x7 x8 x9 x10 x11 x12 x13 x14 x15 x16 := by
  after_results_simp
  try simp only [TRef.ofBuf, TRef.toBuf, cast_eq]
  rw [h_v118,
    h_v153,
    h_arg9,
    h_arg10,
    h_arg11,
    h_arg12,
    h_arg3,
    h_arg13,
    h_arg14,
    h_arg15,
    h_arg16]
  rfl

end Cert.ReferenceIdeal.RunHand

end
-- ==== Proof.Ref.RunHand.lean ====
import proofs.«407354_j16939351015862_1_alg».proof.Proof.Ref.RunHand2

set_option maxRecDepth 8192

noncomputable section

namespace Cert.ReferenceIdeal.RunHand

open Cert.ReferenceIdeal Cert.ReferenceIdeal.Gen Idealize.ShloMosaic Idealize.ShloMosaic.TcCoe Idealize.SL.Sem Idealize.ShloMosaic.StableHlo
open Cert.ReferenceIdeal.Read

variable {F : FTy → Type} [FloatOps F]

theorem keep0 (V : Valuation τ sig (Elt F)) (r : Ref sig .tc) (h0 : r ∉ L0_W) :
    after0 V (Proc.devRef .tc r) = V (Proc.devRef .tc r) := L0_keep V r h0

theorem keep1 (V : Valuation τ sig (Elt F)) (r : Ref sig .tc) (h0 : r ∉ L0_W) (h1 : r ∉ L1_W) :
    after1 V (Proc.devRef .tc r) = V (Proc.devRef .tc r) :=
  (L1_keep (after0 V) r h1).trans (keep0 V r h0)

theorem keep2 (V : Valuation τ sig (Elt F)) (r : Ref sig .tc) (h0 : r ∉ L0_W) (h1 : r ∉ L1_W) (h2 : r ∉ L2_W) :
    after2 V (Proc.devRef .tc r) = V (Proc.devRef .tc r) :=
  (L2_keep (after1 V) r h2).trans (keep1 V r h0 h1)

theorem keep3 (V : Valuation τ sig (Elt F)) (r : Ref sig .tc) (h0 : r ∉ L0_W) (h1 : r ∉ L1_W) (h2 : r ∉ L2_W) (h3 : r ∉ L3_W) :
    after3 V (Proc.devRef .tc r) = V (Proc.devRef .tc r) :=
  (L3_keep (after2 V) r h3).trans (keep2 V r h0 h1 h2)

theorem keep4 (V : Valuation τ sig (Elt F)) (r : Ref sig .tc) (h0 : r ∉ L0_W) (h1 : r ∉ L1_W) (h2 : r ∉ L2_W) (h3 : r ∉ L3_W) (h4 : r ∉ L4_W) :
    after4 V (Proc.devRef .tc r) = V (Proc.devRef .tc r) :=
  (L4_keep (after3 V) r h4).trans (keep3 V r h0 h1 h2 h3)

theorem keep5 (V : Valuation τ sig (Elt F)) (r : Ref sig .tc) (h0 : r ∉ L0_W) (h1 : r ∉ L1_W) (h2 : r ∉ L2_W) (h3 : r ∉ L3_W) (h4 : r ∉ L4_W) (h5 : r ∉ L5_W) :
    after5 V (Proc.devRef .tc r) = V (Proc.devRef .tc r) :=
  (L5_keep (after4 V) r h5).trans (keep4 V r h0 h1 h2 h3 h4)

theorem keep6 (V : Valuation τ sig (Elt F)) (r : Ref sig .tc) (h0 : r ∉ L0_W) (h1 : r ∉ L1_W) (h2 : r ∉ L2_W) (h3 : r ∉ L3_W) (h4 : r ∉ L4_W) (h5 : r ∉ L5_W) (h6 : r ∉ L6_W) :
    after6 V (Proc.devRef .tc r) = V (Proc.devRef .tc r) :=
  (L6_keep (after5 V) r h6).trans (keep5 V r h0 h1 h2 h3 h4 h5)

theorem keep7 (V : Valuation τ sig (Elt F)) (r : Ref sig .tc) (h0 : r ∉ L0_W) (h1 : r ∉ L1_W) (h2 : r ∉ L2_W) (h3 : r ∉ L3_W) (h4 : r ∉ L4_W) (h5 : r ∉ L5_W) (h6 : r ∉ L6_W) (h7 : r ∉ L7_W) :
    after7 V (Proc.devRef .tc r) = V (Proc.devRef .tc r) :=
  (L7_keep (after6 V) r h7).trans (keep6 V r h0 h1 h2 h3 h4 h5 h6)

theorem keep8 (V : Valuation τ sig (Elt F)) (r : Ref sig .tc) (h0 : r ∉ L0_W) (h1 : r ∉ L1_W) (h2 : r ∉ L2_W) (h3 : r ∉ L3_W) (h4 : r ∉ L4_W) (h5 : r ∉ L5_W) (h6 : r ∉ L6_W) (h7 : r ∉ L7_W) (h8 : r ∉ L8_W) :
    after8 V (Proc.devRef .tc r) = V (Proc.devRef .tc r) :=
  (L8_keep (after7 V) r h8).trans (keep7 V r h0 h1 h2 h3 h4 h5 h6 h7)

theorem keep9 (V : Valuation τ sig (Elt F)) (r : Ref sig .tc) (h0 : r ∉ L0_W) (h1 : r ∉ L1_W) (h2 : r ∉ L2_W) (h3 : r ∉ L3_W) (h4 : r ∉ L4_W) (h5 : r ∉ L5_W) (h6 : r ∉ L6_W) (h7 : r ∉ L7_W) (h8 : r ∉ L8_W) (h9 : r ∉ L9_W) :
    after9 V (Proc.devRef .tc r) = V (Proc.devRef .tc r) :=
  (L9_keep (after8 V) r h9).trans (keep8 V r h0 h1 h2 h3 h4 h5 h6 h7 h8)

theorem stay0_1 (V : Valuation τ sig (Elt F)) (r : Ref sig .tc) (h1 : r ∉ L1_W) :
    after1 V (Proc.devRef .tc r) = after0 V (Proc.devRef .tc r) :=
  (L1_keep (after0 V) r h1)

theorem stay0_3 (V : Valuation τ sig (Elt F)) (r : Ref sig .tc) (h1 : r ∉ L1_W) (h2 : r ∉ L2_W) (h3 : r ∉ L3_W) :
    after3 V (Proc.devRef .tc r) = after0 V (Proc.devRef .tc r) :=
  (L3_keep (after2 V) r h3).trans <| (L2_keep (after1 V) r h2).trans <| (L1_keep (after0 V) r h1)

theorem stay0_4 (V : Valuation τ sig (Elt F)) (r : Ref sig .tc) (h1 : r ∉ L1_W) (h2 : r ∉ L2_W) (h3 : r ∉ L3_W) (h4 : r ∉ L4_W) :
    after4 V (Proc.devRef .tc r) = after0 V (Proc.devRef .tc r) :=
  (L4_keep (after3 V) r h4).trans <| (L3_keep (after2 V) r h3).trans <| (L2_keep (after1 V) r h2).trans <| (L1_keep (after0 V) r h1)

theorem stay0_6 (V : Valuation τ sig (Elt F)) (r : Ref sig .tc) (h1 : r ∉ L1_W) (h2 : r ∉ L2_W) (h3 : r ∉ L3_W) (h4 : r ∉ L4_W) (h5 : r ∉ L5_W) (h6 : r ∉ L6_W) :
    after6 V (Proc.devRef .tc r) = after0 V (Proc.devRef .tc r) :=
  (L6_keep (after5 V) r h6).trans <| (L5_keep (after4 V) r h5).trans <| (L4_keep (after3 V) r h4).trans <| (L3_keep (after2 V) r h3).trans <| (L2_keep (after1 V) r h2).trans <| (L1_keep (after0 V) r h1)

theorem stay3_4 (V : Valuation τ sig (Elt F)) (r : Ref sig .tc) (h4 : r ∉ L4_W) :
    after4 V (Proc.devRef .tc r) = after3 V (Proc.devRef .tc r) :=
  (L4_keep (after3 V) r h4)

theorem stay6_7 (V : Valuation τ sig (Elt F)) (r : Ref sig .tc) (h7 : r ∉ L7_W) :
    after7 V (Proc.devRef .tc r) = after6 V (Proc.devRef .tc r) :=
  (L7_keep (after6 V) r h7)

section Chain

variable (m : (ℓ : Loc nD τ sig) → Buf (Elt F) ℓ) (c : Dev nD)

abbrev a0 : (⟨S50000, .i32⟩ : BufTy).Contents (Elt F) := m ((c.tc : Thread nD τ).loc main_arg0)

abbrev a1 : (⟨S2x400000, .i32⟩ : BufTy).Contents (Elt F) := m ((c.tc : Thread nD τ).loc main_arg1)

abbrev a2 : (⟨S400000x1, .f32⟩ : BufTy).Contents (Elt F) := m ((c.tc : Thread nD τ).loc main_arg2)

abbrev a3 : (⟨S50000, .i32⟩ : BufTy).Contents (Elt F) := m ((c.tc : Thread nD τ).loc main_arg3)

abbrev a4 : (⟨S101x128, .f32⟩ : BufTy).Contents (Elt F) := m ((c.tc : Thread nD τ).loc main_arg4)

abbrev a5 : (⟨S3x257x128, .f32⟩ : BufTy).Contents (Elt F) := m ((c.tc : Thread nD τ).loc main_arg5)

abbrev a6 : (⟨S3x128, .f32⟩ : BufTy).Contents (Elt F) := m ((c.tc : Thread nD τ).loc main_arg6)

abbrev a7 : (⟨S3x128x128, .f32⟩ : BufTy).Contents (Elt F) := m ((c.tc : Thread nD τ).loc main_arg7)

abbrev a8 : (⟨S3x128, .f32⟩ : BufTy).Contents (Elt F) := m ((c.tc : Thread nD τ).loc main_arg8)

abbrev a9 : (⟨S3x256x128, .f32⟩ : BufTy).Contents (Elt F) := m ((c.tc : Thread nD τ).loc main_arg9)

abbrev a10 : (⟨S3x128, .f32⟩ : BufTy).Contents (Elt F) := m ((c.tc : Thread nD τ).loc main_arg10)

abbrev a11 : (⟨S3x128x128, .f32⟩ : BufTy).Contents (Elt F) := m ((c.tc : Thread nD τ).loc main_arg11)

abbrev a12 : (⟨S3x128, .f32⟩ : BufTy).Contents (Elt F) := m ((c.tc : Thread nD τ).loc main_arg12)

abbrev a13 : (⟨S128x128, .f32⟩ : BufTy).Contents (Elt F) := m ((c.tc : Thread nD τ).loc main_arg13)

abbrev a14 : (⟨S128, .f32⟩ : BufTy).Contents (Elt F) := m ((c.tc : Thread nD τ).loc main_arg14)

abbrev a15 : (⟨S128x1, .f32⟩ : BufTy).Contents (Elt F) := m ((c.tc : Thread nD τ).loc main_arg15)

abbrev a16 : (⟨S1, .f32⟩ : BufTy).Contents (Elt F) := m ((c.tc : Thread nD τ).loc main_arg16)

abbrev V0 : Valuation τ sig (Elt F) := launchContents m c

theorem e1 : (after0 (V0 m c) (Proc.devRef .tc main_v1) : (⟨S400000, .i32⟩ : BufTy).Contents (Elt F)) = val_main_v1 (F := F) (a1 m c) :=
  s0_v1 (V0 m c) (a1 m c) rfl

theorem e3 : (after0 (V0 m c) (Proc.devRef .tc main_v3) : (⟨S400000, .i32⟩ : BufTy).Contents (Elt F)) = val_main_v3 (F := F) (a1 m c) :=
  s0_v3 (V0 m c) (a1 m c) rfl

theorem e10 : (after0 (V0 m c) (Proc.devRef .tc main_v10) : (⟨S50000x128, .f32⟩ : BufTy).Contents (Elt F)) = val_main_v10 (F := F) (a0 m c) (a4 m c) :=
  s0_v10 (V0 m c) (a0 m c) (a4 m c) rfl rfl

theorem e17 : (after0 (V0 m c) (Proc.devRef .tc main_v17) : (⟨S400000x128, .f32⟩ : BufTy).Contents (Elt F)) = val_main_v17 (F := F) (a0 m c) (a1 m c) (a4 m c) :=
  s0_v17 (V0 m c) (a0 m c) (a1 m c) (a4 m c) rfl rfl rfl

theorem e24 : (after0 (V0 m c) (Proc.devRef .tc main_v24) : (⟨S400000x128, .f32⟩ : BufTy).Contents (Elt F)) = val_main_v24 (F := F) (a0 m c) (a1 m c) (a4 m c) :=
  s0_v24 (V0 m c) (a0 m c) (a1 m c) (a4 m c) rfl rfl rfl

theorem e1_1 : (after1 (V0 m c) (Proc.devRef .tc main_v1) : (⟨S400000, .i32⟩ : BufTy).Contents (Elt F)) = val_main_v1 (F := F) (a1 m c) :=
  (stay0_1 (V0 m c) main_v1 (by decide)).trans (e1 m c)
theorem e1_4 : (after4 (V0 m c) (Proc.devRef .tc main_v1) : (⟨S400000, .i32⟩ : BufTy).Contents (Elt F)) = val_main_v1 (F := F) (a1 m c) :=
  (stay0_4 (V0 m c) main_v1 (by decide) (by decide) (by decide) (by decide)).trans (e1 m c)

theorem e3_1 : (after1 (V0 m c) (Proc.devRef .tc main_v3) : (⟨S400000, .i32⟩ : BufTy).Contents (Elt F)) = val_main_v3 (F := F) (a1 m c) :=
  (stay0_1 (V0 m c) main_v3 (by decide)).trans (e3 m c)
theorem e3_3 : (after3 (V0 m c) (Proc.devRef .tc main_v3) : (⟨S400000, .i32⟩ : BufTy).Contents (Elt F)) = val_main_v3 (F := F) (a1 m c) :=
  (stay0_3 (V0 m c) main_v3 (by decide) (by decide) (by decide)).trans (e3 m c)
theorem e3_4 : (after4 (V0 m c) (Proc.devRef .tc main_v3) : (⟨S400000, .i32⟩ : BufTy).Contents (Elt F)) = val_main_v3 (F := F) (a1 m c) :=
  (stay0_4 (V0 m c) main_v3 (by decide) (by decide) (by decide) (by decide)).trans (e3 m c)
theorem e3_6 : (after6 (V0 m c) (Proc.devRef .tc main_v3) : (⟨S400000, .i32⟩ : BufTy).Contents (Elt F)) = val_main_v3 (F := F) (a1 m c) :=
  (stay0_6 (V0 m c) main_v3 (by decide) (by decide) (by decide) (by decide) (by decide) (by decide)).trans (e3 m c)

theorem e45 : (after1 (V0 m c) (Proc.devRef .tc main_v45) : (⟨S50000x128, .f32⟩ : BufTy).Contents (Elt F)) = val_main_v45 (F := F) (a0 m c) (a1 m c) (a2 m c) (a4 m c) (a5 m c) (a6 m c) (a7 m c) (a8 m c) :=
  s1_v45 (after0 (V0 m c)) (a0 m c) (a1 m c) (a2 m c) (a4 m c) (a5 m c) (a6 m c) (a7 m c) (a8 m c) (e17 m c) (e24 m c)
    (keep0 (V0 m c) main_arg2 (by decide)) (keep0 (V0 m c) main_arg5 (by decide)) (keep0 (V0 m c) main_arg6 (by decide))
    (keep0 (V0 m c) main_arg7 (by decide)) (keep0 (V0 m c) main_arg8 (by decide)) (e3 m c)

theorem e64 : (after3 (V0 m c) (Proc.devRef .tc main_v64) : (⟨S50000x128, .f32⟩ : BufTy).Contents (Elt F)) = val_main_v64 (F := F) (a0 m c) (a1 m c) (a2 m c) (a4 m c) (a5 m c) (a6 m c) (a7 m c) (a8 m c) (a9 m c) (a10 m c) (a11 m c) (a12 m c) :=
  s2_v64 (after1 (V0 m c)) (a0 m c) (a1 m c) (a2 m c) (a4 m c) (a5 m c) (a6 m c) (a7 m c) (a8 m c) (a9 m c) (a10 m c) (a11 m c) (a12 m c) ((stay0_1 (V0 m c) main_v10 (by decide)).trans (e10 m c)) (e45 m c)
    (keep1 (V0 m c) main_arg9 (by decide) (by decide)) (keep1 (V0 m c) main_arg10 (by decide) (by decide)) (keep1 (V0 m c) main_arg11 (by decide) (by decide))
    (keep1 (V0 m c) main_arg12 (by decide) (by decide))

theorem e71 : (after3 (V0 m c) (Proc.devRef .tc main_v71) : (⟨S400000x128, .f32⟩ : BufTy).Contents (Elt F)) = val_main_v71 (F := F) (a0 m c) (a1 m c) (a2 m c) (a4 m c) (a5 m c) (a6 m c) (a7 m c) (a8 m c) (a9 m c) (a10 m c) (a11 m c) (a12 m c) :=
  s2_v71 (after1 (V0 m c)) (a0 m c) (a1 m c) (a2 m c) (a4 m c) (a5 m c) (a6 m c) (a7 m c) (a8 m c) (a9 m c) (a10 m c) (a11 m c) (a12 m c) ((stay0_1 (V0 m c) main_v10 (by decide)).trans (e10 m c)) (e45 m c)
    (keep1 (V0 m c) main_arg9 (by decide) (by decide)) (keep1 (V0 m c) main_arg10 (by decide) (by decide)) (keep1 (V0 m c) main_arg11 (by decide) (by decide))
    (keep1 (V0 m c) main_arg12 (by decide) (by decide)) (e1_1 m c)

theorem e78 : (after3 (V0 m c) (Proc.devRef .tc main_v78) : (⟨S400000x128, .f32⟩ : BufTy).Contents (Elt F)) = val_main_v78 (F := F) (a0 m c) (a1 m c) (a2 m c) (a4 m c) (a5 m c) (a6 m c) (a7 m c) (a8 m c) (a9 m c) (a10 m c) (a11 m c) (a12 m c) :=
  s2_v78 (after1 (V0 m c)) (a0 m c) (a1 m c) (a2 m c) (a4 m c) (a5 m c) (a6 m c) (a7 m c) (a8 m c) (a9 m c) (a10 m c) (a11 m c) (a12 m c) ((stay0_1 (V0 m c) main_v10 (by decide)).trans (e10 m c)) (e45 m c)
    (keep1 (V0 m c) main_arg9 (by decide) (by decide)) (keep1 (V0 m c) main_arg10 (by decide) (by decide)) (keep1 (V0 m c) main_arg11 (by decide) (by decide))
    (keep1 (V0 m c) main_arg12 (by decide) (by decide)) (e3_1 m c)

theorem e99 : (after4 (V0 m c) (Proc.devRef .tc main_v99) : (⟨S50000x128, .f32⟩ : BufTy).Contents (Elt F)) = val_main_v99 (F := F) (a0 m c) (a1 m c) (a2 m c) (a4 m c) (a5 m c) (a6 m c) (a7 m c) (a8 m c) (a9 m c) (a10 m c) (a11 m c) (a12 m c) :=
  s3_v99 (after3 (V0 m c)) (a0 m c) (a1 m c) (a2 m c) (a4 m c) (a5 m c) (a6 m c) (a7 m c) (a8 m c) (a9 m c) (a10 m c) (a11 m c) (a12 m c) (e71 m c) (e78 m c)
    (keep3 (V0 m c) main_arg2 (by decide) (by decide) (by decide) (by decide)) (keep3 (V0 m c) main_arg5 (by decide) (by decide) (by decide) (by decide)) (keep3 (V0 m c) main_arg6 (by decide) (by decide) (by decide) (by decide))
    (keep3 (V0 m c) main_arg7 (by decide) (by decide) (by decide) (by decide)) (keep3 (V0 m c) main_arg8 (by decide) (by decide) (by decide) (by decide)) (e3_3 m c)

theorem e118 : (after6 (V0 m c) (Proc.devRef .tc main_v118) : (⟨S50000x128, .f32⟩ : BufTy).Contents (Elt F)) = val_main_v118 (F := F) (a0 m c) (a1 m c) (a2 m c) (a4 m c) (a5 m c) (a6 m c) (a7 m c) (a8 m c) (a9 m c) (a10 m c) (a11 m c) (a12 m c) :=
  s4_v118 (after4 (V0 m c)) (a0 m c) (a1 m c) (a2 m c) (a4 m c) (a5 m c) (a6 m c) (a7 m c) (a8 m c) (a9 m c) (a10 m c) (a11 m c) (a12 m c) ((stay3_4 (V0 m c) main_v64 (by decide)).trans (e64 m c)) (e99 m c)
    (keep4 (V0 m c) main_arg9 (by decide) (by decide) (by decide) (by decide) (by decide)) (keep4 (V0 m c) main_arg10 (by decide) (by decide) (by decide) (by decide) (by decide)) (keep4 (V0 m c) main_arg11 (by decide) (by decide) (by decide) (by decide) (by decide))
    (keep4 (V0 m c) main_arg12 (by decide) (by decide) (by decide) (by decide) (by decide))

theorem e125 : (after6 (V0 m c) (Proc.devRef .tc main_v125) : (⟨S400000x128, .f32⟩ : BufTy).Contents (Elt F)) = val_main_v125 (F := F) (a0 m c) (a1 m c) (a2 m c) (a4 m c) (a5 m c) (a6 m c) (a7 m c) (a8 m c) (a9 m c) (a10 m c) (a11 m c) (a12 m c) :=
  s4_v125 (after4 (V0 m c)) (a0 m c) (a1 m c) (a2 m c) (a4 m c) (a5 m c) (a6 m c) (a7 m c) (a8 m c) (a9 m c) (a10 m c) (a11 m c) (a12 m c) ((stay3_4 (V0 m c) main_v64 (by decide)).trans (e64 m c)) (e99 m c)
    (keep4 (V0 m c) main_arg9 (by decide) (by decide) (by decide) (by decide) (by decide)) (keep4 (V0 m c) main_arg10 (by decide) (by decide) (by decide) (by decide) (by decide)) (keep4 (V0 m c) main_arg11 (by decide) (by decide) (by decide) (by decide) (by decide))
    (keep4 (V0 m c) main_arg12 (by decide) (by decide) (by decide) (by decide) (by decide)) (e1_4 m c)

theorem e132 : (after6 (V0 m c) (Proc.devRef .tc main_v132) : (⟨S400000x128, .f32⟩ : BufTy).Contents (Elt F)) = val_main_v132 (F := F) (a0 m c) (a1 m c) (a2 m c) (a4 m c) (a5 m c) (a6 m c) (a7 m c) (a8 m c) (a9 m c) (a10 m c) (a11 m c) (a12 m c) :=
  s4_v132 (after4 (V0 m c)) (a0 m c) (a1 m c) (a2 m c) (a4 m c) (a5 m c) (a6 m c) (a7 m c) (a8 m c) (a9 m c) (a10 m c) (a11 m c) (a12 m c) ((stay3_4 (V0 m c) main_v64 (by decide)).trans (e64 m c)) (e99 m c)
    (keep4 (V0 m c) main_arg9 (by decide) (by decide) (by decide) (by decide) (by decide)) (keep4 (V0 m c) main_arg10 (by decide) (by decide) (by decide) (by decide) (by decide)) (keep4 (V0 m c) main_arg11 (by decide) (by decide) (by decide) (by decide) (by decide))
    (keep4 (V0 m c) main_arg12 (by decide) (by decide) (by decide) (by decide) (by decide)) (e3_4 m c)

theorem e153 : (after7 (V0 m c) (Proc.devRef .tc main_v153) : (⟨S50000x128, .f32⟩ : BufTy).Contents (Elt F)) = val_main_v153 (F := F) (a0 m c) (a1 m c) (a2 m c) (a4 m c) (a5 m c) (a6 m c) (a7 m c) (a8 m c) (a9 m c) (a10 m c) (a11 m c) (a12 m c) :=
  s5_v153 (after6 (V0 m c)) (a0 m c) (a1 m c) (a2 m c) (a4 m c) (a5 m c) (a6 m c) (a7 m c) (a8 m c) (a9 m c) (a10 m c) (a11 m c) (a12 m c) (e125 m c) (e132 m c)
    (keep6 (V0 m c) main_arg2 (by decide) (by decide) (by decide) (by decide) (by decide) (by decide) (by decide)) (keep6 (V0 m c) main_arg5 (by decide) (by decide) (by decide) (by decide) (by decide) (by decide) (by decide)) (keep6 (V0 m c) main_arg6 (by decide) (by decide) (by decide) (by decide) (by decide) (by decide) (by decide))
    (keep6 (V0 m c) main_arg7 (by decide) (by decide) (by decide) (by decide) (by decide) (by decide) (by decide)) (keep6 (V0 m c) main_arg8 (by decide) (by decide) (by decide) (by decide) (by decide) (by decide) (by decide)) (e3_6 m c)

theorem e192 : (after9 (V0 m c) (Proc.devRef .tc main_v192) : (⟨S64x1, .f32⟩ : BufTy).Contents (Elt F)) = val_main_v192 (F := F) (a0 m c) (a1 m c) (a2 m c) (a3 m c) (a4 m c) (a5 m c) (a6 m c) (a7 m c) (a8 m c) (a9 m c) (a10 m c) (a11 m c) (a12 m c) (a13 m c) (a14 m c) (a15 m c) (a16 m c) :=
  s6_v192 (after7 (V0 m c)) (a0 m c) (a1 m c) (a2 m c) (a3 m c) (a4 m c) (a5 m c) (a6 m c) (a7 m c) (a8 m c) (a9 m c) (a10 m c) (a11 m c) (a12 m c) (a13 m c) (a14 m c) (a15 m c) (a16 m c) ((stay6_7 (V0 m c) main_v118 (by decide)).trans (e118 m c)) (e153 m c)
    (keep7 (V0 m c) main_arg9 (by decide) (by decide) (by decide) (by decide) (by decide) (by decide) (by decide) (by decide)) (keep7 (V0 m c) main_arg10 (by decide) (by decide) (by decide) (by decide) (by decide) (by decide) (by decide) (by decide)) (keep7 (V0 m c) main_arg11 (by decide) (by decide) (by decide) (by decide) (by decide) (by decide) (by decide) (by decide))
    (keep7 (V0 m c) main_arg12 (by decide) (by decide) (by decide) (by decide) (by decide) (by decide) (by decide) (by decide)) (keep7 (V0 m c) main_arg3 (by decide) (by decide) (by decide) (by decide) (by decide) (by decide) (by decide) (by decide)) (keep7 (V0 m c) main_arg13 (by decide) (by decide) (by decide) (by decide) (by decide) (by decide) (by decide) (by decide))
    (keep7 (V0 m c) main_arg14 (by decide) (by decide) (by decide) (by decide) (by decide) (by decide) (by decide) (by decide)) (keep7 (V0 m c) main_arg15 (by decide) (by decide) (by decide) (by decide) (by decide) (by decide) (by decide) (by decide)) (keep7 (V0 m c) main_arg16 (by decide) (by decide) (by decide) (by decide) (by decide) (by decide) (by decide) (by decide))

end Chain

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v192) = val_main_v192 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v192).trans (e192 m c),
      (h c main_arg0).trans (keep9 (V0 m c) main_arg0 (by decide) (by decide) (by decide) (by decide) (by decide) (by decide) (by decide) (by decide) (by decide) (by decide)),
      (h c main_arg1).trans (keep9 (V0 m c) main_arg1 (by decide) (by decide) (by decide) (by decide) (by decide) (by decide) (by decide) (by decide) (by decide) (by decide)),
      (h c main_arg2).trans (keep9 (V0 m c) main_arg2 (by decide) (by decide) (by decide) (by decide) (by decide) (by decide) (by decide) (by decide) (by decide) (by decide)),
      (h c main_arg3).trans (keep9 (V0 m c) main_arg3 (by decide) (by decide) (by decide) (by decide) (by decide) (by decide) (by decide) (by decide) (by decide) (by decide)),
      (h c main_arg4).trans (keep9 (V0 m c) main_arg4 (by decide) (by decide) (by decide) (by decide) (by decide) (by decide) (by decide) (by decide) (by decide) (by decide)),
      (h c main_arg5).trans (keep9 (V0 m c) main_arg5 (by decide) (by decide) (by decide) (by decide) (by decide) (by decide) (by decide) (by decide) (by decide) (by decide)),
      (h c main_arg6).trans (keep9 (V0 m c) main_arg6 (by decide) (by decide) (by decide) (by decide) (by decide) (by decide) (by decide) (by decide) (by decide) (by decide)),
      (h c main_arg7).trans (keep9 (V0 m c) main_arg7 (by decide) (by decide) (by decide) (by decide) (by decide) (by decide) (by decide) (by decide) (by decide) (by decide)),
      (h c main_arg8).trans (keep9 (V0 m c) main_arg8 (by decide) (by decide) (by decide) (by decide) (by decide) (by decide) (by decide) (by decide) (by decide) (by decide)),
      (h c main_arg9).trans (keep9 (V0 m c) main_arg9 (by decide) (by decide) (by decide) (by decide) (by decide) (by decide) (by decide) (by decide) (by decide) (by decide)),
      (h c main_arg10).trans (keep9 (V0 m c) main_arg10 (by decide) (by decide) (by decide) (by decide) (by decide) (by decide) (by decide) (by decide) (by decide) (by decide)),
      (h c main_arg11).trans (keep9 (V0 m c) main_arg11 (by decide) (by decide) (by decide) (by decide) (by decide) (by decide) (by decide) (by decide) (by decide) (by decide)),
      (h c main_arg12).trans (keep9 (V0 m c) main_arg12 (by decide) (by decide) (by decide) (by decide) (by decide) (by decide) (by decide) (by decide) (by decide) (by decide)),
      (h c main_arg13).trans (keep9 (V0 m c) main_arg13 (by decide) (by decide) (by decide) (by decide) (by decide) (by decide) (by decide) (by decide) (by decide) (by decide)),
      (h c main_arg14).trans (keep9 (V0 m c) main_arg14 (by decide) (by decide) (by decide) (by decide) (by decide) (by decide) (by decide) (by decide) (by decide) (by decide)),
      (h c main_arg15).trans (keep9 (V0 m c) main_arg15 (by decide) (by decide) (by decide) (by decide) (by decide) (by decide) (by decide) (by decide) (by decide) (by decide)),
      (h c main_arg16).trans (keep9 (V0 m c) main_arg16 (by decide) (by decide) (by decide) (by decide) (by decide) (by decide) (by decide) (by decide) (by decide) (by decide))⟩)
    (run_raw m ρ)

end Cert.ReferenceIdeal.RunHand

end
-- ==== Proof.lean ====
import proofs.«407354_j16939351015862_1_alg».proof.Defs
import proofs.«407354_j16939351015862_1_alg».proof.Proof.K.Run
import proofs.«407354_j16939351015862_1_alg».proof.Proof.KI.Run
import proofs.«407354_j16939351015862_1_alg».proof.Proof.Bridge.Final
import proofs.«407354_j16939351015862_1_alg».proof.Proof.Ref.RunHand
import Idealize.ShloMosaic.Adequacy
import Idealize.ShloMosaic.Init

/-!
A three-layer message-passing network on a graph. Each layer applies a two-layer perceptron (a product with a weight
matrix, a bias row, the positive part, a second product and bias row) to every edge's gathered features, sums the results
into the edge's target node, and adds a second such perceptron, of the node's features beside that sum, to the node's
features. Over the extended reals each perceptron entry is one and the same sum on both sides, so layer by layer the two
programs hold the same arrays; the pooled head of the last layer's features then agrees too.
-/

set_option maxRecDepth 16384

noncomputable section

namespace Cert.Proof

open Idealize.ShloMosaic Idealize.ShloMosaic.TcCoe Idealize.SL.Sem

/-- Each program's run ends with its result named and every argument as it was; its frame is that run with the result dropped. -/
theorem frame_k : Cert.frame_Kernel := fun m ρ _ =>
  (θ_run Cert.Kernel.defs _ _).mono (fun _ h c => (h c).2) (Cert.Kernel.Hand.run_value m ρ)

theorem frame_ki : Cert.frame_KernelIdeal := fun m ρ _ =>
  (θ_run Cert.KernelIdeal.defs _ _).mono (fun _ h c => (h c).2) (Cert.KernelIdeal.Hand.run_value m ρ)

theorem frame_ri : Cert.frame_ReferenceIdeal := fun m ρ _ =>
  (θ_run Cert.ReferenceIdeal.defs _ _).mono (fun _ h c => (h c).2) (Cert.ReferenceIdeal.RunHand.run (F := Ideal) m ρ)

theorem algebraic : Cert.algebraic_KernelIdeal_ReferenceIdeal := by
  intro m ρ m' ρ' hpre hagree
  refine ⟨fun c => Cert.KernelIdeal.Hand.X21 m c Cert.KernelIdeal.main_v112, Cert.KernelIdeal.Hand.run_value m ρ, ?_⟩
  refine (θ_run Cert.ReferenceIdeal.defs _ _).mono (fun _ h c => ⟨(h c).1.trans ?_, (h c).2⟩)
    (Cert.ReferenceIdeal.RunHand.run (F := Ideal) m' ρ')
  obtain ⟨h0, h1, h2, h3, h4, h5, h6, h7, h8, h9, h10, h11, h12, h13, h14, h15, h16⟩ := hagree c
  rw [h0, h1, h2, h3, h4, h5, h6, h7, h8, h9, h10, h11, h12, h13, h14, h15, h16]
  exact (Cert.Hand.Bridge.result_eq m hpre c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
